-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S50000x100 : Shape := ⟨2, ![50000, 100]⟩
abbrev S2000000 : Shape := ⟨1, ![2000000]⟩
abbrev S16384 : Shape := ⟨1, ![16384]⟩
abbrev S200x64 : Shape := ⟨2, ![200, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S50000x100 : S_.BroadcastsInDim S50000x100 (![] : Fin 0 → Fin S50000x100.rank)
  reducesTo_S50000x100_S_d0_1 : S50000x100.ReducesTo [0, 1] S_
  bcast_S_S2000000 : S_.BroadcastsInDim S2000000 (![] : Fin 0 → Fin S2000000.rank)
  reducesTo_S2000000_S_d0 : S2000000.ReducesTo [0] S_
  bcast_S_S200x64 : S_.BroadcastsInDim S200x64 (![] : Fin 0 → Fin S200x64.rank)
  reducesTo_S200x64_S_d0_1 : S200x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_arg6 : IVec S16384 32) (main_v47 : IVec S_ 1) (main_v49 : IVec S16384 1) (main_c_19 : IVec S_ 1) : IVec S_ 1 :=
  let main_v50 : IVec S_ 1 := (fun x v => Host.reduce IntOp.andi x v reducesTo_S16384_S_d0 h_S_) main_v49 main_c_19
  let main_v51 : IVec S_ 1 := andi main_v47 main_v50
  let main_c_20 : IVec S_ 32 := constantI S_ 32 4294867296#32
  let main_v52 : IVec S16384 32 := broadcastInDim S16384 ![] bcast_S_S16384 main_c_20
  let main_v53 : IVec S16384 1 := cmpi .sge main_arg6 main_v52
  let main_c_21 : IVec S_ 1 := constantI S_ 1 1#1
  let main_v54 : IVec S_ 1 := (fun x v => Host.reduce IntOp.andi x v reducesTo_S16384_S_d0 h_S_) main_v53 main_c_21
  let main_v55 : IVec S_ 1 := andi main_v51 main_v54
  let main_c_22 : IVec S_ 32 := constantI S_ 32 50000#32
  let main_v56 : IVec S16384 32 := broadcastInDim S16384 ![] bcast_S_S16384 main_c_22
  let main_v57 : IVec S16384 1 := cmpi .slt main_arg6 main_v56
  let main_c_23 : IVec S_ 1 := constantI S_ 1 1#1
  let main_v58 : IVec S_ 1 := (fun x v => Host.reduce IntOp.andi x v reducesTo_S16384_S_d0 h_S_) main_v57 main_c_23
  let main_v59 : IVec S_ 1 := andi main_v55 main_v58
  main_v59

def fn_part2 {F : FTy → Type} [FloatOps F] (main_arg5 : IVec S16384 32) (main_arg6 : IVec S16384 32) (main_arg11 : FVec F S32x1 .f32) (main_arg12 : FVec F S1 .f32) (main_v33 : IVec S_ 1) : IVec S_ 1 :=
  let main_v34 : FVec F S32x1 .f32 := Host.absf main_arg11
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg12
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S16384 32 := broadcastInDim S16384 ![] bcast_S_S16384 main_c_16
  let main_v45 : IVec S16384 1 := cmpi .sge main_arg5 main_v44
  let main_c_17 : IVec S_ 1 := constantI S_ 1 1#1
  let main_v46 : IVec S_ 1 := (fun x v => Host.reduce IntOp.andi x v reducesTo_S16384_S_d0 h_S_) main_v45 main_c_17
  let main_v47 : IVec S_ 1 := andi main_v43 main_v46
  let main_c_18 : IVec S_ 32 := constantI S_ 32 150000#32
  let main_v48 : IVec S16384 32 := broadcastInDim S16384 ![] bcast_S_S16384 main_c_18
  let main_v49 : IVec S16384 1 := cmpi .slt main_arg5 main_v48
  let main_c_19 : IVec S_ 1 := constantI S_ 1 1#1
  fn_part3 (F := F) main_arg6 main_v47 main_v49 main_c_19

def fn_part1 {F : FTy → Type} [FloatOps F] (main_arg5 : IVec S16384 32) (main_arg6 : IVec S16384 32) (main_arg8 : FVec F S64 .f32) (main_arg9 : FVec F S64x32 .f32) (main_arg10 : FVec F S32 .f32) (main_arg11 : FVec F S32x1 .f32) (main_arg12 : FVec F S1 .f32) (main_v13 : IVec S_ 1) (main_v16 : IVec S200x64 1) : IVec S_ 1 :=
  let main_c_5 : IVec S_ 1 := constantI S_ 1 1#1
  let main_v17 : IVec S_ 1 := (fun x v => Host.reduce IntOp.andi x v reducesTo_S200x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg9
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg10
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg5 main_arg6 main_arg11 main_arg12 main_v33

def fn {F : FTy → Type} [FloatOps F] (main_arg0 : FVec F S100000x100 .f32) (main_arg1 : FVec F S50000x100 .f32) (main_arg2 : IVec S2000000 32) (main_arg3 : IVec S2000000 32) (main_arg4 : FVec F S2000000 .f32) (main_arg5 : IVec S16384 32) (main_arg6 : IVec S16384 32) (main_arg7 : FVec F S200x64 .f32) (main_arg8 : FVec F S64 .f32) (main_arg9 : FVec F S64x32 .f32) (main_arg10 : FVec F S32 .f32) (main_arg11 : FVec F S32x1 .f32) (main_arg12 : FVec F S1 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S50000x100 .f32 := Host.absf main_arg1
  let main_cst_0 : FVec F S_ .f32 := constant S_ .f32 0x7F800000#32
  let main_v5 : FVec F S50000x100 .f32 := broadcastInDim S50000x100 ![] bcast_S_S50000x100 main_cst_0
  let main_v6 : IVec S50000x100 1 := cmpf .olt main_v4 main_v5
  let main_c_1 : IVec S_ 1 := constantI S_ 1 1#1
  let main_v7 : IVec S_ 1 := (fun x v => Host.reduce IntOp.andi x v reducesTo_S50000x100_S_d0_1 h_S_) main_v6 main_c_1
  let main_v8 : IVec S_ 1 := andi main_v3 main_v7
  let main_v9 : FVec F S2000000 .f32 := Host.absf main_arg4
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S200x64 .f32 := Host.absf main_arg7
  let main_cst_4 : FVec F S_ .f32 := constant S_ .f32 0x7F800000#32
  let main_v15 : FVec F S200x64 .f32 := broadcastInDim S200x64 ![] bcast_S_S200x64 main_cst_4
  let main_v16 : IVec S200x64 1 := cmpf .olt main_v14 main_v15
  fn_part1 (F := F) main_arg5 main_arg6 main_arg8 main_arg9 main_arg10 main_arg11 main_arg12 main_v13 main_v16
-- ==== Kernel.lean ====
abbrev S100000x100 : Shape := ⟨2, ![100000, 100]⟩
abbrev S50000x100 : Shape := ⟨2, ![50000, 100]⟩
abbrev S2000000 : Shape := ⟨1, ![2000000]⟩
abbrev S16384 : Shape := ⟨1, ![16384]⟩
abbrev S200x64 : Shape := ⟨2, ![200, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S150000x100 : Shape := ⟨2, ![150000, 100]⟩
abbrev S2000000x1 : Shape := ⟨2, ![2000000, 1]⟩
abbrev S_ : Shape := ⟨0, ![]⟩
abbrev S2000000x100 : Shape := ⟨2, ![2000000, 100]⟩
abbrev S16384x1 : Shape := ⟨2, ![16384, 1]⟩
abbrev S128x1 : Shape := ⟨2, ![128, 1]⟩
abbrev S128x100 : Shape := ⟨2, ![128, 100]⟩
abbrev S2 : Shape := ⟨1, ![2]⟩
abbrev S1x100 : Shape := ⟨2, ![1, 100]⟩
abbrev S100 : Shape := ⟨1, ![100]⟩
abbrev S128x200 : Shape := ⟨2, ![128, 200]⟩
abbrev S128x64 : Shape := ⟨2, ![128, 64]⟩
abbrev S1x64 : Shape := ⟨2, ![1, 64]⟩
abbrev S128x32 : Shape := ⟨2, ![128, 32]⟩
abbrev S1x32 : Shape := ⟨2, ![1, 32]⟩
abbrev S1x1 : Shape := ⟨2, ![1, 1]⟩

abbrev nBuf : Space → Nat
  | .hbm => 54
  | .vmem => 10
  | .smem => 2
  | _ => 0

abbrev bufTy : (tb : Table) → Fin (tcTables nBuf tb) → BufTy
  | .hbm, ⟨0, _⟩ => ⟨S100000x100, .f32⟩
  | .hbm, ⟨1, _⟩ => ⟨S50000x100, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S16384, .i32⟩
  | .hbm, ⟨6, _⟩ => ⟨S200x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S150000x100, .f32⟩
  | .hbm, ⟨13, _⟩ => ⟨S2000000x1, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x100, .f32⟩
  | .hbm, ⟨23, _⟩ => ⟨S2000000x100, .f32⟩
  | .hbm, ⟨24, _⟩ => ⟨S2000000x100, .f32⟩
  | .hbm, ⟨25, _⟩ => ⟨S_, .f32⟩
  | .hbm, ⟨26, _⟩ => ⟨S150000x100, .f32⟩
  | .hbm, ⟨27, _⟩ => ⟨S2000000x1, .i32⟩
  | .hbm, ⟨28, _⟩ => ⟨S150000x100, .f32⟩
  | .hbm, ⟨29, _⟩ => ⟨S150000x100, .f32⟩
  | .hbm, ⟨30, _⟩ => ⟨S2000000x1, .f32⟩
  | .hbm, ⟨31, _⟩ => ⟨S_, .i32⟩
  | .hbm, ⟨32, _⟩ => ⟨S2000000, .i32⟩
  | .hbm, ⟨33, _⟩ => ⟨S2000000, .i1⟩
  | .hbm, ⟨34, _⟩ => ⟨S_, .i32⟩
  | .hbm, ⟨35, _⟩ => ⟨S2000000, .i32⟩
  | .hbm, ⟨36, _⟩ => ⟨S2000000, .i32⟩
  | .hbm, ⟨37, _⟩ => ⟨S2000000, .i32⟩
  | .hbm, ⟨38, _⟩ => ⟨S2000000x1, .i32⟩
  | .hbm, ⟨39, _⟩ => ⟨S2000000x100, .f32⟩
  | .hbm, ⟨40, _⟩ => ⟨S2000000x100, .f32⟩
  | .hbm, ⟨41, _⟩ => ⟨S2000000x100, .f32⟩
  | .hbm, ⟨42, _⟩ => ⟨S_, .f32⟩
  | .hbm, ⟨43, _⟩ => ⟨S150000x100, .f32⟩
  | .hbm, ⟨44, _⟩ => ⟨S2000000x1, .i32⟩
  | .hbm, ⟨45, _⟩ => ⟨S150000x100, .f32⟩
  | .hbm, ⟨46, _⟩ => ⟨S150000x100, .f32⟩
  | .hbm, ⟨47, _⟩ => ⟨S_, .f32⟩
  | .hbm, ⟨48, _⟩ => ⟨S150000x100, .f32⟩
  | .hbm, ⟨49, _⟩ => ⟨S150000x100, .f32⟩
  | .hbm, ⟨50, _⟩ => ⟨S_, .i32⟩
  | .hbm, ⟨51, _⟩ => ⟨S16384, .i32⟩
  | .hbm, ⟨52, _⟩ => ⟨S16384x1, .f32⟩
  | .hbm, ⟨53, _⟩ => ⟨S16384, .f32⟩
  | .local _ .vmem, ⟨0, _⟩ => ⟨S200x64, .f32⟩
  | .local _ .vmem, ⟨1, _⟩ => ⟨S64, .f32⟩
  | .local _ .vmem, ⟨2, _⟩ => ⟨S64x32, .f32⟩
  | .local _ .vmem, ⟨3, _⟩ => ⟨S32, .f32⟩
  | .local _ .vmem, ⟨4, _⟩ => ⟨S32x1, .f32⟩
  | .local _ .vmem, ⟨5, _⟩ => ⟨S1, .f32⟩
  | .local _ .vmem, ⟨6, _⟩ => ⟨S128x1, .f32⟩
  | .local _ .vmem, ⟨7, _⟩ => ⟨S128x1, .f32⟩
  | .local _ .vmem, ⟨8, _⟩ => ⟨S128x100, .f32⟩
  | .local _ .vmem, ⟨9, _⟩ => ⟨S128x100, .f32⟩
  | .local _ .smem, ⟨0, _⟩ => ⟨S16384, .i32⟩
  | .local _ .smem, ⟨1, _⟩ => ⟨S16384, .i32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v33 : Ref sig .tc := ⟨.hbm, 52, rfl⟩
abbrev main_v34 : Ref sig .tc := ⟨.hbm, 53, rfl⟩
abbrev main_arg5 : Ref sig .tc := ⟨.smem, 0, rfl⟩
abbrev main_v32 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_arg5.idx, main_v32.idx], fun | 0 => main_arg5.names | 1 => main_v32.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_chk1 (v3 : BitVec 32) : Prop :=
  (∀ a, (k0_off2 v3) a + S1x100.size a ≤ S150000x100.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x100.size a ≤ S150000x100.size a := fun v3 k0_hw1 => k0_hw1

def k0_off3 (v5 : BitVec 32) : Fin 2 → Nat :=
  let c0_i32_6 : BitVec 32 := 0#32
  ![v5.toNat, 0]

def k0_chk2 (v5 : BitVec 32) : Prop :=
  (∀ a, (k0_off3 v5) a + S1x100.size a ≤ S150000x100.size a)
instance k0_chk2.dec : ∀ (v5 : BitVec 32), Decidable (k0_chk2 v5) := fun v5 => decidable_of_iff' _ (Iff.of_eq (k0_chk2.eq_1 v5))
theorem k0_off3_inb : ∀ (v5 : BitVec 32) (k0_hw2 : k0_chk2 v5), ∀ a, (k0_off3 v5) a + S1x100.size a ≤ S150000x100.size a := fun v5 k0_hw2 => k0_hw2

def k0_off4 (i : grid0.Coords) : Fin 1 → Nat :=
  let arg0 : BitVec 32 := BitVec.ofNat 32 (i 0).val
  let c128_i32 : BitVec 32 := 128#32
  let v0 : BitVec 32 := Scalar.muli arg0 c128_i32
  let c1_i32_7 : BitVec 32 := 1#32
  let v18 : BitVec 32 := Scalar.addi v0 c1_i32_7
  let v19 : Index := Scalar.indexCast v18
  ![v19.toNat]
def k0_off5 (v20 : BitVec 32) : Fin 2 → Nat :=
  let c0_i32_11 : BitVec 32 := 0#32
  ![v20.toNat, 0]

def k0_chk3 (v20 : BitVec 32) : Prop :=
  (∀ a, (k0_off5 v20) a + S1x100.size a ≤ S150000x100.size a)
instance k0_chk3.dec : ∀ (v20 : BitVec 32), Decidable (k0_chk3 v20) := fun v20 => decidable_of_iff' _ (Iff.of_eq (k0_chk3.eq_1 v20))
theorem k0_off5_inb : ∀ (v20 : BitVec 32) (k0_hw3 : k0_chk3 v20), ∀ a, (k0_off5 v20) a + S1x100.size a ≤ S150000x100.size a := fun v20 k0_hw3 => k0_hw3

def k0_off6 (v22 : BitVec 32) : Fin 2 → Nat :=
  let c0_i32_15 : BitVec 32 := 0#32
  ![v22.toNat, 0]

def k0_chk4 (v22 : BitVec 32) : Prop :=
  (∀ a, (k0_off6 v22) a + S1x100.size a ≤ S150000x100.size a)
instance k0_chk4.dec : ∀ (v22 : BitVec 32), Decidable (k0_chk4 v22) := fun v22 => decidable_of_iff' _ (Iff.of_eq (k0_chk4.eq_1 v22))
theorem k0_off6_inb : ∀ (v22 : BitVec 32) (k0_hw4 : k0_chk4 v22), ∀ a, (k0_off6 v22) a + S1x100.size a ≤ S150000x100.size a := fun v22 k0_hw4 => k0_hw4

def k0_off7 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v35 : BitVec 32 := Scalar.addi v0 c2_i32
  let v36 : Index := Scalar.indexCast v35
  ![v36.toNat]
def k0_off8 (v37 : BitVec 32) : Fin 2 → Nat :=
  let c0_i32_19 : BitVec 32 := 0#32
  ![v37.toNat, 0]

def k0_chk5 (v37 : BitVec 32) : Prop :=
  (∀ a, (k0_off8 v37) a + S1x100.size a ≤ S150000x100.size a)
instance k0_chk5.dec : ∀ (v37 : BitVec 32), Decidable (k0_chk5 v37) := fun v37 => decidable_of_iff' _ (Iff.of_eq (k0_chk5.eq_1 v37))
theorem k0_off8_inb : ∀ (v37 : BitVec 32) (k0_hw5 : k0_chk5 v37), ∀ a, (k0_off8 v37) a + S1x100.size a ≤ S150000x100.size a := fun v37 k0_hw5 => k0_hw5

def k0_off9 (v39 : BitVec 32) : Fin 2 → Nat :=
  let c0_i32_23 : BitVec 32 := 0#32
  ![v39.toNat, 0]

def k0_chk6 (v39 : BitVec 32) : Prop :=
  (∀ a, (k0_off9 v39) a + S1x100.size a ≤ S150000x100.size a)
instance k0_chk6.dec : ∀ (v39 : BitVec 32), Decidable (k0_chk6 v39) := fun v39 => decidable_of_iff' _ (Iff.of_eq (k0_chk6.eq_1 v39))
theorem k0_off9_inb : ∀ (v39 : BitVec 32) (k0_hw6 : k0_chk6 v39), ∀ a, (k0_off9 v39) a + S1x100.size a ≤ S150000x100.size a := fun v39 k0_hw6 => k0_hw6

def k0_off10 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v52 : BitVec 32 := Scalar.addi v0 c3_i32
  let v53 : Index := Scalar.indexCast v52
  ![v53.toNat]
def k0_off11 (v54 : BitVec 32) : Fin 2 → Nat :=
  let c0_i32_27 : BitVec 32 := 0#32
  ![v54.toNat, 0]

def k0_chk7 (v54 : BitVec 32) : Prop :=
  (∀ a, (k0_off11 v54) a + S1x100.size a ≤ S150000x100.size a)
instance k0_chk7.dec : ∀ (v54 : BitVec 32), Decidable (k0_chk7 v54) := fun v54 => decidable_of_iff' _ (Iff.of_eq (k0_chk7.eq_1 v54))
theorem k0_off11_inb : ∀ (v54 : BitVec 32) (k0_hw7 : k0_chk7 v54), ∀ a, (k0_off11 v54) a + S1x100.size a ≤ S150000x100.size a := fun v54 k0_hw7 => k0_hw7

def k0_off12 (v56 : BitVec 32) : Fin 2 → Nat :=
  let c0_i32_31 : BitVec 32 := 0#32
  ![v56.toNat, 0]

def k0_chk8 (v56 : BitVec 32) : Prop :=
  (∀ a, (k0_off12 v56) a + S1x100.size a ≤ S150000x100.size a)
instance k0_chk8.dec : ∀ (v56 : BitVec 32), Decidable (k0_chk8 v56) := fun v56 => decidable_of_iff' _ (Iff.of_eq (k0_chk8.eq_1 v56))
theorem k0_off12_inb : ∀ (v56 : BitVec 32) (k0_hw8 : k0_chk8 v56), ∀ a, (k0_off12 v56) a + S1x100.size a ≤ S150000x100.size a := fun v56 k0_hw8 => k0_hw8

def k0_off13 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v69 : BitVec 32 := Scalar.addi v0 c4_i32
  let v70 : Index := Scalar.indexCast v69
  ![v70.toNat]
def k0_off14 (v71 : BitVec 32) : Fin 2 → Nat :=
  let c0_i32_35 : BitVec 32 := 0#32
  ![v71.toNat, 0]

def k0_chk9 (v71 : BitVec 32) : Prop :=
  (∀ a, (k0_off14 v71) a + S1x100.size a ≤ S150000x100.size a)
instance k0_chk9.dec : ∀ (v71 : BitVec 32), Decidable (k0_chk9 v71) := fun v71 => decidable_of_iff' _ (Iff.of_eq (k0_chk9.eq_1 v71))
theorem k0_off14_inb : ∀ (v71 : BitVec 32) (k0_hw9 : k0_chk9 v71), ∀ a, (k0_off14 v71) a + S1x100.size a ≤ S150000x100.size a := fun v71 k0_hw9 => k0_hw9

def k0_off15 (v73 : BitVec 32) : Fin 2 → Nat :=
  let c0_i32_39 : BitVec 32 := 0#32
  ![v73.toNat, 0]

def k0_chk10 (v73 : BitVec 32) : Prop :=
  (∀ a, (k0_off15 v73) a + S1x100.size a ≤ S150000x100.size a)
instance k0_chk10.dec : ∀ (v73 : BitVec 32), Decidable (k0_chk10 v73) := fun v73 => decidable_of_iff' _ (Iff.of_eq (k0_chk10.eq_1 v73))
theorem k0_off15_inb : ∀ (v73 : BitVec 32) (k0_hw10 : k0_chk10 v73), ∀ a, (k0_off15 v73) a + S1x100.size a ≤ S150000x100.size a := fun v73 k0_hw10 => k0_hw10

def k0_off16 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v86 : BitVec 32 := Scalar.addi v0 c5_i32
  let v87 : Index := Scalar.indexCast v86
  ![v87.toNat]
def k0_off17 (v88 : BitVec 32) : Fin 2 → Nat :=
  let c0_i32_43 : BitVec 32 := 0#32
  ![v88.toNat, 0]

def k0_chk11 (v88 : BitVec 32) : Prop :=
  (∀ a, (k0_off17 v88) a + S1x100.size a ≤ S150000x100.size a)
instance k0_chk11.dec : ∀ (v88 : BitVec 32), Decidable (k0_chk11 v88) := fun v88 => decidable_of_iff' _ (Iff.of_eq (k0_chk11.eq_1 v88))
theorem k0_off17_inb : ∀ (v88 : BitVec 32) (k0_hw11 : k0_chk11 v88), ∀ a, (k0_off17 v88) a + S1x100.size a ≤ S150000x100.size a := fun v88 k0_hw11 => k0_hw11

def k0_off18 (v90 : BitVec 32) : Fin 2 → Nat :=
  let c0_i32_47 : BitVec 32 := 0#32
  ![v90.toNat, 0]

def k0_chk12 (v90 : BitVec 32) : Prop :=
  (∀ a, (k0_off18 v90) a + S1x100.size a ≤ S150000x100.size a)
instance k0_chk12.dec : ∀ (v90 : BitVec 32), Decidable (k0_chk12 v90) := fun v90 => decidable_of_iff' _ (Iff.of_eq (k0_chk12.eq_1 v90))
theorem k0_off18_inb : ∀ (v90 : BitVec 32) (k0_hw12 : k0_chk12 v90), ∀ a, (k0_off18 v90) a + S1x100.size a ≤ S150000x100.size a := fun v90 k0_hw12 => k0_hw12

def k0_off19 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v103 : BitVec 32 := Scalar.addi v0 c6_i32
  let v104 : Index := Scalar.indexCast v103
  ![v104.toNat]
def k0_off20 (v105 : BitVec 32) : Fin 2 → Nat :=
  let c0_i32_51 : BitVec 32 := 0#32
  ![v105.toNat, 0]

def k0_chk13 (v105 : BitVec 32) : Prop :=
  (∀ a, (k0_off20 v105) a + S1x100.size a ≤ S150000x100.size a)
instance k0_chk13.dec : ∀ (v105 : BitVec 32), Decidable (k0_chk13 v105) := fun v105 => decidable_of_iff' _ (Iff.of_eq (k0_chk13.eq_1 v105))
theorem k0_off20_inb : ∀ (v105 : BitVec 32) (k0_hw13 : k0_chk13 v105), ∀ a, (k0_off20 v105) a + S1x100.size a ≤ S150000x100.size a := fun v105 k0_hw13 => k0_hw13

def k0_off21 (v107 : BitVec 32) : Fin 2 → Nat :=
  let c0_i32_55 : BitVec 32 := 0#32
  ![v107.toNat, 0]

def k0_chk14 (v107 : BitVec 32) : Prop :=
  (∀ a, (k0_off21 v107) a + S1x100.size a ≤ S150000x100.size a)
instance k0_chk14.dec : ∀ (v107 : BitVec 32), Decidable (k0_chk14 v107) := fun v107 => decidable_of_iff' _ (Iff.of_eq (k0_chk14.eq_1 v107))
theorem k0_off21_inb : ∀ (v107 : BitVec 32) (k0_hw14 : k0_chk14 v107), ∀ a, (k0_off21 v107) a + S1x100.size a ≤ S150000x100.size a := fun v107 k0_hw14 => k0_hw14

def k0_off22 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v120 : BitVec 32 := Scalar.addi v0 c7_i32
  let v121 : Index := Scalar.indexCast v120
  ![v121.toNat]
def k0_off23 (v122 : BitVec 32) : Fin 2 → Nat :=
  let c0_i32_59 : BitVec 32 := 0#32
  ![v122.toNat, 0]

def k0_chk15 (v122 : BitVec 32) : Prop :=
  (∀ a, (k0_off23 v122) a + S1x100.size a ≤ S150000x100.size a)
instance k0_chk15.dec : ∀ (v122 : BitVec 32), Decidable (k0_chk15 v122) := fun v122 => decidable_of_iff' _ (Iff.of_eq (k0_chk15.eq_1 v122))
theorem k0_off23_inb : ∀ (v122 : BitVec 32) (k0_hw15 : k0_chk15 v122), ∀ a, (k0_off23 v122) a + S1x100.size a ≤ S150000x100.size a := fun v122 k0_hw15 => k0_hw15

def k0_off24 (v124 : BitVec 32) : Fin 2 → Nat :=
  let c0_i32_63 : BitVec 32 := 0#32
  ![v124.toNat, 0]

def k0_chk16 (v124 : BitVec 32) : Prop :=
  (∀ a, (k0_off24 v124) a + S1x100.size a ≤ S150000x100.size a)
instance k0_chk16.dec : ∀ (v124 : BitVec 32), Decidable (k0_chk16 v124) := fun v124 => decidable_of_iff' _ (Iff.of_eq (k0_chk16.eq_1 v124))
theorem k0_off24_inb : ∀ (v124 : BitVec 32) (k0_hw16 : k0_chk16 v124), ∀ a, (k0_off24 v124) a + S1x100.size a ≤ S150000x100.size a := fun v124 k0_hw16 => k0_hw16

def k0_off25 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v137 : BitVec 32 := Scalar.addi v0 c8_i32
  let v138 : Index := Scalar.indexCast v137
  ![v138.toNat]
def k0_off26 (v139 : BitVec 32) : Fin 2 → Nat :=
  let c0_i32_67 : BitVec 32 := 0#32
  ![v139.toNat, 0]

def k0_chk17 (v139 : BitVec 32) : Prop :=
  (∀ a, (k0_off26 v139) a + S1x100.size a ≤ S150000x100.size a)
instance k0_chk17.dec : ∀ (v139 : BitVec 32), Decidable (k0_chk17 v139) := fun v139 => decidable_of_iff' _ (Iff.of_eq (k0_chk17.eq_1 v139))
theorem k0_off26_inb : ∀ (v139 : BitVec 32) (k0_hw17 : k0_chk17 v139), ∀ a, (k0_off26 v139) a + S1x100.size a ≤ S150000x100.size a := fun v139 k0_hw17 => k0_hw17

def k0_off27 (v141 : BitVec 32) : Fin 2 → Nat :=
  let c0_i32_71 : BitVec 32 := 0#32
  ![v141.toNat, 0]

def k0_chk18 (v141 : BitVec 32) : Prop :=
  (∀ a, (k0_off27 v141) a + S1x100.size a ≤ S150000x100.size a)
instance k0_chk18.dec : ∀ (v141 : BitVec 32), Decidable (k0_chk18 v141) := fun v141 => decidable_of_iff' _ (Iff.of_eq (k0_chk18.eq_1 v141))
theorem k0_off27_inb : ∀ (v141 : BitVec 32) (k0_hw18 : k0_chk18 v141), ∀ a, (k0_off27 v141) a + S1x100.size a ≤ S150000x100.size a := fun v141 k0_hw18 => k0_hw18

def k0_off28 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v154 : BitVec 32 := Scalar.addi v0 c9_i32
  let v155 : Index := Scalar.indexCast v154
  ![v155.toNat]
def k0_off29 (v156 : BitVec 32) : Fin 2 → Nat :=
  let c0_i32_75 : BitVec 32 := 0#32
  ![v156.toNat, 0]

def k0_chk19 (v156 : BitVec 32) : Prop :=
  (∀ a, (k0_off29 v156) a + S1x100.size a ≤ S150000x100.size a)
instance k0_chk19.dec : ∀ (v156 : BitVec 32), Decidable (k0_chk19 v156) := fun v156 => decidable_of_iff' _ (Iff.of_eq (k0_chk19.eq_1 v156))
theorem k0_off29_inb : ∀ (v156 : BitVec 32) (k0_hw19 : k0_chk19 v156), ∀ a, (k0_off29 v156) a + S1x100.size a ≤ S150000x100.size a := fun v156 k0_hw19 => k0_hw19

def k0_off30 (v158 : BitVec 32) : Fin 2 → Nat :=
  let c0_i32_79 : BitVec 32 := 0#32
  ![v158.toNat, 0]

def k0_chk20 (v158 : BitVec 32) : Prop :=
  (∀ a, (k0_off30 v158) a + S1x100.size a ≤ S150000x100.size a)
instance k0_chk20.dec : ∀ (v158 : BitVec 32), Decidable (k0_chk20 v158) := fun v158 => decidable_of_iff' _ (Iff.of_eq (k0_chk20.eq_1 v158))
theorem k0_off30_inb : ∀ (v158 : BitVec 32) (k0_hw20 : k0_chk20 v158), ∀ a, (k0_off30 v158) a + S1x100.size a ≤ S150000x100.size a := fun v158 k0_hw20 => k0_hw20

def k0_off31 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v171 : BitVec 32 := Scalar.addi v0 c10_i32
  let v172 : Index := Scalar.indexCast v171
  ![v172.toNat]
def k0_off32 (v173 : BitVec 32) : Fin 2 → Nat :=
  let c0_i32_83 : BitVec 32 := 0#32
  ![v173.toNat, 0]

def k0_chk21 (v173 : BitVec 32) : Prop :=
  (∀ a, (k0_off32 v173) a + S1x100.size a ≤ S150000x100.size a)
instance k0_chk21.dec : ∀ (v173 : BitVec 32), Decidable (k0_chk21 v173) := fun v173 => decidable_of_iff' _ (Iff.of_eq (k0_chk21.eq_1 v173))
theorem k0_off32_inb : ∀ (v173 : BitVec 32) (k0_hw21 : k0_chk21 v173), ∀ a, (k0_off32 v173) a + S1x100.size a ≤ S150000x100.size a := fun v173 k0_hw21 => k0_hw21

def k0_off33 (v175 : BitVec 32) : Fin 2 → Nat :=
  let c0_i32_87 : BitVec 32 := 0#32
  ![v175.toNat, 0]

def k0_chk22 (v175 : BitVec 32) : Prop :=
  (∀ a, (k0_off33 v175) a + S1x100.size a ≤ S150000x100.size a)
instance k0_chk22.dec : ∀ (v175 : BitVec 32), Decidable (k0_chk22 v175) := fun v175 => decidable_of_iff' _ (Iff.of_eq (k0_chk22.eq_1 v175))
theorem k0_off33_inb : ∀ (v175 : BitVec 32) (k0_hw22 : k0_chk22 v175), ∀ a, (k0_off33 v175) a + S1x100.size a ≤ S150000x100.size a := fun v175 k0_hw22 => k0_hw22

def k0_off34 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v188 : BitVec 32 := Scalar.addi v0 c11_i32
  let v189 : Index := Scalar.indexCast v188
  ![v189.toNat]
def k0_off35 (v190 : BitVec 32) : Fin 2 → Nat :=
  let c0_i32_91 : BitVec 32 := 0#32
  ![v190.toNat, 0]

def k0_chk23 (v190 : BitVec 32) : Prop :=
  (∀ a, (k0_off35 v190) a + S1x100.size a ≤ S150000x100.size a)
instance k0_chk23.dec : ∀ (v190 : BitVec 32), Decidable (k0_chk23 v190) := fun v190 => decidable_of_iff' _ (Iff.of_eq (k0_chk23.eq_1 v190))
theorem k0_off35_inb : ∀ (v190 : BitVec 32) (k0_hw23 : k0_chk23 v190), ∀ a, (k0_off35 v190) a + S1x100.size a ≤ S150000x100.size a := fun v190 k0_hw23 => k0_hw23

def k0_off36 (v192 : BitVec 32) : Fin 2 → Nat :=
  let c0_i32_95 : BitVec 32 := 0#32
  ![v192.toNat, 0]

def k0_chk24 (v192 : BitVec 32) : Prop :=
  (∀ a, (k0_off36 v192) a + S1x100.size a ≤ S150000x100.size a)
instance k0_chk24.dec : ∀ (v192 : BitVec 32), Decidable (k0_chk24 v192) := fun v192 => decidable_of_iff' _ (Iff.of_eq (k0_chk24.eq_1 v192))
theorem k0_off36_inb : ∀ (v192 : BitVec 32) (k0_hw24 : k0_chk24 v192), ∀ a, (k0_off36 v192) a + S1x100.size a ≤ S150000x100.size a := fun v192 k0_hw24 => k0_hw24

def k0_off37 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v205 : BitVec 32 := Scalar.addi v0 c12_i32
  let v206 : Index := Scalar.indexCast v205
  ![v206.toNat]
def k0_off38 (v207 : BitVec 32) : Fin 2 → Nat :=
  let c0_i32_99 : BitVec 32 := 0#32
  ![v207.toNat, 0]

def k0_chk25 (v207 : BitVec 32) : Prop :=
  (∀ a, (k0_off38 v207) a + S1x100.size a ≤ S150000x100.size a)
instance k0_chk25.dec : ∀ (v207 : BitVec 32), Decidable (k0_chk25 v207) := fun v207 => decidable_of_iff' _ (Iff.of_eq (k0_chk25.eq_1 v207))
theorem k0_off38_inb : ∀ (v207 : BitVec 32) (k0_hw25 : k0_chk25 v207), ∀ a, (k0_off38 v207) a + S1x100.size a ≤ S150000x100.size a := fun v207 k0_hw25 => k0_hw25

def k0_off39 (v209 : BitVec 32) : Fin 2 → Nat :=
  let c0_i32_103 : BitVec 32 := 0#32
  ![v209.toNat, 0]

def k0_chk26 (v209 : BitVec 32) : Prop :=
  (∀ a, (k0_off39 v209) a + S1x100.size a ≤ S150000x100.size a)
instance k0_chk26.dec : ∀ (v209 : BitVec 32), Decidable (k0_chk26 v209) := fun v209 => decidable_of_iff' _ (Iff.of_eq (k0_chk26.eq_1 v209))
theorem k0_off39_inb : ∀ (v209 : BitVec 32) (k0_hw26 : k0_chk26 v209), ∀ a, (k0_off39 v209) a + S1x100.size a ≤ S150000x100.size a := fun v209 k0_hw26 => k0_hw26

def k0_off40 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v222 : BitVec 32 := Scalar.addi v0 c13_i32
  let v223 : Index := Scalar.indexCast v222
  ![v223.toNat]
def k0_off41 (v224 : BitVec 32) : Fin 2 → Nat :=
  let c0_i32_107 : BitVec 32 := 0#32
  ![v224.toNat, 0]

def k0_chk27 (v224 : BitVec 32) : Prop :=
  (∀ a, (k0_off41 v224) a + S1x100.size a ≤ S150000x100.size a)
instance k0_chk27.dec : ∀ (v224 : BitVec 32), Decidable (k0_chk27 v224) := fun v224 => decidable_of_iff' _ (Iff.of_eq (k0_chk27.eq_1 v224))
theorem k0_off41_inb : ∀ (v224 : BitVec 32) (k0_hw27 : k0_chk27 v224), ∀ a, (k0_off41 v224) a + S1x100.size a ≤ S150000x100.size a := fun v224 k0_hw27 => k0_hw27

def k0_off42 (v226 : BitVec 32) : Fin 2 → Nat :=
  let c0_i32_111 : BitVec 32 := 0#32
  ![v226.toNat, 0]

def k0_chk28 (v226 : BitVec 32) : Prop :=
  (∀ a, (k0_off42 v226) a + S1x100.size a ≤ S150000x100.size a)
instance k0_chk28.dec : ∀ (v226 : BitVec 32), Decidable (k0_chk28 v226) := fun v226 => decidable_of_iff' _ (Iff.of_eq (k0_chk28.eq_1 v226))
theorem k0_off42_inb : ∀ (v226 : BitVec 32) (k0_hw28 : k0_chk28 v226), ∀ a, (k0_off42 v226) a + S1x100.size a ≤ S150000x100.size a := fun v226 k0_hw28 => k0_hw28

def k0_off43 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v239 : BitVec 32 := Scalar.addi v0 c14_i32
  let v240 : Index := Scalar.indexCast v239
  ![v240.toNat]
def k0_off44 (v241 : BitVec 32) : Fin 2 → Nat :=
  let c0_i32_115 : BitVec 32 := 0#32
  ![v241.toNat, 0]

def k0_chk29 (v241 : BitVec 32) : Prop :=
  (∀ a, (k0_off44 v241) a + S1x100.size a ≤ S150000x100.size a)
instance k0_chk29.dec : ∀ (v241 : BitVec 32), Decidable (k0_chk29 v241) := fun v241 => decidable_of_iff' _ (Iff.of_eq (k0_chk29.eq_1 v241))
theorem k0_off44_inb : ∀ (v241 : BitVec 32) (k0_hw29 : k0_chk29 v241), ∀ a, (k0_off44 v241) a + S1x100.size a ≤ S150000x100.size a := fun v241 k0_hw29 => k0_hw29

def k0_off45 (v243 : BitVec 32) : Fin 2 → Nat :=
  let c0_i32_119 : BitVec 32 := 0#32
  ![v243.toNat, 0]

def k0_chk30 (v243 : BitVec 32) : Prop :=
  (∀ a, (k0_off45 v243) a + S1x100.size a ≤ S150000x100.size a)
instance k0_chk30.dec : ∀ (v243 : BitVec 32), Decidable (k0_chk30 v243) := fun v243 => decidable_of_iff' _ (Iff.of_eq (k0_chk30.eq_1 v243))
theorem k0_off45_inb : ∀ (v243 : BitVec 32) (k0_hw30 : k0_chk30 v243), ∀ a, (k0_off45 v243) a + S1x100.size a ≤ S150000x100.size a := fun v243 k0_hw30 => k0_hw30

def k0_off46 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v256 : BitVec 32 := Scalar.addi v0 c15_i32
  let v257 : Index := Scalar.indexCast v256
  ![v257.toNat]
def k0_off47 (v258 : BitVec 32) : Fin 2 → Nat :=
  let c0_i32_123 : BitVec 32 := 0#32
  ![v258.toNat, 0]

def k0_chk31 (v258 : BitVec 32) : Prop :=
  (∀ a, (k0_off47 v258) a + S1x100.size a ≤ S150000x100.size a)
instance k0_chk31.dec : ∀ (v258 : BitVec 32), Decidable (k0_chk31 v258) := fun v258 => decidable_of_iff' _ (Iff.of_eq (k0_chk31.eq_1 v258))
theorem k0_off47_inb : ∀ (v258 : BitVec 32) (k0_hw31 : k0_chk31 v258), ∀ a, (k0_off47 v258) a + S1x100.size a ≤ S150000x100.size a := fun v258 k0_hw31 => k0_hw31

def k0_off48 (v260 : BitVec 32) : Fin 2 → Nat :=
  let c0_i32_127 : BitVec 32 := 0#32
  ![v260.toNat, 0]

def k0_chk32 (v260 : BitVec 32) : Prop :=
  (∀ a, (k0_off48 v260) a + S1x100.size a ≤ S150000x100.size a)
instance k0_chk32.dec : ∀ (v260 : BitVec 32), Decidable (k0_chk32 v260) := fun v260 => decidable_of_iff' _ (Iff.of_eq (k0_chk32.eq_1 v260))
theorem k0_off48_inb : ∀ (v260 : BitVec 32) (k0_hw32 : k0_chk32 v260), ∀ a, (k0_off48 v260) a + S1x100.size a ≤ S150000x100.size a := fun v260 k0_hw32 => k0_hw32

def k0_off49 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v273 : BitVec 32 := Scalar.addi v0 c16_i32
  let v274 : Index := Scalar.indexCast v273
  ![v274.toNat]
def k0_off50 (v275 : BitVec 32) : Fin 2 → Nat :=
  let c0_i32_131 : BitVec 32 := 0#32
  ![v275.toNat, 0]

def k0_chk33 (v275 : BitVec 32) : Prop :=
  (∀ a, (k0_off50 v275) a + S1x100.size a ≤ S150000x100.size a)
instance k0_chk33.dec : ∀ (v275 : BitVec 32), Decidable (k0_chk33 v275) := fun v275 => decidable_of_iff' _ (Iff.of_eq (k0_chk33.eq_1 v275))
theorem k0_off50_inb : ∀ (v275 : BitVec 32) (k0_hw33 : k0_chk33 v275), ∀ a, (k0_off50 v275) a + S1x100.size a ≤ S150000x100.size a := fun v275 k0_hw33 => k0_hw33

def k0_off51 (v277 : BitVec 32) : Fin 2 → Nat :=
  let c0_i32_135 : BitVec 32 := 0#32
  ![v277.toNat, 0]

def k0_chk34 (v277 : BitVec 32) : Prop :=
  (∀ a, (k0_off51 v277) a + S1x100.size a ≤ S150000x100.size a)
instance k0_chk34.dec : ∀ (v277 : BitVec 32), Decidable (k0_chk34 v277) := fun v277 => decidable_of_iff' _ (Iff.of_eq (k0_chk34.eq_1 v277))
theorem k0_off51_inb : ∀ (v277 : BitVec 32) (k0_hw34 : k0_chk34 v277), ∀ a, (k0_off51 v277) a + S1x100.size a ≤ S150000x100.size a := fun v277 k0_hw34 => k0_hw34

def k0_off52 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v290 : BitVec 32 := Scalar.addi v0 c17_i32
  let v291 : Index := Scalar.indexCast v290
  ![v291.toNat]
def k0_off53 (v292 : BitVec 32) : Fin 2 → Nat :=
  let c0_i32_139 : BitVec 32 := 0#32
  ![v292.toNat, 0]

def k0_chk35 (v292 : BitVec 32) : Prop :=
  (∀ a, (k0_off53 v292) a + S1x100.size a ≤ S150000x100.size a)
instance k0_chk35.dec : ∀ (v292 : BitVec 32), Decidable (k0_chk35 v292) := fun v292 => decidable_of_iff' _ (Iff.of_eq (k0_chk35.eq_1 v292))
theorem k0_off53_inb : ∀ (v292 : BitVec 32) (k0_hw35 : k0_chk35 v292), ∀ a, (k0_off53 v292) a + S1x100.size a ≤ S150000x100.size a := fun v292 k0_hw35 => k0_hw35

def k0_off54 (v294 : BitVec 32) : Fin 2 → Nat :=
  let c0_i32_143 : BitVec 32 := 0#32
  ![v294.toNat, 0]

def k0_chk36 (v294 : BitVec 32) : Prop :=
  (∀ a, (k0_off54 v294) a + S1x100.size a ≤ S150000x100.size a)
instance k0_chk36.dec : ∀ (v294 : BitVec 32), Decidable (k0_chk36 v294) := fun v294 => decidable_of_iff' _ (Iff.of_eq (k0_chk36.eq_1 v294))
theorem k0_off54_inb : ∀ (v294 : BitVec 32) (k0_hw36 : k0_chk36 v294), ∀ a, (k0_off54 v294) a + S1x100.size a ≤ S150000x100.size a := fun v294 k0_hw36 => k0_hw36

def k0_off55 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v307 : BitVec 32 := Scalar.addi v0 c18_i32
  let v308 : Index := Scalar.indexCast v307
  ![v308.toNat]
def k0_off56 (v309 : BitVec 32) : Fin 2 → Nat :=
  let c0_i32_147 : BitVec 32 := 0#32
  ![v309.toNat, 0]

def k0_chk37 (v309 : BitVec 32) : Prop :=
  (∀ a, (k0_off56 v309) a + S1x100.size a ≤ S150000x100.size a)
instance k0_chk37.dec : ∀ (v309 : BitVec 32), Decidable (k0_chk37 v309) := fun v309 => decidable_of_iff' _ (Iff.of_eq (k0_chk37.eq_1 v309))
theorem k0_off56_inb : ∀ (v309 : BitVec 32) (k0_hw37 : k0_chk37 v309), ∀ a, (k0_off56 v309) a + S1x100.size a ≤ S150000x100.size a := fun v309 k0_hw37 => k0_hw37

def k0_off57 (v311 : BitVec 32) : Fin 2 → Nat :=
  let c0_i32_151 : BitVec 32 := 0#32
  ![v311.toNat, 0]

def k0_chk38 (v311 : BitVec 32) : Prop :=
  (∀ a, (k0_off57 v311) a + S1x100.size a ≤ S150000x100.size a)
instance k0_chk38.dec : ∀ (v311 : BitVec 32), Decidable (k0_chk38 v311) := fun v311 => decidable_of_iff' _ (Iff.of_eq (k0_chk38.eq_1 v311))
theorem k0_off57_inb : ∀ (v311 : BitVec 32) (k0_hw38 : k0_chk38 v311), ∀ a, (k0_off57 v311) a + S1x100.size a ≤ S150000x100.size a := fun v311 k0_hw38 => k0_hw38

def k0_off58 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v324 : BitVec 32 := Scalar.addi v0 c19_i32
  let v325 : Index := Scalar.indexCast v324
  ![v325.toNat]
def k0_off59 (v326 : BitVec 32) : Fin 2 → Nat :=
  let c0_i32_155 : BitVec 32 := 0#32
  ![v326.toNat, 0]

def k0_chk39 (v326 : BitVec 32) : Prop :=
  (∀ a, (k0_off59 v326) a + S1x100.size a ≤ S150000x100.size a)
instance k0_chk39.dec : ∀ (v326 : BitVec 32), Decidable (k0_chk39 v326) := fun v326 => decidable_of_iff' _ (Iff.of_eq (k0_chk39.eq_1 v326))
theorem k0_off59_inb : ∀ (v326 : BitVec 32) (k0_hw39 : k0_chk39 v326), ∀ a, (k0_off59 v326) a + S1x100.size a ≤ S150000x100.size a := fun v326 k0_hw39 => k0_hw39

def k0_off60 (v328 : BitVec 32) : Fin 2 → Nat :=
  let c0_i32_159 : BitVec 32 := 0#32
  ![v328.toNat, 0]

def k0_chk40 (v328 : BitVec 32) : Prop :=
  (∀ a, (k0_off60 v328) a + S1x100.size a ≤ S150000x100.size a)
instance k0_chk40.dec : ∀ (v328 : BitVec 32), Decidable (k0_chk40 v328) := fun v328 => decidable_of_iff' _ (Iff.of_eq (k0_chk40.eq_1 v328))
theorem k0_off60_inb : ∀ (v328 : BitVec 32) (k0_hw40 : k0_chk40 v328), ∀ a, (k0_off60 v328) a + S1x100.size a ≤ S150000x100.size a := fun v328 k0_hw40 => k0_hw40

def k0_off61 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v341 : BitVec 32 := Scalar.addi v0 c20_i32
  let v342 : Index := Scalar.indexCast v341
  ![v342.toNat]
def k0_off62 (v343 : BitVec 32) : Fin 2 → Nat :=
  let c0_i32_163 : BitVec 32 := 0#32
  ![v343.toNat, 0]

def k0_chk41 (v343 : BitVec 32) : Prop :=
  (∀ a, (k0_off62 v343) a + S1x100.size a ≤ S150000x100.size a)
instance k0_chk41.dec : ∀ (v343 : BitVec 32), Decidable (k0_chk41 v343) := fun v343 => decidable_of_iff' _ (Iff.of_eq (k0_chk41.eq_1 v343))
theorem k0_off62_inb : ∀ (v343 : BitVec 32) (k0_hw41 : k0_chk41 v343), ∀ a, (k0_off62 v343) a + S1x100.size a ≤ S150000x100.size a := fun v343 k0_hw41 => k0_hw41

def k0_off63 (v345 : BitVec 32) : Fin 2 → Nat :=
  let c0_i32_167 : BitVec 32 := 0#32
  ![v345.toNat, 0]

def k0_chk42 (v345 : BitVec 32) : Prop :=
  (∀ a, (k0_off63 v345) a + S1x100.size a ≤ S150000x100.size a)
instance k0_chk42.dec : ∀ (v345 : BitVec 32), Decidable (k0_chk42 v345) := fun v345 => decidable_of_iff' _ (Iff.of_eq (k0_chk42.eq_1 v345))
theorem k0_off63_inb : ∀ (v345 : BitVec 32) (k0_hw42 : k0_chk42 v345), ∀ a, (k0_off63 v345) a + S1x100.size a ≤ S150000x100.size a := fun v345 k0_hw42 => k0_hw42

def k0_off64 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v358 : BitVec 32 := Scalar.addi v0 c21_i32
  let v359 : Index := Scalar.indexCast v358
  ![v359.toNat]
def k0_off65 (v360 : BitVec 32) : Fin 2 → Nat :=
  let c0_i32_171 : BitVec 32 := 0#32
  ![v360.toNat, 0]

def k0_chk43 (v360 : BitVec 32) : Prop :=
  (∀ a, (k0_off65 v360) a + S1x100.size a ≤ S150000x100.size a)
instance k0_chk43.dec : ∀ (v360 : BitVec 32), Decidable (k0_chk43 v360) := fun v360 => decidable_of_iff' _ (Iff.of_eq (k0_chk43.eq_1 v360))
theorem k0_off65_inb : ∀ (v360 : BitVec 32) (k0_hw43 : k0_chk43 v360), ∀ a, (k0_off65 v360) a + S1x100.size a ≤ S150000x100.size a := fun v360 k0_hw43 => k0_hw43

def k0_off66 (v362 : BitVec 32) : Fin 2 → Nat :=
  let c0_i32_175 : BitVec 32 := 0#32
  ![v362.toNat, 0]

def k0_chk44 (v362 : BitVec 32) : Prop :=
  (∀ a, (k0_off66 v362) a + S1x100.size a ≤ S150000x100.size a)
instance k0_chk44.dec : ∀ (v362 : BitVec 32), Decidable (k0_chk44 v362) := fun v362 => decidable_of_iff' _ (Iff.of_eq (k0_chk44.eq_1 v362))
theorem k0_off66_inb : ∀ (v362 : BitVec 32) (k0_hw44 : k0_chk44 v362), ∀ a, (k0_off66 v362) a + S1x100.size a ≤ S150000x100.size a := fun v362 k0_hw44 => k0_hw44

def k0_off67 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v375 : BitVec 32 := Scalar.addi v0 c22_i32
  let v376 : Index := Scalar.indexCast v375
  ![v376.toNat]
def k0_off68 (v377 : BitVec 32) : Fin 2 → Nat :=
  let c0_i32_179 : BitVec 32 := 0#32
  ![v377.toNat, 0]

def k0_chk45 (v377 : BitVec 32) : Prop :=
  (∀ a, (k0_off68 v377) a + S1x100.size a ≤ S150000x100.size a)
instance k0_chk45.dec : ∀ (v377 : BitVec 32), Decidable (k0_chk45 v377) := fun v377 => decidable_of_iff' _ (Iff.of_eq (k0_chk45.eq_1 v377))
theorem k0_off68_inb : ∀ (v377 : BitVec 32) (k0_hw45 : k0_chk45 v377), ∀ a, (k0_off68 v377) a + S1x100.size a ≤ S150000x100.size a := fun v377 k0_hw45 => k0_hw45

def k0_off69 (v379 : BitVec 32) : Fin 2 → Nat :=
  let c0_i32_183 : BitVec 32 := 0#32
  ![v379.toNat, 0]

def k0_chk46 (v379 : BitVec 32) : Prop :=
  (∀ a, (k0_off69 v379) a + S1x100.size a ≤ S150000x100.size a)
instance k0_chk46.dec : ∀ (v379 : BitVec 32), Decidable (k0_chk46 v379) := fun v379 => decidable_of_iff' _ (Iff.of_eq (k0_chk46.eq_1 v379))
theorem k0_off69_inb : ∀ (v379 : BitVec 32) (k0_hw46 : k0_chk46 v379), ∀ a, (k0_off69 v379) a + S1x100.size a ≤ S150000x100.size a := fun v379 k0_hw46 => k0_hw46

def k0_off70 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v392 : BitVec 32 := Scalar.addi v0 c23_i32
  let v393 : Index := Scalar.indexCast v392
  ![v393.toNat]
def k0_off71 (v394 : BitVec 32) : Fin 2 → Nat :=
  let c0_i32_187 : BitVec 32 := 0#32
  ![v394.toNat, 0]

def k0_chk47 (v394 : BitVec 32) : Prop :=
  (∀ a, (k0_off71 v394) a + S1x100.size a ≤ S150000x100.size a)
instance k0_chk47.dec : ∀ (v394 : BitVec 32), Decidable (k0_chk47 v394) := fun v394 => decidable_of_iff' _ (Iff.of_eq (k0_chk47.eq_1 v394))
theorem k0_off71_inb : ∀ (v394 : BitVec 32) (k0_hw47 : k0_chk47 v394), ∀ a, (k0_off71 v394) a + S1x100.size a ≤ S150000x100.size a := fun v394 k0_hw47 => k0_hw47

def k0_off72 (v396 : BitVec 32) : Fin 2 → Nat :=
  let c0_i32_191 : BitVec 32 := 0#32
  ![v396.toNat, 0]

def k0_chk48 (v396 : BitVec 32) : Prop :=
  (∀ a, (k0_off72 v396) a + S1x100.size a ≤ S150000x100.size a)
instance k0_chk48.dec : ∀ (v396 : BitVec 32), Decidable (k0_chk48 v396) := fun v396 => decidable_of_iff' _ (Iff.of_eq (k0_chk48.eq_1 v396))
theorem k0_off72_inb : ∀ (v396 : BitVec 32) (k0_hw48 : k0_chk48 v396), ∀ a, (k0_off72 v396) a + S1x100.size a ≤ S150000x100.size a := fun v396 k0_hw48 => k0_hw48

def k0_off73 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v409 : BitVec 32 := Scalar.addi v0 c24_i32
  let v410 : Index := Scalar.indexCast v409
  ![v410.toNat]
def k0_off74 (v411 : BitVec 32) : Fin 2 → Nat :=
  let c0_i32_195 : BitVec 32 := 0#32
  ![v411.toNat, 0]

def k0_chk49 (v411 : BitVec 32) : Prop :=
  (∀ a, (k0_off74 v411) a + S1x100.size a ≤ S150000x100.size a)
instance k0_chk49.dec : ∀ (v411 : BitVec 32), Decidable (k0_chk49 v411) := fun v411 => decidable_of_iff' _ (Iff.of_eq (k0_chk49.eq_1 v411))
theorem k0_off74_inb : ∀ (v411 : BitVec 32) (k0_hw49 : k0_chk49 v411), ∀ a, (k0_off74 v411) a + S1x100.size a ≤ S150000x100.size a := fun v411 k0_hw49 => k0_hw49

def k0_off75 (v413 : BitVec 32) : Fin 2 → Nat :=
  let c0_i32_199 : BitVec 32 := 0#32
  ![v413.toNat, 0]

def k0_chk50 (v413 : BitVec 32) : Prop :=
  (∀ a, (k0_off75 v413) a + S1x100.size a ≤ S150000x100.size a)
instance k0_chk50.dec : ∀ (v413 : BitVec 32), Decidable (k0_chk50 v413) := fun v413 => decidable_of_iff' _ (Iff.of_eq (k0_chk50.eq_1 v413))
theorem k0_off75_inb : ∀ (v413 : BitVec 32) (k0_hw50 : k0_chk50 v413), ∀ a, (k0_off75 v413) a + S1x100.size a ≤ S150000x100.size a := fun v413 k0_hw50 => k0_hw50

def k0_off76 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v426 : BitVec 32 := Scalar.addi v0 c25_i32
  let v427 : Index := Scalar.indexCast v426
  ![v427.toNat]
def k0_off77 (v428 : BitVec 32) : Fin 2 → Nat :=
  let c0_i32_203 : BitVec 32 := 0#32
  ![v428.toNat, 0]

def k0_chk51 (v428 : BitVec 32) : Prop :=
  (∀ a, (k0_off77 v428) a + S1x100.size a ≤ S150000x100.size a)
instance k0_chk51.dec : ∀ (v428 : BitVec 32), Decidable (k0_chk51 v428) := fun v428 => decidable_of_iff' _ (Iff.of_eq (k0_chk51.eq_1 v428))
theorem k0_off77_inb : ∀ (v428 : BitVec 32) (k0_hw51 : k0_chk51 v428), ∀ a, (k0_off77 v428) a + S1x100.size a ≤ S150000x100.size a := fun v428 k0_hw51 => k0_hw51

def k0_off78 (v430 : BitVec 32) : Fin 2 → Nat :=
  let c0_i32_207 : BitVec 32 := 0#32
  ![v430.toNat, 0]

def k0_chk52 (v430 : BitVec 32) : Prop :=
  (∀ a, (k0_off78 v430) a + S1x100.size a ≤ S150000x100.size a)
instance k0_chk52.dec : ∀ (v430 : BitVec 32), Decidable (k0_chk52 v430) := fun v430 => decidable_of_iff' _ (Iff.of_eq (k0_chk52.eq_1 v430))
theorem k0_off78_inb : ∀ (v430 : BitVec 32) (k0_hw52 : k0_chk52 v430), ∀ a, (k0_off78 v430) a + S1x100.size a ≤ S150000x100.size a := fun v430 k0_hw52 => k0_hw52

def k0_off79 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v443 : BitVec 32 := Scalar.addi v0 c26_i32
  let v444 : Index := Scalar.indexCast v443
  ![v444.toNat]
def k0_off80 (v445 : BitVec 32) : Fin 2 → Nat :=
  let c0_i32_211 : BitVec 32 := 0#32
  ![v445.toNat, 0]

def k0_chk53 (v445 : BitVec 32) : Prop :=
  (∀ a, (k0_off80 v445) a + S1x100.size a ≤ S150000x100.size a)
instance k0_chk53.dec : ∀ (v445 : BitVec 32), Decidable (k0_chk53 v445) := fun v445 => decidable_of_iff' _ (Iff.of_eq (k0_chk53.eq_1 v445))
theorem k0_off80_inb : ∀ (v445 : BitVec 32) (k0_hw53 : k0_chk53 v445), ∀ a, (k0_off80 v445) a + S1x100.size a ≤ S150000x100.size a := fun v445 k0_hw53 => k0_hw53

def k0_off81 (v447 : BitVec 32) : Fin 2 → Nat :=
  let c0_i32_215 : BitVec 32 := 0#32
  ![v447.toNat, 0]

def k0_chk54 (v447 : BitVec 32) : Prop :=
  (∀ a, (k0_off81 v447) a + S1x100.size a ≤ S150000x100.size a)
instance k0_chk54.dec : ∀ (v447 : BitVec 32), Decidable (k0_chk54 v447) := fun v447 => decidable_of_iff' _ (Iff.of_eq (k0_chk54.eq_1 v447))
theorem k0_off81_inb : ∀ (v447 : BitVec 32) (k0_hw54 : k0_chk54 v447), ∀ a, (k0_off81 v447) a + S1x100.size a ≤ S150000x100.size a := fun v447 k0_hw54 => k0_hw54

def k0_off82 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v460 : BitVec 32 := Scalar.addi v0 c27_i32
  let v461 : Index := Scalar.indexCast v460
  ![v461.toNat]
def k0_off83 (v462 : BitVec 32) : Fin 2 → Nat :=
  let c0_i32_219 : BitVec 32 := 0#32
  ![v462.toNat, 0]

def k0_chk55 (v462 : BitVec 32) : Prop :=
  (∀ a, (k0_off83 v462) a + S1x100.size a ≤ S150000x100.size a)
instance k0_chk55.dec : ∀ (v462 : BitVec 32), Decidable (k0_chk55 v462) := fun v462 => decidable_of_iff' _ (Iff.of_eq (k0_chk55.eq_1 v462))
theorem k0_off83_inb : ∀ (v462 : BitVec 32) (k0_hw55 : k0_chk55 v462), ∀ a, (k0_off83 v462) a + S1x100.size a ≤ S150000x100.size a := fun v462 k0_hw55 => k0_hw55

def k0_off84 (v464 : BitVec 32) : Fin 2 → Nat :=
  let c0_i32_223 : BitVec 32 := 0#32
  ![v464.toNat, 0]

def k0_chk56 (v464 : BitVec 32) : Prop :=
  (∀ a, (k0_off84 v464) a + S1x100.size a ≤ S150000x100.size a)
instance k0_chk56.dec : ∀ (v464 : BitVec 32), Decidable (k0_chk56 v464) := fun v464 => decidable_of_iff' _ (Iff.of_eq (k0_chk56.eq_1 v464))
theorem k0_off84_inb : ∀ (v464 : BitVec 32) (k0_hw56 : k0_chk56 v464), ∀ a, (k0_off84 v464) a + S1x100.size a ≤ S150000x100.size a := fun v464 k0_hw56 => k0_hw56

def k0_off85 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v477 : BitVec 32 := Scalar.addi v0 c28_i32
  let v478 : Index := Scalar.indexCast v477
  ![v478.toNat]
def k0_off86 (v479 : BitVec 32) : Fin 2 → Nat :=
  let c0_i32_227 : BitVec 32 := 0#32
  ![v479.toNat, 0]

def k0_chk57 (v479 : BitVec 32) : Prop :=
  (∀ a, (k0_off86 v479) a + S1x100.size a ≤ S150000x100.size a)
instance k0_chk57.dec : ∀ (v479 : BitVec 32), Decidable (k0_chk57 v479) := fun v479 => decidable_of_iff' _ (Iff.of_eq (k0_chk57.eq_1 v479))
theorem k0_off86_inb : ∀ (v479 : BitVec 32) (k0_hw57 : k0_chk57 v479), ∀ a, (k0_off86 v479) a + S1x100.size a ≤ S150000x100.size a := fun v479 k0_hw57 => k0_hw57

def k0_off87 (v481 : BitVec 32) : Fin 2 → Nat :=
  let c0_i32_231 : BitVec 32 := 0#32
  ![v481.toNat, 0]

def k0_chk58 (v481 : BitVec 32) : Prop :=
  (∀ a, (k0_off87 v481) a + S1x100.size a ≤ S150000x100.size a)
instance k0_chk58.dec : ∀ (v481 : BitVec 32), Decidable (k0_chk58 v481) := fun v481 => decidable_of_iff' _ (Iff.of_eq (k0_chk58.eq_1 v481))
theorem k0_off87_inb : ∀ (v481 : BitVec 32) (k0_hw58 : k0_chk58 v481), ∀ a, (k0_off87 v481) a + S1x100.size a ≤ S150000x100.size a := fun v481 k0_hw58 => k0_hw58

def k0_off88 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v494 : BitVec 32 := Scalar.addi v0 c29_i32
  let v495 : Index := Scalar.indexCast v494
  ![v495.toNat]
def k0_off89 (v496 : BitVec 32) : Fin 2 → Nat :=
  let c0_i32_235 : BitVec 32 := 0#32
  ![v496.toNat, 0]

def k0_chk59 (v496 : BitVec 32) : Prop :=
  (∀ a, (k0_off89 v496) a + S1x100.size a ≤ S150000x100.size a)
instance k0_chk59.dec : ∀ (v496 : BitVec 32), Decidable (k0_chk59 v496) := fun v496 => decidable_of_iff' _ (Iff.of_eq (k0_chk59.eq_1 v496))
theorem k0_off89_inb : ∀ (v496 : BitVec 32) (k0_hw59 : k0_chk59 v496), ∀ a, (k0_off89 v496) a + S1x100.size a ≤ S150000x100.size a := fun v496 k0_hw59 => k0_hw59

def k0_off90 (v498 : BitVec 32) : Fin 2 → Nat :=
  let c0_i32_239 : BitVec 32 := 0#32
  ![v498.toNat, 0]

def k0_chk60 (v498 : BitVec 32) : Prop :=
  (∀ a, (k0_off90 v498) a + S1x100.size a ≤ S150000x100.size a)
instance k0_chk60.dec : ∀ (v498 : BitVec 32), Decidable (k0_chk60 v498) := fun v498 => decidable_of_iff' _ (Iff.of_eq (k0_chk60.eq_1 v498))
theorem k0_off90_inb : ∀ (v498 : BitVec 32) (k0_hw60 : k0_chk60 v498), ∀ a, (k0_off90 v498) a + S1x100.size a ≤ S150000x100.size a := fun v498 k0_hw60 => k0_hw60

def k0_off91 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v511 : BitVec 32 := Scalar.addi v0 c30_i32
  let v512 : Index := Scalar.indexCast v511
  ![v512.toNat]
def k0_off92 (v513 : BitVec 32) : Fin 2 → Nat :=
  let c0_i32_243 : BitVec 32 := 0#32
  ![v513.toNat, 0]

def k0_chk61 (v513 : BitVec 32) : Prop :=
  (∀ a, (k0_off92 v513) a + S1x100.size a ≤ S150000x100.size a)
instance k0_chk61.dec : ∀ (v513 : BitVec 32), Decidable (k0_chk61 v513) := fun v513 => decidable_of_iff' _ (Iff.of_eq (k0_chk61.eq_1 v513))
theorem k0_off92_inb : ∀ (v513 : BitVec 32) (k0_hw61 : k0_chk61 v513), ∀ a, (k0_off92 v513) a + S1x100.size a ≤ S150000x100.size a := fun v513 k0_hw61 => k0_hw61

def k0_off93 (v515 : BitVec 32) : Fin 2 → Nat :=
  let c0_i32_247 : BitVec 32 := 0#32
  ![v515.toNat, 0]

def k0_chk62 (v515 : BitVec 32) : Prop :=
  (∀ a, (k0_off93 v515) a + S1x100.size a ≤ S150000x100.size a)
instance k0_chk62.dec : ∀ (v515 : BitVec 32), Decidable (k0_chk62 v515) := fun v515 => decidable_of_iff' _ (Iff.of_eq (k0_chk62.eq_1 v515))
theorem k0_off93_inb : ∀ (v515 : BitVec 32) (k0_hw62 : k0_chk62 v515), ∀ a, (k0_off93 v515) a + S1x100.size a ≤ S150000x100.size a := fun v515 k0_hw62 => k0_hw62

def k0_off94 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v528 : BitVec 32 := Scalar.addi v0 c31_i32
  let v529 : Index := Scalar.indexCast v528
  ![v529.toNat]
def k0_off95 (v530 : BitVec 32) : Fin 2 → Nat :=
  let c0_i32_251 : BitVec 32 := 0#32
  ![v530.toNat, 0]

def k0_chk63 (v530 : BitVec 32) : Prop :=
  (∀ a, (k0_off95 v530) a + S1x100.size a ≤ S150000x100.size a)
instance k0_chk63.dec : ∀ (v530 : BitVec 32), Decidable (k0_chk63 v530) := fun v530 => decidable_of_iff' _ (Iff.of_eq (k0_chk63.eq_1 v530))
theorem k0_off95_inb : ∀ (v530 : BitVec 32) (k0_hw63 : k0_chk63 v530), ∀ a, (k0_off95 v530) a + S1x100.size a ≤ S150000x100.size a := fun v530 k0_hw63 => k0_hw63

def k0_off96 (v532 : BitVec 32) : Fin 2 → Nat :=
  let c0_i32_255 : BitVec 32 := 0#32
  ![v532.toNat, 0]

def k0_chk64 (v532 : BitVec 32) : Prop :=
  (∀ a, (k0_off96 v532) a + S1x100.size a ≤ S150000x100.size a)
instance k0_chk64.dec : ∀ (v532 : BitVec 32), Decidable (k0_chk64 v532) := fun v532 => decidable_of_iff' _ (Iff.of_eq (k0_chk64.eq_1 v532))
theorem k0_off96_inb : ∀ (v532 : BitVec 32) (k0_hw64 : k0_chk64 v532), ∀ a, (k0_off96 v532) a + S1x100.size a ≤ S150000x100.size a := fun v532 k0_hw64 => k0_hw64

def k0_off97 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v545 : BitVec 32 := Scalar.addi v0 c32_i32
  let v546 : Index := Scalar.indexCast v545
  ![v546.toNat]
def k0_off98 (v547 : BitVec 32) : Fin 2 → Nat :=
  let c0_i32_259 : BitVec 32 := 0#32
  ![v547.toNat, 0]

def k0_chk65 (v547 : BitVec 32) : Prop :=
  (∀ a, (k0_off98 v547) a + S1x100.size a ≤ S150000x100.size a)
instance k0_chk65.dec : ∀ (v547 : BitVec 32), Decidable (k0_chk65 v547) := fun v547 => decidable_of_iff' _ (Iff.of_eq (k0_chk65.eq_1 v547))
theorem k0_off98_inb : ∀ (v547 : BitVec 32) (k0_hw65 : k0_chk65 v547), ∀ a, (k0_off98 v547) a + S1x100.size a ≤ S150000x100.size a := fun v547 k0_hw65 => k0_hw65

def k0_off99 (v549 : BitVec 32) : Fin 2 → Nat :=
  let c0_i32_263 : BitVec 32 := 0#32
  ![v549.toNat, 0]

def k0_chk66 (v549 : BitVec 32) : Prop :=
  (∀ a, (k0_off99 v549) a + S1x100.size a ≤ S150000x100.size a)
instance k0_chk66.dec : ∀ (v549 : BitVec 32), Decidable (k0_chk66 v549) := fun v549 => decidable_of_iff' _ (Iff.of_eq (k0_chk66.eq_1 v549))
theorem k0_off99_inb : ∀ (v549 : BitVec 32) (k0_hw66 : k0_chk66 v549), ∀ a, (k0_off99 v549) a + S1x100.size a ≤ S150000x100.size a := fun v549 k0_hw66 => k0_hw66

def k0_off100 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v562 : BitVec 32 := Scalar.addi v0 c33_i32
  let v563 : Index := Scalar.indexCast v562
  ![v563.toNat]
def k0_off101 (v564 : BitVec 32) : Fin 2 → Nat :=
  let c0_i32_267 : BitVec 32 := 0#32
  ![v564.toNat, 0]

def k0_chk67 (v564 : BitVec 32) : Prop :=
  (∀ a, (k0_off101 v564) a + S1x100.size a ≤ S150000x100.size a)
instance k0_chk67.dec : ∀ (v564 : BitVec 32), Decidable (k0_chk67 v564) := fun v564 => decidable_of_iff' _ (Iff.of_eq (k0_chk67.eq_1 v564))
theorem k0_off101_inb : ∀ (v564 : BitVec 32) (k0_hw67 : k0_chk67 v564), ∀ a, (k0_off101 v564) a + S1x100.size a ≤ S150000x100.size a := fun v564 k0_hw67 => k0_hw67

def k0_off102 (v566 : BitVec 32) : Fin 2 → Nat :=
  let c0_i32_271 : BitVec 32 := 0#32
  ![v566.toNat, 0]

def k0_chk68 (v566 : BitVec 32) : Prop :=
  (∀ a, (k0_off102 v566) a + S1x100.size a ≤ S150000x100.size a)
instance k0_chk68.dec : ∀ (v566 : BitVec 32), Decidable (k0_chk68 v566) := fun v566 => decidable_of_iff' _ (Iff.of_eq (k0_chk68.eq_1 v566))
theorem k0_off102_inb : ∀ (v566 : BitVec 32) (k0_hw68 : k0_chk68 v566), ∀ a, (k0_off102 v566) a + S1x100.size a ≤ S150000x100.size a := fun v566 k0_hw68 => k0_hw68

def k0_off103 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v579 : BitVec 32 := Scalar.addi v0 c34_i32
  let v580 : Index := Scalar.indexCast v579
  ![v580.toNat]
def k0_off104 (v581 : BitVec 32) : Fin 2 → Nat :=
  let c0_i32_275 : BitVec 32 := 0#32
  ![v581.toNat, 0]

def k0_chk69 (v581 : BitVec 32) : Prop :=
  (∀ a, (k0_off104 v581) a + S1x100.size a ≤ S150000x100.size a)
instance k0_chk69.dec : ∀ (v581 : BitVec 32), Decidable (k0_chk69 v581) := fun v581 => decidable_of_iff' _ (Iff.of_eq (k0_chk69.eq_1 v581))
theorem k0_off104_inb : ∀ (v581 : BitVec 32) (k0_hw69 : k0_chk69 v581), ∀ a, (k0_off104 v581) a + S1x100.size a ≤ S150000x100.size a := fun v581 k0_hw69 => k0_hw69

def k0_off105 (v583 : BitVec 32) : Fin 2 → Nat :=
  let c0_i32_279 : BitVec 32 := 0#32
  ![v583.toNat, 0]

def k0_chk70 (v583 : BitVec 32) : Prop :=
  (∀ a, (k0_off105 v583) a + S1x100.size a ≤ S150000x100.size a)
instance k0_chk70.dec : ∀ (v583 : BitVec 32), Decidable (k0_chk70 v583) := fun v583 => decidable_of_iff' _ (Iff.of_eq (k0_chk70.eq_1 v583))
theorem k0_off105_inb : ∀ (v583 : BitVec 32) (k0_hw70 : k0_chk70 v583), ∀ a, (k0_off105 v583) a + S1x100.size a ≤ S150000x100.size a := fun v583 k0_hw70 => k0_hw70

def k0_off106 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v596 : BitVec 32 := Scalar.addi v0 c35_i32
  let v597 : Index := Scalar.indexCast v596
  ![v597.toNat]
def k0_off107 (v598 : BitVec 32) : Fin 2 → Nat :=
  let c0_i32_283 : BitVec 32 := 0#32
  ![v598.toNat, 0]

def k0_chk71 (v598 : BitVec 32) : Prop :=
  (∀ a, (k0_off107 v598) a + S1x100.size a ≤ S150000x100.size a)
instance k0_chk71.dec : ∀ (v598 : BitVec 32), Decidable (k0_chk71 v598) := fun v598 => decidable_of_iff' _ (Iff.of_eq (k0_chk71.eq_1 v598))
theorem k0_off107_inb : ∀ (v598 : BitVec 32) (k0_hw71 : k0_chk71 v598), ∀ a, (k0_off107 v598) a + S1x100.size a ≤ S150000x100.size a := fun v598 k0_hw71 => k0_hw71

def k0_off108 (v600 : BitVec 32) : Fin 2 → Nat :=
  let c0_i32_287 : BitVec 32 := 0#32
  ![v600.toNat, 0]

def k0_chk72 (v600 : BitVec 32) : Prop :=
  (∀ a, (k0_off108 v600) a + S1x100.size a ≤ S150000x100.size a)
instance k0_chk72.dec : ∀ (v600 : BitVec 32), Decidable (k0_chk72 v600) := fun v600 => decidable_of_iff' _ (Iff.of_eq (k0_chk72.eq_1 v600))
theorem k0_off108_inb : ∀ (v600 : BitVec 32) (k0_hw72 : k0_chk72 v600), ∀ a, (k0_off108 v600) a + S1x100.size a ≤ S150000x100.size a := fun v600 k0_hw72 => k0_hw72

def k0_off109 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v613 : BitVec 32 := Scalar.addi v0 c36_i32
  let v614 : Index := Scalar.indexCast v613
  ![v614.toNat]
def k0_off110 (v615 : BitVec 32) : Fin 2 → Nat :=
  let c0_i32_291 : BitVec 32 := 0#32
  ![v615.toNat, 0]

def k0_chk73 (v615 : BitVec 32) : Prop :=
  (∀ a, (k0_off110 v615) a + S1x100.size a ≤ S150000x100.size a)
instance k0_chk73.dec : ∀ (v615 : BitVec 32), Decidable (k0_chk73 v615) := fun v615 => decidable_of_iff' _ (Iff.of_eq (k0_chk73.eq_1 v615))
theorem k0_off110_inb : ∀ (v615 : BitVec 32) (k0_hw73 : k0_chk73 v615), ∀ a, (k0_off110 v615) a + S1x100.size a ≤ S150000x100.size a := fun v615 k0_hw73 => k0_hw73

def k0_off111 (v617 : BitVec 32) : Fin 2 → Nat :=
  let c0_i32_295 : BitVec 32 := 0#32
  ![v617.toNat, 0]

def k0_chk74 (v617 : BitVec 32) : Prop :=
  (∀ a, (k0_off111 v617) a + S1x100.size a ≤ S150000x100.size a)
instance k0_chk74.dec : ∀ (v617 : BitVec 32), Decidable (k0_chk74 v617) := fun v617 => decidable_of_iff' _ (Iff.of_eq (k0_chk74.eq_1 v617))
theorem k0_off111_inb : ∀ (v617 : BitVec 32) (k0_hw74 : k0_chk74 v617), ∀ a, (k0_off111 v617) a + S1x100.size a ≤ S150000x100.size a := fun v617 k0_hw74 => k0_hw74

def k0_off112 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v630 : BitVec 32 := Scalar.addi v0 c37_i32
  let v631 : Index := Scalar.indexCast v630
  ![v631.toNat]
def k0_off113 (v632 : BitVec 32) : Fin 2 → Nat :=
  let c0_i32_299 : BitVec 32 := 0#32
  ![v632.toNat, 0]

def k0_chk75 (v632 : BitVec 32) : Prop :=
  (∀ a, (k0_off113 v632) a + S1x100.size a ≤ S150000x100.size a)
instance k0_chk75.dec : ∀ (v632 : BitVec 32), Decidable (k0_chk75 v632) := fun v632 => decidable_of_iff' _ (Iff.of_eq (k0_chk75.eq_1 v632))
theorem k0_off113_inb : ∀ (v632 : BitVec 32) (k0_hw75 : k0_chk75 v632), ∀ a, (k0_off113 v632) a + S1x100.size a ≤ S150000x100.size a := fun v632 k0_hw75 => k0_hw75

def k0_off114 (v634 : BitVec 32) : Fin 2 → Nat :=
  let c0_i32_303 : BitVec 32 := 0#32
  ![v634.toNat, 0]

def k0_chk76 (v634 : BitVec 32) : Prop :=
  (∀ a, (k0_off114 v634) a + S1x100.size a ≤ S150000x100.size a)
instance k0_chk76.dec : ∀ (v634 : BitVec 32), Decidable (k0_chk76 v634) := fun v634 => decidable_of_iff' _ (Iff.of_eq (k0_chk76.eq_1 v634))
theorem k0_off114_inb : ∀ (v634 : BitVec 32) (k0_hw76 : k0_chk76 v634), ∀ a, (k0_off114 v634) a + S1x100.size a ≤ S150000x100.size a := fun v634 k0_hw76 => k0_hw76

def k0_off115 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v647 : BitVec 32 := Scalar.addi v0 c38_i32
  let v648 : Index := Scalar.indexCast v647
  ![v648.toNat]
def k0_off116 (v649 : BitVec 32) : Fin 2 → Nat :=
  let c0_i32_307 : BitVec 32 := 0#32
  ![v649.toNat, 0]

def k0_chk77 (v649 : BitVec 32) : Prop :=
  (∀ a, (k0_off116 v649) a + S1x100.size a ≤ S150000x100.size a)
instance k0_chk77.dec : ∀ (v649 : BitVec 32), Decidable (k0_chk77 v649) := fun v649 => decidable_of_iff' _ (Iff.of_eq (k0_chk77.eq_1 v649))
theorem k0_off116_inb : ∀ (v649 : BitVec 32) (k0_hw77 : k0_chk77 v649), ∀ a, (k0_off116 v649) a + S1x100.size a ≤ S150000x100.size a := fun v649 k0_hw77 => k0_hw77

def k0_off117 (v651 : BitVec 32) : Fin 2 → Nat :=
  let c0_i32_311 : BitVec 32 := 0#32
  ![v651.toNat, 0]

def k0_chk78 (v651 : BitVec 32) : Prop :=
  (∀ a, (k0_off117 v651) a + S1x100.size a ≤ S150000x100.size a)
instance k0_chk78.dec : ∀ (v651 : BitVec 32), Decidable (k0_chk78 v651) := fun v651 => decidable_of_iff' _ (Iff.of_eq (k0_chk78.eq_1 v651))
theorem k0_off117_inb : ∀ (v651 : BitVec 32) (k0_hw78 : k0_chk78 v651), ∀ a, (k0_off117 v651) a + S1x100.size a ≤ S150000x100.size a := fun v651 k0_hw78 => k0_hw78

def k0_off118 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v664 : BitVec 32 := Scalar.addi v0 c39_i32
  let v665 : Index := Scalar.indexCast v664
  ![v665.toNat]
def k0_off119 (v666 : BitVec 32) : Fin 2 → Nat :=
  let c0_i32_315 : BitVec 32 := 0#32
  ![v666.toNat, 0]

def k0_chk79 (v666 : BitVec 32) : Prop :=
  (∀ a, (k0_off119 v666) a + S1x100.size a ≤ S150000x100.size a)
instance k0_chk79.dec : ∀ (v666 : BitVec 32), Decidable (k0_chk79 v666) := fun v666 => decidable_of_iff' _ (Iff.of_eq (k0_chk79.eq_1 v666))
theorem k0_off119_inb : ∀ (v666 : BitVec 32) (k0_hw79 : k0_chk79 v666), ∀ a, (k0_off119 v666) a + S1x100.size a ≤ S150000x100.size a := fun v666 k0_hw79 => k0_hw79

def k0_off120 (v668 : BitVec 32) : Fin 2 → Nat :=
  let c0_i32_319 : BitVec 32 := 0#32
  ![v668.toNat, 0]

def k0_chk80 (v668 : BitVec 32) : Prop :=
  (∀ a, (k0_off120 v668) a + S1x100.size a ≤ S150000x100.size a)
instance k0_chk80.dec : ∀ (v668 : BitVec 32), Decidable (k0_chk80 v668) := fun v668 => decidable_of_iff' _ (Iff.of_eq (k0_chk80.eq_1 v668))
theorem k0_off120_inb : ∀ (v668 : BitVec 32) (k0_hw80 : k0_chk80 v668), ∀ a, (k0_off120 v668) a + S1x100.size a ≤ S150000x100.size a := fun v668 k0_hw80 => k0_hw80

def k0_off121 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v681 : BitVec 32 := Scalar.addi v0 c40_i32
  let v682 : Index := Scalar.indexCast v681
  ![v682.toNat]
def k0_off122 (v683 : BitVec 32) : Fin 2 → Nat :=
  let c0_i32_323 : BitVec 32 := 0#32
  ![v683.toNat, 0]

def k0_chk81 (v683 : BitVec 32) : Prop :=
  (∀ a, (k0_off122 v683) a + S1x100.size a ≤ S150000x100.size a)
instance k0_chk81.dec : ∀ (v683 : BitVec 32), Decidable (k0_chk81 v683) := fun v683 => decidable_of_iff' _ (Iff.of_eq (k0_chk81.eq_1 v683))
theorem k0_off122_inb : ∀ (v683 : BitVec 32) (k0_hw81 : k0_chk81 v683), ∀ a, (k0_off122 v683) a + S1x100.size a ≤ S150000x100.size a := fun v683 k0_hw81 => k0_hw81

def k0_off123 (v685 : BitVec 32) : Fin 2 → Nat :=
  let c0_i32_327 : BitVec 32 := 0#32
  ![v685.toNat, 0]

def k0_chk82 (v685 : BitVec 32) : Prop :=
  (∀ a, (k0_off123 v685) a + S1x100.size a ≤ S150000x100.size a)
instance k0_chk82.dec : ∀ (v685 : BitVec 32), Decidable (k0_chk82 v685) := fun v685 => decidable_of_iff' _ (Iff.of_eq (k0_chk82.eq_1 v685))
theorem k0_off123_inb : ∀ (v685 : BitVec 32) (k0_hw82 : k0_chk82 v685), ∀ a, (k0_off123 v685) a + S1x100.size a ≤ S150000x100.size a := fun v685 k0_hw82 => k0_hw82

def k0_off124 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v698 : BitVec 32 := Scalar.addi v0 c41_i32
  let v699 : Index := Scalar.indexCast v698
  ![v699.toNat]
def k0_off125 (v700 : BitVec 32) : Fin 2 → Nat :=
  let c0_i32_331 : BitVec 32 := 0#32
  ![v700.toNat, 0]

def k0_chk83 (v700 : BitVec 32) : Prop :=
  (∀ a, (k0_off125 v700) a + S1x100.size a ≤ S150000x100.size a)
instance k0_chk83.dec : ∀ (v700 : BitVec 32), Decidable (k0_chk83 v700) := fun v700 => decidable_of_iff' _ (Iff.of_eq (k0_chk83.eq_1 v700))
theorem k0_off125_inb : ∀ (v700 : BitVec 32) (k0_hw83 : k0_chk83 v700), ∀ a, (k0_off125 v700) a + S1x100.size a ≤ S150000x100.size a := fun v700 k0_hw83 => k0_hw83

def k0_off126 (v702 : BitVec 32) : Fin 2 → Nat :=
  let c0_i32_335 : BitVec 32 := 0#32
  ![v702.toNat, 0]

def k0_chk84 (v702 : BitVec 32) : Prop :=
  (∀ a, (k0_off126 v702) a + S1x100.size a ≤ S150000x100.size a)
instance k0_chk84.dec : ∀ (v702 : BitVec 32), Decidable (k0_chk84 v702) := fun v702 => decidable_of_iff' _ (Iff.of_eq (k0_chk84.eq_1 v702))
theorem k0_off126_inb : ∀ (v702 : BitVec 32) (k0_hw84 : k0_chk84 v702), ∀ a, (k0_off126 v702) a + S1x100.size a ≤ S150000x100.size a := fun v702 k0_hw84 => k0_hw84

def k0_off127 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v715 : BitVec 32 := Scalar.addi v0 c42_i32
  let v716 : Index := Scalar.indexCast v715
  ![v716.toNat]
def k0_off128 (v717 : BitVec 32) : Fin 2 → Nat :=
  let c0_i32_339 : BitVec 32 := 0#32
  ![v717.toNat, 0]

def k0_chk85 (v717 : BitVec 32) : Prop :=
  (∀ a, (k0_off128 v717) a + S1x100.size a ≤ S150000x100.size a)
instance k0_chk85.dec : ∀ (v717 : BitVec 32), Decidable (k0_chk85 v717) := fun v717 => decidable_of_iff' _ (Iff.of_eq (k0_chk85.eq_1 v717))
theorem k0_off128_inb : ∀ (v717 : BitVec 32) (k0_hw85 : k0_chk85 v717), ∀ a, (k0_off128 v717) a + S1x100.size a ≤ S150000x100.size a := fun v717 k0_hw85 => k0_hw85

def k0_off129 (v719 : BitVec 32) : Fin 2 → Nat :=
  let c0_i32_343 : BitVec 32 := 0#32
  ![v719.toNat, 0]

def k0_chk86 (v719 : BitVec 32) : Prop :=
  (∀ a, (k0_off129 v719) a + S1x100.size a ≤ S150000x100.size a)
instance k0_chk86.dec : ∀ (v719 : BitVec 32), Decidable (k0_chk86 v719) := fun v719 => decidable_of_iff' _ (Iff.of_eq (k0_chk86.eq_1 v719))
theorem k0_off129_inb : ∀ (v719 : BitVec 32) (k0_hw86 : k0_chk86 v719), ∀ a, (k0_off129 v719) a + S1x100.size a ≤ S150000x100.size a := fun v719 k0_hw86 => k0_hw86

def k0_off130 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v732 : BitVec 32 := Scalar.addi v0 c43_i32
  let v733 : Index := Scalar.indexCast v732
  ![v733.toNat]
def k0_off131 (v734 : BitVec 32) : Fin 2 → Nat :=
  let c0_i32_347 : BitVec 32 := 0#32
  ![v734.toNat, 0]

def k0_chk87 (v734 : BitVec 32) : Prop :=
  (∀ a, (k0_off131 v734) a + S1x100.size a ≤ S150000x100.size a)
instance k0_chk87.dec : ∀ (v734 : BitVec 32), Decidable (k0_chk87 v734) := fun v734 => decidable_of_iff' _ (Iff.of_eq (k0_chk87.eq_1 v734))
theorem k0_off131_inb : ∀ (v734 : BitVec 32) (k0_hw87 : k0_chk87 v734), ∀ a, (k0_off131 v734) a + S1x100.size a ≤ S150000x100.size a := fun v734 k0_hw87 => k0_hw87

def k0_off132 (v736 : BitVec 32) : Fin 2 → Nat :=
  let c0_i32_351 : BitVec 32 := 0#32
  ![v736.toNat, 0]

def k0_chk88 (v736 : BitVec 32) : Prop :=
  (∀ a, (k0_off132 v736) a + S1x100.size a ≤ S150000x100.size a)
instance k0_chk88.dec : ∀ (v736 : BitVec 32), Decidable (k0_chk88 v736) := fun v736 => decidable_of_iff' _ (Iff.of_eq (k0_chk88.eq_1 v736))
theorem k0_off132_inb : ∀ (v736 : BitVec 32) (k0_hw88 : k0_chk88 v736), ∀ a, (k0_off132 v736) a + S1x100.size a ≤ S150000x100.size a := fun v736 k0_hw88 => k0_hw88

def k0_off133 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v749 : BitVec 32 := Scalar.addi v0 c44_i32
  let v750 : Index := Scalar.indexCast v749
  ![v750.toNat]
def k0_off134 (v751 : BitVec 32) : Fin 2 → Nat :=
  let c0_i32_355 : BitVec 32 := 0#32
  ![v751.toNat, 0]

def k0_chk89 (v751 : BitVec 32) : Prop :=
  (∀ a, (k0_off134 v751) a + S1x100.size a ≤ S150000x100.size a)
instance k0_chk89.dec : ∀ (v751 : BitVec 32), Decidable (k0_chk89 v751) := fun v751 => decidable_of_iff' _ (Iff.of_eq (k0_chk89.eq_1 v751))
theorem k0_off134_inb : ∀ (v751 : BitVec 32) (k0_hw89 : k0_chk89 v751), ∀ a, (k0_off134 v751) a + S1x100.size a ≤ S150000x100.size a := fun v751 k0_hw89 => k0_hw89

def k0_off135 (v753 : BitVec 32) : Fin 2 → Nat :=
  let c0_i32_359 : BitVec 32 := 0#32
  ![v753.toNat, 0]

def k0_chk90 (v753 : BitVec 32) : Prop :=
  (∀ a, (k0_off135 v753) a + S1x100.size a ≤ S150000x100.size a)
instance k0_chk90.dec : ∀ (v753 : BitVec 32), Decidable (k0_chk90 v753) := fun v753 => decidable_of_iff' _ (Iff.of_eq (k0_chk90.eq_1 v753))
theorem k0_off135_inb : ∀ (v753 : BitVec 32) (k0_hw90 : k0_chk90 v753), ∀ a, (k0_off135 v753) a + S1x100.size a ≤ S150000x100.size a := fun v753 k0_hw90 => k0_hw90

def k0_off136 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v766 : BitVec 32 := Scalar.addi v0 c45_i32
  let v767 : Index := Scalar.indexCast v766
  ![v767.toNat]
def k0_off137 (v768 : BitVec 32) : Fin 2 → Nat :=
  let c0_i32_363 : BitVec 32 := 0#32
  ![v768.toNat, 0]

def k0_chk91 (v768 : BitVec 32) : Prop :=
  (∀ a, (k0_off137 v768) a + S1x100.size a ≤ S150000x100.size a)
instance k0_chk91.dec : ∀ (v768 : BitVec 32), Decidable (k0_chk91 v768) := fun v768 => decidable_of_iff' _ (Iff.of_eq (k0_chk91.eq_1 v768))
theorem k0_off137_inb : ∀ (v768 : BitVec 32) (k0_hw91 : k0_chk91 v768), ∀ a, (k0_off137 v768) a + S1x100.size a ≤ S150000x100.size a := fun v768 k0_hw91 => k0_hw91

def k0_off138 (v770 : BitVec 32) : Fin 2 → Nat :=
  let c0_i32_367 : BitVec 32 := 0#32
  ![v770.toNat, 0]

def k0_chk92 (v770 : BitVec 32) : Prop :=
  (∀ a, (k0_off138 v770) a + S1x100.size a ≤ S150000x100.size a)
instance k0_chk92.dec : ∀ (v770 : BitVec 32), Decidable (k0_chk92 v770) := fun v770 => decidable_of_iff' _ (Iff.of_eq (k0_chk92.eq_1 v770))
theorem k0_off138_inb : ∀ (v770 : BitVec 32) (k0_hw92 : k0_chk92 v770), ∀ a, (k0_off138 v770) a + S1x100.size a ≤ S150000x100.size a := fun v770 k0_hw92 => k0_hw92

def k0_off139 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v783 : BitVec 32 := Scalar.addi v0 c46_i32
  let v784 : Index := Scalar.indexCast v783
  ![v784.toNat]
def k0_off140 (v785 : BitVec 32) : Fin 2 → Nat :=
  let c0_i32_371 : BitVec 32 := 0#32
  ![v785.toNat, 0]

def k0_chk93 (v785 : BitVec 32) : Prop :=
  (∀ a, (k0_off140 v785) a + S1x100.size a ≤ S150000x100.size a)
instance k0_chk93.dec : ∀ (v785 : BitVec 32), Decidable (k0_chk93 v785) := fun v785 => decidable_of_iff' _ (Iff.of_eq (k0_chk93.eq_1 v785))
theorem k0_off140_inb : ∀ (v785 : BitVec 32) (k0_hw93 : k0_chk93 v785), ∀ a, (k0_off140 v785) a + S1x100.size a ≤ S150000x100.size a := fun v785 k0_hw93 => k0_hw93

def k0_off141 (v787 : BitVec 32) : Fin 2 → Nat :=
  let c0_i32_375 : BitVec 32 := 0#32
  ![v787.toNat, 0]

def k0_chk94 (v787 : BitVec 32) : Prop :=
  (∀ a, (k0_off141 v787) a + S1x100.size a ≤ S150000x100.size a)
instance k0_chk94.dec : ∀ (v787 : BitVec 32), Decidable (k0_chk94 v787) := fun v787 => decidable_of_iff' _ (Iff.of_eq (k0_chk94.eq_1 v787))
theorem k0_off141_inb : ∀ (v787 : BitVec 32) (k0_hw94 : k0_chk94 v787), ∀ a, (k0_off141 v787) a + S1x100.size a ≤ S150000x100.size a := fun v787 k0_hw94 => k0_hw94

def k0_off142 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v800 : BitVec 32 := Scalar.addi v0 c47_i32
  let v801 : Index := Scalar.indexCast v800
  ![v801.toNat]
def k0_off143 (v802 : BitVec 32) : Fin 2 → Nat :=
  let c0_i32_379 : BitVec 32 := 0#32
  ![v802.toNat, 0]

def k0_chk95 (v802 : BitVec 32) : Prop :=
  (∀ a, (k0_off143 v802) a + S1x100.size a ≤ S150000x100.size a)
instance k0_chk95.dec : ∀ (v802 : BitVec 32), Decidable (k0_chk95 v802) := fun v802 => decidable_of_iff' _ (Iff.of_eq (k0_chk95.eq_1 v802))
theorem k0_off143_inb : ∀ (v802 : BitVec 32) (k0_hw95 : k0_chk95 v802), ∀ a, (k0_off143 v802) a + S1x100.size a ≤ S150000x100.size a := fun v802 k0_hw95 => k0_hw95

def k0_off144 (v804 : BitVec 32) : Fin 2 → Nat :=
  let c0_i32_383 : BitVec 32 := 0#32
  ![v804.toNat, 0]

def k0_chk96 (v804 : BitVec 32) : Prop :=
  (∀ a, (k0_off144 v804) a + S1x100.size a ≤ S150000x100.size a)
instance k0_chk96.dec : ∀ (v804 : BitVec 32), Decidable (k0_chk96 v804) := fun v804 => decidable_of_iff' _ (Iff.of_eq (k0_chk96.eq_1 v804))
theorem k0_off144_inb : ∀ (v804 : BitVec 32) (k0_hw96 : k0_chk96 v804), ∀ a, (k0_off144 v804) a + S1x100.size a ≤ S150000x100.size a := fun v804 k0_hw96 => k0_hw96

def k0_off145 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v817 : BitVec 32 := Scalar.addi v0 c48_i32
  let v818 : Index := Scalar.indexCast v817
  ![v818.toNat]
def k0_off146 (v819 : BitVec 32) : Fin 2 → Nat :=
  let c0_i32_387 : BitVec 32 := 0#32
  ![v819.toNat, 0]

def k0_chk97 (v819 : BitVec 32) : Prop :=
  (∀ a, (k0_off146 v819) a + S1x100.size a ≤ S150000x100.size a)
instance k0_chk97.dec : ∀ (v819 : BitVec 32), Decidable (k0_chk97 v819) := fun v819 => decidable_of_iff' _ (Iff.of_eq (k0_chk97.eq_1 v819))
theorem k0_off146_inb : ∀ (v819 : BitVec 32) (k0_hw97 : k0_chk97 v819), ∀ a, (k0_off146 v819) a + S1x100.size a ≤ S150000x100.size a := fun v819 k0_hw97 => k0_hw97

def k0_off147 (v821 : BitVec 32) : Fin 2 → Nat :=
  let c0_i32_391 : BitVec 32 := 0#32
  ![v821.toNat, 0]

def k0_chk98 (v821 : BitVec 32) : Prop :=
  (∀ a, (k0_off147 v821) a + S1x100.size a ≤ S150000x100.size a)
instance k0_chk98.dec : ∀ (v821 : BitVec 32), Decidable (k0_chk98 v821) := fun v821 => decidable_of_iff' _ (Iff.of_eq (k0_chk98.eq_1 v821))
theorem k0_off147_inb : ∀ (v821 : BitVec 32) (k0_hw98 : k0_chk98 v821), ∀ a, (k0_off147 v821) a + S1x100.size a ≤ S150000x100.size a := fun v821 k0_hw98 => k0_hw98

def k0_off148 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v834 : BitVec 32 := Scalar.addi v0 c49_i32
  let v835 : Index := Scalar.indexCast v834
  ![v835.toNat]
def k0_off149 (v836 : BitVec 32) : Fin 2 → Nat :=
  let c0_i32_395 : BitVec 32 := 0#32
  ![v836.toNat, 0]

def k0_chk99 (v836 : BitVec 32) : Prop :=
  (∀ a, (k0_off149 v836) a + S1x100.size a ≤ S150000x100.size a)
instance k0_chk99.dec : ∀ (v836 : BitVec 32), Decidable (k0_chk99 v836) := fun v836 => decidable_of_iff' _ (Iff.of_eq (k0_chk99.eq_1 v836))
theorem k0_off149_inb : ∀ (v836 : BitVec 32) (k0_hw99 : k0_chk99 v836), ∀ a, (k0_off149 v836) a + S1x100.size a ≤ S150000x100.size a := fun v836 k0_hw99 => k0_hw99

def k0_off150 (v838 : BitVec 32) : Fin 2 → Nat :=
  let c0_i32_399 : BitVec 32 := 0#32
  ![v838.toNat, 0]

def k0_chk100 (v838 : BitVec 32) : Prop :=
  (∀ a, (k0_off150 v838) a + S1x100.size a ≤ S150000x100.size a)
instance k0_chk100.dec : ∀ (v838 : BitVec 32), Decidable (k0_chk100 v838) := fun v838 => decidable_of_iff' _ (Iff.of_eq (k0_chk100.eq_1 v838))
theorem k0_off150_inb : ∀ (v838 : BitVec 32) (k0_hw100 : k0_chk100 v838), ∀ a, (k0_off150 v838) a + S1x100.size a ≤ S150000x100.size a := fun v838 k0_hw100 => k0_hw100

def k0_off151 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v851 : BitVec 32 := Scalar.addi v0 c50_i32
  let v852 : Index := Scalar.indexCast v851
  ![v852.toNat]
def k0_off152 (v853 : BitVec 32) : Fin 2 → Nat :=
  let c0_i32_403 : BitVec 32 := 0#32
  ![v853.toNat, 0]

def k0_chk101 (v853 : BitVec 32) : Prop :=
  (∀ a, (k0_off152 v853) a + S1x100.size a ≤ S150000x100.size a)
instance k0_chk101.dec : ∀ (v853 : BitVec 32), Decidable (k0_chk101 v853) := fun v853 => decidable_of_iff' _ (Iff.of_eq (k0_chk101.eq_1 v853))
theorem k0_off152_inb : ∀ (v853 : BitVec 32) (k0_hw101 : k0_chk101 v853), ∀ a, (k0_off152 v853) a + S1x100.size a ≤ S150000x100.size a := fun v853 k0_hw101 => k0_hw101

def k0_off153 (v855 : BitVec 32) : Fin 2 → Nat :=
  let c0_i32_407 : BitVec 32 := 0#32
  ![v855.toNat, 0]

def k0_chk102 (v855 : BitVec 32) : Prop :=
  (∀ a, (k0_off153 v855) a + S1x100.size a ≤ S150000x100.size a)
instance k0_chk102.dec : ∀ (v855 : BitVec 32), Decidable (k0_chk102 v855) := fun v855 => decidable_of_iff' _ (Iff.of_eq (k0_chk102.eq_1 v855))
theorem k0_off153_inb : ∀ (v855 : BitVec 32) (k0_hw102 : k0_chk102 v855), ∀ a, (k0_off153 v855) a + S1x100.size a ≤ S150000x100.size a := fun v855 k0_hw102 => k0_hw102

def k0_off154 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v868 : BitVec 32 := Scalar.addi v0 c51_i32
  let v869 : Index := Scalar.indexCast v868
  ![v869.toNat]
def k0_off155 (v870 : BitVec 32) : Fin 2 → Nat :=
  let c0_i32_411 : BitVec 32 := 0#32
  ![v870.toNat, 0]

def k0_chk103 (v870 : BitVec 32) : Prop :=
  (∀ a, (k0_off155 v870) a + S1x100.size a ≤ S150000x100.size a)
instance k0_chk103.dec : ∀ (v870 : BitVec 32), Decidable (k0_chk103 v870) := fun v870 => decidable_of_iff' _ (Iff.of_eq (k0_chk103.eq_1 v870))
theorem k0_off155_inb : ∀ (v870 : BitVec 32) (k0_hw103 : k0_chk103 v870), ∀ a, (k0_off155 v870) a + S1x100.size a ≤ S150000x100.size a := fun v870 k0_hw103 => k0_hw103

def k0_off156 (v872 : BitVec 32) : Fin 2 → Nat :=
  let c0_i32_415 : BitVec 32 := 0#32
  ![v872.toNat, 0]

def k0_chk104 (v872 : BitVec 32) : Prop :=
  (∀ a, (k0_off156 v872) a + S1x100.size a ≤ S150000x100.size a)
instance k0_chk104.dec : ∀ (v872 : BitVec 32), Decidable (k0_chk104 v872) := fun v872 => decidable_of_iff' _ (Iff.of_eq (k0_chk104.eq_1 v872))
theorem k0_off156_inb : ∀ (v872 : BitVec 32) (k0_hw104 : k0_chk104 v872), ∀ a, (k0_off156 v872) a + S1x100.size a ≤ S150000x100.size a := fun v872 k0_hw104 => k0_hw104

def k0_off157 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v885 : BitVec 32 := Scalar.addi v0 c52_i32
  let v886 : Index := Scalar.indexCast v885
  ![v886.toNat]
def k0_off158 (v887 : BitVec 32) : Fin 2 → Nat :=
  let c0_i32_419 : BitVec 32 := 0#32
  ![v887.toNat, 0]

def k0_chk105 (v887 : BitVec 32) : Prop :=
  (∀ a, (k0_off158 v887) a + S1x100.size a ≤ S150000x100.size a)
instance k0_chk105.dec : ∀ (v887 : BitVec 32), Decidable (k0_chk105 v887) := fun v887 => decidable_of_iff' _ (Iff.of_eq (k0_chk105.eq_1 v887))
theorem k0_off158_inb : ∀ (v887 : BitVec 32) (k0_hw105 : k0_chk105 v887), ∀ a, (k0_off158 v887) a + S1x100.size a ≤ S150000x100.size a := fun v887 k0_hw105 => k0_hw105

def k0_off159 (v889 : BitVec 32) : Fin 2 → Nat :=
  let c0_i32_423 : BitVec 32 := 0#32
  ![v889.toNat, 0]

def k0_chk106 (v889 : BitVec 32) : Prop :=
  (∀ a, (k0_off159 v889) a + S1x100.size a ≤ S150000x100.size a)
instance k0_chk106.dec : ∀ (v889 : BitVec 32), Decidable (k0_chk106 v889) := fun v889 => decidable_of_iff' _ (Iff.of_eq (k0_chk106.eq_1 v889))
theorem k0_off159_inb : ∀ (v889 : BitVec 32) (k0_hw106 : k0_chk106 v889), ∀ a, (k0_off159 v889) a + S1x100.size a ≤ S150000x100.size a := fun v889 k0_hw106 => k0_hw106

def k0_off160 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v902 : BitVec 32 := Scalar.addi v0 c53_i32
  let v903 : Index := Scalar.indexCast v902
  ![v903.toNat]
def k0_off161 (v904 : BitVec 32) : Fin 2 → Nat :=
  let c0_i32_427 : BitVec 32 := 0#32
  ![v904.toNat, 0]

def k0_chk107 (v904 : BitVec 32) : Prop :=
  (∀ a, (k0_off161 v904) a + S1x100.size a ≤ S150000x100.size a)
instance k0_chk107.dec : ∀ (v904 : BitVec 32), Decidable (k0_chk107 v904) := fun v904 => decidable_of_iff' _ (Iff.of_eq (k0_chk107.eq_1 v904))
theorem k0_off161_inb : ∀ (v904 : BitVec 32) (k0_hw107 : k0_chk107 v904), ∀ a, (k0_off161 v904) a + S1x100.size a ≤ S150000x100.size a := fun v904 k0_hw107 => k0_hw107

def k0_off162 (v906 : BitVec 32) : Fin 2 → Nat :=
  let c0_i32_431 : BitVec 32 := 0#32
  ![v906.toNat, 0]

def k0_chk108 (v906 : BitVec 32) : Prop :=
  (∀ a, (k0_off162 v906) a + S1x100.size a ≤ S150000x100.size a)
instance k0_chk108.dec : ∀ (v906 : BitVec 32), Decidable (k0_chk108 v906) := fun v906 => decidable_of_iff' _ (Iff.of_eq (k0_chk108.eq_1 v906))
theorem k0_off162_inb : ∀ (v906 : BitVec 32) (k0_hw108 : k0_chk108 v906), ∀ a, (k0_off162 v906) a + S1x100.size a ≤ S150000x100.size a := fun v906 k0_hw108 => k0_hw108

def k0_off163 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v919 : BitVec 32 := Scalar.addi v0 c54_i32
  let v920 : Index := Scalar.indexCast v919
  ![v920.toNat]
def k0_off164 (v921 : BitVec 32) : Fin 2 → Nat :=
  let c0_i32_435 : BitVec 32 := 0#32
  ![v921.toNat, 0]

def k0_chk109 (v921 : BitVec 32) : Prop :=
  (∀ a, (k0_off164 v921) a + S1x100.size a ≤ S150000x100.size a)
instance k0_chk109.dec : ∀ (v921 : BitVec 32), Decidable (k0_chk109 v921) := fun v921 => decidable_of_iff' _ (Iff.of_eq (k0_chk109.eq_1 v921))
theorem k0_off164_inb : ∀ (v921 : BitVec 32) (k0_hw109 : k0_chk109 v921), ∀ a, (k0_off164 v921) a + S1x100.size a ≤ S150000x100.size a := fun v921 k0_hw109 => k0_hw109

def k0_off165 (v923 : BitVec 32) : Fin 2 → Nat :=
  let c0_i32_439 : BitVec 32 := 0#32
  ![v923.toNat, 0]

def k0_chk110 (v923 : BitVec 32) : Prop :=
  (∀ a, (k0_off165 v923) a + S1x100.size a ≤ S150000x100.size a)
instance k0_chk110.dec : ∀ (v923 : BitVec 32), Decidable (k0_chk110 v923) := fun v923 => decidable_of_iff' _ (Iff.of_eq (k0_chk110.eq_1 v923))
theorem k0_off165_inb : ∀ (v923 : BitVec 32) (k0_hw110 : k0_chk110 v923), ∀ a, (k0_off165 v923) a + S1x100.size a ≤ S150000x100.size a := fun v923 k0_hw110 => k0_hw110

def k0_off166 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v936 : BitVec 32 := Scalar.addi v0 c55_i32
  let v937 : Index := Scalar.indexCast v936
  ![v937.toNat]
def k0_off167 (v938 : BitVec 32) : Fin 2 → Nat :=
  let c0_i32_443 : BitVec 32 := 0#32
  ![v938.toNat, 0]

def k0_chk111 (v938 : BitVec 32) : Prop :=
  (∀ a, (k0_off167 v938) a + S1x100.size a ≤ S150000x100.size a)
instance k0_chk111.dec : ∀ (v938 : BitVec 32), Decidable (k0_chk111 v938) := fun v938 => decidable_of_iff' _ (Iff.of_eq (k0_chk111.eq_1 v938))
theorem k0_off167_inb : ∀ (v938 : BitVec 32) (k0_hw111 : k0_chk111 v938), ∀ a, (k0_off167 v938) a + S1x100.size a ≤ S150000x100.size a := fun v938 k0_hw111 => k0_hw111

def k0_off168 (v940 : BitVec 32) : Fin 2 → Nat :=
  let c0_i32_447 : BitVec 32 := 0#32
  ![v940.toNat, 0]

def k0_chk112 (v940 : BitVec 32) : Prop :=
  (∀ a, (k0_off168 v940) a + S1x100.size a ≤ S150000x100.size a)
instance k0_chk112.dec : ∀ (v940 : BitVec 32), Decidable (k0_chk112 v940) := fun v940 => decidable_of_iff' _ (Iff.of_eq (k0_chk112.eq_1 v940))
theorem k0_off168_inb : ∀ (v940 : BitVec 32) (k0_hw112 : k0_chk112 v940), ∀ a, (k0_off168 v940) a + S1x100.size a ≤ S150000x100.size a := fun v940 k0_hw112 => k0_hw112

def k0_off169 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v953 : BitVec 32 := Scalar.addi v0 c56_i32
  let v954 : Index := Scalar.indexCast v953
  ![v954.toNat]
def k0_off170 (v955 : BitVec 32) : Fin 2 → Nat :=
  let c0_i32_451 : BitVec 32 := 0#32
  ![v955.toNat, 0]

def k0_chk113 (v955 : BitVec 32) : Prop :=
  (∀ a, (k0_off170 v955) a + S1x100.size a ≤ S150000x100.size a)
instance k0_chk113.dec : ∀ (v955 : BitVec 32), Decidable (k0_chk113 v955) := fun v955 => decidable_of_iff' _ (Iff.of_eq (k0_chk113.eq_1 v955))
theorem k0_off170_inb : ∀ (v955 : BitVec 32) (k0_hw113 : k0_chk113 v955), ∀ a, (k0_off170 v955) a + S1x100.size a ≤ S150000x100.size a := fun v955 k0_hw113 => k0_hw113

def k0_off171 (v957 : BitVec 32) : Fin 2 → Nat :=
  let c0_i32_455 : BitVec 32 := 0#32
  ![v957.toNat, 0]

def k0_chk114 (v957 : BitVec 32) : Prop :=
  (∀ a, (k0_off171 v957) a + S1x100.size a ≤ S150000x100.size a)
instance k0_chk114.dec : ∀ (v957 : BitVec 32), Decidable (k0_chk114 v957) := fun v957 => decidable_of_iff' _ (Iff.of_eq (k0_chk114.eq_1 v957))
theorem k0_off171_inb : ∀ (v957 : BitVec 32) (k0_hw114 : k0_chk114 v957), ∀ a, (k0_off171 v957) a + S1x100.size a ≤ S150000x100.size a := fun v957 k0_hw114 => k0_hw114

def k0_off172 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v970 : BitVec 32 := Scalar.addi v0 c57_i32
  let v971 : Index := Scalar.indexCast v970
  ![v971.toNat]
def k0_off173 (v972 : BitVec 32) : Fin 2 → Nat :=
  let c0_i32_459 : BitVec 32 := 0#32
  ![v972.toNat, 0]

def k0_chk115 (v972 : BitVec 32) : Prop :=
  (∀ a, (k0_off173 v972) a + S1x100.size a ≤ S150000x100.size a)
instance k0_chk115.dec : ∀ (v972 : BitVec 32), Decidable (k0_chk115 v972) := fun v972 => decidable_of_iff' _ (Iff.of_eq (k0_chk115.eq_1 v972))
theorem k0_off173_inb : ∀ (v972 : BitVec 32) (k0_hw115 : k0_chk115 v972), ∀ a, (k0_off173 v972) a + S1x100.size a ≤ S150000x100.size a := fun v972 k0_hw115 => k0_hw115

def k0_off174 (v974 : BitVec 32) : Fin 2 → Nat :=
  let c0_i32_463 : BitVec 32 := 0#32
  ![v974.toNat, 0]

def k0_chk116 (v974 : BitVec 32) : Prop :=
  (∀ a, (k0_off174 v974) a + S1x100.size a ≤ S150000x100.size a)
instance k0_chk116.dec : ∀ (v974 : BitVec 32), Decidable (k0_chk116 v974) := fun v974 => decidable_of_iff' _ (Iff.of_eq (k0_chk116.eq_1 v974))
theorem k0_off174_inb : ∀ (v974 : BitVec 32) (k0_hw116 : k0_chk116 v974), ∀ a, (k0_off174 v974) a + S1x100.size a ≤ S150000x100.size a := fun v974 k0_hw116 => k0_hw116

def k0_off175 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v987 : BitVec 32 := Scalar.addi v0 c58_i32
  let v988 : Index := Scalar.indexCast v987
  ![v988.toNat]
def k0_off176 (v989 : BitVec 32) : Fin 2 → Nat :=
  let c0_i32_467 : BitVec 32 := 0#32
  ![v989.toNat, 0]

def k0_chk117 (v989 : BitVec 32) : Prop :=
  (∀ a, (k0_off176 v989) a + S1x100.size a ≤ S150000x100.size a)
instance k0_chk117.dec : ∀ (v989 : BitVec 32), Decidable (k0_chk117 v989) := fun v989 => decidable_of_iff' _ (Iff.of_eq (k0_chk117.eq_1 v989))
theorem k0_off176_inb : ∀ (v989 : BitVec 32) (k0_hw117 : k0_chk117 v989), ∀ a, (k0_off176 v989) a + S1x100.size a ≤ S150000x100.size a := fun v989 k0_hw117 => k0_hw117

def k0_off177 (v991 : BitVec 32) : Fin 2 → Nat :=
  let c0_i32_471 : BitVec 32 := 0#32
  ![v991.toNat, 0]

def k0_chk118 (v991 : BitVec 32) : Prop :=
  (∀ a, (k0_off177 v991) a + S1x100.size a ≤ S150000x100.size a)
instance k0_chk118.dec : ∀ (v991 : BitVec 32), Decidable (k0_chk118 v991) := fun v991 => decidable_of_iff' _ (Iff.of_eq (k0_chk118.eq_1 v991))
theorem k0_off177_inb : ∀ (v991 : BitVec 32) (k0_hw118 : k0_chk118 v991), ∀ a, (k0_off177 v991) a + S1x100.size a ≤ S150000x100.size a := fun v991 k0_hw118 => k0_hw118

def k0_off178 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v1004 : BitVec 32 := Scalar.addi v0 c59_i32
  let v1005 : Index := Scalar.indexCast v1004
  ![v1005.toNat]
def k0_off179 (v1006 : BitVec 32) : Fin 2 → Nat :=
  let c0_i32_475 : BitVec 32 := 0#32
  ![v1006.toNat, 0]

def k0_chk119 (v1006 : BitVec 32) : Prop :=
  (∀ a, (k0_off179 v1006) a + S1x100.size a ≤ S150000x100.size a)
instance k0_chk119.dec : ∀ (v1006 : BitVec 32), Decidable (k0_chk119 v1006) := fun v1006 => decidable_of_iff' _ (Iff.of_eq (k0_chk119.eq_1 v1006))
theorem k0_off179_inb : ∀ (v1006 : BitVec 32) (k0_hw119 : k0_chk119 v1006), ∀ a, (k0_off179 v1006) a + S1x100.size a ≤ S150000x100.size a := fun v1006 k0_hw119 => k0_hw119

def k0_off180 (v1008 : BitVec 32) : Fin 2 → Nat :=
  let c0_i32_479 : BitVec 32 := 0#32
  ![v1008.toNat, 0]

def k0_chk120 (v1008 : BitVec 32) : Prop :=
  (∀ a, (k0_off180 v1008) a + S1x100.size a ≤ S150000x100.size a)
instance k0_chk120.dec : ∀ (v1008 : BitVec 32), Decidable (k0_chk120 v1008) := fun v1008 => decidable_of_iff' _ (Iff.of_eq (k0_chk120.eq_1 v1008))
theorem k0_off180_inb : ∀ (v1008 : BitVec 32) (k0_hw120 : k0_chk120 v1008), ∀ a, (k0_off180 v1008) a + S1x100.size a ≤ S150000x100.size a := fun v1008 k0_hw120 => k0_hw120

def k0_off181 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v1021 : BitVec 32 := Scalar.addi v0 c60_i32
  let v1022 : Index := Scalar.indexCast v1021
  ![v1022.toNat]
def k0_off182 (v1023 : BitVec 32) : Fin 2 → Nat :=
  let c0_i32_483 : BitVec 32 := 0#32
  ![v1023.toNat, 0]

def k0_chk121 (v1023 : BitVec 32) : Prop :=
  (∀ a, (k0_off182 v1023) a + S1x100.size a ≤ S150000x100.size a)
instance k0_chk121.dec : ∀ (v1023 : BitVec 32), Decidable (k0_chk121 v1023) := fun v1023 => decidable_of_iff' _ (Iff.of_eq (k0_chk121.eq_1 v1023))
theorem k0_off182_inb : ∀ (v1023 : BitVec 32) (k0_hw121 : k0_chk121 v1023), ∀ a, (k0_off182 v1023) a + S1x100.size a ≤ S150000x100.size a := fun v1023 k0_hw121 => k0_hw121

def k0_off183 (v1025 : BitVec 32) : Fin 2 → Nat :=
  let c0_i32_487 : BitVec 32 := 0#32
  ![v1025.toNat, 0]

def k0_chk122 (v1025 : BitVec 32) : Prop :=
  (∀ a, (k0_off183 v1025) a + S1x100.size a ≤ S150000x100.size a)
instance k0_chk122.dec : ∀ (v1025 : BitVec 32), Decidable (k0_chk122 v1025) := fun v1025 => decidable_of_iff' _ (Iff.of_eq (k0_chk122.eq_1 v1025))
theorem k0_off183_inb : ∀ (v1025 : BitVec 32) (k0_hw122 : k0_chk122 v1025), ∀ a, (k0_off183 v1025) a + S1x100.size a ≤ S150000x100.size a := fun v1025 k0_hw122 => k0_hw122

def k0_off184 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v1038 : BitVec 32 := Scalar.addi v0 c61_i32
  let v1039 : Index := Scalar.indexCast v1038
  ![v1039.toNat]
def k0_off185 (v1040 : BitVec 32) : Fin 2 → Nat :=
  let c0_i32_491 : BitVec 32 := 0#32
  ![v1040.toNat, 0]

def k0_chk123 (v1040 : BitVec 32) : Prop :=
  (∀ a, (k0_off185 v1040) a + S1x100.size a ≤ S150000x100.size a)
instance k0_chk123.dec : ∀ (v1040 : BitVec 32), Decidable (k0_chk123 v1040) := fun v1040 => decidable_of_iff' _ (Iff.of_eq (k0_chk123.eq_1 v1040))
theorem k0_off185_inb : ∀ (v1040 : BitVec 32) (k0_hw123 : k0_chk123 v1040), ∀ a, (k0_off185 v1040) a + S1x100.size a ≤ S150000x100.size a := fun v1040 k0_hw123 => k0_hw123

def k0_off186 (v1042 : BitVec 32) : Fin 2 → Nat :=
  let c0_i32_495 : BitVec 32 := 0#32
  ![v1042.toNat, 0]

def k0_chk124 (v1042 : BitVec 32) : Prop :=
  (∀ a, (k0_off186 v1042) a + S1x100.size a ≤ S150000x100.size a)
instance k0_chk124.dec : ∀ (v1042 : BitVec 32), Decidable (k0_chk124 v1042) := fun v1042 => decidable_of_iff' _ (Iff.of_eq (k0_chk124.eq_1 v1042))
theorem k0_off186_inb : ∀ (v1042 : BitVec 32) (k0_hw124 : k0_chk124 v1042), ∀ a, (k0_off186 v1042) a + S1x100.size a ≤ S150000x100.size a := fun v1042 k0_hw124 => k0_hw124

def k0_off187 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v1055 : BitVec 32 := Scalar.addi v0 c62_i32
  let v1056 : Index := Scalar.indexCast v1055
  ![v1056.toNat]
def k0_off188 (v1057 : BitVec 32) : Fin 2 → Nat :=
  let c0_i32_499 : BitVec 32 := 0#32
  ![v1057.toNat, 0]

def k0_chk125 (v1057 : BitVec 32) : Prop :=
  (∀ a, (k0_off188 v1057) a + S1x100.size a ≤ S150000x100.size a)
instance k0_chk125.dec : ∀ (v1057 : BitVec 32), Decidable (k0_chk125 v1057) := fun v1057 => decidable_of_iff' _ (Iff.of_eq (k0_chk125.eq_1 v1057))
theorem k0_off188_inb : ∀ (v1057 : BitVec 32) (k0_hw125 : k0_chk125 v1057), ∀ a, (k0_off188 v1057) a + S1x100.size a ≤ S150000x100.size a := fun v1057 k0_hw125 => k0_hw125

def k0_off189 (v1059 : BitVec 32) : Fin 2 → Nat :=
  let c0_i32_503 : BitVec 32 := 0#32
  ![v1059.toNat, 0]

def k0_chk126 (v1059 : BitVec 32) : Prop :=
  (∀ a, (k0_off189 v1059) a + S1x100.size a ≤ S150000x100.size a)
instance k0_chk126.dec : ∀ (v1059 : BitVec 32), Decidable (k0_chk126 v1059) := fun v1059 => decidable_of_iff' _ (Iff.of_eq (k0_chk126.eq_1 v1059))
theorem k0_off189_inb : ∀ (v1059 : BitVec 32) (k0_hw126 : k0_chk126 v1059), ∀ a, (k0_off189 v1059) a + S1x100.size a ≤ S150000x100.size a := fun v1059 k0_hw126 => k0_hw126

def k0_off190 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v1072 : BitVec 32 := Scalar.addi v0 c63_i32
  let v1073 : Index := Scalar.indexCast v1072
  ![v1073.toNat]
def k0_off191 (v1074 : BitVec 32) : Fin 2 → Nat :=
  let c0_i32_507 : BitVec 32 := 0#32
  ![v1074.toNat, 0]

def k0_chk127 (v1074 : BitVec 32) : Prop :=
  (∀ a, (k0_off191 v1074) a + S1x100.size a ≤ S150000x100.size a)
instance k0_chk127.dec : ∀ (v1074 : BitVec 32), Decidable (k0_chk127 v1074) := fun v1074 => decidable_of_iff' _ (Iff.of_eq (k0_chk127.eq_1 v1074))
theorem k0_off191_inb : ∀ (v1074 : BitVec 32) (k0_hw127 : k0_chk127 v1074), ∀ a, (k0_off191 v1074) a + S1x100.size a ≤ S150000x100.size a := fun v1074 k0_hw127 => k0_hw127

def k0_off192 (v1076 : BitVec 32) : Fin 2 → Nat :=
  let c0_i32_511 : BitVec 32 := 0#32
  ![v1076.toNat, 0]

def k0_chk128 (v1076 : BitVec 32) : Prop :=
  (∀ a, (k0_off192 v1076) a + S1x100.size a ≤ S150000x100.size a)
instance k0_chk128.dec : ∀ (v1076 : BitVec 32), Decidable (k0_chk128 v1076) := fun v1076 => decidable_of_iff' _ (Iff.of_eq (k0_chk128.eq_1 v1076))
theorem k0_off192_inb : ∀ (v1076 : BitVec 32) (k0_hw128 : k0_chk128 v1076), ∀ a, (k0_off192 v1076) a + S1x100.size a ≤ S150000x100.size a := fun v1076 k0_hw128 => k0_hw128

def k0_off193 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v1089 : BitVec 32 := Scalar.addi v0 c64_i32
  let v1090 : Index := Scalar.indexCast v1089
  ![v1090.toNat]
def k0_off194 (v1091 : BitVec 32) : Fin 2 → Nat :=
  let c0_i32_515 : BitVec 32 := 0#32
  ![v1091.toNat, 0]

def k0_chk129 (v1091 : BitVec 32) : Prop :=
  (∀ a, (k0_off194 v1091) a + S1x100.size a ≤ S150000x100.size a)
instance k0_chk129.dec : ∀ (v1091 : BitVec 32), Decidable (k0_chk129 v1091) := fun v1091 => decidable_of_iff' _ (Iff.of_eq (k0_chk129.eq_1 v1091))
theorem k0_off194_inb : ∀ (v1091 : BitVec 32) (k0_hw129 : k0_chk129 v1091), ∀ a, (k0_off194 v1091) a + S1x100.size a ≤ S150000x100.size a := fun v1091 k0_hw129 => k0_hw129

def k0_off195 (v1093 : BitVec 32) : Fin 2 → Nat :=
  let c0_i32_519 : BitVec 32 := 0#32
  ![v1093.toNat, 0]

def k0_chk130 (v1093 : BitVec 32) : Prop :=
  (∀ a, (k0_off195 v1093) a + S1x100.size a ≤ S150000x100.size a)
instance k0_chk130.dec : ∀ (v1093 : BitVec 32), Decidable (k0_chk130 v1093) := fun v1093 => decidable_of_iff' _ (Iff.of_eq (k0_chk130.eq_1 v1093))
theorem k0_off195_inb : ∀ (v1093 : BitVec 32) (k0_hw130 : k0_chk130 v1093), ∀ a, (k0_off195 v1093) a + S1x100.size a ≤ S150000x100.size a := fun v1093 k0_hw130 => k0_hw130

def k0_off196 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v1106 : BitVec 32 := Scalar.addi v0 c65_i32
  let v1107 : Index := Scalar.indexCast v1106
  ![v1107.toNat]
def k0_off197 (v1108 : BitVec 32) : Fin 2 → Nat :=
  let c0_i32_523 : BitVec 32 := 0#32
  ![v1108.toNat, 0]

def k0_chk131 (v1108 : BitVec 32) : Prop :=
  (∀ a, (k0_off197 v1108) a + S1x100.size a ≤ S150000x100.size a)
instance k0_chk131.dec : ∀ (v1108 : BitVec 32), Decidable (k0_chk131 v1108) := fun v1108 => decidable_of_iff' _ (Iff.of_eq (k0_chk131.eq_1 v1108))
theorem k0_off197_inb : ∀ (v1108 : BitVec 32) (k0_hw131 : k0_chk131 v1108), ∀ a, (k0_off197 v1108) a + S1x100.size a ≤ S150000x100.size a := fun v1108 k0_hw131 => k0_hw131

def k0_off198 (v1110 : BitVec 32) : Fin 2 → Nat :=
  let c0_i32_527 : BitVec 32 := 0#32
  ![v1110.toNat, 0]

def k0_chk132 (v1110 : BitVec 32) : Prop :=
  (∀ a, (k0_off198 v1110) a + S1x100.size a ≤ S150000x100.size a)
instance k0_chk132.dec : ∀ (v1110 : BitVec 32), Decidable (k0_chk132 v1110) := fun v1110 => decidable_of_iff' _ (Iff.of_eq (k0_chk132.eq_1 v1110))
theorem k0_off198_inb : ∀ (v1110 : BitVec 32) (k0_hw132 : k0_chk132 v1110), ∀ a, (k0_off198 v1110) a + S1x100.size a ≤ S150000x100.size a := fun v1110 k0_hw132 => k0_hw132

def k0_off199 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v1123 : BitVec 32 := Scalar.addi v0 c66_i32
  let v1124 : Index := Scalar.indexCast v1123
  ![v1124.toNat]
def k0_off200 (v1125 : BitVec 32) : Fin 2 → Nat :=
  let c0_i32_531 : BitVec 32 := 0#32
  ![v1125.toNat, 0]

def k0_chk133 (v1125 : BitVec 32) : Prop :=
  (∀ a, (k0_off200 v1125) a + S1x100.size a ≤ S150000x100.size a)
instance k0_chk133.dec : ∀ (v1125 : BitVec 32), Decidable (k0_chk133 v1125) := fun v1125 => decidable_of_iff' _ (Iff.of_eq (k0_chk133.eq_1 v1125))
theorem k0_off200_inb : ∀ (v1125 : BitVec 32) (k0_hw133 : k0_chk133 v1125), ∀ a, (k0_off200 v1125) a + S1x100.size a ≤ S150000x100.size a := fun v1125 k0_hw133 => k0_hw133

def k0_off201 (v1127 : BitVec 32) : Fin 2 → Nat :=
  let c0_i32_535 : BitVec 32 := 0#32
  ![v1127.toNat, 0]

def k0_chk134 (v1127 : BitVec 32) : Prop :=
  (∀ a, (k0_off201 v1127) a + S1x100.size a ≤ S150000x100.size a)
instance k0_chk134.dec : ∀ (v1127 : BitVec 32), Decidable (k0_chk134 v1127) := fun v1127 => decidable_of_iff' _ (Iff.of_eq (k0_chk134.eq_1 v1127))
theorem k0_off201_inb : ∀ (v1127 : BitVec 32) (k0_hw134 : k0_chk134 v1127), ∀ a, (k0_off201 v1127) a + S1x100.size a ≤ S150000x100.size a := fun v1127 k0_hw134 => k0_hw134

def k0_off202 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v1140 : BitVec 32 := Scalar.addi v0 c67_i32
  let v1141 : Index := Scalar.indexCast v1140
  ![v1141.toNat]
def k0_off203 (v1142 : BitVec 32) : Fin 2 → Nat :=
  let c0_i32_539 : BitVec 32 := 0#32
  ![v1142.toNat, 0]

def k0_chk135 (v1142 : BitVec 32) : Prop :=
  (∀ a, (k0_off203 v1142) a + S1x100.size a ≤ S150000x100.size a)
instance k0_chk135.dec : ∀ (v1142 : BitVec 32), Decidable (k0_chk135 v1142) := fun v1142 => decidable_of_iff' _ (Iff.of_eq (k0_chk135.eq_1 v1142))
theorem k0_off203_inb : ∀ (v1142 : BitVec 32) (k0_hw135 : k0_chk135 v1142), ∀ a, (k0_off203 v1142) a + S1x100.size a ≤ S150000x100.size a := fun v1142 k0_hw135 => k0_hw135

def k0_off204 (v1144 : BitVec 32) : Fin 2 → Nat :=
  let c0_i32_543 : BitVec 32 := 0#32
  ![v1144.toNat, 0]

def k0_chk136 (v1144 : BitVec 32) : Prop :=
  (∀ a, (k0_off204 v1144) a + S1x100.size a ≤ S150000x100.size a)
instance k0_chk136.dec : ∀ (v1144 : BitVec 32), Decidable (k0_chk136 v1144) := fun v1144 => decidable_of_iff' _ (Iff.of_eq (k0_chk136.eq_1 v1144))
theorem k0_off204_inb : ∀ (v1144 : BitVec 32) (k0_hw136 : k0_chk136 v1144), ∀ a, (k0_off204 v1144) a + S1x100.size a ≤ S150000x100.size a := fun v1144 k0_hw136 => k0_hw136

def k0_off205 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v1157 : BitVec 32 := Scalar.addi v0 c68_i32
  let v1158 : Index := Scalar.indexCast v1157
  ![v1158.toNat]
def k0_off206 (v1159 : BitVec 32) : Fin 2 → Nat :=
  let c0_i32_547 : BitVec 32 := 0#32
  ![v1159.toNat, 0]

def k0_chk137 (v1159 : BitVec 32) : Prop :=
  (∀ a, (k0_off206 v1159) a + S1x100.size a ≤ S150000x100.size a)
instance k0_chk137.dec : ∀ (v1159 : BitVec 32), Decidable (k0_chk137 v1159) := fun v1159 => decidable_of_iff' _ (Iff.of_eq (k0_chk137.eq_1 v1159))
theorem k0_off206_inb : ∀ (v1159 : BitVec 32) (k0_hw137 : k0_chk137 v1159), ∀ a, (k0_off206 v1159) a + S1x100.size a ≤ S150000x100.size a := fun v1159 k0_hw137 => k0_hw137

def k0_off207 (v1161 : BitVec 32) : Fin 2 → Nat :=
  let c0_i32_551 : BitVec 32 := 0#32
  ![v1161.toNat, 0]

def k0_chk138 (v1161 : BitVec 32) : Prop :=
  (∀ a, (k0_off207 v1161) a + S1x100.size a ≤ S150000x100.size a)
instance k0_chk138.dec : ∀ (v1161 : BitVec 32), Decidable (k0_chk138 v1161) := fun v1161 => decidable_of_iff' _ (Iff.of_eq (k0_chk138.eq_1 v1161))
theorem k0_off207_inb : ∀ (v1161 : BitVec 32) (k0_hw138 : k0_chk138 v1161), ∀ a, (k0_off207 v1161) a + S1x100.size a ≤ S150000x100.size a := fun v1161 k0_hw138 => k0_hw138

def k0_off208 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v1174 : BitVec 32 := Scalar.addi v0 c69_i32
  let v1175 : Index := Scalar.indexCast v1174
  ![v1175.toNat]
def k0_off209 (v1176 : BitVec 32) : Fin 2 → Nat :=
  let c0_i32_555 : BitVec 32 := 0#32
  ![v1176.toNat, 0]

def k0_chk139 (v1176 : BitVec 32) : Prop :=
  (∀ a, (k0_off209 v1176) a + S1x100.size a ≤ S150000x100.size a)
instance k0_chk139.dec : ∀ (v1176 : BitVec 32), Decidable (k0_chk139 v1176) := fun v1176 => decidable_of_iff' _ (Iff.of_eq (k0_chk139.eq_1 v1176))
theorem k0_off209_inb : ∀ (v1176 : BitVec 32) (k0_hw139 : k0_chk139 v1176), ∀ a, (k0_off209 v1176) a + S1x100.size a ≤ S150000x100.size a := fun v1176 k0_hw139 => k0_hw139

def k0_off210 (v1178 : BitVec 32) : Fin 2 → Nat :=
  let c0_i32_559 : BitVec 32 := 0#32
  ![v1178.toNat, 0]

def k0_chk140 (v1178 : BitVec 32) : Prop :=
  (∀ a, (k0_off210 v1178) a + S1x100.size a ≤ S150000x100.size a)
instance k0_chk140.dec : ∀ (v1178 : BitVec 32), Decidable (k0_chk140 v1178) := fun v1178 => decidable_of_iff' _ (Iff.of_eq (k0_chk140.eq_1 v1178))
theorem k0_off210_inb : ∀ (v1178 : BitVec 32) (k0_hw140 : k0_chk140 v1178), ∀ a, (k0_off210 v1178) a + S1x100.size a ≤ S150000x100.size a := fun v1178 k0_hw140 => k0_hw140

def k0_off211 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v1191 : BitVec 32 := Scalar.addi v0 c70_i32
  let v1192 : Index := Scalar.indexCast v1191
  ![v1192.toNat]
def k0_off212 (v1193 : BitVec 32) : Fin 2 → Nat :=
  let c0_i32_563 : BitVec 32 := 0#32
  ![v1193.toNat, 0]

def k0_chk141 (v1193 : BitVec 32) : Prop :=
  (∀ a, (k0_off212 v1193) a + S1x100.size a ≤ S150000x100.size a)
instance k0_chk141.dec : ∀ (v1193 : BitVec 32), Decidable (k0_chk141 v1193) := fun v1193 => decidable_of_iff' _ (Iff.of_eq (k0_chk141.eq_1 v1193))
theorem k0_off212_inb : ∀ (v1193 : BitVec 32) (k0_hw141 : k0_chk141 v1193), ∀ a, (k0_off212 v1193) a + S1x100.size a ≤ S150000x100.size a := fun v1193 k0_hw141 => k0_hw141

def k0_off213 (v1195 : BitVec 32) : Fin 2 → Nat :=
  let c0_i32_567 : BitVec 32 := 0#32
  ![v1195.toNat, 0]

def k0_chk142 (v1195 : BitVec 32) : Prop :=
  (∀ a, (k0_off213 v1195) a + S1x100.size a ≤ S150000x100.size a)
instance k0_chk142.dec : ∀ (v1195 : BitVec 32), Decidable (k0_chk142 v1195) := fun v1195 => decidable_of_iff' _ (Iff.of_eq (k0_chk142.eq_1 v1195))
theorem k0_off213_inb : ∀ (v1195 : BitVec 32) (k0_hw142 : k0_chk142 v1195), ∀ a, (k0_off213 v1195) a + S1x100.size a ≤ S150000x100.size a := fun v1195 k0_hw142 => k0_hw142

def k0_off214 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v1208 : BitVec 32 := Scalar.addi v0 c71_i32
  let v1209 : Index := Scalar.indexCast v1208
  ![v1209.toNat]
def k0_off215 (v1210 : BitVec 32) : Fin 2 → Nat :=
  let c0_i32_571 : BitVec 32 := 0#32
  ![v1210.toNat, 0]

def k0_chk143 (v1210 : BitVec 32) : Prop :=
  (∀ a, (k0_off215 v1210) a + S1x100.size a ≤ S150000x100.size a)
instance k0_chk143.dec : ∀ (v1210 : BitVec 32), Decidable (k0_chk143 v1210) := fun v1210 => decidable_of_iff' _ (Iff.of_eq (k0_chk143.eq_1 v1210))
theorem k0_off215_inb : ∀ (v1210 : BitVec 32) (k0_hw143 : k0_chk143 v1210), ∀ a, (k0_off215 v1210) a + S1x100.size a ≤ S150000x100.size a := fun v1210 k0_hw143 => k0_hw143

def k0_off216 (v1212 : BitVec 32) : Fin 2 → Nat :=
  let c0_i32_575 : BitVec 32 := 0#32
  ![v1212.toNat, 0]

def k0_chk144 (v1212 : BitVec 32) : Prop :=
  (∀ a, (k0_off216 v1212) a + S1x100.size a ≤ S150000x100.size a)
instance k0_chk144.dec : ∀ (v1212 : BitVec 32), Decidable (k0_chk144 v1212) := fun v1212 => decidable_of_iff' _ (Iff.of_eq (k0_chk144.eq_1 v1212))
theorem k0_off216_inb : ∀ (v1212 : BitVec 32) (k0_hw144 : k0_chk144 v1212), ∀ a, (k0_off216 v1212) a + S1x100.size a ≤ S150000x100.size a := fun v1212 k0_hw144 => k0_hw144

def k0_off217 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v1225 : BitVec 32 := Scalar.addi v0 c72_i32
  let v1226 : Index := Scalar.indexCast v1225
  ![v1226.toNat]
def k0_off218 (v1227 : BitVec 32) : Fin 2 → Nat :=
  let c0_i32_579 : BitVec 32 := 0#32
  ![v1227.toNat, 0]

def k0_chk145 (v1227 : BitVec 32) : Prop :=
  (∀ a, (k0_off218 v1227) a + S1x100.size a ≤ S150000x100.size a)
instance k0_chk145.dec : ∀ (v1227 : BitVec 32), Decidable (k0_chk145 v1227) := fun v1227 => decidable_of_iff' _ (Iff.of_eq (k0_chk145.eq_1 v1227))
theorem k0_off218_inb : ∀ (v1227 : BitVec 32) (k0_hw145 : k0_chk145 v1227), ∀ a, (k0_off218 v1227) a + S1x100.size a ≤ S150000x100.size a := fun v1227 k0_hw145 => k0_hw145

def k0_off219 (v1229 : BitVec 32) : Fin 2 → Nat :=
  let c0_i32_583 : BitVec 32 := 0#32
  ![v1229.toNat, 0]

def k0_chk146 (v1229 : BitVec 32) : Prop :=
  (∀ a, (k0_off219 v1229) a + S1x100.size a ≤ S150000x100.size a)
instance k0_chk146.dec : ∀ (v1229 : BitVec 32), Decidable (k0_chk146 v1229) := fun v1229 => decidable_of_iff' _ (Iff.of_eq (k0_chk146.eq_1 v1229))
theorem k0_off219_inb : ∀ (v1229 : BitVec 32) (k0_hw146 : k0_chk146 v1229), ∀ a, (k0_off219 v1229) a + S1x100.size a ≤ S150000x100.size a := fun v1229 k0_hw146 => k0_hw146

def k0_off220 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v1242 : BitVec 32 := Scalar.addi v0 c73_i32
  let v1243 : Index := Scalar.indexCast v1242
  ![v1243.toNat]
def k0_off221 (v1244 : BitVec 32) : Fin 2 → Nat :=
  let c0_i32_587 : BitVec 32 := 0#32
  ![v1244.toNat, 0]

def k0_chk147 (v1244 : BitVec 32) : Prop :=
  (∀ a, (k0_off221 v1244) a + S1x100.size a ≤ S150000x100.size a)
instance k0_chk147.dec : ∀ (v1244 : BitVec 32), Decidable (k0_chk147 v1244) := fun v1244 => decidable_of_iff' _ (Iff.of_eq (k0_chk147.eq_1 v1244))
theorem k0_off221_inb : ∀ (v1244 : BitVec 32) (k0_hw147 : k0_chk147 v1244), ∀ a, (k0_off221 v1244) a + S1x100.size a ≤ S150000x100.size a := fun v1244 k0_hw147 => k0_hw147

def k0_off222 (v1246 : BitVec 32) : Fin 2 → Nat :=
  let c0_i32_591 : BitVec 32 := 0#32
  ![v1246.toNat, 0]

def k0_chk148 (v1246 : BitVec 32) : Prop :=
  (∀ a, (k0_off222 v1246) a + S1x100.size a ≤ S150000x100.size a)
instance k0_chk148.dec : ∀ (v1246 : BitVec 32), Decidable (k0_chk148 v1246) := fun v1246 => decidable_of_iff' _ (Iff.of_eq (k0_chk148.eq_1 v1246))
theorem k0_off222_inb : ∀ (v1246 : BitVec 32) (k0_hw148 : k0_chk148 v1246), ∀ a, (k0_off222 v1246) a + S1x100.size a ≤ S150000x100.size a := fun v1246 k0_hw148 => k0_hw148

def k0_off223 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v1259 : BitVec 32 := Scalar.addi v0 c74_i32
  let v1260 : Index := Scalar.indexCast v1259
  ![v1260.toNat]
def k0_off224 (v1261 : BitVec 32) : Fin 2 → Nat :=
  let c0_i32_595 : BitVec 32 := 0#32
  ![v1261.toNat, 0]

def k0_chk149 (v1261 : BitVec 32) : Prop :=
  (∀ a, (k0_off224 v1261) a + S1x100.size a ≤ S150000x100.size a)
instance k0_chk149.dec : ∀ (v1261 : BitVec 32), Decidable (k0_chk149 v1261) := fun v1261 => decidable_of_iff' _ (Iff.of_eq (k0_chk149.eq_1 v1261))
theorem k0_off224_inb : ∀ (v1261 : BitVec 32) (k0_hw149 : k0_chk149 v1261), ∀ a, (k0_off224 v1261) a + S1x100.size a ≤ S150000x100.size a := fun v1261 k0_hw149 => k0_hw149

def k0_off225 (v1263 : BitVec 32) : Fin 2 → Nat :=
  let c0_i32_599 : BitVec 32 := 0#32
  ![v1263.toNat, 0]

def k0_chk150 (v1263 : BitVec 32) : Prop :=
  (∀ a, (k0_off225 v1263) a + S1x100.size a ≤ S150000x100.size a)
instance k0_chk150.dec : ∀ (v1263 : BitVec 32), Decidable (k0_chk150 v1263) := fun v1263 => decidable_of_iff' _ (Iff.of_eq (k0_chk150.eq_1 v1263))
theorem k0_off225_inb : ∀ (v1263 : BitVec 32) (k0_hw150 : k0_chk150 v1263), ∀ a, (k0_off225 v1263) a + S1x100.size a ≤ S150000x100.size a := fun v1263 k0_hw150 => k0_hw150

def k0_off226 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v1276 : BitVec 32 := Scalar.addi v0 c75_i32
  let v1277 : Index := Scalar.indexCast v1276
  ![v1277.toNat]
def k0_off227 (v1278 : BitVec 32) : Fin 2 → Nat :=
  let c0_i32_603 : BitVec 32 := 0#32
  ![v1278.toNat, 0]

def k0_chk151 (v1278 : BitVec 32) : Prop :=
  (∀ a, (k0_off227 v1278) a + S1x100.size a ≤ S150000x100.size a)
instance k0_chk151.dec : ∀ (v1278 : BitVec 32), Decidable (k0_chk151 v1278) := fun v1278 => decidable_of_iff' _ (Iff.of_eq (k0_chk151.eq_1 v1278))
theorem k0_off227_inb : ∀ (v1278 : BitVec 32) (k0_hw151 : k0_chk151 v1278), ∀ a, (k0_off227 v1278) a + S1x100.size a ≤ S150000x100.size a := fun v1278 k0_hw151 => k0_hw151

def k0_off228 (v1280 : BitVec 32) : Fin 2 → Nat :=
  let c0_i32_607 : BitVec 32 := 0#32
  ![v1280.toNat, 0]

def k0_chk152 (v1280 : BitVec 32) : Prop :=
  (∀ a, (k0_off228 v1280) a + S1x100.size a ≤ S150000x100.size a)
instance k0_chk152.dec : ∀ (v1280 : BitVec 32), Decidable (k0_chk152 v1280) := fun v1280 => decidable_of_iff' _ (Iff.of_eq (k0_chk152.eq_1 v1280))
theorem k0_off228_inb : ∀ (v1280 : BitVec 32) (k0_hw152 : k0_chk152 v1280), ∀ a, (k0_off228 v1280) a + S1x100.size a ≤ S150000x100.size a := fun v1280 k0_hw152 => k0_hw152

def k0_off229 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v1293 : BitVec 32 := Scalar.addi v0 c76_i32
  let v1294 : Index := Scalar.indexCast v1293
  ![v1294.toNat]
def k0_off230 (v1295 : BitVec 32) : Fin 2 → Nat :=
  let c0_i32_611 : BitVec 32 := 0#32
  ![v1295.toNat, 0]

def k0_chk153 (v1295 : BitVec 32) : Prop :=
  (∀ a, (k0_off230 v1295) a + S1x100.size a ≤ S150000x100.size a)
instance k0_chk153.dec : ∀ (v1295 : BitVec 32), Decidable (k0_chk153 v1295) := fun v1295 => decidable_of_iff' _ (Iff.of_eq (k0_chk153.eq_1 v1295))
theorem k0_off230_inb : ∀ (v1295 : BitVec 32) (k0_hw153 : k0_chk153 v1295), ∀ a, (k0_off230 v1295) a + S1x100.size a ≤ S150000x100.size a := fun v1295 k0_hw153 => k0_hw153

def k0_off231 (v1297 : BitVec 32) : Fin 2 → Nat :=
  let c0_i32_615 : BitVec 32 := 0#32
  ![v1297.toNat, 0]

def k0_chk154 (v1297 : BitVec 32) : Prop :=
  (∀ a, (k0_off231 v1297) a + S1x100.size a ≤ S150000x100.size a)
instance k0_chk154.dec : ∀ (v1297 : BitVec 32), Decidable (k0_chk154 v1297) := fun v1297 => decidable_of_iff' _ (Iff.of_eq (k0_chk154.eq_1 v1297))
theorem k0_off231_inb : ∀ (v1297 : BitVec 32) (k0_hw154 : k0_chk154 v1297), ∀ a, (k0_off231 v1297) a + S1x100.size a ≤ S150000x100.size a := fun v1297 k0_hw154 => k0_hw154

def k0_off232 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v1310 : BitVec 32 := Scalar.addi v0 c77_i32
  let v1311 : Index := Scalar.indexCast v1310
  ![v1311.toNat]
def k0_off233 (v1312 : BitVec 32) : Fin 2 → Nat :=
  let c0_i32_619 : BitVec 32 := 0#32
  ![v1312.toNat, 0]

def k0_chk155 (v1312 : BitVec 32) : Prop :=
  (∀ a, (k0_off233 v1312) a + S1x100.size a ≤ S150000x100.size a)
instance k0_chk155.dec : ∀ (v1312 : BitVec 32), Decidable (k0_chk155 v1312) := fun v1312 => decidable_of_iff' _ (Iff.of_eq (k0_chk155.eq_1 v1312))
theorem k0_off233_inb : ∀ (v1312 : BitVec 32) (k0_hw155 : k0_chk155 v1312), ∀ a, (k0_off233 v1312) a + S1x100.size a ≤ S150000x100.size a := fun v1312 k0_hw155 => k0_hw155

def k0_off234 (v1314 : BitVec 32) : Fin 2 → Nat :=
  let c0_i32_623 : BitVec 32 := 0#32
  ![v1314.toNat, 0]

def k0_chk156 (v1314 : BitVec 32) : Prop :=
  (∀ a, (k0_off234 v1314) a + S1x100.size a ≤ S150000x100.size a)
instance k0_chk156.dec : ∀ (v1314 : BitVec 32), Decidable (k0_chk156 v1314) := fun v1314 => decidable_of_iff' _ (Iff.of_eq (k0_chk156.eq_1 v1314))
theorem k0_off234_inb : ∀ (v1314 : BitVec 32) (k0_hw156 : k0_chk156 v1314), ∀ a, (k0_off234 v1314) a + S1x100.size a ≤ S150000x100.size a := fun v1314 k0_hw156 => k0_hw156

def k0_off235 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v1327 : BitVec 32 := Scalar.addi v0 c78_i32
  let v1328 : Index := Scalar.indexCast v1327
  ![v1328.toNat]
def k0_off236 (v1329 : BitVec 32) : Fin 2 → Nat :=
  let c0_i32_627 : BitVec 32 := 0#32
  ![v1329.toNat, 0]

def k0_chk157 (v1329 : BitVec 32) : Prop :=
  (∀ a, (k0_off236 v1329) a + S1x100.size a ≤ S150000x100.size a)
instance k0_chk157.dec : ∀ (v1329 : BitVec 32), Decidable (k0_chk157 v1329) := fun v1329 => decidable_of_iff' _ (Iff.of_eq (k0_chk157.eq_1 v1329))
theorem k0_off236_inb : ∀ (v1329 : BitVec 32) (k0_hw157 : k0_chk157 v1329), ∀ a, (k0_off236 v1329) a + S1x100.size a ≤ S150000x100.size a := fun v1329 k0_hw157 => k0_hw157

def k0_off237 (v1331 : BitVec 32) : Fin 2 → Nat :=
  let c0_i32_631 : BitVec 32 := 0#32
  ![v1331.toNat, 0]

def k0_chk158 (v1331 : BitVec 32) : Prop :=
  (∀ a, (k0_off237 v1331) a + S1x100.size a ≤ S150000x100.size a)
instance k0_chk158.dec : ∀ (v1331 : BitVec 32), Decidable (k0_chk158 v1331) := fun v1331 => decidable_of_iff' _ (Iff.of_eq (k0_chk158.eq_1 v1331))
theorem k0_off237_inb : ∀ (v1331 : BitVec 32) (k0_hw158 : k0_chk158 v1331), ∀ a, (k0_off237 v1331) a + S1x100.size a ≤ S150000x100.size a := fun v1331 k0_hw158 => k0_hw158

def k0_off238 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v1344 : BitVec 32 := Scalar.addi v0 c79_i32
  let v1345 : Index := Scalar.indexCast v1344
  ![v1345.toNat]
def k0_off239 (v1346 : BitVec 32) : Fin 2 → Nat :=
  let c0_i32_635 : BitVec 32 := 0#32
  ![v1346.toNat, 0]

def k0_chk159 (v1346 : BitVec 32) : Prop :=
  (∀ a, (k0_off239 v1346) a + S1x100.size a ≤ S150000x100.size a)
instance k0_chk159.dec : ∀ (v1346 : BitVec 32), Decidable (k0_chk159 v1346) := fun v1346 => decidable_of_iff' _ (Iff.of_eq (k0_chk159.eq_1 v1346))
theorem k0_off239_inb : ∀ (v1346 : BitVec 32) (k0_hw159 : k0_chk159 v1346), ∀ a, (k0_off239 v1346) a + S1x100.size a ≤ S150000x100.size a := fun v1346 k0_hw159 => k0_hw159

def k0_off240 (v1348 : BitVec 32) : Fin 2 → Nat :=
  let c0_i32_639 : BitVec 32 := 0#32
  ![v1348.toNat, 0]

def k0_chk160 (v1348 : BitVec 32) : Prop :=
  (∀ a, (k0_off240 v1348) a + S1x100.size a ≤ S150000x100.size a)
instance k0_chk160.dec : ∀ (v1348 : BitVec 32), Decidable (k0_chk160 v1348) := fun v1348 => decidable_of_iff' _ (Iff.of_eq (k0_chk160.eq_1 v1348))
theorem k0_off240_inb : ∀ (v1348 : BitVec 32) (k0_hw160 : k0_chk160 v1348), ∀ a, (k0_off240 v1348) a + S1x100.size a ≤ S150000x100.size a := fun v1348 k0_hw160 => k0_hw160

def k0_off241 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v1361 : BitVec 32 := Scalar.addi v0 c80_i32
  let v1362 : Index := Scalar.indexCast v1361
  ![v1362.toNat]
def k0_off242 (v1363 : BitVec 32) : Fin 2 → Nat :=
  let c0_i32_643 : BitVec 32 := 0#32
  ![v1363.toNat, 0]

def k0_chk161 (v1363 : BitVec 32) : Prop :=
  (∀ a, (k0_off242 v1363) a + S1x100.size a ≤ S150000x100.size a)
instance k0_chk161.dec : ∀ (v1363 : BitVec 32), Decidable (k0_chk161 v1363) := fun v1363 => decidable_of_iff' _ (Iff.of_eq (k0_chk161.eq_1 v1363))
theorem k0_off242_inb : ∀ (v1363 : BitVec 32) (k0_hw161 : k0_chk161 v1363), ∀ a, (k0_off242 v1363) a + S1x100.size a ≤ S150000x100.size a := fun v1363 k0_hw161 => k0_hw161

def k0_off243 (v1365 : BitVec 32) : Fin 2 → Nat :=
  let c0_i32_647 : BitVec 32 := 0#32
  ![v1365.toNat, 0]

def k0_chk162 (v1365 : BitVec 32) : Prop :=
  (∀ a, (k0_off243 v1365) a + S1x100.size a ≤ S150000x100.size a)
instance k0_chk162.dec : ∀ (v1365 : BitVec 32), Decidable (k0_chk162 v1365) := fun v1365 => decidable_of_iff' _ (Iff.of_eq (k0_chk162.eq_1 v1365))
theorem k0_off243_inb : ∀ (v1365 : BitVec 32) (k0_hw162 : k0_chk162 v1365), ∀ a, (k0_off243 v1365) a + S1x100.size a ≤ S150000x100.size a := fun v1365 k0_hw162 => k0_hw162

def k0_off244 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v1378 : BitVec 32 := Scalar.addi v0 c81_i32
  let v1379 : Index := Scalar.indexCast v1378
  ![v1379.toNat]
def k0_off245 (v1380 : BitVec 32) : Fin 2 → Nat :=
  let c0_i32_651 : BitVec 32 := 0#32
  ![v1380.toNat, 0]

def k0_chk163 (v1380 : BitVec 32) : Prop :=
  (∀ a, (k0_off245 v1380) a + S1x100.size a ≤ S150000x100.size a)
instance k0_chk163.dec : ∀ (v1380 : BitVec 32), Decidable (k0_chk163 v1380) := fun v1380 => decidable_of_iff' _ (Iff.of_eq (k0_chk163.eq_1 v1380))
theorem k0_off245_inb : ∀ (v1380 : BitVec 32) (k0_hw163 : k0_chk163 v1380), ∀ a, (k0_off245 v1380) a + S1x100.size a ≤ S150000x100.size a := fun v1380 k0_hw163 => k0_hw163

def k0_off246 (v1382 : BitVec 32) : Fin 2 → Nat :=
  let c0_i32_655 : BitVec 32 := 0#32
  ![v1382.toNat, 0]

def k0_chk164 (v1382 : BitVec 32) : Prop :=
  (∀ a, (k0_off246 v1382) a + S1x100.size a ≤ S150000x100.size a)
instance k0_chk164.dec : ∀ (v1382 : BitVec 32), Decidable (k0_chk164 v1382) := fun v1382 => decidable_of_iff' _ (Iff.of_eq (k0_chk164.eq_1 v1382))
theorem k0_off246_inb : ∀ (v1382 : BitVec 32) (k0_hw164 : k0_chk164 v1382), ∀ a, (k0_off246 v1382) a + S1x100.size a ≤ S150000x100.size a := fun v1382 k0_hw164 => k0_hw164

def k0_off247 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v1395 : BitVec 32 := Scalar.addi v0 c82_i32
  let v1396 : Index := Scalar.indexCast v1395
  ![v1396.toNat]
def k0_off248 (v1397 : BitVec 32) : Fin 2 → Nat :=
  let c0_i32_659 : BitVec 32 := 0#32
  ![v1397.toNat, 0]

def k0_chk165 (v1397 : BitVec 32) : Prop :=
  (∀ a, (k0_off248 v1397) a + S1x100.size a ≤ S150000x100.size a)
instance k0_chk165.dec : ∀ (v1397 : BitVec 32), Decidable (k0_chk165 v1397) := fun v1397 => decidable_of_iff' _ (Iff.of_eq (k0_chk165.eq_1 v1397))
theorem k0_off248_inb : ∀ (v1397 : BitVec 32) (k0_hw165 : k0_chk165 v1397), ∀ a, (k0_off248 v1397) a + S1x100.size a ≤ S150000x100.size a := fun v1397 k0_hw165 => k0_hw165

def k0_off249 (v1399 : BitVec 32) : Fin 2 → Nat :=
  let c0_i32_663 : BitVec 32 := 0#32
  ![v1399.toNat, 0]

def k0_chk166 (v1399 : BitVec 32) : Prop :=
  (∀ a, (k0_off249 v1399) a + S1x100.size a ≤ S150000x100.size a)
instance k0_chk166.dec : ∀ (v1399 : BitVec 32), Decidable (k0_chk166 v1399) := fun v1399 => decidable_of_iff' _ (Iff.of_eq (k0_chk166.eq_1 v1399))
theorem k0_off249_inb : ∀ (v1399 : BitVec 32) (k0_hw166 : k0_chk166 v1399), ∀ a, (k0_off249 v1399) a + S1x100.size a ≤ S150000x100.size a := fun v1399 k0_hw166 => k0_hw166

def k0_off250 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v1412 : BitVec 32 := Scalar.addi v0 c83_i32
  let v1413 : Index := Scalar.indexCast v1412
  ![v1413.toNat]
def k0_off251 (v1414 : BitVec 32) : Fin 2 → Nat :=
  let c0_i32_667 : BitVec 32 := 0#32
  ![v1414.toNat, 0]

def k0_chk167 (v1414 : BitVec 32) : Prop :=
  (∀ a, (k0_off251 v1414) a + S1x100.size a ≤ S150000x100.size a)
instance k0_chk167.dec : ∀ (v1414 : BitVec 32), Decidable (k0_chk167 v1414) := fun v1414 => decidable_of_iff' _ (Iff.of_eq (k0_chk167.eq_1 v1414))
theorem k0_off251_inb : ∀ (v1414 : BitVec 32) (k0_hw167 : k0_chk167 v1414), ∀ a, (k0_off251 v1414) a + S1x100.size a ≤ S150000x100.size a := fun v1414 k0_hw167 => k0_hw167

def k0_off252 (v1416 : BitVec 32) : Fin 2 → Nat :=
  let c0_i32_671 : BitVec 32 := 0#32
  ![v1416.toNat, 0]

def k0_chk168 (v1416 : BitVec 32) : Prop :=
  (∀ a, (k0_off252 v1416) a + S1x100.size a ≤ S150000x100.size a)
instance k0_chk168.dec : ∀ (v1416 : BitVec 32), Decidable (k0_chk168 v1416) := fun v1416 => decidable_of_iff' _ (Iff.of_eq (k0_chk168.eq_1 v1416))
theorem k0_off252_inb : ∀ (v1416 : BitVec 32) (k0_hw168 : k0_chk168 v1416), ∀ a, (k0_off252 v1416) a + S1x100.size a ≤ S150000x100.size a := fun v1416 k0_hw168 => k0_hw168

def k0_off253 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v1429 : BitVec 32 := Scalar.addi v0 c84_i32
  let v1430 : Index := Scalar.indexCast v1429
  ![v1430.toNat]
def k0_off254 (v1431 : BitVec 32) : Fin 2 → Nat :=
  let c0_i32_675 : BitVec 32 := 0#32
  ![v1431.toNat, 0]

def k0_chk169 (v1431 : BitVec 32) : Prop :=
  (∀ a, (k0_off254 v1431) a + S1x100.size a ≤ S150000x100.size a)
instance k0_chk169.dec : ∀ (v1431 : BitVec 32), Decidable (k0_chk169 v1431) := fun v1431 => decidable_of_iff' _ (Iff.of_eq (k0_chk169.eq_1 v1431))
theorem k0_off254_inb : ∀ (v1431 : BitVec 32) (k0_hw169 : k0_chk169 v1431), ∀ a, (k0_off254 v1431) a + S1x100.size a ≤ S150000x100.size a := fun v1431 k0_hw169 => k0_hw169

def k0_off255 (v1433 : BitVec 32) : Fin 2 → Nat :=
  let c0_i32_679 : BitVec 32 := 0#32
  ![v1433.toNat, 0]

def k0_chk170 (v1433 : BitVec 32) : Prop :=
  (∀ a, (k0_off255 v1433) a + S1x100.size a ≤ S150000x100.size a)
instance k0_chk170.dec : ∀ (v1433 : BitVec 32), Decidable (k0_chk170 v1433) := fun v1433 => decidable_of_iff' _ (Iff.of_eq (k0_chk170.eq_1 v1433))
theorem k0_off255_inb : ∀ (v1433 : BitVec 32) (k0_hw170 : k0_chk170 v1433), ∀ a, (k0_off255 v1433) a + S1x100.size a ≤ S150000x100.size a := fun v1433 k0_hw170 => k0_hw170

def k0_off256 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v1446 : BitVec 32 := Scalar.addi v0 c85_i32
  let v1447 : Index := Scalar.indexCast v1446
  ![v1447.toNat]
def k0_off257 (v1448 : BitVec 32) : Fin 2 → Nat :=
  let c0_i32_683 : BitVec 32 := 0#32
  ![v1448.toNat, 0]

def k0_chk171 (v1448 : BitVec 32) : Prop :=
  (∀ a, (k0_off257 v1448) a + S1x100.size a ≤ S150000x100.size a)
instance k0_chk171.dec : ∀ (v1448 : BitVec 32), Decidable (k0_chk171 v1448) := fun v1448 => decidable_of_iff' _ (Iff.of_eq (k0_chk171.eq_1 v1448))
theorem k0_off257_inb : ∀ (v1448 : BitVec 32) (k0_hw171 : k0_chk171 v1448), ∀ a, (k0_off257 v1448) a + S1x100.size a ≤ S150000x100.size a := fun v1448 k0_hw171 => k0_hw171

def k0_off258 (v1450 : BitVec 32) : Fin 2 → Nat :=
  let c0_i32_687 : BitVec 32 := 0#32
  ![v1450.toNat, 0]

def k0_chk172 (v1450 : BitVec 32) : Prop :=
  (∀ a, (k0_off258 v1450) a + S1x100.size a ≤ S150000x100.size a)
instance k0_chk172.dec : ∀ (v1450 : BitVec 32), Decidable (k0_chk172 v1450) := fun v1450 => decidable_of_iff' _ (Iff.of_eq (k0_chk172.eq_1 v1450))
theorem k0_off258_inb : ∀ (v1450 : BitVec 32) (k0_hw172 : k0_chk172 v1450), ∀ a, (k0_off258 v1450) a + S1x100.size a ≤ S150000x100.size a := fun v1450 k0_hw172 => k0_hw172

def k0_off259 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v1463 : BitVec 32 := Scalar.addi v0 c86_i32
  let v1464 : Index := Scalar.indexCast v1463
  ![v1464.toNat]
def k0_off260 (v1465 : BitVec 32) : Fin 2 → Nat :=
  let c0_i32_691 : BitVec 32 := 0#32
  ![v1465.toNat, 0]

def k0_chk173 (v1465 : BitVec 32) : Prop :=
  (∀ a, (k0_off260 v1465) a + S1x100.size a ≤ S150000x100.size a)
instance k0_chk173.dec : ∀ (v1465 : BitVec 32), Decidable (k0_chk173 v1465) := fun v1465 => decidable_of_iff' _ (Iff.of_eq (k0_chk173.eq_1 v1465))
theorem k0_off260_inb : ∀ (v1465 : BitVec 32) (k0_hw173 : k0_chk173 v1465), ∀ a, (k0_off260 v1465) a + S1x100.size a ≤ S150000x100.size a := fun v1465 k0_hw173 => k0_hw173

def k0_off261 (v1467 : BitVec 32) : Fin 2 → Nat :=
  let c0_i32_695 : BitVec 32 := 0#32
  ![v1467.toNat, 0]

def k0_chk174 (v1467 : BitVec 32) : Prop :=
  (∀ a, (k0_off261 v1467) a + S1x100.size a ≤ S150000x100.size a)
instance k0_chk174.dec : ∀ (v1467 : BitVec 32), Decidable (k0_chk174 v1467) := fun v1467 => decidable_of_iff' _ (Iff.of_eq (k0_chk174.eq_1 v1467))
theorem k0_off261_inb : ∀ (v1467 : BitVec 32) (k0_hw174 : k0_chk174 v1467), ∀ a, (k0_off261 v1467) a + S1x100.size a ≤ S150000x100.size a := fun v1467 k0_hw174 => k0_hw174

def k0_off262 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v1480 : BitVec 32 := Scalar.addi v0 c87_i32
  let v1481 : Index := Scalar.indexCast v1480
  ![v1481.toNat]
def k0_off263 (v1482 : BitVec 32) : Fin 2 → Nat :=
  let c0_i32_699 : BitVec 32 := 0#32
  ![v1482.toNat, 0]

def k0_chk175 (v1482 : BitVec 32) : Prop :=
  (∀ a, (k0_off263 v1482) a + S1x100.size a ≤ S150000x100.size a)
instance k0_chk175.dec : ∀ (v1482 : BitVec 32), Decidable (k0_chk175 v1482) := fun v1482 => decidable_of_iff' _ (Iff.of_eq (k0_chk175.eq_1 v1482))
theorem k0_off263_inb : ∀ (v1482 : BitVec 32) (k0_hw175 : k0_chk175 v1482), ∀ a, (k0_off263 v1482) a + S1x100.size a ≤ S150000x100.size a := fun v1482 k0_hw175 => k0_hw175

def k0_off264 (v1484 : BitVec 32) : Fin 2 → Nat :=
  let c0_i32_703 : BitVec 32 := 0#32
  ![v1484.toNat, 0]

def k0_chk176 (v1484 : BitVec 32) : Prop :=
  (∀ a, (k0_off264 v1484) a + S1x100.size a ≤ S150000x100.size a)
instance k0_chk176.dec : ∀ (v1484 : BitVec 32), Decidable (k0_chk176 v1484) := fun v1484 => decidable_of_iff' _ (Iff.of_eq (k0_chk176.eq_1 v1484))
theorem k0_off264_inb : ∀ (v1484 : BitVec 32) (k0_hw176 : k0_chk176 v1484), ∀ a, (k0_off264 v1484) a + S1x100.size a ≤ S150000x100.size a := fun v1484 k0_hw176 => k0_hw176

def k0_off265 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v1497 : BitVec 32 := Scalar.addi v0 c88_i32
  let v1498 : Index := Scalar.indexCast v1497
  ![v1498.toNat]
def k0_off266 (v1499 : BitVec 32) : Fin 2 → Nat :=
  let c0_i32_707 : BitVec 32 := 0#32
  ![v1499.toNat, 0]

def k0_chk177 (v1499 : BitVec 32) : Prop :=
  (∀ a, (k0_off266 v1499) a + S1x100.size a ≤ S150000x100.size a)
instance k0_chk177.dec : ∀ (v1499 : BitVec 32), Decidable (k0_chk177 v1499) := fun v1499 => decidable_of_iff' _ (Iff.of_eq (k0_chk177.eq_1 v1499))
theorem k0_off266_inb : ∀ (v1499 : BitVec 32) (k0_hw177 : k0_chk177 v1499), ∀ a, (k0_off266 v1499) a + S1x100.size a ≤ S150000x100.size a := fun v1499 k0_hw177 => k0_hw177

def k0_off267 (v1501 : BitVec 32) : Fin 2 → Nat :=
  let c0_i32_711 : BitVec 32 := 0#32
  ![v1501.toNat, 0]

def k0_chk178 (v1501 : BitVec 32) : Prop :=
  (∀ a, (k0_off267 v1501) a + S1x100.size a ≤ S150000x100.size a)
instance k0_chk178.dec : ∀ (v1501 : BitVec 32), Decidable (k0_chk178 v1501) := fun v1501 => decidable_of_iff' _ (Iff.of_eq (k0_chk178.eq_1 v1501))
theorem k0_off267_inb : ∀ (v1501 : BitVec 32) (k0_hw178 : k0_chk178 v1501), ∀ a, (k0_off267 v1501) a + S1x100.size a ≤ S150000x100.size a := fun v1501 k0_hw178 => k0_hw178

def k0_off268 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v1514 : BitVec 32 := Scalar.addi v0 c89_i32
  let v1515 : Index := Scalar.indexCast v1514
  ![v1515.toNat]
def k0_off269 (v1516 : BitVec 32) : Fin 2 → Nat :=
  let c0_i32_715 : BitVec 32 := 0#32
  ![v1516.toNat, 0]

def k0_chk179 (v1516 : BitVec 32) : Prop :=
  (∀ a, (k0_off269 v1516) a + S1x100.size a ≤ S150000x100.size a)
instance k0_chk179.dec : ∀ (v1516 : BitVec 32), Decidable (k0_chk179 v1516) := fun v1516 => decidable_of_iff' _ (Iff.of_eq (k0_chk179.eq_1 v1516))
theorem k0_off269_inb : ∀ (v1516 : BitVec 32) (k0_hw179 : k0_chk179 v1516), ∀ a, (k0_off269 v1516) a + S1x100.size a ≤ S150000x100.size a := fun v1516 k0_hw179 => k0_hw179

def k0_off270 (v1518 : BitVec 32) : Fin 2 → Nat :=
  let c0_i32_719 : BitVec 32 := 0#32
  ![v1518.toNat, 0]

def k0_chk180 (v1518 : BitVec 32) : Prop :=
  (∀ a, (k0_off270 v1518) a + S1x100.size a ≤ S150000x100.size a)
instance k0_chk180.dec : ∀ (v1518 : BitVec 32), Decidable (k0_chk180 v1518) := fun v1518 => decidable_of_iff' _ (Iff.of_eq (k0_chk180.eq_1 v1518))
theorem k0_off270_inb : ∀ (v1518 : BitVec 32) (k0_hw180 : k0_chk180 v1518), ∀ a, (k0_off270 v1518) a + S1x100.size a ≤ S150000x100.size a := fun v1518 k0_hw180 => k0_hw180

def k0_off271 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v1531 : BitVec 32 := Scalar.addi v0 c90_i32
  let v1532 : Index := Scalar.indexCast v1531
  ![v1532.toNat]
def k0_off272 (v1533 : BitVec 32) : Fin 2 → Nat :=
  let c0_i32_723 : BitVec 32 := 0#32
  ![v1533.toNat, 0]

def k0_chk181 (v1533 : BitVec 32) : Prop :=
  (∀ a, (k0_off272 v1533) a + S1x100.size a ≤ S150000x100.size a)
instance k0_chk181.dec : ∀ (v1533 : BitVec 32), Decidable (k0_chk181 v1533) := fun v1533 => decidable_of_iff' _ (Iff.of_eq (k0_chk181.eq_1 v1533))
theorem k0_off272_inb : ∀ (v1533 : BitVec 32) (k0_hw181 : k0_chk181 v1533), ∀ a, (k0_off272 v1533) a + S1x100.size a ≤ S150000x100.size a := fun v1533 k0_hw181 => k0_hw181

def k0_off273 (v1535 : BitVec 32) : Fin 2 → Nat :=
  let c0_i32_727 : BitVec 32 := 0#32
  ![v1535.toNat, 0]

def k0_chk182 (v1535 : BitVec 32) : Prop :=
  (∀ a, (k0_off273 v1535) a + S1x100.size a ≤ S150000x100.size a)
instance k0_chk182.dec : ∀ (v1535 : BitVec 32), Decidable (k0_chk182 v1535) := fun v1535 => decidable_of_iff' _ (Iff.of_eq (k0_chk182.eq_1 v1535))
theorem k0_off273_inb : ∀ (v1535 : BitVec 32) (k0_hw182 : k0_chk182 v1535), ∀ a, (k0_off273 v1535) a + S1x100.size a ≤ S150000x100.size a := fun v1535 k0_hw182 => k0_hw182

def k0_off274 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v1548 : BitVec 32 := Scalar.addi v0 c91_i32
  let v1549 : Index := Scalar.indexCast v1548
  ![v1549.toNat]
def k0_off275 (v1550 : BitVec 32) : Fin 2 → Nat :=
  let c0_i32_731 : BitVec 32 := 0#32
  ![v1550.toNat, 0]

def k0_chk183 (v1550 : BitVec 32) : Prop :=
  (∀ a, (k0_off275 v1550) a + S1x100.size a ≤ S150000x100.size a)
instance k0_chk183.dec : ∀ (v1550 : BitVec 32), Decidable (k0_chk183 v1550) := fun v1550 => decidable_of_iff' _ (Iff.of_eq (k0_chk183.eq_1 v1550))
theorem k0_off275_inb : ∀ (v1550 : BitVec 32) (k0_hw183 : k0_chk183 v1550), ∀ a, (k0_off275 v1550) a + S1x100.size a ≤ S150000x100.size a := fun v1550 k0_hw183 => k0_hw183

def k0_off276 (v1552 : BitVec 32) : Fin 2 → Nat :=
  let c0_i32_735 : BitVec 32 := 0#32
  ![v1552.toNat, 0]

def k0_chk184 (v1552 : BitVec 32) : Prop :=
  (∀ a, (k0_off276 v1552) a + S1x100.size a ≤ S150000x100.size a)
instance k0_chk184.dec : ∀ (v1552 : BitVec 32), Decidable (k0_chk184 v1552) := fun v1552 => decidable_of_iff' _ (Iff.of_eq (k0_chk184.eq_1 v1552))
theorem k0_off276_inb : ∀ (v1552 : BitVec 32) (k0_hw184 : k0_chk184 v1552), ∀ a, (k0_off276 v1552) a + S1x100.size a ≤ S150000x100.size a := fun v1552 k0_hw184 => k0_hw184

def k0_off277 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v1565 : BitVec 32 := Scalar.addi v0 c92_i32
  let v1566 : Index := Scalar.indexCast v1565
  ![v1566.toNat]
def k0_off278 (v1567 : BitVec 32) : Fin 2 → Nat :=
  let c0_i32_739 : BitVec 32 := 0#32
  ![v1567.toNat, 0]

def k0_chk185 (v1567 : BitVec 32) : Prop :=
  (∀ a, (k0_off278 v1567) a + S1x100.size a ≤ S150000x100.size a)
instance k0_chk185.dec : ∀ (v1567 : BitVec 32), Decidable (k0_chk185 v1567) := fun v1567 => decidable_of_iff' _ (Iff.of_eq (k0_chk185.eq_1 v1567))
theorem k0_off278_inb : ∀ (v1567 : BitVec 32) (k0_hw185 : k0_chk185 v1567), ∀ a, (k0_off278 v1567) a + S1x100.size a ≤ S150000x100.size a := fun v1567 k0_hw185 => k0_hw185

def k0_off279 (v1569 : BitVec 32) : Fin 2 → Nat :=
  let c0_i32_743 : BitVec 32 := 0#32
  ![v1569.toNat, 0]

def k0_chk186 (v1569 : BitVec 32) : Prop :=
  (∀ a, (k0_off279 v1569) a + S1x100.size a ≤ S150000x100.size a)
instance k0_chk186.dec : ∀ (v1569 : BitVec 32), Decidable (k0_chk186 v1569) := fun v1569 => decidable_of_iff' _ (Iff.of_eq (k0_chk186.eq_1 v1569))
theorem k0_off279_inb : ∀ (v1569 : BitVec 32) (k0_hw186 : k0_chk186 v1569), ∀ a, (k0_off279 v1569) a + S1x100.size a ≤ S150000x100.size a := fun v1569 k0_hw186 => k0_hw186

def k0_off280 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v1582 : BitVec 32 := Scalar.addi v0 c93_i32
  let v1583 : Index := Scalar.indexCast v1582
  ![v1583.toNat]
def k0_off281 (v1584 : BitVec 32) : Fin 2 → Nat :=
  let c0_i32_747 : BitVec 32 := 0#32
  ![v1584.toNat, 0]

def k0_chk187 (v1584 : BitVec 32) : Prop :=
  (∀ a, (k0_off281 v1584) a + S1x100.size a ≤ S150000x100.size a)
instance k0_chk187.dec : ∀ (v1584 : BitVec 32), Decidable (k0_chk187 v1584) := fun v1584 => decidable_of_iff' _ (Iff.of_eq (k0_chk187.eq_1 v1584))
theorem k0_off281_inb : ∀ (v1584 : BitVec 32) (k0_hw187 : k0_chk187 v1584), ∀ a, (k0_off281 v1584) a + S1x100.size a ≤ S150000x100.size a := fun v1584 k0_hw187 => k0_hw187

def k0_off282 (v1586 : BitVec 32) : Fin 2 → Nat :=
  let c0_i32_751 : BitVec 32 := 0#32
  ![v1586.toNat, 0]

def k0_chk188 (v1586 : BitVec 32) : Prop :=
  (∀ a, (k0_off282 v1586) a + S1x100.size a ≤ S150000x100.size a)
instance k0_chk188.dec : ∀ (v1586 : BitVec 32), Decidable (k0_chk188 v1586) := fun v1586 => decidable_of_iff' _ (Iff.of_eq (k0_chk188.eq_1 v1586))
theorem k0_off282_inb : ∀ (v1586 : BitVec 32) (k0_hw188 : k0_chk188 v1586), ∀ a, (k0_off282 v1586) a + S1x100.size a ≤ S150000x100.size a := fun v1586 k0_hw188 => k0_hw188

def k0_off283 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v1599 : BitVec 32 := Scalar.addi v0 c94_i32
  let v1600 : Index := Scalar.indexCast v1599
  ![v1600.toNat]
def k0_off284 (v1601 : BitVec 32) : Fin 2 → Nat :=
  let c0_i32_755 : BitVec 32 := 0#32
  ![v1601.toNat, 0]

def k0_chk189 (v1601 : BitVec 32) : Prop :=
  (∀ a, (k0_off284 v1601) a + S1x100.size a ≤ S150000x100.size a)
instance k0_chk189.dec : ∀ (v1601 : BitVec 32), Decidable (k0_chk189 v1601) := fun v1601 => decidable_of_iff' _ (Iff.of_eq (k0_chk189.eq_1 v1601))
theorem k0_off284_inb : ∀ (v1601 : BitVec 32) (k0_hw189 : k0_chk189 v1601), ∀ a, (k0_off284 v1601) a + S1x100.size a ≤ S150000x100.size a := fun v1601 k0_hw189 => k0_hw189

def k0_off285 (v1603 : BitVec 32) : Fin 2 → Nat :=
  let c0_i32_759 : BitVec 32 := 0#32
  ![v1603.toNat, 0]

def k0_chk190 (v1603 : BitVec 32) : Prop :=
  (∀ a, (k0_off285 v1603) a + S1x100.size a ≤ S150000x100.size a)
instance k0_chk190.dec : ∀ (v1603 : BitVec 32), Decidable (k0_chk190 v1603) := fun v1603 => decidable_of_iff' _ (Iff.of_eq (k0_chk190.eq_1 v1603))
theorem k0_off285_inb : ∀ (v1603 : BitVec 32) (k0_hw190 : k0_chk190 v1603), ∀ a, (k0_off285 v1603) a + S1x100.size a ≤ S150000x100.size a := fun v1603 k0_hw190 => k0_hw190

def k0_off286 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v1616 : BitVec 32 := Scalar.addi v0 c95_i32
  let v1617 : Index := Scalar.indexCast v1616
  ![v1617.toNat]
def k0_off287 (v1618 : BitVec 32) : Fin 2 → Nat :=
  let c0_i32_763 : BitVec 32 := 0#32
  ![v1618.toNat, 0]

def k0_chk191 (v1618 : BitVec 32) : Prop :=
  (∀ a, (k0_off287 v1618) a + S1x100.size a ≤ S150000x100.size a)
instance k0_chk191.dec : ∀ (v1618 : BitVec 32), Decidable (k0_chk191 v1618) := fun v1618 => decidable_of_iff' _ (Iff.of_eq (k0_chk191.eq_1 v1618))
theorem k0_off287_inb : ∀ (v1618 : BitVec 32) (k0_hw191 : k0_chk191 v1618), ∀ a, (k0_off287 v1618) a + S1x100.size a ≤ S150000x100.size a := fun v1618 k0_hw191 => k0_hw191

def k0_off288 (v1620 : BitVec 32) : Fin 2 → Nat :=
  let c0_i32_767 : BitVec 32 := 0#32
  ![v1620.toNat, 0]

def k0_chk192 (v1620 : BitVec 32) : Prop :=
  (∀ a, (k0_off288 v1620) a + S1x100.size a ≤ S150000x100.size a)
instance k0_chk192.dec : ∀ (v1620 : BitVec 32), Decidable (k0_chk192 v1620) := fun v1620 => decidable_of_iff' _ (Iff.of_eq (k0_chk192.eq_1 v1620))
theorem k0_off288_inb : ∀ (v1620 : BitVec 32) (k0_hw192 : k0_chk192 v1620), ∀ a, (k0_off288 v1620) a + S1x100.size a ≤ S150000x100.size a := fun v1620 k0_hw192 => k0_hw192

def k0_off289 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v1633 : BitVec 32 := Scalar.addi v0 c96_i32
  let v1634 : Index := Scalar.indexCast v1633
  ![v1634.toNat]
def k0_off290 (v1635 : BitVec 32) : Fin 2 → Nat :=
  let c0_i32_771 : BitVec 32 := 0#32
  ![v1635.toNat, 0]

def k0_chk193 (v1635 : BitVec 32) : Prop :=
  (∀ a, (k0_off290 v1635) a + S1x100.size a ≤ S150000x100.size a)
instance k0_chk193.dec : ∀ (v1635 : BitVec 32), Decidable (k0_chk193 v1635) := fun v1635 => decidable_of_iff' _ (Iff.of_eq (k0_chk193.eq_1 v1635))
theorem k0_off290_inb : ∀ (v1635 : BitVec 32) (k0_hw193 : k0_chk193 v1635), ∀ a, (k0_off290 v1635) a + S1x100.size a ≤ S150000x100.size a := fun v1635 k0_hw193 => k0_hw193

def k0_off291 (v1637 : BitVec 32) : Fin 2 → Nat :=
  let c0_i32_775 : BitVec 32 := 0#32
  ![v1637.toNat, 0]

def k0_chk194 (v1637 : BitVec 32) : Prop :=
  (∀ a, (k0_off291 v1637) a + S1x100.size a ≤ S150000x100.size a)
instance k0_chk194.dec : ∀ (v1637 : BitVec 32), Decidable (k0_chk194 v1637) := fun v1637 => decidable_of_iff' _ (Iff.of_eq (k0_chk194.eq_1 v1637))
theorem k0_off291_inb : ∀ (v1637 : BitVec 32) (k0_hw194 : k0_chk194 v1637), ∀ a, (k0_off291 v1637) a + S1x100.size a ≤ S150000x100.size a := fun v1637 k0_hw194 => k0_hw194

def k0_off292 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v1650 : BitVec 32 := Scalar.addi v0 c97_i32
  let v1651 : Index := Scalar.indexCast v1650
  ![v1651.toNat]
def k0_off293 (v1652 : BitVec 32) : Fin 2 → Nat :=
  let c0_i32_779 : BitVec 32 := 0#32
  ![v1652.toNat, 0]

def k0_chk195 (v1652 : BitVec 32) : Prop :=
  (∀ a, (k0_off293 v1652) a + S1x100.size a ≤ S150000x100.size a)
instance k0_chk195.dec : ∀ (v1652 : BitVec 32), Decidable (k0_chk195 v1652) := fun v1652 => decidable_of_iff' _ (Iff.of_eq (k0_chk195.eq_1 v1652))
theorem k0_off293_inb : ∀ (v1652 : BitVec 32) (k0_hw195 : k0_chk195 v1652), ∀ a, (k0_off293 v1652) a + S1x100.size a ≤ S150000x100.size a := fun v1652 k0_hw195 => k0_hw195

def k0_off294 (v1654 : BitVec 32) : Fin 2 → Nat :=
  let c0_i32_783 : BitVec 32 := 0#32
  ![v1654.toNat, 0]

def k0_chk196 (v1654 : BitVec 32) : Prop :=
  (∀ a, (k0_off294 v1654) a + S1x100.size a ≤ S150000x100.size a)
instance k0_chk196.dec : ∀ (v1654 : BitVec 32), Decidable (k0_chk196 v1654) := fun v1654 => decidable_of_iff' _ (Iff.of_eq (k0_chk196.eq_1 v1654))
theorem k0_off294_inb : ∀ (v1654 : BitVec 32) (k0_hw196 : k0_chk196 v1654), ∀ a, (k0_off294 v1654) a + S1x100.size a ≤ S150000x100.size a := fun v1654 k0_hw196 => k0_hw196

def k0_off295 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v1667 : BitVec 32 := Scalar.addi v0 c98_i32
  let v1668 : Index := Scalar.indexCast v1667
  ![v1668.toNat]
def k0_off296 (v1669 : BitVec 32) : Fin 2 → Nat :=
  let c0_i32_787 : BitVec 32 := 0#32
  ![v1669.toNat, 0]

def k0_chk197 (v1669 : BitVec 32) : Prop :=
  (∀ a, (k0_off296 v1669) a + S1x100.size a ≤ S150000x100.size a)
instance k0_chk197.dec : ∀ (v1669 : BitVec 32), Decidable (k0_chk197 v1669) := fun v1669 => decidable_of_iff' _ (Iff.of_eq (k0_chk197.eq_1 v1669))
theorem k0_off296_inb : ∀ (v1669 : BitVec 32) (k0_hw197 : k0_chk197 v1669), ∀ a, (k0_off296 v1669) a + S1x100.size a ≤ S150000x100.size a := fun v1669 k0_hw197 => k0_hw197

def k0_off297 (v1671 : BitVec 32) : Fin 2 → Nat :=
  let c0_i32_791 : BitVec 32 := 0#32
  ![v1671.toNat, 0]

def k0_chk198 (v1671 : BitVec 32) : Prop :=
  (∀ a, (k0_off297 v1671) a + S1x100.size a ≤ S150000x100.size a)
instance k0_chk198.dec : ∀ (v1671 : BitVec 32), Decidable (k0_chk198 v1671) := fun v1671 => decidable_of_iff' _ (Iff.of_eq (k0_chk198.eq_1 v1671))
theorem k0_off297_inb : ∀ (v1671 : BitVec 32) (k0_hw198 : k0_chk198 v1671), ∀ a, (k0_off297 v1671) a + S1x100.size a ≤ S150000x100.size a := fun v1671 k0_hw198 => k0_hw198

def k0_off298 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v1684 : BitVec 32 := Scalar.addi v0 c99_i32
  let v1685 : Index := Scalar.indexCast v1684
  ![v1685.toNat]
def k0_off299 (v1686 : BitVec 32) : Fin 2 → Nat :=
  let c0_i32_795 : BitVec 32 := 0#32
  ![v1686.toNat, 0]

def k0_chk199 (v1686 : BitVec 32) : Prop :=
  (∀ a, (k0_off299 v1686) a + S1x100.size a ≤ S150000x100.size a)
instance k0_chk199.dec : ∀ (v1686 : BitVec 32), Decidable (k0_chk199 v1686) := fun v1686 => decidable_of_iff' _ (Iff.of_eq (k0_chk199.eq_1 v1686))
theorem k0_off299_inb : ∀ (v1686 : BitVec 32) (k0_hw199 : k0_chk199 v1686), ∀ a, (k0_off299 v1686) a + S1x100.size a ≤ S150000x100.size a := fun v1686 k0_hw199 => k0_hw199

def k0_off300 (v1688 : BitVec 32) : Fin 2 → Nat :=
  let c0_i32_799 : BitVec 32 := 0#32
  ![v1688.toNat, 0]

def k0_chk200 (v1688 : BitVec 32) : Prop :=
  (∀ a, (k0_off300 v1688) a + S1x100.size a ≤ S150000x100.size a)
instance k0_chk200.dec : ∀ (v1688 : BitVec 32), Decidable (k0_chk200 v1688) := fun v1688 => decidable_of_iff' _ (Iff.of_eq (k0_chk200.eq_1 v1688))
theorem k0_off300_inb : ∀ (v1688 : BitVec 32) (k0_hw200 : k0_chk200 v1688), ∀ a, (k0_off300 v1688) a + S1x100.size a ≤ S150000x100.size a := fun v1688 k0_hw200 => k0_hw200

def k0_off301 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v1701 : BitVec 32 := Scalar.addi v0 c100_i32
  let v1702 : Index := Scalar.indexCast v1701
  ![v1702.toNat]
def k0_off302 (v1703 : BitVec 32) : Fin 2 → Nat :=
  let c0_i32_803 : BitVec 32 := 0#32
  ![v1703.toNat, 0]

def k0_chk201 (v1703 : BitVec 32) : Prop :=
  (∀ a, (k0_off302 v1703) a + S1x100.size a ≤ S150000x100.size a)
instance k0_chk201.dec : ∀ (v1703 : BitVec 32), Decidable (k0_chk201 v1703) := fun v1703 => decidable_of_iff' _ (Iff.of_eq (k0_chk201.eq_1 v1703))
theorem k0_off302_inb : ∀ (v1703 : BitVec 32) (k0_hw201 : k0_chk201 v1703), ∀ a, (k0_off302 v1703) a + S1x100.size a ≤ S150000x100.size a := fun v1703 k0_hw201 => k0_hw201

def k0_off303 (v1705 : BitVec 32) : Fin 2 → Nat :=
  let c0_i32_807 : BitVec 32 := 0#32
  ![v1705.toNat, 0]

def k0_chk202 (v1705 : BitVec 32) : Prop :=
  (∀ a, (k0_off303 v1705) a + S1x100.size a ≤ S150000x100.size a)
instance k0_chk202.dec : ∀ (v1705 : BitVec 32), Decidable (k0_chk202 v1705) := fun v1705 => decidable_of_iff' _ (Iff.of_eq (k0_chk202.eq_1 v1705))
theorem k0_off303_inb : ∀ (v1705 : BitVec 32) (k0_hw202 : k0_chk202 v1705), ∀ a, (k0_off303 v1705) a + S1x100.size a ≤ S150000x100.size a := fun v1705 k0_hw202 => k0_hw202

def k0_off304 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v1718 : BitVec 32 := Scalar.addi v0 c101_i32
  let v1719 : Index := Scalar.indexCast v1718
  ![v1719.toNat]
def k0_off305 (v1720 : BitVec 32) : Fin 2 → Nat :=
  let c0_i32_811 : BitVec 32 := 0#32
  ![v1720.toNat, 0]

def k0_chk203 (v1720 : BitVec 32) : Prop :=
  (∀ a, (k0_off305 v1720) a + S1x100.size a ≤ S150000x100.size a)
instance k0_chk203.dec : ∀ (v1720 : BitVec 32), Decidable (k0_chk203 v1720) := fun v1720 => decidable_of_iff' _ (Iff.of_eq (k0_chk203.eq_1 v1720))
theorem k0_off305_inb : ∀ (v1720 : BitVec 32) (k0_hw203 : k0_chk203 v1720), ∀ a, (k0_off305 v1720) a + S1x100.size a ≤ S150000x100.size a := fun v1720 k0_hw203 => k0_hw203

def k0_off306 (v1722 : BitVec 32) : Fin 2 → Nat :=
  let c0_i32_815 : BitVec 32 := 0#32
  ![v1722.toNat, 0]

def k0_chk204 (v1722 : BitVec 32) : Prop :=
  (∀ a, (k0_off306 v1722) a + S1x100.size a ≤ S150000x100.size a)
instance k0_chk204.dec : ∀ (v1722 : BitVec 32), Decidable (k0_chk204 v1722) := fun v1722 => decidable_of_iff' _ (Iff.of_eq (k0_chk204.eq_1 v1722))
theorem k0_off306_inb : ∀ (v1722 : BitVec 32) (k0_hw204 : k0_chk204 v1722), ∀ a, (k0_off306 v1722) a + S1x100.size a ≤ S150000x100.size a := fun v1722 k0_hw204 => k0_hw204

def k0_off307 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v1735 : BitVec 32 := Scalar.addi v0 c102_i32
  let v1736 : Index := Scalar.indexCast v1735
  ![v1736.toNat]
def k0_off308 (v1737 : BitVec 32) : Fin 2 → Nat :=
  let c0_i32_819 : BitVec 32 := 0#32
  ![v1737.toNat, 0]

def k0_chk205 (v1737 : BitVec 32) : Prop :=
  (∀ a, (k0_off308 v1737) a + S1x100.size a ≤ S150000x100.size a)
instance k0_chk205.dec : ∀ (v1737 : BitVec 32), Decidable (k0_chk205 v1737) := fun v1737 => decidable_of_iff' _ (Iff.of_eq (k0_chk205.eq_1 v1737))
theorem k0_off308_inb : ∀ (v1737 : BitVec 32) (k0_hw205 : k0_chk205 v1737), ∀ a, (k0_off308 v1737) a + S1x100.size a ≤ S150000x100.size a := fun v1737 k0_hw205 => k0_hw205

def k0_off309 (v1739 : BitVec 32) : Fin 2 → Nat :=
  let c0_i32_823 : BitVec 32 := 0#32
  ![v1739.toNat, 0]

def k0_chk206 (v1739 : BitVec 32) : Prop :=
  (∀ a, (k0_off309 v1739) a + S1x100.size a ≤ S150000x100.size a)
instance k0_chk206.dec : ∀ (v1739 : BitVec 32), Decidable (k0_chk206 v1739) := fun v1739 => decidable_of_iff' _ (Iff.of_eq (k0_chk206.eq_1 v1739))
theorem k0_off309_inb : ∀ (v1739 : BitVec 32) (k0_hw206 : k0_chk206 v1739), ∀ a, (k0_off309 v1739) a + S1x100.size a ≤ S150000x100.size a := fun v1739 k0_hw206 => k0_hw206

def k0_off310 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v1752 : BitVec 32 := Scalar.addi v0 c103_i32
  let v1753 : Index := Scalar.indexCast v1752
  ![v1753.toNat]
def k0_off311 (v1754 : BitVec 32) : Fin 2 → Nat :=
  let c0_i32_827 : BitVec 32 := 0#32
  ![v1754.toNat, 0]

def k0_chk207 (v1754 : BitVec 32) : Prop :=
  (∀ a, (k0_off311 v1754) a + S1x100.size a ≤ S150000x100.size a)
instance k0_chk207.dec : ∀ (v1754 : BitVec 32), Decidable (k0_chk207 v1754) := fun v1754 => decidable_of_iff' _ (Iff.of_eq (k0_chk207.eq_1 v1754))
theorem k0_off311_inb : ∀ (v1754 : BitVec 32) (k0_hw207 : k0_chk207 v1754), ∀ a, (k0_off311 v1754) a + S1x100.size a ≤ S150000x100.size a := fun v1754 k0_hw207 => k0_hw207

def k0_off312 (v1756 : BitVec 32) : Fin 2 → Nat :=
  let c0_i32_831 : BitVec 32 := 0#32
  ![v1756.toNat, 0]

def k0_chk208 (v1756 : BitVec 32) : Prop :=
  (∀ a, (k0_off312 v1756) a + S1x100.size a ≤ S150000x100.size a)
instance k0_chk208.dec : ∀ (v1756 : BitVec 32), Decidable (k0_chk208 v1756) := fun v1756 => decidable_of_iff' _ (Iff.of_eq (k0_chk208.eq_1 v1756))
theorem k0_off312_inb : ∀ (v1756 : BitVec 32) (k0_hw208 : k0_chk208 v1756), ∀ a, (k0_off312 v1756) a + S1x100.size a ≤ S150000x100.size a := fun v1756 k0_hw208 => k0_hw208

def k0_off313 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v1769 : BitVec 32 := Scalar.addi v0 c104_i32
  let v1770 : Index := Scalar.indexCast v1769
  ![v1770.toNat]
def k0_off314 (v1771 : BitVec 32) : Fin 2 → Nat :=
  let c0_i32_835 : BitVec 32 := 0#32
  ![v1771.toNat, 0]

def k0_chk209 (v1771 : BitVec 32) : Prop :=
  (∀ a, (k0_off314 v1771) a + S1x100.size a ≤ S150000x100.size a)
instance k0_chk209.dec : ∀ (v1771 : BitVec 32), Decidable (k0_chk209 v1771) := fun v1771 => decidable_of_iff' _ (Iff.of_eq (k0_chk209.eq_1 v1771))
theorem k0_off314_inb : ∀ (v1771 : BitVec 32) (k0_hw209 : k0_chk209 v1771), ∀ a, (k0_off314 v1771) a + S1x100.size a ≤ S150000x100.size a := fun v1771 k0_hw209 => k0_hw209

def k0_off315 (v1773 : BitVec 32) : Fin 2 → Nat :=
  let c0_i32_839 : BitVec 32 := 0#32
  ![v1773.toNat, 0]

def k0_chk210 (v1773 : BitVec 32) : Prop :=
  (∀ a, (k0_off315 v1773) a + S1x100.size a ≤ S150000x100.size a)
instance k0_chk210.dec : ∀ (v1773 : BitVec 32), Decidable (k0_chk210 v1773) := fun v1773 => decidable_of_iff' _ (Iff.of_eq (k0_chk210.eq_1 v1773))
theorem k0_off315_inb : ∀ (v1773 : BitVec 32) (k0_hw210 : k0_chk210 v1773), ∀ a, (k0_off315 v1773) a + S1x100.size a ≤ S150000x100.size a := fun v1773 k0_hw210 => k0_hw210

def k0_off316 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v1786 : BitVec 32 := Scalar.addi v0 c105_i32
  let v1787 : Index := Scalar.indexCast v1786
  ![v1787.toNat]
def k0_off317 (v1788 : BitVec 32) : Fin 2 → Nat :=
  let c0_i32_843 : BitVec 32 := 0#32
  ![v1788.toNat, 0]

def k0_chk211 (v1788 : BitVec 32) : Prop :=
  (∀ a, (k0_off317 v1788) a + S1x100.size a ≤ S150000x100.size a)
instance k0_chk211.dec : ∀ (v1788 : BitVec 32), Decidable (k0_chk211 v1788) := fun v1788 => decidable_of_iff' _ (Iff.of_eq (k0_chk211.eq_1 v1788))
theorem k0_off317_inb : ∀ (v1788 : BitVec 32) (k0_hw211 : k0_chk211 v1788), ∀ a, (k0_off317 v1788) a + S1x100.size a ≤ S150000x100.size a := fun v1788 k0_hw211 => k0_hw211

def k0_off318 (v1790 : BitVec 32) : Fin 2 → Nat :=
  let c0_i32_847 : BitVec 32 := 0#32
  ![v1790.toNat, 0]

def k0_chk212 (v1790 : BitVec 32) : Prop :=
  (∀ a, (k0_off318 v1790) a + S1x100.size a ≤ S150000x100.size a)
instance k0_chk212.dec : ∀ (v1790 : BitVec 32), Decidable (k0_chk212 v1790) := fun v1790 => decidable_of_iff' _ (Iff.of_eq (k0_chk212.eq_1 v1790))
theorem k0_off318_inb : ∀ (v1790 : BitVec 32) (k0_hw212 : k0_chk212 v1790), ∀ a, (k0_off318 v1790) a + S1x100.size a ≤ S150000x100.size a := fun v1790 k0_hw212 => k0_hw212

def k0_off319 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v1803 : BitVec 32 := Scalar.addi v0 c106_i32
  let v1804 : Index := Scalar.indexCast v1803
  ![v1804.toNat]
def k0_off320 (v1805 : BitVec 32) : Fin 2 → Nat :=
  let c0_i32_851 : BitVec 32 := 0#32
  ![v1805.toNat, 0]

def k0_chk213 (v1805 : BitVec 32) : Prop :=
  (∀ a, (k0_off320 v1805) a + S1x100.size a ≤ S150000x100.size a)
instance k0_chk213.dec : ∀ (v1805 : BitVec 32), Decidable (k0_chk213 v1805) := fun v1805 => decidable_of_iff' _ (Iff.of_eq (k0_chk213.eq_1 v1805))
theorem k0_off320_inb : ∀ (v1805 : BitVec 32) (k0_hw213 : k0_chk213 v1805), ∀ a, (k0_off320 v1805) a + S1x100.size a ≤ S150000x100.size a := fun v1805 k0_hw213 => k0_hw213

def k0_off321 (v1807 : BitVec 32) : Fin 2 → Nat :=
  let c0_i32_855 : BitVec 32 := 0#32
  ![v1807.toNat, 0]

def k0_chk214 (v1807 : BitVec 32) : Prop :=
  (∀ a, (k0_off321 v1807) a + S1x100.size a ≤ S150000x100.size a)
instance k0_chk214.dec : ∀ (v1807 : BitVec 32), Decidable (k0_chk214 v1807) := fun v1807 => decidable_of_iff' _ (Iff.of_eq (k0_chk214.eq_1 v1807))
theorem k0_off321_inb : ∀ (v1807 : BitVec 32) (k0_hw214 : k0_chk214 v1807), ∀ a, (k0_off321 v1807) a + S1x100.size a ≤ S150000x100.size a := fun v1807 k0_hw214 => k0_hw214

def k0_off322 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v1820 : BitVec 32 := Scalar.addi v0 c107_i32
  let v1821 : Index := Scalar.indexCast v1820
  ![v1821.toNat]
def k0_off323 (v1822 : BitVec 32) : Fin 2 → Nat :=
  let c0_i32_859 : BitVec 32 := 0#32
  ![v1822.toNat, 0]

def k0_chk215 (v1822 : BitVec 32) : Prop :=
  (∀ a, (k0_off323 v1822) a + S1x100.size a ≤ S150000x100.size a)
instance k0_chk215.dec : ∀ (v1822 : BitVec 32), Decidable (k0_chk215 v1822) := fun v1822 => decidable_of_iff' _ (Iff.of_eq (k0_chk215.eq_1 v1822))
theorem k0_off323_inb : ∀ (v1822 : BitVec 32) (k0_hw215 : k0_chk215 v1822), ∀ a, (k0_off323 v1822) a + S1x100.size a ≤ S150000x100.size a := fun v1822 k0_hw215 => k0_hw215

def k0_off324 (v1824 : BitVec 32) : Fin 2 → Nat :=
  let c0_i32_863 : BitVec 32 := 0#32
  ![v1824.toNat, 0]

def k0_chk216 (v1824 : BitVec 32) : Prop :=
  (∀ a, (k0_off324 v1824) a + S1x100.size a ≤ S150000x100.size a)
instance k0_chk216.dec : ∀ (v1824 : BitVec 32), Decidable (k0_chk216 v1824) := fun v1824 => decidable_of_iff' _ (Iff.of_eq (k0_chk216.eq_1 v1824))
theorem k0_off324_inb : ∀ (v1824 : BitVec 32) (k0_hw216 : k0_chk216 v1824), ∀ a, (k0_off324 v1824) a + S1x100.size a ≤ S150000x100.size a := fun v1824 k0_hw216 => k0_hw216

def k0_off325 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v1837 : BitVec 32 := Scalar.addi v0 c108_i32
  let v1838 : Index := Scalar.indexCast v1837
  ![v1838.toNat]
def k0_off326 (v1839 : BitVec 32) : Fin 2 → Nat :=
  let c0_i32_867 : BitVec 32 := 0#32
  ![v1839.toNat, 0]

def k0_chk217 (v1839 : BitVec 32) : Prop :=
  (∀ a, (k0_off326 v1839) a + S1x100.size a ≤ S150000x100.size a)
instance k0_chk217.dec : ∀ (v1839 : BitVec 32), Decidable (k0_chk217 v1839) := fun v1839 => decidable_of_iff' _ (Iff.of_eq (k0_chk217.eq_1 v1839))
theorem k0_off326_inb : ∀ (v1839 : BitVec 32) (k0_hw217 : k0_chk217 v1839), ∀ a, (k0_off326 v1839) a + S1x100.size a ≤ S150000x100.size a := fun v1839 k0_hw217 => k0_hw217

def k0_off327 (v1841 : BitVec 32) : Fin 2 → Nat :=
  let c0_i32_871 : BitVec 32 := 0#32
  ![v1841.toNat, 0]

def k0_chk218 (v1841 : BitVec 32) : Prop :=
  (∀ a, (k0_off327 v1841) a + S1x100.size a ≤ S150000x100.size a)
instance k0_chk218.dec : ∀ (v1841 : BitVec 32), Decidable (k0_chk218 v1841) := fun v1841 => decidable_of_iff' _ (Iff.of_eq (k0_chk218.eq_1 v1841))
theorem k0_off327_inb : ∀ (v1841 : BitVec 32) (k0_hw218 : k0_chk218 v1841), ∀ a, (k0_off327 v1841) a + S1x100.size a ≤ S150000x100.size a := fun v1841 k0_hw218 => k0_hw218

def k0_off328 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v1854 : BitVec 32 := Scalar.addi v0 c109_i32
  let v1855 : Index := Scalar.indexCast v1854
  ![v1855.toNat]
def k0_off329 (v1856 : BitVec 32) : Fin 2 → Nat :=
  let c0_i32_875 : BitVec 32 := 0#32
  ![v1856.toNat, 0]

def k0_chk219 (v1856 : BitVec 32) : Prop :=
  (∀ a, (k0_off329 v1856) a + S1x100.size a ≤ S150000x100.size a)
instance k0_chk219.dec : ∀ (v1856 : BitVec 32), Decidable (k0_chk219 v1856) := fun v1856 => decidable_of_iff' _ (Iff.of_eq (k0_chk219.eq_1 v1856))
theorem k0_off329_inb : ∀ (v1856 : BitVec 32) (k0_hw219 : k0_chk219 v1856), ∀ a, (k0_off329 v1856) a + S1x100.size a ≤ S150000x100.size a := fun v1856 k0_hw219 => k0_hw219

def k0_off330 (v1858 : BitVec 32) : Fin 2 → Nat :=
  let c0_i32_879 : BitVec 32 := 0#32
  ![v1858.toNat, 0]

def k0_chk220 (v1858 : BitVec 32) : Prop :=
  (∀ a, (k0_off330 v1858) a + S1x100.size a ≤ S150000x100.size a)
instance k0_chk220.dec : ∀ (v1858 : BitVec 32), Decidable (k0_chk220 v1858) := fun v1858 => decidable_of_iff' _ (Iff.of_eq (k0_chk220.eq_1 v1858))
theorem k0_off330_inb : ∀ (v1858 : BitVec 32) (k0_hw220 : k0_chk220 v1858), ∀ a, (k0_off330 v1858) a + S1x100.size a ≤ S150000x100.size a := fun v1858 k0_hw220 => k0_hw220

def k0_off331 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v1871 : BitVec 32 := Scalar.addi v0 c110_i32
  let v1872 : Index := Scalar.indexCast v1871
  ![v1872.toNat]
def k0_off332 (v1873 : BitVec 32) : Fin 2 → Nat :=
  let c0_i32_883 : BitVec 32 := 0#32
  ![v1873.toNat, 0]

def k0_chk221 (v1873 : BitVec 32) : Prop :=
  (∀ a, (k0_off332 v1873) a + S1x100.size a ≤ S150000x100.size a)
instance k0_chk221.dec : ∀ (v1873 : BitVec 32), Decidable (k0_chk221 v1873) := fun v1873 => decidable_of_iff' _ (Iff.of_eq (k0_chk221.eq_1 v1873))
theorem k0_off332_inb : ∀ (v1873 : BitVec 32) (k0_hw221 : k0_chk221 v1873), ∀ a, (k0_off332 v1873) a + S1x100.size a ≤ S150000x100.size a := fun v1873 k0_hw221 => k0_hw221

def k0_off333 (v1875 : BitVec 32) : Fin 2 → Nat :=
  let c0_i32_887 : BitVec 32 := 0#32
  ![v1875.toNat, 0]

def k0_chk222 (v1875 : BitVec 32) : Prop :=
  (∀ a, (k0_off333 v1875) a + S1x100.size a ≤ S150000x100.size a)
instance k0_chk222.dec : ∀ (v1875 : BitVec 32), Decidable (k0_chk222 v1875) := fun v1875 => decidable_of_iff' _ (Iff.of_eq (k0_chk222.eq_1 v1875))
theorem k0_off333_inb : ∀ (v1875 : BitVec 32) (k0_hw222 : k0_chk222 v1875), ∀ a, (k0_off333 v1875) a + S1x100.size a ≤ S150000x100.size a := fun v1875 k0_hw222 => k0_hw222

def k0_off334 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1888 : BitVec 32 := Scalar.addi v0 c111_i32
  let v1889 : Index := Scalar.indexCast v1888
  ![v1889.toNat]
def k0_off335 (v1890 : BitVec 32) : Fin 2 → Nat :=
  let c0_i32_891 : BitVec 32 := 0#32
  ![v1890.toNat, 0]

def k0_chk223 (v1890 : BitVec 32) : Prop :=
  (∀ a, (k0_off335 v1890) a + S1x100.size a ≤ S150000x100.size a)
instance k0_chk223.dec : ∀ (v1890 : BitVec 32), Decidable (k0_chk223 v1890) := fun v1890 => decidable_of_iff' _ (Iff.of_eq (k0_chk223.eq_1 v1890))
theorem k0_off335_inb : ∀ (v1890 : BitVec 32) (k0_hw223 : k0_chk223 v1890), ∀ a, (k0_off335 v1890) a + S1x100.size a ≤ S150000x100.size a := fun v1890 k0_hw223 => k0_hw223

def k0_off336 (v1892 : BitVec 32) : Fin 2 → Nat :=
  let c0_i32_895 : BitVec 32 := 0#32
  ![v1892.toNat, 0]

def k0_chk224 (v1892 : BitVec 32) : Prop :=
  (∀ a, (k0_off336 v1892) a + S1x100.size a ≤ S150000x100.size a)
instance k0_chk224.dec : ∀ (v1892 : BitVec 32), Decidable (k0_chk224 v1892) := fun v1892 => decidable_of_iff' _ (Iff.of_eq (k0_chk224.eq_1 v1892))
theorem k0_off336_inb : ∀ (v1892 : BitVec 32) (k0_hw224 : k0_chk224 v1892), ∀ a, (k0_off336 v1892) a + S1x100.size a ≤ S150000x100.size a := fun v1892 k0_hw224 => k0_hw224

def k0_off337 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1905 : BitVec 32 := Scalar.addi v0 c112_i32
  let v1906 : Index := Scalar.indexCast v1905
  ![v1906.toNat]
def k0_off338 (v1907 : BitVec 32) : Fin 2 → Nat :=
  let c0_i32_899 : BitVec 32 := 0#32
  ![v1907.toNat, 0]

def k0_chk225 (v1907 : BitVec 32) : Prop :=
  (∀ a, (k0_off338 v1907) a + S1x100.size a ≤ S150000x100.size a)
instance k0_chk225.dec : ∀ (v1907 : BitVec 32), Decidable (k0_chk225 v1907) := fun v1907 => decidable_of_iff' _ (Iff.of_eq (k0_chk225.eq_1 v1907))
theorem k0_off338_inb : ∀ (v1907 : BitVec 32) (k0_hw225 : k0_chk225 v1907), ∀ a, (k0_off338 v1907) a + S1x100.size a ≤ S150000x100.size a := fun v1907 k0_hw225 => k0_hw225

def k0_off339 (v1909 : BitVec 32) : Fin 2 → Nat :=
  let c0_i32_903 : BitVec 32 := 0#32
  ![v1909.toNat, 0]

def k0_chk226 (v1909 : BitVec 32) : Prop :=
  (∀ a, (k0_off339 v1909) a + S1x100.size a ≤ S150000x100.size a)
instance k0_chk226.dec : ∀ (v1909 : BitVec 32), Decidable (k0_chk226 v1909) := fun v1909 => decidable_of_iff' _ (Iff.of_eq (k0_chk226.eq_1 v1909))
theorem k0_off339_inb : ∀ (v1909 : BitVec 32) (k0_hw226 : k0_chk226 v1909), ∀ a, (k0_off339 v1909) a + S1x100.size a ≤ S150000x100.size a := fun v1909 k0_hw226 => k0_hw226

def k0_off340 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1922 : BitVec 32 := Scalar.addi v0 c113_i32
  let v1923 : Index := Scalar.indexCast v1922
  ![v1923.toNat]
def k0_off341 (v1924 : BitVec 32) : Fin 2 → Nat :=
  let c0_i32_907 : BitVec 32 := 0#32
  ![v1924.toNat, 0]

def k0_chk227 (v1924 : BitVec 32) : Prop :=
  (∀ a, (k0_off341 v1924) a + S1x100.size a ≤ S150000x100.size a)
instance k0_chk227.dec : ∀ (v1924 : BitVec 32), Decidable (k0_chk227 v1924) := fun v1924 => decidable_of_iff' _ (Iff.of_eq (k0_chk227.eq_1 v1924))
theorem k0_off341_inb : ∀ (v1924 : BitVec 32) (k0_hw227 : k0_chk227 v1924), ∀ a, (k0_off341 v1924) a + S1x100.size a ≤ S150000x100.size a := fun v1924 k0_hw227 => k0_hw227

def k0_off342 (v1926 : BitVec 32) : Fin 2 → Nat :=
  let c0_i32_911 : BitVec 32 := 0#32
  ![v1926.toNat, 0]

def k0_chk228 (v1926 : BitVec 32) : Prop :=
  (∀ a, (k0_off342 v1926) a + S1x100.size a ≤ S150000x100.size a)
instance k0_chk228.dec : ∀ (v1926 : BitVec 32), Decidable (k0_chk228 v1926) := fun v1926 => decidable_of_iff' _ (Iff.of_eq (k0_chk228.eq_1 v1926))
theorem k0_off342_inb : ∀ (v1926 : BitVec 32) (k0_hw228 : k0_chk228 v1926), ∀ a, (k0_off342 v1926) a + S1x100.size a ≤ S150000x100.size a := fun v1926 k0_hw228 => k0_hw228

def k0_off343 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1939 : BitVec 32 := Scalar.addi v0 c114_i32
  let v1940 : Index := Scalar.indexCast v1939
  ![v1940.toNat]
def k0_off344 (v1941 : BitVec 32) : Fin 2 → Nat :=
  let c0_i32_915 : BitVec 32 := 0#32
  ![v1941.toNat, 0]

def k0_chk229 (v1941 : BitVec 32) : Prop :=
  (∀ a, (k0_off344 v1941) a + S1x100.size a ≤ S150000x100.size a)
instance k0_chk229.dec : ∀ (v1941 : BitVec 32), Decidable (k0_chk229 v1941) := fun v1941 => decidable_of_iff' _ (Iff.of_eq (k0_chk229.eq_1 v1941))
theorem k0_off344_inb : ∀ (v1941 : BitVec 32) (k0_hw229 : k0_chk229 v1941), ∀ a, (k0_off344 v1941) a + S1x100.size a ≤ S150000x100.size a := fun v1941 k0_hw229 => k0_hw229

def k0_off345 (v1943 : BitVec 32) : Fin 2 → Nat :=
  let c0_i32_919 : BitVec 32 := 0#32
  ![v1943.toNat, 0]

def k0_chk230 (v1943 : BitVec 32) : Prop :=
  (∀ a, (k0_off345 v1943) a + S1x100.size a ≤ S150000x100.size a)
instance k0_chk230.dec : ∀ (v1943 : BitVec 32), Decidable (k0_chk230 v1943) := fun v1943 => decidable_of_iff' _ (Iff.of_eq (k0_chk230.eq_1 v1943))
theorem k0_off345_inb : ∀ (v1943 : BitVec 32) (k0_hw230 : k0_chk230 v1943), ∀ a, (k0_off345 v1943) a + S1x100.size a ≤ S150000x100.size a := fun v1943 k0_hw230 => k0_hw230

def k0_off346 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1956 : BitVec 32 := Scalar.addi v0 c115_i32
  let v1957 : Index := Scalar.indexCast v1956
  ![v1957.toNat]
def k0_off347 (v1958 : BitVec 32) : Fin 2 → Nat :=
  let c0_i32_923 : BitVec 32 := 0#32
  ![v1958.toNat, 0]

def k0_chk231 (v1958 : BitVec 32) : Prop :=
  (∀ a, (k0_off347 v1958) a + S1x100.size a ≤ S150000x100.size a)
instance k0_chk231.dec : ∀ (v1958 : BitVec 32), Decidable (k0_chk231 v1958) := fun v1958 => decidable_of_iff' _ (Iff.of_eq (k0_chk231.eq_1 v1958))
theorem k0_off347_inb : ∀ (v1958 : BitVec 32) (k0_hw231 : k0_chk231 v1958), ∀ a, (k0_off347 v1958) a + S1x100.size a ≤ S150000x100.size a := fun v1958 k0_hw231 => k0_hw231

def k0_off348 (v1960 : BitVec 32) : Fin 2 → Nat :=
  let c0_i32_927 : BitVec 32 := 0#32
  ![v1960.toNat, 0]

def k0_chk232 (v1960 : BitVec 32) : Prop :=
  (∀ a, (k0_off348 v1960) a + S1x100.size a ≤ S150000x100.size a)
instance k0_chk232.dec : ∀ (v1960 : BitVec 32), Decidable (k0_chk232 v1960) := fun v1960 => decidable_of_iff' _ (Iff.of_eq (k0_chk232.eq_1 v1960))
theorem k0_off348_inb : ∀ (v1960 : BitVec 32) (k0_hw232 : k0_chk232 v1960), ∀ a, (k0_off348 v1960) a + S1x100.size a ≤ S150000x100.size a := fun v1960 k0_hw232 => k0_hw232

def k0_off349 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1973 : BitVec 32 := Scalar.addi v0 c116_i32
  let v1974 : Index := Scalar.indexCast v1973
  ![v1974.toNat]
def k0_off350 (v1975 : BitVec 32) : Fin 2 → Nat :=
  let c0_i32_931 : BitVec 32 := 0#32
  ![v1975.toNat, 0]

def k0_chk233 (v1975 : BitVec 32) : Prop :=
  (∀ a, (k0_off350 v1975) a + S1x100.size a ≤ S150000x100.size a)
instance k0_chk233.dec : ∀ (v1975 : BitVec 32), Decidable (k0_chk233 v1975) := fun v1975 => decidable_of_iff' _ (Iff.of_eq (k0_chk233.eq_1 v1975))
theorem k0_off350_inb : ∀ (v1975 : BitVec 32) (k0_hw233 : k0_chk233 v1975), ∀ a, (k0_off350 v1975) a + S1x100.size a ≤ S150000x100.size a := fun v1975 k0_hw233 => k0_hw233

def k0_off351 (v1977 : BitVec 32) : Fin 2 → Nat :=
  let c0_i32_935 : BitVec 32 := 0#32
  ![v1977.toNat, 0]

def k0_chk234 (v1977 : BitVec 32) : Prop :=
  (∀ a, (k0_off351 v1977) a + S1x100.size a ≤ S150000x100.size a)
instance k0_chk234.dec : ∀ (v1977 : BitVec 32), Decidable (k0_chk234 v1977) := fun v1977 => decidable_of_iff' _ (Iff.of_eq (k0_chk234.eq_1 v1977))
theorem k0_off351_inb : ∀ (v1977 : BitVec 32) (k0_hw234 : k0_chk234 v1977), ∀ a, (k0_off351 v1977) a + S1x100.size a ≤ S150000x100.size a := fun v1977 k0_hw234 => k0_hw234

def k0_off352 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1990 : BitVec 32 := Scalar.addi v0 c117_i32
  let v1991 : Index := Scalar.indexCast v1990
  ![v1991.toNat]
def k0_off353 (v1992 : BitVec 32) : Fin 2 → Nat :=
  let c0_i32_939 : BitVec 32 := 0#32
  ![v1992.toNat, 0]

def k0_chk235 (v1992 : BitVec 32) : Prop :=
  (∀ a, (k0_off353 v1992) a + S1x100.size a ≤ S150000x100.size a)
instance k0_chk235.dec : ∀ (v1992 : BitVec 32), Decidable (k0_chk235 v1992) := fun v1992 => decidable_of_iff' _ (Iff.of_eq (k0_chk235.eq_1 v1992))
theorem k0_off353_inb : ∀ (v1992 : BitVec 32) (k0_hw235 : k0_chk235 v1992), ∀ a, (k0_off353 v1992) a + S1x100.size a ≤ S150000x100.size a := fun v1992 k0_hw235 => k0_hw235

def k0_off354 (v1994 : BitVec 32) : Fin 2 → Nat :=
  let c0_i32_943 : BitVec 32 := 0#32
  ![v1994.toNat, 0]

def k0_chk236 (v1994 : BitVec 32) : Prop :=
  (∀ a, (k0_off354 v1994) a + S1x100.size a ≤ S150000x100.size a)
instance k0_chk236.dec : ∀ (v1994 : BitVec 32), Decidable (k0_chk236 v1994) := fun v1994 => decidable_of_iff' _ (Iff.of_eq (k0_chk236.eq_1 v1994))
theorem k0_off354_inb : ∀ (v1994 : BitVec 32) (k0_hw236 : k0_chk236 v1994), ∀ a, (k0_off354 v1994) a + S1x100.size a ≤ S150000x100.size a := fun v1994 k0_hw236 => k0_hw236

def k0_off355 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v2007 : BitVec 32 := Scalar.addi v0 c118_i32
  let v2008 : Index := Scalar.indexCast v2007
  ![v2008.toNat]
def k0_off356 (v2009 : BitVec 32) : Fin 2 → Nat :=
  let c0_i32_947 : BitVec 32 := 0#32
  ![v2009.toNat, 0]

def k0_chk237 (v2009 : BitVec 32) : Prop :=
  (∀ a, (k0_off356 v2009) a + S1x100.size a ≤ S150000x100.size a)
instance k0_chk237.dec : ∀ (v2009 : BitVec 32), Decidable (k0_chk237 v2009) := fun v2009 => decidable_of_iff' _ (Iff.of_eq (k0_chk237.eq_1 v2009))
theorem k0_off356_inb : ∀ (v2009 : BitVec 32) (k0_hw237 : k0_chk237 v2009), ∀ a, (k0_off356 v2009) a + S1x100.size a ≤ S150000x100.size a := fun v2009 k0_hw237 => k0_hw237

def k0_off357 (v2011 : BitVec 32) : Fin 2 → Nat :=
  let c0_i32_951 : BitVec 32 := 0#32
  ![v2011.toNat, 0]

def k0_chk238 (v2011 : BitVec 32) : Prop :=
  (∀ a, (k0_off357 v2011) a + S1x100.size a ≤ S150000x100.size a)
instance k0_chk238.dec : ∀ (v2011 : BitVec 32), Decidable (k0_chk238 v2011) := fun v2011 => decidable_of_iff' _ (Iff.of_eq (k0_chk238.eq_1 v2011))
theorem k0_off357_inb : ∀ (v2011 : BitVec 32) (k0_hw238 : k0_chk238 v2011), ∀ a, (k0_off357 v2011) a + S1x100.size a ≤ S150000x100.size a := fun v2011 k0_hw238 => k0_hw238

def k0_off358 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v2024 : BitVec 32 := Scalar.addi v0 c119_i32
  let v2025 : Index := Scalar.indexCast v2024
  ![v2025.toNat]
def k0_off359 (v2026 : BitVec 32) : Fin 2 → Nat :=
  let c0_i32_955 : BitVec 32 := 0#32
  ![v2026.toNat, 0]

def k0_chk239 (v2026 : BitVec 32) : Prop :=
  (∀ a, (k0_off359 v2026) a + S1x100.size a ≤ S150000x100.size a)
instance k0_chk239.dec : ∀ (v2026 : BitVec 32), Decidable (k0_chk239 v2026) := fun v2026 => decidable_of_iff' _ (Iff.of_eq (k0_chk239.eq_1 v2026))
theorem k0_off359_inb : ∀ (v2026 : BitVec 32) (k0_hw239 : k0_chk239 v2026), ∀ a, (k0_off359 v2026) a + S1x100.size a ≤ S150000x100.size a := fun v2026 k0_hw239 => k0_hw239

def k0_off360 (v2028 : BitVec 32) : Fin 2 → Nat :=
  let c0_i32_959 : BitVec 32 := 0#32
  ![v2028.toNat, 0]

def k0_chk240 (v2028 : BitVec 32) : Prop :=
  (∀ a, (k0_off360 v2028) a + S1x100.size a ≤ S150000x100.size a)
instance k0_chk240.dec : ∀ (v2028 : BitVec 32), Decidable (k0_chk240 v2028) := fun v2028 => decidable_of_iff' _ (Iff.of_eq (k0_chk240.eq_1 v2028))
theorem k0_off360_inb : ∀ (v2028 : BitVec 32) (k0_hw240 : k0_chk240 v2028), ∀ a, (k0_off360 v2028) a + S1x100.size a ≤ S150000x100.size a := fun v2028 k0_hw240 => k0_hw240

def k0_off361 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v2041 : BitVec 32 := Scalar.addi v0 c120_i32
  let v2042 : Index := Scalar.indexCast v2041
  ![v2042.toNat]
def k0_off362 (v2043 : BitVec 32) : Fin 2 → Nat :=
  let c0_i32_963 : BitVec 32 := 0#32
  ![v2043.toNat, 0]

def k0_chk241 (v2043 : BitVec 32) : Prop :=
  (∀ a, (k0_off362 v2043) a + S1x100.size a ≤ S150000x100.size a)
instance k0_chk241.dec : ∀ (v2043 : BitVec 32), Decidable (k0_chk241 v2043) := fun v2043 => decidable_of_iff' _ (Iff.of_eq (k0_chk241.eq_1 v2043))
theorem k0_off362_inb : ∀ (v2043 : BitVec 32) (k0_hw241 : k0_chk241 v2043), ∀ a, (k0_off362 v2043) a + S1x100.size a ≤ S150000x100.size a := fun v2043 k0_hw241 => k0_hw241

def k0_off363 (v2045 : BitVec 32) : Fin 2 → Nat :=
  let c0_i32_967 : BitVec 32 := 0#32
  ![v2045.toNat, 0]

def k0_chk242 (v2045 : BitVec 32) : Prop :=
  (∀ a, (k0_off363 v2045) a + S1x100.size a ≤ S150000x100.size a)
instance k0_chk242.dec : ∀ (v2045 : BitVec 32), Decidable (k0_chk242 v2045) := fun v2045 => decidable_of_iff' _ (Iff.of_eq (k0_chk242.eq_1 v2045))
theorem k0_off363_inb : ∀ (v2045 : BitVec 32) (k0_hw242 : k0_chk242 v2045), ∀ a, (k0_off363 v2045) a + S1x100.size a ≤ S150000x100.size a := fun v2045 k0_hw242 => k0_hw242

def k0_off364 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v2058 : BitVec 32 := Scalar.addi v0 c121_i32
  let v2059 : Index := Scalar.indexCast v2058
  ![v2059.toNat]
def k0_off365 (v2060 : BitVec 32) : Fin 2 → Nat :=
  let c0_i32_971 : BitVec 32 := 0#32
  ![v2060.toNat, 0]

def k0_chk243 (v2060 : BitVec 32) : Prop :=
  (∀ a, (k0_off365 v2060) a + S1x100.size a ≤ S150000x100.size a)
instance k0_chk243.dec : ∀ (v2060 : BitVec 32), Decidable (k0_chk243 v2060) := fun v2060 => decidable_of_iff' _ (Iff.of_eq (k0_chk243.eq_1 v2060))
theorem k0_off365_inb : ∀ (v2060 : BitVec 32) (k0_hw243 : k0_chk243 v2060), ∀ a, (k0_off365 v2060) a + S1x100.size a ≤ S150000x100.size a := fun v2060 k0_hw243 => k0_hw243

def k0_off366 (v2062 : BitVec 32) : Fin 2 → Nat :=
  let c0_i32_975 : BitVec 32 := 0#32
  ![v2062.toNat, 0]

def k0_chk244 (v2062 : BitVec 32) : Prop :=
  (∀ a, (k0_off366 v2062) a + S1x100.size a ≤ S150000x100.size a)
instance k0_chk244.dec : ∀ (v2062 : BitVec 32), Decidable (k0_chk244 v2062) := fun v2062 => decidable_of_iff' _ (Iff.of_eq (k0_chk244.eq_1 v2062))
theorem k0_off366_inb : ∀ (v2062 : BitVec 32) (k0_hw244 : k0_chk244 v2062), ∀ a, (k0_off366 v2062) a + S1x100.size a ≤ S150000x100.size a := fun v2062 k0_hw244 => k0_hw244

def k0_off367 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v2075 : BitVec 32 := Scalar.addi v0 c122_i32
  let v2076 : Index := Scalar.indexCast v2075
  ![v2076.toNat]
def k0_off368 (v2077 : BitVec 32) : Fin 2 → Nat :=
  let c0_i32_979 : BitVec 32 := 0#32
  ![v2077.toNat, 0]

def k0_chk245 (v2077 : BitVec 32) : Prop :=
  (∀ a, (k0_off368 v2077) a + S1x100.size a ≤ S150000x100.size a)
instance k0_chk245.dec : ∀ (v2077 : BitVec 32), Decidable (k0_chk245 v2077) := fun v2077 => decidable_of_iff' _ (Iff.of_eq (k0_chk245.eq_1 v2077))
theorem k0_off368_inb : ∀ (v2077 : BitVec 32) (k0_hw245 : k0_chk245 v2077), ∀ a, (k0_off368 v2077) a + S1x100.size a ≤ S150000x100.size a := fun v2077 k0_hw245 => k0_hw245

def k0_off369 (v2079 : BitVec 32) : Fin 2 → Nat :=
  let c0_i32_983 : BitVec 32 := 0#32
  ![v2079.toNat, 0]

def k0_chk246 (v2079 : BitVec 32) : Prop :=
  (∀ a, (k0_off369 v2079) a + S1x100.size a ≤ S150000x100.size a)
instance k0_chk246.dec : ∀ (v2079 : BitVec 32), Decidable (k0_chk246 v2079) := fun v2079 => decidable_of_iff' _ (Iff.of_eq (k0_chk246.eq_1 v2079))
theorem k0_off369_inb : ∀ (v2079 : BitVec 32) (k0_hw246 : k0_chk246 v2079), ∀ a, (k0_off369 v2079) a + S1x100.size a ≤ S150000x100.size a := fun v2079 k0_hw246 => k0_hw246

def k0_off370 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v2092 : BitVec 32 := Scalar.addi v0 c123_i32
  let v2093 : Index := Scalar.indexCast v2092
  ![v2093.toNat]
def k0_off371 (v2094 : BitVec 32) : Fin 2 → Nat :=
  let c0_i32_987 : BitVec 32 := 0#32
  ![v2094.toNat, 0]

def k0_chk247 (v2094 : BitVec 32) : Prop :=
  (∀ a, (k0_off371 v2094) a + S1x100.size a ≤ S150000x100.size a)
instance k0_chk247.dec : ∀ (v2094 : BitVec 32), Decidable (k0_chk247 v2094) := fun v2094 => decidable_of_iff' _ (Iff.of_eq (k0_chk247.eq_1 v2094))
theorem k0_off371_inb : ∀ (v2094 : BitVec 32) (k0_hw247 : k0_chk247 v2094), ∀ a, (k0_off371 v2094) a + S1x100.size a ≤ S150000x100.size a := fun v2094 k0_hw247 => k0_hw247

def k0_off372 (v2096 : BitVec 32) : Fin 2 → Nat :=
  let c0_i32_991 : BitVec 32 := 0#32
  ![v2096.toNat, 0]

def k0_chk248 (v2096 : BitVec 32) : Prop :=
  (∀ a, (k0_off372 v2096) a + S1x100.size a ≤ S150000x100.size a)
instance k0_chk248.dec : ∀ (v2096 : BitVec 32), Decidable (k0_chk248 v2096) := fun v2096 => decidable_of_iff' _ (Iff.of_eq (k0_chk248.eq_1 v2096))
theorem k0_off372_inb : ∀ (v2096 : BitVec 32) (k0_hw248 : k0_chk248 v2096), ∀ a, (k0_off372 v2096) a + S1x100.size a ≤ S150000x100.size a := fun v2096 k0_hw248 => k0_hw248

def k0_off373 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v2109 : BitVec 32 := Scalar.addi v0 c124_i32
  let v2110 : Index := Scalar.indexCast v2109
  ![v2110.toNat]
def k0_off374 (v2111 : BitVec 32) : Fin 2 → Nat :=
  let c0_i32_995 : BitVec 32 := 0#32
  ![v2111.toNat, 0]

def k0_chk249 (v2111 : BitVec 32) : Prop :=
  (∀ a, (k0_off374 v2111) a + S1x100.size a ≤ S150000x100.size a)
instance k0_chk249.dec : ∀ (v2111 : BitVec 32), Decidable (k0_chk249 v2111) := fun v2111 => decidable_of_iff' _ (Iff.of_eq (k0_chk249.eq_1 v2111))
theorem k0_off374_inb : ∀ (v2111 : BitVec 32) (k0_hw249 : k0_chk249 v2111), ∀ a, (k0_off374 v2111) a + S1x100.size a ≤ S150000x100.size a := fun v2111 k0_hw249 => k0_hw249

def k0_off375 (v2113 : BitVec 32) : Fin 2 → Nat :=
  let c0_i32_999 : BitVec 32 := 0#32
  ![v2113.toNat, 0]

def k0_chk250 (v2113 : BitVec 32) : Prop :=
  (∀ a, (k0_off375 v2113) a + S1x100.size a ≤ S150000x100.size a)
instance k0_chk250.dec : ∀ (v2113 : BitVec 32), Decidable (k0_chk250 v2113) := fun v2113 => decidable_of_iff' _ (Iff.of_eq (k0_chk250.eq_1 v2113))
theorem k0_off375_inb : ∀ (v2113 : BitVec 32) (k0_hw250 : k0_chk250 v2113), ∀ a, (k0_off375 v2113) a + S1x100.size a ≤ S150000x100.size a := fun v2113 k0_hw250 => k0_hw250

def k0_off376 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v2126 : BitVec 32 := Scalar.addi v0 c125_i32
  let v2127 : Index := Scalar.indexCast v2126
  ![v2127.toNat]
def k0_off377 (v2128 : BitVec 32) : Fin 2 → Nat :=
  let c0_i32_1003 : BitVec 32 := 0#32
  ![v2128.toNat, 0]

def k0_chk251 (v2128 : BitVec 32) : Prop :=
  (∀ a, (k0_off377 v2128) a + S1x100.size a ≤ S150000x100.size a)
instance k0_chk251.dec : ∀ (v2128 : BitVec 32), Decidable (k0_chk251 v2128) := fun v2128 => decidable_of_iff' _ (Iff.of_eq (k0_chk251.eq_1 v2128))
theorem k0_off377_inb : ∀ (v2128 : BitVec 32) (k0_hw251 : k0_chk251 v2128), ∀ a, (k0_off377 v2128) a + S1x100.size a ≤ S150000x100.size a := fun v2128 k0_hw251 => k0_hw251

def k0_off378 (v2130 : BitVec 32) : Fin 2 → Nat :=
  let c0_i32_1007 : BitVec 32 := 0#32
  ![v2130.toNat, 0]

def k0_chk252 (v2130 : BitVec 32) : Prop :=
  (∀ a, (k0_off378 v2130) a + S1x100.size a ≤ S150000x100.size a)
instance k0_chk252.dec : ∀ (v2130 : BitVec 32), Decidable (k0_chk252 v2130) := fun v2130 => decidable_of_iff' _ (Iff.of_eq (k0_chk252.eq_1 v2130))
theorem k0_off378_inb : ∀ (v2130 : BitVec 32) (k0_hw252 : k0_chk252 v2130), ∀ a, (k0_off378 v2130) a + S1x100.size a ≤ S150000x100.size a := fun v2130 k0_hw252 => k0_hw252

def k0_off379 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v2143 : BitVec 32 := Scalar.addi v0 c126_i32
  let v2144 : Index := Scalar.indexCast v2143
  ![v2144.toNat]
def k0_off380 (v2145 : BitVec 32) : Fin 2 → Nat :=
  let c0_i32_1011 : BitVec 32 := 0#32
  ![v2145.toNat, 0]

def k0_chk253 (v2145 : BitVec 32) : Prop :=
  (∀ a, (k0_off380 v2145) a + S1x100.size a ≤ S150000x100.size a)
instance k0_chk253.dec : ∀ (v2145 : BitVec 32), Decidable (k0_chk253 v2145) := fun v2145 => decidable_of_iff' _ (Iff.of_eq (k0_chk253.eq_1 v2145))
theorem k0_off380_inb : ∀ (v2145 : BitVec 32) (k0_hw253 : k0_chk253 v2145), ∀ a, (k0_off380 v2145) a + S1x100.size a ≤ S150000x100.size a := fun v2145 k0_hw253 => k0_hw253

def k0_off381 (v2147 : BitVec 32) : Fin 2 → Nat :=
  let c0_i32_1015 : BitVec 32 := 0#32
  ![v2147.toNat, 0]

def k0_chk254 (v2147 : BitVec 32) : Prop :=
  (∀ a, (k0_off381 v2147) a + S1x100.size a ≤ S150000x100.size a)
instance k0_chk254.dec : ∀ (v2147 : BitVec 32), Decidable (k0_chk254 v2147) := fun v2147 => decidable_of_iff' _ (Iff.of_eq (k0_chk254.eq_1 v2147))
theorem k0_off381_inb : ∀ (v2147 : BitVec 32) (k0_hw254 : k0_chk254 v2147), ∀ a, (k0_off381 v2147) a + S1x100.size a ≤ S150000x100.size a := fun v2147 k0_hw254 => k0_hw254

def k0_off382 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v2160 : BitVec 32 := Scalar.addi v0 c127_i32
  let v2161 : Index := Scalar.indexCast v2160
  ![v2161.toNat]
def k0_off383 (v2162 : BitVec 32) : Fin 2 → Nat :=
  let c0_i32_1019 : BitVec 32 := 0#32
  ![v2162.toNat, 0]

def k0_chk255 (v2162 : BitVec 32) : Prop :=
  (∀ a, (k0_off383 v2162) a + S1x100.size a ≤ S150000x100.size a)
instance k0_chk255.dec : ∀ (v2162 : BitVec 32), Decidable (k0_chk255 v2162) := fun v2162 => decidable_of_iff' _ (Iff.of_eq (k0_chk255.eq_1 v2162))
theorem k0_off383_inb : ∀ (v2162 : BitVec 32) (k0_hw255 : k0_chk255 v2162), ∀ a, (k0_off383 v2162) a + S1x100.size a ≤ S150000x100.size a := fun v2162 k0_hw255 => k0_hw255

def k0_off384 (v2164 : BitVec 32) : Fin 2 → Nat :=
  let c0_i32_1023 : BitVec 32 := 0#32
  ![v2164.toNat, 0]

def k0_chk256 (v2164 : BitVec 32) : Prop :=
  (∀ a, (k0_off384 v2164) a + S1x100.size a ≤ S150000x100.size a)
instance k0_chk256.dec : ∀ (v2164 : BitVec 32), Decidable (k0_chk256 v2164) := fun v2164 => decidable_of_iff' _ (Iff.of_eq (k0_chk256.eq_1 v2164))
theorem k0_off384_inb : ∀ (v2164 : BitVec 32) (k0_hw256 : k0_chk256 v2164), ∀ a, (k0_off384 v2164) a + S1x100.size a ≤ S150000x100.size a := fun v2164 k0_hw256 => k0_hw256

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S200x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S100000x100_S50000x100_S150000x100_d0 : Shape.Concatenates [S100000x100, S50000x100] S150000x100 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x100_0_1 : S2000000x1.BroadcastsInDim S2000000x100 (![0, 1] : Fin 2 → Fin S2000000x100.rank)
  bcast_S_S150000x100 : S_.BroadcastsInDim S150000x100 (![] : Fin 0 → Fin S150000x100.rank)
  bcast_S_S16384 : S_.BroadcastsInDim S16384 (![] : Fin 0 → Fin S16384.rank)
  numel1_S1 : S1.numel = 1
  inb_S2_S1_0 : ∀ a, (![0] : Fin 1 → Nat) a + S1.size a ≤ S2.size a
  squeezes_S1_S_ : S1.Squeezes S_
  inb_S128x100_S1x100_0_0 : ∀ a, (![0, 0] : Fin 2 → Nat) a + S1x100.size a ≤ S128x100.size a
  squeezes_S1x100_S100 : S1x100.Squeezes S100
  inb_S2_S1_1 : ∀ a, (![1] : Fin 1 → Nat) a + S1.size a ≤ S2.size a
  inb_S128x100_S1x100_1_0 : ∀ a, (![1, 0] : Fin 2 → Nat) a + S1x100.size a ≤ S128x100.size a
  inb_S128x100_S1x100_2_0 : ∀ a, (![2, 0] : Fin 2 → Nat) a + S1x100.size a ≤ S128x100.size a
  inb_S128x100_S1x100_3_0 : ∀ a, (![3, 0] : Fin 2 → Nat) a + S1x100.size a ≤ S128x100.size a
  inb_S128x100_S1x100_4_0 : ∀ a, (![4, 0] : Fin 2 → Nat) a + S1x100.size a ≤ S128x100.size a
  inb_S128x100_S1x100_5_0 : ∀ a, (![5, 0] : Fin 2 → Nat) a + S1x100.size a ≤ S128x100.size a
  inb_S128x100_S1x100_6_0 : ∀ a, (![6, 0] : Fin 2 → Nat) a + S1x100.size a ≤ S128x100.size a
  inb_S128x100_S1x100_7_0 : ∀ a, (![7, 0] : Fin 2 → Nat) a + S1x100.size a ≤ S128x100.size a
  inb_S128x100_S1x100_8_0 : ∀ a, (![8, 0] : Fin 2 → Nat) a + S1x100.size a ≤ S128x100.size a
  inb_S128x100_S1x100_9_0 : ∀ a, (![9, 0] : Fin 2 → Nat) a + S1x100.size a ≤ S128x100.size a
  inb_S128x100_S1x100_10_0 : ∀ a, (![10, 0] : Fin 2 → Nat) a + S1x100.size a ≤ S128x100.size a
  inb_S128x100_S1x100_11_0 : ∀ a, (![11, 0] : Fin 2 → Nat) a + S1x100.size a ≤ S128x100.size a
  inb_S128x100_S1x100_12_0 : ∀ a, (![12, 0] : Fin 2 → Nat) a + S1x100.size a ≤ S128x100.size a
  inb_S128x100_S1x100_13_0 : ∀ a, (![13, 0] : Fin 2 → Nat) a + S1x100.size a ≤ S128x100.size a
  inb_S128x100_S1x100_14_0 : ∀ a, (![14, 0] : Fin 2 → Nat) a + S1x100.size a ≤ S128x100.size a
  inb_S128x100_S1x100_15_0 : ∀ a, (![15, 0] : Fin 2 → Nat) a + S1x100.size a ≤ S128x100.size a
  inb_S128x100_S1x100_16_0 : ∀ a, (![16, 0] : Fin 2 → Nat) a + S1x100.size a ≤ S128x100.size a
  inb_S128x100_S1x100_17_0 : ∀ a, (![17, 0] : Fin 2 → Nat) a + S1x100.size a ≤ S128x100.size a
  inb_S128x100_S1x100_18_0 : ∀ a, (![18, 0] : Fin 2 → Nat) a + S1x100.size a ≤ S128x100.size a
  inb_S128x100_S1x100_19_0 : ∀ a, (![19, 0] : Fin 2 → Nat) a + S1x100.size a ≤ S128x100.size a
  inb_S128x100_S1x100_20_0 : ∀ a, (![20, 0] : Fin 2 → Nat) a + S1x100.size a ≤ S128x100.size a
  inb_S128x100_S1x100_21_0 : ∀ a, (![21, 0] : Fin 2 → Nat) a + S1x100.size a ≤ S128x100.size a
  inb_S128x100_S1x100_22_0 : ∀ a, (![22, 0] : Fin 2 → Nat) a + S1x100.size a ≤ S128x100.size a
  inb_S128x100_S1x100_23_0 : ∀ a, (![23, 0] : Fin 2 → Nat) a + S1x100.size a ≤ S128x100.size a
  inb_S128x100_S1x100_24_0 : ∀ a, (![24, 0] : Fin 2 → Nat) a + S1x100.size a ≤ S128x100.size a
  inb_S128x100_S1x100_25_0 : ∀ a, (![25, 0] : Fin 2 → Nat) a + S1x100.size a ≤ S128x100.size a
  inb_S128x100_S1x100_26_0 : ∀ a, (![26, 0] : Fin 2 → Nat) a + S1x100.size a ≤ S128x100.size a
  inb_S128x100_S1x100_27_0 : ∀ a, (![27, 0] : Fin 2 → Nat) a + S1x100.size a ≤ S128x100.size a
  inb_S128x100_S1x100_28_0 : ∀ a, (![28, 0] : Fin 2 → Nat) a + S1x100.size a ≤ S128x100.size a
  inb_S128x100_S1x100_29_0 : ∀ a, (![29, 0] : Fin 2 → Nat) a + S1x100.size a ≤ S128x100.size a
  inb_S128x100_S1x100_30_0 : ∀ a, (![30, 0] : Fin 2 → Nat) a + S1x100.size a ≤ S128x100.size a
  inb_S128x100_S1x100_31_0 : ∀ a, (![31, 0] : Fin 2 → Nat) a + S1x100.size a ≤ S128x100.size a
  inb_S128x100_S1x100_32_0 : ∀ a, (![32, 0] : Fin 2 → Nat) a + S1x100.size a ≤ S128x100.size a
  inb_S128x100_S1x100_33_0 : ∀ a, (![33, 0] : Fin 2 → Nat) a + S1x100.size a ≤ S128x100.size a
  inb_S128x100_S1x100_34_0 : ∀ a, (![34, 0] : Fin 2 → Nat) a + S1x100.size a ≤ S128x100.size a
  inb_S128x100_S1x100_35_0 : ∀ a, (![35, 0] : Fin 2 → Nat) a + S1x100.size a ≤ S128x100.size a
  inb_S128x100_S1x100_36_0 : ∀ a, (![36, 0] : Fin 2 → Nat) a + S1x100.size a ≤ S128x100.size a
  inb_S128x100_S1x100_37_0 : ∀ a, (![37, 0] : Fin 2 → Nat) a + S1x100.size a ≤ S128x100.size a
  inb_S128x100_S1x100_38_0 : ∀ a, (![38, 0] : Fin 2 → Nat) a + S1x100.size a ≤ S128x100.size a
  inb_S128x100_S1x100_39_0 : ∀ a, (![39, 0] : Fin 2 → Nat) a + S1x100.size a ≤ S128x100.size a
  inb_S128x100_S1x100_40_0 : ∀ a, (![40, 0] : Fin 2 → Nat) a + S1x100.size a ≤ S128x100.size a
  inb_S128x100_S1x100_41_0 : ∀ a, (![41, 0] : Fin 2 → Nat) a + S1x100.size a ≤ S128x100.size a
  inb_S128x100_S1x100_42_0 : ∀ a, (![42, 0] : Fin 2 → Nat) a + S1x100.size a ≤ S128x100.size a
  inb_S128x100_S1x100_43_0 : ∀ a, (![43, 0] : Fin 2 → Nat) a + S1x100.size a ≤ S128x100.size a
  inb_S128x100_S1x100_44_0 : ∀ a, (![44, 0] : Fin 2 → Nat) a + S1x100.size a ≤ S128x100.size a
  inb_S128x100_S1x100_45_0 : ∀ a, (![45, 0] : Fin 2 → Nat) a + S1x100.size a ≤ S128x100.size a
  inb_S128x100_S1x100_46_0 : ∀ a, (![46, 0] : Fin 2 → Nat) a + S1x100.size a ≤ S128x100.size a
  inb_S128x100_S1x100_47_0 : ∀ a, (![47, 0] : Fin 2 → Nat) a + S1x100.size a ≤ S128x100.size a
  inb_S128x100_S1x100_48_0 : ∀ a, (![48, 0] : Fin 2 → Nat) a + S1x100.size a ≤ S128x100.size a
  inb_S128x100_S1x100_49_0 : ∀ a, (![49, 0] : Fin 2 → Nat) a + S1x100.size a ≤ S128x100.size a
  inb_S128x100_S1x100_50_0 : ∀ a, (![50, 0] : Fin 2 → Nat) a + S1x100.size a ≤ S128x100.size a
  inb_S128x100_S1x100_51_0 : ∀ a, (![51, 0] : Fin 2 → Nat) a + S1x100.size a ≤ S128x100.size a
  inb_S128x100_S1x100_52_0 : ∀ a, (![52, 0] : Fin 2 → Nat) a + S1x100.size a ≤ S128x100.size a
  inb_S128x100_S1x100_53_0 : ∀ a, (![53, 0] : Fin 2 → Nat) a + S1x100.size a ≤ S128x100.size a
  inb_S128x100_S1x100_54_0 : ∀ a, (![54, 0] : Fin 2 → Nat) a + S1x100.size a ≤ S128x100.size a
  inb_S128x100_S1x100_55_0 : ∀ a, (![55, 0] : Fin 2 → Nat) a + S1x100.size a ≤ S128x100.size a
  inb_S128x100_S1x100_56_0 : ∀ a, (![56, 0] : Fin 2 → Nat) a + S1x100.size a ≤ S128x100.size a
  inb_S128x100_S1x100_57_0 : ∀ a, (![57, 0] : Fin 2 → Nat) a + S1x100.size a ≤ S128x100.size a
  inb_S128x100_S1x100_58_0 : ∀ a, (![58, 0] : Fin 2 → Nat) a + S1x100.size a ≤ S128x100.size a
  inb_S128x100_S1x100_59_0 : ∀ a, (![59, 0] : Fin 2 → Nat) a + S1x100.size a ≤ S128x100.size a
  inb_S128x100_S1x100_60_0 : ∀ a, (![60, 0] : Fin 2 → Nat) a + S1x100.size a ≤ S128x100.size a
  inb_S128x100_S1x100_61_0 : ∀ a, (![61, 0] : Fin 2 → Nat) a + S1x100.size a ≤ S128x100.size a
  inb_S128x100_S1x100_62_0 : ∀ a, (![62, 0] : Fin 2 → Nat) a + S1x100.size a ≤ S128x100.size a
  inb_S128x100_S1x100_63_0 : ∀ a, (![63, 0] : Fin 2 → Nat) a + S1x100.size a ≤ S128x100.size a
  inb_S128x100_S1x100_64_0 : ∀ a, (![64, 0] : Fin 2 → Nat) a + S1x100.size a ≤ S128x100.size a
  inb_S128x100_S1x100_65_0 : ∀ a, (![65, 0] : Fin 2 → Nat) a + S1x100.size a ≤ S128x100.size a
  inb_S128x100_S1x100_66_0 : ∀ a, (![66, 0] : Fin 2 → Nat) a + S1x100.size a ≤ S128x100.size a
  inb_S128x100_S1x100_67_0 : ∀ a, (![67, 0] : Fin 2 → Nat) a + S1x100.size a ≤ S128x100.size a
  inb_S128x100_S1x100_68_0 : ∀ a, (![68, 0] : Fin 2 → Nat) a + S1x100.size a ≤ S128x100.size a
  inb_S128x100_S1x100_69_0 : ∀ a, (![69, 0] : Fin 2 → Nat) a + S1x100.size a ≤ S128x100.size a
  inb_S128x100_S1x100_70_0 : ∀ a, (![70, 0] : Fin 2 → Nat) a + S1x100.size a ≤ S128x100.size a
  inb_S128x100_S1x100_71_0 : ∀ a, (![71, 0] : Fin 2 → Nat) a + S1x100.size a ≤ S128x100.size a
  inb_S128x100_S1x100_72_0 : ∀ a, (![72, 0] : Fin 2 → Nat) a + S1x100.size a ≤ S128x100.size a
  inb_S128x100_S1x100_73_0 : ∀ a, (![73, 0] : Fin 2 → Nat) a + S1x100.size a ≤ S128x100.size a
  inb_S128x100_S1x100_74_0 : ∀ a, (![74, 0] : Fin 2 → Nat) a + S1x100.size a ≤ S128x100.size a
  inb_S128x100_S1x100_75_0 : ∀ a, (![75, 0] : Fin 2 → Nat) a + S1x100.size a ≤ S128x100.size a
  inb_S128x100_S1x100_76_0 : ∀ a, (![76, 0] : Fin 2 → Nat) a + S1x100.size a ≤ S128x100.size a
  inb_S128x100_S1x100_77_0 : ∀ a, (![77, 0] : Fin 2 → Nat) a + S1x100.size a ≤ S128x100.size a
  inb_S128x100_S1x100_78_0 : ∀ a, (![78, 0] : Fin 2 → Nat) a + S1x100.size a ≤ S128x100.size a
  inb_S128x100_S1x100_79_0 : ∀ a, (![79, 0] : Fin 2 → Nat) a + S1x100.size a ≤ S128x100.size a
  inb_S128x100_S1x100_80_0 : ∀ a, (![80, 0] : Fin 2 → Nat) a + S1x100.size a ≤ S128x100.size a
  inb_S128x100_S1x100_81_0 : ∀ a, (![81, 0] : Fin 2 → Nat) a + S1x100.size a ≤ S128x100.size a
  inb_S128x100_S1x100_82_0 : ∀ a, (![82, 0] : Fin 2 → Nat) a + S1x100.size a ≤ S128x100.size a
  inb_S128x100_S1x100_83_0 : ∀ a, (![83, 0] : Fin 2 → Nat) a + S1x100.size a ≤ S128x100.size a
  inb_S128x100_S1x100_84_0 : ∀ a, (![84, 0] : Fin 2 → Nat) a + S1x100.size a ≤ S128x100.size a
  inb_S128x100_S1x100_85_0 : ∀ a, (![85, 0] : Fin 2 → Nat) a + S1x100.size a ≤ S128x100.size a
  inb_S128x100_S1x100_86_0 : ∀ a, (![86, 0] : Fin 2 → Nat) a + S1x100.size a ≤ S128x100.size a
  inb_S128x100_S1x100_87_0 : ∀ a, (![87, 0] : Fin 2 → Nat) a + S1x100.size a ≤ S128x100.size a
  inb_S128x100_S1x100_88_0 : ∀ a, (![88, 0] : Fin 2 → Nat) a + S1x100.size a ≤ S128x100.size a
  inb_S128x100_S1x100_89_0 : ∀ a, (![89, 0] : Fin 2 → Nat) a + S1x100.size a ≤ S128x100.size a
  inb_S128x100_S1x100_90_0 : ∀ a, (![90, 0] : Fin 2 → Nat) a + S1x100.size a ≤ S128x100.size a
  inb_S128x100_S1x100_91_0 : ∀ a, (![91, 0] : Fin 2 → Nat) a + S1x100.size a ≤ S128x100.size a
  inb_S128x100_S1x100_92_0 : ∀ a, (![92, 0] : Fin 2 → Nat) a + S1x100.size a ≤ S128x100.size a
  inb_S128x100_S1x100_93_0 : ∀ a, (![93, 0] : Fin 2 → Nat) a + S1x100.size a ≤ S128x100.size a
  inb_S128x100_S1x100_94_0 : ∀ a, (![94, 0] : Fin 2 → Nat) a + S1x100.size a ≤ S128x100.size a
  inb_S128x100_S1x100_95_0 : ∀ a, (![95, 0] : Fin 2 → Nat) a + S1x100.size a ≤ S128x100.size a
  inb_S128x100_S1x100_96_0 : ∀ a, (![96, 0] : Fin 2 → Nat) a + S1x100.size a ≤ S128x100.size a
  inb_S128x100_S1x100_97_0 : ∀ a, (![97, 0] : Fin 2 → Nat) a + S1x100.size a ≤ S128x100.size a
  inb_S128x100_S1x100_98_0 : ∀ a, (![98, 0] : Fin 2 → Nat) a + S1x100.size a ≤ S128x100.size a
  inb_S128x100_S1x100_99_0 : ∀ a, (![99, 0] : Fin 2 → Nat) a + S1x100.size a ≤ S128x100.size a
  inb_S128x100_S1x100_100_0 : ∀ a, (![100, 0] : Fin 2 → Nat) a + S1x100.size a ≤ S128x100.size a
  inb_S128x100_S1x100_101_0 : ∀ a, (![101, 0] : Fin 2 → Nat) a + S1x100.size a ≤ S128x100.size a
  inb_S128x100_S1x100_102_0 : ∀ a, (![102, 0] : Fin 2 → Nat) a + S1x100.size a ≤ S128x100.size a
  inb_S128x100_S1x100_103_0 : ∀ a, (![103, 0] : Fin 2 → Nat) a + S1x100.size a ≤ S128x100.size a
  inb_S128x100_S1x100_104_0 : ∀ a, (![104, 0] : Fin 2 → Nat) a + S1x100.size a ≤ S128x100.size a
  inb_S128x100_S1x100_105_0 : ∀ a, (![105, 0] : Fin 2 → Nat) a + S1x100.size a ≤ S128x100.size a
  inb_S128x100_S1x100_106_0 : ∀ a, (![106, 0] : Fin 2 → Nat) a + S1x100.size a ≤ S128x100.size a
  inb_S128x100_S1x100_107_0 : ∀ a, (![107, 0] : Fin 2 → Nat) a + S1x100.size a ≤ S128x100.size a
  inb_S128x100_S1x100_108_0 : ∀ a, (![108, 0] : Fin 2 → Nat) a + S1x100.size a ≤ S128x100.size a
  inb_S128x100_S1x100_109_0 : ∀ a, (![109, 0] : Fin 2 → Nat) a + S1x100.size a ≤ S128x100.size a
  inb_S128x100_S1x100_110_0 : ∀ a, (![110, 0] : Fin 2 → Nat) a + S1x100.size a ≤ S128x100.size a
  inb_S128x100_S1x100_111_0 : ∀ a, (![111, 0] : Fin 2 → Nat) a + S1x100.size a ≤ S128x100.size a
  inb_S128x100_S1x100_112_0 : ∀ a, (![112, 0] : Fin 2 → Nat) a + S1x100.size a ≤ S128x100.size a
  inb_S128x100_S1x100_113_0 : ∀ a, (![113, 0] : Fin 2 → Nat) a + S1x100.size a ≤ S128x100.size a
  inb_S128x100_S1x100_114_0 : ∀ a, (![114, 0] : Fin 2 → Nat) a + S1x100.size a ≤ S128x100.size a
  inb_S128x100_S1x100_115_0 : ∀ a, (![115, 0] : Fin 2 → Nat) a + S1x100.size a ≤ S128x100.size a
  inb_S128x100_S1x100_116_0 : ∀ a, (![116, 0] : Fin 2 → Nat) a + S1x100.size a ≤ S128x100.size a
  inb_S128x100_S1x100_117_0 : ∀ a, (![117, 0] : Fin 2 → Nat) a + S1x100.size a ≤ S128x100.size a
  inb_S128x100_S1x100_118_0 : ∀ a, (![118, 0] : Fin 2 → Nat) a + S1x100.size a ≤ S128x100.size a
  inb_S128x100_S1x100_119_0 : ∀ a, (![119, 0] : Fin 2 → Nat) a + S1x100.size a ≤ S128x100.size a
  inb_S128x100_S1x100_120_0 : ∀ a, (![120, 0] : Fin 2 → Nat) a + S1x100.size a ≤ S128x100.size a
  inb_S128x100_S1x100_121_0 : ∀ a, (![121, 0] : Fin 2 → Nat) a + S1x100.size a ≤ S128x100.size a
  inb_S128x100_S1x100_122_0 : ∀ a, (![122, 0] : Fin 2 → Nat) a + S1x100.size a ≤ S128x100.size a
  inb_S128x100_S1x100_123_0 : ∀ a, (![123, 0] : Fin 2 → Nat) a + S1x100.size a ≤ S128x100.size a
  inb_S128x100_S1x100_124_0 : ∀ a, (![124, 0] : Fin 2 → Nat) a + S1x100.size a ≤ S128x100.size a
  inb_S128x100_S1x100_125_0 : ∀ a, (![125, 0] : Fin 2 → Nat) a + S1x100.size a ≤ S128x100.size a
  inb_S128x100_S1x100_126_0 : ∀ a, (![126, 0] : Fin 2 → Nat) a + S1x100.size a ≤ S128x100.size a
  inb_S128x100_S1x100_127_0 : ∀ a, (![127, 0] : Fin 2 → Nat) a + S1x100.size a ≤ S128x100.size a
  inb_S150000x100_S1x100_0_0 : ∀ a, (![0, 0] : Fin 2 → Nat) a + S1x100.size a ≤ S150000x100.size a
  inb_S128x100_S128x100_0_0 : ∀ a, (![0, 0] : Fin 2 → Nat) a + S128x100.size a ≤ S128x100.size a
  h_S128x100 : 0 < S128x100.numel
  concatenates_S128x100_S128x100_S128x200_d1 : Shape.Concatenates [S128x100, S128x100] S128x200 1
  bitsLt_bf16_f32 : FTy.bits .bf16 < FTy.bits .f32
  inb_S200x64_S200x64_0_0 : ∀ a, (![0, 0] : Fin 2 → Nat) a + S200x64.size a ≤ S200x64.size a
  h_S200x64 : 0 < S200x64.numel
  inb_S64_S64_0 : ∀ a, (![0] : Fin 1 → Nat) a + S64.size a ≤ S64.size a
  h_S64 : 0 < S64.numel
  shapeCasts_S64_S1x64 : S64.ShapeCasts S1x64
  broadcasts_S1x64_S128x64 : S1x64.Broadcasts S128x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S128x32 : S1x32.Broadcasts S128x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  shapeCasts_S16384x1_S16384 : S16384x1.ShapeCasts S16384
  gather_S150000x100_S2000000x1_S2000000x100_1_0_n_n_0_1_1100_wf : GatherDims.WF S150000x100 S2000000x1 S2000000x100 [1] [0] [] [0] [] 1 ![1, 100]
  scatter_S150000x100_S2000000x1_S2000000x100_1_0_0_1_wf : ScatterDims.WF S150000x100 S2000000x1 S2000000x100 [1] [0] [0] 1
  dot_S128x200_S200x64_S128x64_1_0_0_1_n_n_wf : DotDims.WF S128x200 S200x64 S128x64 [1] [0] [0] [1] [] []
  dot_S128x64_S64x32_S128x32_1_0_0_1_n_n_wf : DotDims.WF S128x64 S64x32 S128x32 [1] [0] [0] [1] [] []
  dot_S128x32_S32x1_S128x1_1_0_0_1_n_n_wf : DotDims.WF S128x32 S32x1 S128x1 [1] [0] [0] [1] [] []
  hcc0_scratch2 : 8 + S2.numel ≤ 10
  hrank0 : 0 < grid0.rank
  k0_off1_inb : ∀ i : grid0.Coords, ∀ a, (k0_off1 i) a + S1.size a ≤ S16384.size a
  k0_off4_inb : ∀ i : grid0.Coords, ∀ a, (k0_off4 i) a + S1.size a ≤ S16384.size a
  k0_off7_inb : ∀ i : grid0.Coords, ∀ a, (k0_off7 i) a + S1.size a ≤ S16384.size a
  k0_off10_inb : ∀ i : grid0.Coords, ∀ a, (k0_off10 i) a + S1.size a ≤ S16384.size a
  k0_off13_inb : ∀ i : grid0.Coords, ∀ a, (k0_off13 i) a + S1.size a ≤ S16384.size a
  k0_off16_inb : ∀ i : grid0.Coords, ∀ a, (k0_off16 i) a + S1.size a ≤ S16384.size a
  k0_off19_inb : ∀ i : grid0.Coords, ∀ a, (k0_off19 i) a + S1.size a ≤ S16384.size a
  k0_off22_inb : ∀ i : grid0.Coords, ∀ a, (k0_off22 i) a + S1.size a ≤ S16384.size a
  k0_off25_inb : ∀ i : grid0.Coords, ∀ a, (k0_off25 i) a + S1.size a ≤ S16384.size a
  k0_off28_inb : ∀ i : grid0.Coords, ∀ a, (k0_off28 i) a + S1.size a ≤ S16384.size a
  k0_off31_inb : ∀ i : grid0.Coords, ∀ a, (k0_off31 i) a + S1.size a ≤ S16384.size a
  k0_off34_inb : ∀ i : grid0.Coords, ∀ a, (k0_off34 i) a + S1.size a ≤ S16384.size a
  k0_off37_inb : ∀ i : grid0.Coords, ∀ a, (k0_off37 i) a + S1.size a ≤ S16384.size a
  k0_off40_inb : ∀ i : grid0.Coords, ∀ a, (k0_off40 i) a + S1.size a ≤ S16384.size a
  k0_off43_inb : ∀ i : grid0.Coords, ∀ a, (k0_off43 i) a + S1.size a ≤ S16384.size a
  k0_off46_inb : ∀ i : grid0.Coords, ∀ a, (k0_off46 i) a + S1.size a ≤ S16384.size a
  k0_off49_inb : ∀ i : grid0.Coords, ∀ a, (k0_off49 i) a + S1.size a ≤ S16384.size a
  k0_off52_inb : ∀ i : grid0.Coords, ∀ a, (k0_off52 i) a + S1.size a ≤ S16384.size a
  k0_off55_inb : ∀ i : grid0.Coords, ∀ a, (k0_off55 i) a + S1.size a ≤ S16384.size a
  k0_off58_inb : ∀ i : grid0.Coords, ∀ a, (k0_off58 i) a + S1.size a ≤ S16384.size a
  k0_off61_inb : ∀ i : grid0.Coords, ∀ a, (k0_off61 i) a + S1.size a ≤ S16384.size a
  k0_off64_inb : ∀ i : grid0.Coords, ∀ a, (k0_off64 i) a + S1.size a ≤ S16384.size a
  k0_off67_inb : ∀ i : grid0.Coords, ∀ a, (k0_off67 i) a + S1.size a ≤ S16384.size a
  k0_off70_inb : ∀ i : grid0.Coords, ∀ a, (k0_off70 i) a + S1.size a ≤ S16384.size a
  k0_off73_inb : ∀ i : grid0.Coords, ∀ a, (k0_off73 i) a + S1.size a ≤ S16384.size a
  k0_off76_inb : ∀ i : grid0.Coords, ∀ a, (k0_off76 i) a + S1.size a ≤ S16384.size a
  k0_off79_inb : ∀ i : grid0.Coords, ∀ a, (k0_off79 i) a + S1.size a ≤ S16384.size a
  k0_off82_inb : ∀ i : grid0.Coords, ∀ a, (k0_off82 i) a + S1.size a ≤ S16384.size a
  k0_off85_inb : ∀ i : grid0.Coords, ∀ a, (k0_off85 i) a + S1.size a ≤ S16384.size a
  k0_off88_inb : ∀ i : grid0.Coords, ∀ a, (k0_off88 i) a + S1.size a ≤ S16384.size a
  k0_off91_inb : ∀ i : grid0.Coords, ∀ a, (k0_off91 i) a + S1.size a ≤ S16384.size a
  k0_off94_inb : ∀ i : grid0.Coords, ∀ a, (k0_off94 i) a + S1.size a ≤ S16384.size a
  k0_off97_inb : ∀ i : grid0.Coords, ∀ a, (k0_off97 i) a + S1.size a ≤ S16384.size a
  k0_off100_inb : ∀ i : grid0.Coords, ∀ a, (k0_off100 i) a + S1.size a ≤ S16384.size a
  k0_off103_inb : ∀ i : grid0.Coords, ∀ a, (k0_off103 i) a + S1.size a ≤ S16384.size a
  k0_off106_inb : ∀ i : grid0.Coords, ∀ a, (k0_off106 i) a + S1.size a ≤ S16384.size a
  k0_off109_inb : ∀ i : grid0.Coords, ∀ a, (k0_off109 i) a + S1.size a ≤ S16384.size a
  k0_off112_inb : ∀ i : grid0.Coords, ∀ a, (k0_off112 i) a + S1.size a ≤ S16384.size a
  k0_off115_inb : ∀ i : grid0.Coords, ∀ a, (k0_off115 i) a + S1.size a ≤ S16384.size a
  k0_off118_inb : ∀ i : grid0.Coords, ∀ a, (k0_off118 i) a + S1.size a ≤ S16384.size a
  k0_off121_inb : ∀ i : grid0.Coords, ∀ a, (k0_off121 i) a + S1.size a ≤ S16384.size a
  k0_off124_inb : ∀ i : grid0.Coords, ∀ a, (k0_off124 i) a + S1.size a ≤ S16384.size a
  k0_off127_inb : ∀ i : grid0.Coords, ∀ a, (k0_off127 i) a + S1.size a ≤ S16384.size a
  k0_off130_inb : ∀ i : grid0.Coords, ∀ a, (k0_off130 i) a + S1.size a ≤ S16384.size a
  k0_off133_inb : ∀ i : grid0.Coords, ∀ a, (k0_off133 i) a + S1.size a ≤ S16384.size a
  k0_off136_inb : ∀ i : grid0.Coords, ∀ a, (k0_off136 i) a + S1.size a ≤ S16384.size a
  k0_off139_inb : ∀ i : grid0.Coords, ∀ a, (k0_off139 i) a + S1.size a ≤ S16384.size a
  k0_off142_inb : ∀ i : grid0.Coords, ∀ a, (k0_off142 i) a + S1.size a ≤ S16384.size a
  k0_off145_inb : ∀ i : grid0.Coords, ∀ a, (k0_off145 i) a + S1.size a ≤ S16384.size a
  k0_off148_inb : ∀ i : grid0.Coords, ∀ a, (k0_off148 i) a + S1.size a ≤ S16384.size a
  k0_off151_inb : ∀ i : grid0.Coords, ∀ a, (k0_off151 i) a + S1.size a ≤ S16384.size a
  k0_off154_inb : ∀ i : grid0.Coords, ∀ a, (k0_off154 i) a + S1.size a ≤ S16384.size a
  k0_off157_inb : ∀ i : grid0.Coords, ∀ a, (k0_off157 i) a + S1.size a ≤ S16384.size a
  k0_off160_inb : ∀ i : grid0.Coords, ∀ a, (k0_off160 i) a + S1.size a ≤ S16384.size a
  k0_off163_inb : ∀ i : grid0.Coords, ∀ a, (k0_off163 i) a + S1.size a ≤ S16384.size a
  k0_off166_inb : ∀ i : grid0.Coords, ∀ a, (k0_off166 i) a + S1.size a ≤ S16384.size a
  k0_off169_inb : ∀ i : grid0.Coords, ∀ a, (k0_off169 i) a + S1.size a ≤ S16384.size a
  k0_off172_inb : ∀ i : grid0.Coords, ∀ a, (k0_off172 i) a + S1.size a ≤ S16384.size a
  k0_off175_inb : ∀ i : grid0.Coords, ∀ a, (k0_off175 i) a + S1.size a ≤ S16384.size a
  k0_off178_inb : ∀ i : grid0.Coords, ∀ a, (k0_off178 i) a + S1.size a ≤ S16384.size a
  k0_off181_inb : ∀ i : grid0.Coords, ∀ a, (k0_off181 i) a + S1.size a ≤ S16384.size a
  k0_off184_inb : ∀ i : grid0.Coords, ∀ a, (k0_off184 i) a + S1.size a ≤ S16384.size a
  k0_off187_inb : ∀ i : grid0.Coords, ∀ a, (k0_off187 i) a + S1.size a ≤ S16384.size a
  k0_off190_inb : ∀ i : grid0.Coords, ∀ a, (k0_off190 i) a + S1.size a ≤ S16384.size a
  k0_off193_inb : ∀ i : grid0.Coords, ∀ a, (k0_off193 i) a + S1.size a ≤ S16384.size a
  k0_off196_inb : ∀ i : grid0.Coords, ∀ a, (k0_off196 i) a + S1.size a ≤ S16384.size a
  k0_off199_inb : ∀ i : grid0.Coords, ∀ a, (k0_off199 i) a + S1.size a ≤ S16384.size a
  k0_off202_inb : ∀ i : grid0.Coords, ∀ a, (k0_off202 i) a + S1.size a ≤ S16384.size a
  k0_off205_inb : ∀ i : grid0.Coords, ∀ a, (k0_off205 i) a + S1.size a ≤ S16384.size a
  k0_off208_inb : ∀ i : grid0.Coords, ∀ a, (k0_off208 i) a + S1.size a ≤ S16384.size a
  k0_off211_inb : ∀ i : grid0.Coords, ∀ a, (k0_off211 i) a + S1.size a ≤ S16384.size a
  k0_off214_inb : ∀ i : grid0.Coords, ∀ a, (k0_off214 i) a + S1.size a ≤ S16384.size a
  k0_off217_inb : ∀ i : grid0.Coords, ∀ a, (k0_off217 i) a + S1.size a ≤ S16384.size a
  k0_off220_inb : ∀ i : grid0.Coords, ∀ a, (k0_off220 i) a + S1.size a ≤ S16384.size a
  k0_off223_inb : ∀ i : grid0.Coords, ∀ a, (k0_off223 i) a + S1.size a ≤ S16384.size a
  k0_off226_inb : ∀ i : grid0.Coords, ∀ a, (k0_off226 i) a + S1.size a ≤ S16384.size a
  k0_off229_inb : ∀ i : grid0.Coords, ∀ a, (k0_off229 i) a + S1.size a ≤ S16384.size a
  k0_off232_inb : ∀ i : grid0.Coords, ∀ a, (k0_off232 i) a + S1.size a ≤ S16384.size a
  k0_off235_inb : ∀ i : grid0.Coords, ∀ a, (k0_off235 i) a + S1.size a ≤ S16384.size a
  k0_off238_inb : ∀ i : grid0.Coords, ∀ a, (k0_off238 i) a + S1.size a ≤ S16384.size a
  k0_off241_inb : ∀ i : grid0.Coords, ∀ a, (k0_off241 i) a + S1.size a ≤ S16384.size a
  k0_off244_inb : ∀ i : grid0.Coords, ∀ a, (k0_off244 i) a + S1.size a ≤ S16384.size a
  k0_off247_inb : ∀ i : grid0.Coords, ∀ a, (k0_off247 i) a + S1.size a ≤ S16384.size a
  k0_off250_inb : ∀ i : grid0.Coords, ∀ a, (k0_off250 i) a + S1.size a ≤ S16384.size a
  k0_off253_inb : ∀ i : grid0.Coords, ∀ a, (k0_off253 i) a + S1.size a ≤ S16384.size a
  k0_off256_inb : ∀ i : grid0.Coords, ∀ a, (k0_off256 i) a + S1.size a ≤ S16384.size a
  k0_off259_inb : ∀ i : grid0.Coords, ∀ a, (k0_off259 i) a + S1.size a ≤ S16384.size a
  k0_off262_inb : ∀ i : grid0.Coords, ∀ a, (k0_off262 i) a + S1.size a ≤ S16384.size a
  k0_off265_inb : ∀ i : grid0.Coords, ∀ a, (k0_off265 i) a + S1.size a ≤ S16384.size a
  k0_off268_inb : ∀ i : grid0.Coords, ∀ a, (k0_off268 i) a + S1.size a ≤ S16384.size a
  k0_off271_inb : ∀ i : grid0.Coords, ∀ a, (k0_off271 i) a + S1.size a ≤ S16384.size a
  k0_off274_inb : ∀ i : grid0.Coords, ∀ a, (k0_off274 i) a + S1.size a ≤ S16384.size a
  k0_off277_inb : ∀ i : grid0.Coords, ∀ a, (k0_off277 i) a + S1.size a ≤ S16384.size a
  k0_off280_inb : ∀ i : grid0.Coords, ∀ a, (k0_off280 i) a + S1.size a ≤ S16384.size a
  k0_off283_inb : ∀ i : grid0.Coords, ∀ a, (k0_off283 i) a + S1.size a ≤ S16384.size a
  k0_off286_inb : ∀ i : grid0.Coords, ∀ a, (k0_off286 i) a + S1.size a ≤ S16384.size a
  k0_off289_inb : ∀ i : grid0.Coords, ∀ a, (k0_off289 i) a + S1.size a ≤ S16384.size a
  k0_off292_inb : ∀ i : grid0.Coords, ∀ a, (k0_off292 i) a + S1.size a ≤ S16384.size a
  k0_off295_inb : ∀ i : grid0.Coords, ∀ a, (k0_off295 i) a + S1.size a ≤ S16384.size a
  k0_off298_inb : ∀ i : grid0.Coords, ∀ a, (k0_off298 i) a + S1.size a ≤ S16384.size a
  k0_off301_inb : ∀ i : grid0.Coords, ∀ a, (k0_off301 i) a + S1.size a ≤ S16384.size a
  k0_off304_inb : ∀ i : grid0.Coords, ∀ a, (k0_off304 i) a + S1.size a ≤ S16384.size a
  k0_off307_inb : ∀ i : grid0.Coords, ∀ a, (k0_off307 i) a + S1.size a ≤ S16384.size a
  k0_off310_inb : ∀ i : grid0.Coords, ∀ a, (k0_off310 i) a + S1.size a ≤ S16384.size a
  k0_off313_inb : ∀ i : grid0.Coords, ∀ a, (k0_off313 i) a + S1.size a ≤ S16384.size a
  k0_off316_inb : ∀ i : grid0.Coords, ∀ a, (k0_off316 i) a + S1.size a ≤ S16384.size a
  k0_off319_inb : ∀ i : grid0.Coords, ∀ a, (k0_off319 i) a + S1.size a ≤ S16384.size a
  k0_off322_inb : ∀ i : grid0.Coords, ∀ a, (k0_off322 i) a + S1.size a ≤ S16384.size a
  k0_off325_inb : ∀ i : grid0.Coords, ∀ a, (k0_off325 i) a + S1.size a ≤ S16384.size a
  k0_off328_inb : ∀ i : grid0.Coords, ∀ a, (k0_off328 i) a + S1.size a ≤ S16384.size a
  k0_off331_inb : ∀ i : grid0.Coords, ∀ a, (k0_off331 i) a + S1.size a ≤ S16384.size a
  k0_off334_inb : ∀ i : grid0.Coords, ∀ a, (k0_off334 i) a + S1.size a ≤ S16384.size a
  k0_off337_inb : ∀ i : grid0.Coords, ∀ a, (k0_off337 i) a + S1.size a ≤ S16384.size a
  k0_off340_inb : ∀ i : grid0.Coords, ∀ a, (k0_off340 i) a + S1.size a ≤ S16384.size a
  k0_off343_inb : ∀ i : grid0.Coords, ∀ a, (k0_off343 i) a + S1.size a ≤ S16384.size a
  k0_off346_inb : ∀ i : grid0.Coords, ∀ a, (k0_off346 i) a + S1.size a ≤ S16384.size a
  k0_off349_inb : ∀ i : grid0.Coords, ∀ a, (k0_off349 i) a + S1.size a ≤ S16384.size a
  k0_off352_inb : ∀ i : grid0.Coords, ∀ a, (k0_off352 i) a + S1.size a ≤ S16384.size a
  k0_off355_inb : ∀ i : grid0.Coords, ∀ a, (k0_off355 i) a + S1.size a ≤ S16384.size a
  k0_off358_inb : ∀ i : grid0.Coords, ∀ a, (k0_off358 i) a + S1.size a ≤ S16384.size a
  k0_off361_inb : ∀ i : grid0.Coords, ∀ a, (k0_off361 i) a + S1.size a ≤ S16384.size a
  k0_off364_inb : ∀ i : grid0.Coords, ∀ a, (k0_off364 i) a + S1.size a ≤ S16384.size a
  k0_off367_inb : ∀ i : grid0.Coords, ∀ a, (k0_off367 i) a + S1.size a ≤ S16384.size a
  k0_off370_inb : ∀ i : grid0.Coords, ∀ a, (k0_off370 i) a + S1.size a ≤ S16384.size a
  k0_off373_inb : ∀ i : grid0.Coords, ∀ a, (k0_off373 i) a + S1.size a ≤ S16384.size a
  k0_off376_inb : ∀ i : grid0.Coords, ∀ a, (k0_off376 i) a + S1.size a ≤ S16384.size a
  k0_off379_inb : ∀ i : grid0.Coords, ∀ a, (k0_off379 i) a + S1.size a ≤ S16384.size a
  k0_off382_inb : ∀ i : grid0.Coords, ∀ a, (k0_off382 i) a + S1.size a ≤ S16384.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S200x64.size a ≤ S200x64.size a
  hwx0_0 : ∀ i : grid0.Coords, EltTy.bits .f32 = 32 ∨ (Rect.block (s := S200x64) S200x64.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S64.size a ≤ S64.size a
  hwx0_1 : ∀ i : grid0.Coords, EltTy.bits .f32 = 32 ∨ (Rect.block (s := S64) S64.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S64x32.size a ≤ S64x32.size a
  hwx0_2 : ∀ i : grid0.Coords, EltTy.bits .f32 = 32 ∨ (Rect.block (s := S64x32) S64x32.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S32.size a ≤ S32.size a
  hwx0_3 : ∀ i : grid0.Coords, EltTy.bits .f32 = 32 ∨ (Rect.block (s := S32) S32.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S32x1.size a ≤ S32x1.size a
  hwx0_4 : ∀ i : grid0.Coords, EltTy.bits .f32 = 32 ∨ (Rect.block (s := S32x1) S32x1.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S1.size a ≤ S1.size a
  hwx0_5 : ∀ i : grid0.Coords, EltTy.bits .f32 = 32 ∨ (Rect.block (s := S1) S1.size (cc0_transform_6 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_7 i = cc0_transform_7 i'
  hinb0_6 : ∀ (i : grid0.Coords) a, (cc0_transform_7 i a + 1) * S128x1.size a ≤ S16384x1.size a
  hwx0_6 : ∀ i : grid0.Coords, EltTy.bits .f32 = 32 ∨ (Rect.block (s := S16384x1) S128x1.size (cc0_transform_7 i) (hinb0_6 i)).WholeWords (EltTy.packing .f32)

variable [Facts₀]

abbrev cc0_scratch2 : DmaSems sig S2 := SemArray.consecutive 8 S2 hcc0_scratch2
def gather_S150000x100_S2000000x1_S2000000x100_1_0_n_n_0_1_1100 : GatherDims S150000x100 S2000000x1 S2000000x100 where
  offsetDims := [1]
  collapsedSliceDims := [0]
  operandBatchingDims := []
  startIndicesBatchingDims := []
  startIndexMap := [0]
  indexVectorDim := 1
  sliceSizes := ![1, 100]
  wf := gather_S150000x100_S2000000x1_S2000000x100_1_0_n_n_0_1_1100_wf
def scatter_S150000x100_S2000000x1_S2000000x100_1_0_0_1 : ScatterDims S150000x100 S2000000x1 S2000000x100 where
  updateWindowDims := [1]
  insertedWindowDims := [0]
  scatterDimsToOperandDims := [0]
  indexVectorDim := 1
  wf := scatter_S150000x100_S2000000x1_S2000000x100_1_0_0_1_wf
def dot_S128x200_S200x64_S128x64_1_0_0_1_n_n : DotDims S128x200 S200x64 S128x64 where
  lhsContracting := [1]
  rhsContracting := [0]
  lhsNonContracting := [0]
  rhsNonContracting := [1]
  lhsBatch := []
  rhsBatch := []
  wf := dot_S128x200_S200x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

abbrev spec0_0 : Pipeline.WinSpec sig grid0.rank :=
  Pipeline.WinSpec.ofSpec (Memref.whole main_arg7) S200x64.size reads0_0 false true 1 stage0_0 sem0_0 nbuf0_0 hstage0_0

abbrev spec0_1 : Pipeline.WinSpec sig grid0.rank :=
  Pipeline.WinSpec.ofSpec (Memref.whole main_arg8) S64.size reads0_1 false true 1 stage0_1 sem0_1 nbuf0_1 hstage0_1

abbrev spec0_2 : Pipeline.WinSpec sig grid0.rank :=
  Pipeline.WinSpec.ofSpec (Memref.whole main_arg9) S64x32.size reads0_2 false true 1 stage0_2 sem0_2 nbuf0_2 hstage0_2

abbrev spec0_3 : Pipeline.WinSpec sig grid0.rank :=
  Pipeline.WinSpec.ofSpec (Memref.whole main_arg10) S32.size reads0_3 false true 1 stage0_3 sem0_3 nbuf0_3 hstage0_3

abbrev spec0_4 : Pipeline.WinSpec sig grid0.rank :=
  Pipeline.WinSpec.ofSpec (Memref.whole main_arg11) S32x1.size reads0_4 false true 1 stage0_4 sem0_4 nbuf0_4 hstage0_4

abbrev spec0_5 : Pipeline.WinSpec sig grid0.rank :=
  Pipeline.WinSpec.ofSpec (Memref.whole main_arg12) S1.size reads0_5 false true 1 stage0_5 sem0_5 nbuf0_5 hstage0_5

abbrev spec0_6 : Pipeline.WinSpec sig grid0.rank :=
  Pipeline.WinSpec.ofSpec (Memref.whole main_v33) S128x1.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_1 | 1 => cc0_transform_2 | 2 => cc0_transform_3 | 3 => cc0_transform_4 | 4 => cc0_transform_5 | 5 => cc0_transform_6 | 6 => cc0_transform_7 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S100000x100 : Shape := ⟨2, ![100000, 100]⟩
abbrev S50000x100 : Shape := ⟨2, ![50000, 100]⟩
abbrev S2000000 : Shape := ⟨1, ![2000000]⟩
abbrev S16384 : Shape := ⟨1, ![16384]⟩
abbrev S200x64 : Shape := ⟨2, ![200, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S150000x100 : Shape := ⟨2, ![150000, 100]⟩
abbrev S2000000x1 : Shape := ⟨2, ![2000000, 1]⟩
abbrev S_ : Shape := ⟨0, ![]⟩
abbrev S2000000x100 : Shape := ⟨2, ![2000000, 100]⟩
abbrev S16384x1 : Shape := ⟨2, ![16384, 1]⟩
abbrev S16384x100 : Shape := ⟨2, ![16384, 100]⟩
abbrev S16384x200 : Shape := ⟨2, ![16384, 200]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S50000x100, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S16384, .i32⟩
  | .hbm, ⟨6, _⟩ => ⟨S16384, .i32⟩
  | .hbm, ⟨7, _⟩ => ⟨S200x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S150000x100, .f32⟩
  | .hbm, ⟨14, _⟩ => ⟨S2000000x1, .f32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000x100, .f32⟩
  | .hbm, ⟨24, _⟩ => ⟨S2000000x100, .f32⟩
  | .hbm, ⟨25, _⟩ => ⟨S2000000x100, .f32⟩
  | .hbm, ⟨26, _⟩ => ⟨S_, .f32⟩
  | .hbm, ⟨27, _⟩ => ⟨S150000x100, .f32⟩
  | .hbm, ⟨28, _⟩ => ⟨S2000000x1, .i32⟩
  | .hbm, ⟨29, _⟩ => ⟨S150000x100, .f32⟩
  | .hbm, ⟨30, _⟩ => ⟨S150000x100, .f32⟩
  | .hbm, ⟨31, _⟩ => ⟨S2000000x1, .f32⟩
  | .hbm, ⟨32, _⟩ => ⟨S_, .i32⟩
  | .hbm, ⟨33, _⟩ => ⟨S2000000, .i32⟩
  | .hbm, ⟨34, _⟩ => ⟨S2000000, .i1⟩
  | .hbm, ⟨35, _⟩ => ⟨S_, .i32⟩
  | .hbm, ⟨36, _⟩ => ⟨S2000000, .i32⟩
  | .hbm, ⟨37, _⟩ => ⟨S2000000, .i32⟩
  | .hbm, ⟨38, _⟩ => ⟨S2000000, .i32⟩
  | .hbm, ⟨39, _⟩ => ⟨S2000000x1, .i32⟩
  | .hbm, ⟨40, _⟩ => ⟨S2000000x100, .f32⟩
  | .hbm, ⟨41, _⟩ => ⟨S2000000x100, .f32⟩
  | .hbm, ⟨42, _⟩ => ⟨S2000000x100, .f32⟩
  | .hbm, ⟨43, _⟩ => ⟨S_, .f32⟩
  | .hbm, ⟨44, _⟩ => ⟨S150000x100, .f32⟩
  | .hbm, ⟨45, _⟩ => ⟨S2000000x1, .i32⟩
  | .hbm, ⟨46, _⟩ => ⟨S150000x100, .f32⟩
  | .hbm, ⟨47, _⟩ => ⟨S150000x100, .f32⟩
  | .hbm, ⟨48, _⟩ => ⟨S_, .f32⟩
  | .hbm, ⟨49, _⟩ => ⟨S150000x100, .f32⟩
  | .hbm, ⟨50, _⟩ => ⟨S150000x100, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S16384x100, .f32⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S_, .i32⟩
  | .hbm, ⟨64, _⟩ => ⟨S16384, .i32⟩
  | .hbm, ⟨65, _⟩ => ⟨S16384, .i1⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .i32⟩
  | .hbm, ⟨70, _⟩ => ⟨S16384x1, .i32⟩
  | .hbm, ⟨71, _⟩ => ⟨S16384x100, .f32⟩
  | .hbm, ⟨72, _⟩ => ⟨S16384x200, .f32⟩
  | .hbm, ⟨73, _⟩ => ⟨S16384x64, .f32⟩
  | .hbm, ⟨74, _⟩ => ⟨S1x64, .f32⟩
  | .hbm, ⟨75, _⟩ => ⟨S16384x64, .f32⟩
  | .hbm, ⟨76, _⟩ => ⟨S16384x64, .f32⟩
  | .hbm, ⟨77, _⟩ => ⟨S_, .f32⟩
  | .hbm, ⟨78, _⟩ => ⟨S16384x64, .f32⟩
  | .hbm, ⟨79, _⟩ => ⟨S16384x64, .f32⟩
  | .hbm, ⟨80, _⟩ => ⟨S16384x32, .f32⟩
  | .hbm, ⟨81, _⟩ => ⟨S1x32, .f32⟩
  | .hbm, ⟨82, _⟩ => ⟨S16384x32, .f32⟩
  | .hbm, ⟨83, _⟩ => ⟨S16384x32, .f32⟩
  | .hbm, ⟨84, _⟩ => ⟨S16384x1, .f32⟩
  | .hbm, ⟨85, _⟩ => ⟨S1x1, .f32⟩
  | .hbm, ⟨86, _⟩ => ⟨S16384x1, .f32⟩
  | .hbm, ⟨87, _⟩ => ⟨S16384x1, .f32⟩
  | .hbm, ⟨88, _⟩ => ⟨S16384, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call0_cst : Ref sig .tc := ⟨.hbm, 77, rfl⟩
abbrev main_call0_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  concatenates_S100000x100_S50000x100_S150000x100_d0 : Shape.Concatenates [S100000x100, S50000x100] S150000x100 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x100_0_1 : S2000000x1.BroadcastsInDim S2000000x100 (![0, 1] : Fin 2 → Fin S2000000x100.rank)
  bcast_S_S150000x100 : S_.BroadcastsInDim S150000x100 (![] : Fin 0 → Fin S150000x100.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x100_S16384x100_S16384x200_d1 : Shape.Concatenates [S16384x100, S16384x100] S16384x200 1
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  gather_S150000x100_S2000000x1_S2000000x100_1_0_n_n_0_1_1100_wf : GatherDims.WF S150000x100 S2000000x1 S2000000x100 [1] [0] [] [0] [] 1 ![1, 100]
  scatter_S150000x100_S2000000x1_S2000000x100_1_0_0_1_wf : ScatterDims.WF S150000x100 S2000000x1 S2000000x100 [1] [0] [0] 1
  gather_S150000x100_S16384x1_S16384x100_1_0_n_n_0_1_1100_wf : GatherDims.WF S150000x100 S16384x1 S16384x100 [1] [0] [] [0] [] 1 ![1, 100]
  dot_S16384x200_S200x64_S16384x64_1_0_0_1_n_n_wf : DotDims.WF S16384x200 S200x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def gather_S150000x100_S2000000x1_S2000000x100_1_0_n_n_0_1_1100 : GatherDims S150000x100 S2000000x1 S2000000x100 where
  offsetDims := [1]
  collapsedSliceDims := [0]
  operandBatchingDims := []
  startIndicesBatchingDims := []
  startIndexMap := [0]
  indexVectorDim := 1
  sliceSizes := ![1, 100]
  wf := gather_S150000x100_S2000000x1_S2000000x100_1_0_n_n_0_1_1100_wf
def scatter_S150000x100_S2000000x1_S2000000x100_1_0_0_1 : ScatterDims S150000x100 S2000000x1 S2000000x100 where
  updateWindowDims := [1]
  insertedWindowDims := [0]
  scatterDimsToOperandDims := [0]
  indexVectorDim := 1
  wf := scatter_S150000x100_S2000000x1_S2000000x100_1_0_0_1_wf
def gather_S150000x100_S16384x1_S16384x100_1_0_n_n_0_1_1100 : GatherDims S150000x100 S16384x1 S16384x100 where
  offsetDims := [1]
  collapsedSliceDims := [0]
  operandBatchingDims := []
  startIndicesBatchingDims := []
  startIndexMap := [0]
  indexVectorDim := 1
  sliceSizes := ![1, 100]
  wf := gather_S150000x100_S16384x1_S16384x100_1_0_n_n_0_1_1100_wf
def dot_S16384x200_S200x64_S16384x64_1_0_0_1_n_n : DotDims S16384x200 S200x64 S16384x64 where
  lhsContracting := [1]
  rhsContracting := [0]
  lhsNonContracting := [0]
  rhsNonContracting := [1]
  lhsBatch := []
  rhsBatch := []
  wf := dot_S16384x200_S200x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.KernelToks.lean ====
import proofs.«421944_j3513283248500_1_alg».proof.Proof.Gen.Kernel
import proofs.«421944_j3513283248500_1_alg».proof.Proof.Gen.Kernel.Skeleton
import Idealize.ShloMosaic.Lib.Tactic
import Idealize.ShloMosaic.Lib.Batch
import Idealize.ShloMosaic.Lib.Pipeline.Kit
import Idealize.ShloMosaic.Lib.ValueIdx

noncomputable section

namespace Cert.Proof.KernelBody

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
abbrev ptq (c : Dev nD) (q : PosShare TreeShare) {sp : Space} {S : Shape} {e : EltTy} (M : Memref sig .tc sp S e) (f : Bf (F := F) c M) : sProp 𝕄 :=
  M.view.loc (c : Thread nD τ) ↦{q} f

abbrev A1 : Memref sig .tc .smem S16384 .i32 := Memref.whole main_arg5
abbrev A2 : Memref sig .tc .smem S16384 .i32 := Memref.whole main_v32
abbrev A3 : Memref sig .tc .hbm S150000x100 .f32 := Memref.whole main_v30

/-- A word below 150000 names a row of the table: the row's rectangle lies inside it. -/
theorem chkOf (v : BitVec 32) (h : v.toNat < 150000) :
    ∀ a, (![v.toNat, 0] : Fin 2 → Nat) a + S1x100.size a ≤ S150000x100.size a := by
  intro a; fin_cases a
  · show v.toNat + 1 ≤ 150000; omega
  · show 0 + 100 ≤ 100; omega

theorem rdU (f1 : main_arg5.ty.Contents (Elt F)) (hU : ∀ k, BitVec.toNat (w := 32) (f1 k) < 150000) (R : LoadRect S16384) (j : R.shape.Idx) :
    BitVec.toNat (w := 32) (View.readAt (Elt F) (Memref.whole main_arg5 : Memref sig .tc .smem S16384 .i32).view R f1 j) < 150000 := hU _

theorem rdI (f2 : main_v32.ty.Contents (Elt F)) (hI : ∀ k, BitVec.toNat (w := 32) (f2 k) < 150000) (R : LoadRect S16384) (j : R.shape.Idx) :
    BitVec.toNat (w := 32) (View.readAt (Elt F) (Memref.whole main_v32 : Memref sig .tc .smem S16384 .i32).view R f2 j) < 150000 := hI _

/-- The table at what remains of the full share after `k` read shares were split off. -/
def Pool (c : Dev nD) (f3 : main_v30.ty.Contents (Elt F)) (k : ℕ) : sProp 𝕄 := ptq c (Transfers.shareDrop fullShare k) A3 f3

theorem pool_of_whole (c : Dev nD) (f3 : main_v30.ty.Contents (Elt F)) : (pt c A3 f3 : sProp 𝕄) ⊢ Pool c f3 0 := Entails.of_eq rfl

theorem pool_pop (c : Dev nD) (f3 : main_v30.ty.Contents (Elt F)) (k : ℕ) :
    Pool c f3 k ⊢ iprop(Pool c f3 (k + 1) ∗ ptq c (Transfers.shareTokN fullShare k) A3 f3) :=
  (pointsTo_share (PosShare.mem_left_op_right _)).1

/-- The 128 table rows a grid point gathers through an index table `fi`: row `j` is row `fi (128·i₀ + j)` of `f3`. -/
def gathered (i : grid0.Coords) (fi : IVec S16384 32) (f3 : FVec F S150000x100 .f32) : FVec F S128x100 .f32 :=
  fun x => f3 (ValueIdx.ix2 (⟨(fi (ValueIdx.ix1 ⟨(128 * (i 0).val + (x 0).val) % 16384, Nat.mod_lt _ (by decide)⟩)).toNat % 150000,
    Nat.mod_lt _ (by decide)⟩ : Fin 150000) (x 1))

/-- What a grid point leaves in its output block: the three dense layers of the gathered user and item rows. -/
def outBlock (i : grid0.Coords) (f1 f2 : IVec S16384 32) (f3 : FVec F S150000x100 .f32)
    (w1 : FVec F S200x64 .f32) (b1 : FVec F S64 .f32) (w2 : FVec F S64x32 .f32) (b2 : FVec F S32 .f32) (w3 : FVec F S32x1 .f32) (b3 : FVec F S1 .f32) :
    FVec F S128x1 .f32 :=
  k0_pay3 (k0_pay1 (gathered i f1 f3) (gathered i f2 f3) w1 b1 w2 b2 w3) (k0_pay2 b3)

end Cert.Proof.KernelBody

end
-- ==== Proof.KernelRows.lean ====
import proofs.«421944_j3513283248500_1_alg».proof.Proof.KernelToks
import Idealize.ShloMosaic.Lib.Ring
import Idealize.ShloMosaic.Lib.ValueIdx

noncomputable section

namespace Cert.Proof.KernelBody

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem row_inb (k : ℕ) (hk : k < 128) :
    ∀ a, (![k, 0] : Fin 2 → Nat) a + S1x100.size a ≤ S128x100.size a := by
  intro a; fin_cases a
  · show k + 1 ≤ 128; omega
  · show 0 + 100 ≤ 100; omega

abbrev rowR (k : ℕ) (hk : k < 128) : Rect S128x100 := Rect.unit (s := S128x100) ![k, 0] S1x100.size (row_inb k hk)

abbrev rowM (M : Memref sig .tc .vmem S128x100 .f32) (k : ℕ) (hk : k < 128) : Memref sig .tc .vmem S100 .f32 :=
  (M.slice (Rect.unit (s := S128x100) ![k, 0] S1x100.size (row_inb k hk)) (fun _ => rfl)).squeeze S100 squeezes_S1x100_S100

/-- Row `k` of a [128,100] buffer held by exactly its own elements, at contents `f` of the whole buffer. -/
abbrev heldRow (c : Dev nD) (M : Memref sig .tc .vmem S128x100 .f32) (k : ℕ) (hk : k < 128) (f : Bf (F := F) c M) : sProp 𝕄 :=
  (rowM M k hk).view.loc (c : Thread nD τ) ↦[(rowM M k hk).view.set]{fullShare} f

theorem mem_rowR {k : ℕ} {hk : k < 128} {i : S128x100.Idx} : i ∈ (rowR k hk).set ↔ (i 0).val = k := by
  rw [Rect.mem_set_unit]
  constructor
  · intro h; have := h 0; simp at this; omega
  · intro h a; fin_cases a
    · show k ≤ (i 0).val ∧ (i 0).val < k + 1; omega
    · have h1 : (i 1).val < 100 := (i 1).isLt
      show 0 ≤ (i 1).val ∧ (i 1).val < 0 + 100; omega

abbrev rowSet (M : Memref sig .tc .vmem S128x100 .f32) (j : Fin 128) : Finset M.view.ty.Idx :=
  (rowM M j.val j.isLt).view.set

theorem rowSet_eq (M : Memref sig .tc .vmem S128x100 .f32) (j : Fin 128) :
    rowSet M j = (rowR j.val j.isLt).set.map M.view.emb := by
  show ((M.view.slice (rowR j.val j.isLt)).reshape S100 _).set = _
  rw [View.set_reshape, View.set_slice]

theorem rows_disjoint (M : Memref sig .tc .vmem S128x100 .f32) (j j' : Fin 128) (h : j ≠ j') :
    Disjoint (rowSet M j) (rowSet M j') := by
  rw [rowSet_eq, rowSet_eq, Finset.disjoint_map, Finset.disjoint_left]
  intro i hi hi'
  exact h (Fin.ext ((mem_rowR.mp hi).symm.trans (mem_rowR.mp hi')))

theorem rows_cover (M : Memref sig .tc .vmem S128x100 .f32) (hM : M.IsWhole) :
    (Finset.univ : Finset (Fin 128)).biUnion (rowSet M) = Finset.univ := by
  rw [← hM.set_eq_univ]
  ext x
  simp only [Finset.mem_biUnion, Finset.mem_univ, true_and, rowSet_eq, Finset.mem_map]
  constructor
  · rintro ⟨j, i, _, rfl⟩; exact View.emb_mem_set _ i
  · intro hx
    obtain ⟨i, _, rfl⟩ := Finset.mem_map.mp hx
    exact ⟨⟨(i 0).val, (i 0).isLt⟩, i, mem_rowR.mpr rfl, rfl⟩

/-- The rows `k ≤ j`, row `j` held by its own elements at the contents `fs j`. -/
def RowsFrom (c : Dev nD) (M : Memref sig .tc .vmem S128x100 .f32) (fs : Fin 128 → Bf (F := F) c M) (k : ℕ) : sProp 𝕄 :=
  bigSep ((Finset.univ : Finset (Fin 128)).filter fun j => k ≤ j.val) fun j => heldRow c M j.val j.isLt (fs j)

theorem rowsFrom_succ (c : Dev nD) (M : Memref sig .tc .vmem S128x100 .f32) (fs : Fin 128 → Bf (F := F) c M) (k : ℕ) (hk : k < 128) :
    RowsFrom c M fs k = iprop(heldRow c M k hk (fs ⟨k, hk⟩) ∗ RowsFrom c M fs (k + 1)) := by
  unfold RowsFrom
  have hs : ((Finset.univ : Finset (Fin 128)).filter fun j => k ≤ j.val)
      = insert (⟨k, hk⟩ : Fin 128) ((Finset.univ : Finset (Fin 128)).filter fun j => k + 1 ≤ j.val) := by
    ext j
    simp only [Finset.mem_filter, Finset.mem_univ, true_and, Finset.mem_insert, Fin.ext_iff]
    omega
  rw [hs, bigSep_insert (by simp only [Finset.mem_filter, Finset.mem_univ, true_and]; omega)]
  rfl

/-- A whole buffer held is all its rows held. -/
theorem rows_split (c : Dev nD) (M : Memref sig .tc .vmem S128x100 .f32) (hM : M.IsWhole) (f : Bf (F := F) c M) :
    (pt c M f : sProp 𝕄) ⊢ RowsFrom c M (fun _ => f) 0 := by
  unfold RowsFrom
  rw [Finset.filter_true_of_mem (fun j _ => Nat.zero_le j.val)]
  exact Entails.of_eq (Ring.pointsTo_blocks (nD := nD) (τ := τ) (sig := sig) (Ix := Unit) (Val := Elt F) (Name := ℕ) (U := UU nD τ) (Lvl := ℕ)
    (ℓ := M.view.loc (c : Thread nD τ)) (I := rowSet M) (rows_disjoint M) (rows_cover M hM) (q := fullShare) f)

theorem rows_pop (c : Dev nD) (M : Memref sig .tc .vmem S128x100 .f32) (f : Bf (F := F) c M) (k : ℕ) (hk : k < 128) :
    RowsFrom c M (fun _ => f) k ⊢ iprop(heldRow c M k hk f ∗ RowsFrom c M (fun _ => f) (k + 1)) :=
  Entails.of_eq (rowsFrom_succ c M (fun _ => f) k hk)

/-- All 128 rows written join to the buffer held whole, at contents that read on each row as that row's own. -/
theorem rows_join (c : Dev nD) (M : Memref sig .tc .vmem S128x100 .f32) (hM : M.IsWhole) (fs : Fin 128 → Bf (F := F) c M) :
    RowsFrom c M fs 0 ⊢ iprop(∃ g : Bf (F := F) c M,
      ⌜∀ (j : Fin 128) (i : Fin 100), M.view.read (Elt F) g (ValueIdx.ix2 j i) = M.view.read (Elt F) (fs j) (ValueIdx.ix2 j i)⌝ ∗ pt c M g) := by
  unfold RowsFrom
  rw [Finset.filter_true_of_mem (fun j _ => Nat.zero_le j.val)]
  have h := pointsTo_biUnion_join (nD := nD) (τ := τ) (sig := sig) (Ix := Unit) (Val := Elt F) (Name := ℕ) (U := UU nD τ) (Lvl := ℕ)
    (ℓ := M.view.loc (c : Thread nD τ)) (q := fullShare) (Finset.univ : Finset (Fin 128)) (rowSet M) fs (fs 0)
    (fun j _ j' _ hj => rows_disjoint M j j' hj)
  rw [rows_cover M hM] at h
  refine h.trans ?_
  iintro ⟨%g, %hg, H⟩
  iexists g
  isplitr
  · ipureintro
    intro j i
    show _root_.cast _ (g (M.view.emb (ValueIdx.ix2 j i))) = _root_.cast _ (fs j (M.view.emb (ValueIdx.ix2 j i)))
    rw [hg j (Finset.mem_univ _) _ (by rw [rowSet_eq]; exact Finset.mem_map_of_mem _ (mem_rowR.mpr rfl))]
  · iexact H

/-- Element `x` of row `k` of a two-axis view is its element `(k, x)`. -/
theorem read_row {κ : Kind} {sp : Space} {N : ℕ} {e : EltTy} {Val : EltTy → Type}
    (M : Memref sig κ sp ⟨2, ![N, 100]⟩ e) (off : Fin 2 → ℕ) (k : ℕ) (hk : k < N) (hoff : off = ![k, 0])
    (inb : ∀ a, off a + S1x100.size a ≤ (⟨2, ![N, 100]⟩ : Shape).size a)
    (hq : S1x100.Squeezes S100) (f : M.view.ty.Contents Val) (x : S100.Idx) :
    ((M.slice (Rect.unit (s := ⟨2, ![N, 100]⟩) off S1x100.size inb) (fun _ => rfl)).squeeze S100 hq).view.read Val f x
      = M.view.read Val f (ValueIdx.ix2 ⟨k, hk⟩ (x 0)) := by
  subst hoff
  have h1 : Shape.reshapeEquiv hq.numel_eq x = (ValueIdx.ix2 (0 : Fin 1) (x 0) : S1x100.Idx) :=
    Shape.reshapeEquiv_eq_of_rowMajor _ (by
      rw [Shape.rowMajor_val_two, Shape.rowMajor_val_one]; show 0 * 100 + (x 0).val = (x 0).val; omega)
  have h2 : (Rect.unit (s := ⟨2, ![N, 100]⟩) ![k, 0] S1x100.size inb).emb (ValueIdx.ix2 (0 : Fin 1) (x 0) : S1x100.Idx)
      = ValueIdx.ix2 ⟨k, hk⟩ (x 0) := by
    funext a; apply Fin.ext
    rw [Rect.emb_apply]
    match a with
    | ⟨0, _⟩ => show k + 1 * 0 = k; omega
    | ⟨1, _⟩ => show 0 + 1 * (x 0).val = (x 0).val; omega
  show _root_.cast _ (f (M.view.emb ((Rect.unit (s := ⟨2, ![N, 100]⟩) ![k, 0] S1x100.size inb).emb (Shape.reshapeEquiv hq.numel_eq x))))
    = _root_.cast _ (f (M.view.emb (ValueIdx.ix2 ⟨k, hk⟩ (x 0))))
  rw [h1, h2]
  rfl

/-- The rows `k ≤ j` held at contents that read, each on its row, as the target `G` does. -/
def JoinedFrom (c : Dev nD) (M : Memref sig .tc .vmem S128x100 .f32) (G : FVec F S128x100 .f32) (k : ℕ) : sProp 𝕄 :=
  iprop(∃ fs : Fin 128 → Bf (F := F) c M,
    ⌜∀ j : Fin 128, k ≤ j.val → (rowM M j.val j.isLt).view.read (Elt F) (fs j) = fun x => G (ValueIdx.ix2 j (x 0))⌝
      ∗ RowsFrom c M fs k)

/-- No row yet (any contents `f₀` names the family). -/
theorem joined_none (c : Dev nD) (M : Memref sig .tc .vmem S128x100 .f32) (G : FVec F S128x100 .f32) (f₀ : Bf (F := F) c M) (P : sProp 𝕄) :
    P ⊢ JoinedFrom c M G 128 := by
  refine (Laws.affine : P ⊢ emp).trans ?_
  unfold JoinedFrom RowsFrom
  iintro H
  iexists (fun _ => f₀)
  isplitr
  · ipureintro; intro j hj; exact absurd j.isLt (Nat.not_lt.mpr hj)
  · rw [Finset.filter_false_of_mem (fun j _ => Nat.not_le.mpr j.isLt), bigSep_empty]; iexact H

/-- A landed row that carries the target's row joins the rows above it. -/
theorem joined_push (c : Dev nD) (M : Memref sig .tc .vmem S128x100 .f32) (G : FVec F S128x100 .f32) (k : ℕ) (hk : k < 128)
    (f : Bf (F := F) c M) (p : S100.Idx → Elt F .f32) (hp : p = fun x => G (ValueIdx.ix2 (⟨k, hk⟩ : Fin 128) (x 0))) :
    iprop(JoinedFrom c M G (k + 1) ∗ heldRow c M k hk ((rowM M k hk).view.writes (Elt F) f [⟨Rect.whole S100, ReadAs.same.apply p⟩]))
      ⊢ JoinedFrom c M G k := by
  unfold JoinedFrom
  iintro ⟨⟨%fs, %hfs, H⟩, Hk⟩
  iexists Function.update fs ⟨k, hk⟩ ((rowM M k hk).view.writes (Elt F) f [⟨Rect.whole S100, ReadAs.same.apply p⟩])
  isplitr
  · ipureintro
    intro j hj
    by_cases hjk : j = ⟨k, hk⟩
    · subst hjk; rw [Function.update_self]; exact (View.read_writes_whole (rowM M k hk).view f p).trans hp
    · rw [Function.update_of_ne hjk]
      exact hfs j (by have : j.val ≠ k := fun e => hjk (Fin.ext e); omega)
  · rw [rowsFrom_succ c M _ k hk, Function.update_self]
    isplitl [Hk]
    · iexact Hk
    · rw [show RowsFrom c M (Function.update fs ⟨k, hk⟩ _) (k + 1) = RowsFrom c M fs (k + 1) from
        bigSep_congr fun j hj => by rw [Function.update_of_ne (fun e => by rw [e] at hj; simp at hj)]]
      iexact H

/-- All 128 rows written join to the buffer held whole, at contents that read as the target. -/
theorem joined_all (c : Dev nD) (M : Memref sig .tc .vmem S128x100 .f32) (hM : M.IsWhole) (G : FVec F S128x100 .f32) :
    JoinedFrom c M G 0 ⊢ iprop(∃ g : Bf (F := F) c M, ⌜M.view.read (Elt F) g = G⌝ ∗ pt c M g) := by
  unfold JoinedFrom
  iintro ⟨%fs, %hfs, H⟩
  ihave H2 := (rows_join c M hM fs) $$ H
  icases H2 with ⟨%g, %hg, H2⟩
  iexists g
  isplitr
  · ipureintro
    funext y
    obtain ⟨j, i, rfl⟩ : ∃ (j : Fin 128) (i : Fin 100), y = ValueIdx.ix2 j i := ⟨y 0, y 1, ValueIdx.eq_ix2 y⟩
    rw [hg j i]
    have h := congrFun (hfs j (Nat.zero_le _)) (ValueIdx.ix1 i)
    rwa [read_row (Val := Elt F) M ![j.val, 0] j.val j.isLt rfl (row_inb j.val j.isLt) squeezes_S1x100_S100 (fs j)] at h
  · iexact H2

/-- A row of the table read through its window: the table's entries on that row. -/
theorem src_row_read (w : BitVec 32) (off : Fin 2 → ℕ) (hoff : off = ![w.toNat, 0])
    (h : ∀ a, off a + S1x100.size a ≤ S150000x100.size a) (hw : w.toNat < 150000)
    (hq : S1x100.Squeezes S100) (f3 : main_v30.ty.Contents (Elt F)) :
    View.read (Elt F) ((A3.slice (Rect.unit (s := S150000x100) off S1x100.size h) (fun _ => rfl)).squeeze S100 hq).view f3
      = fun x => f3 (ValueIdx.ix2 (⟨w.toNat, hw⟩ : Fin 150000) (x 0)) := by
  funext x
  exact read_row (Val := Elt F) A3 off w.toNat hw hoff h hq f3 x

/-- The word index of row `k` at grid point `i₀`: no 32-bit wrap below 2¹⁴. -/
theorem off_word (i0 : Fin 128) (k : ℕ) (hk : k < 128) :
    (Scalar.indexCast (Scalar.addi (Scalar.muli (BitVec.ofNat 32 i0.val) 128#32) (BitVec.ofNat 32 k)) : Index).toNat
      = 128 * i0.val + k := by
  have h0 := i0.isLt
  show ((BitVec.ofNat 32 i0.val * 128#32 + BitVec.ofNat 32 k : BitVec 32)).toNat = _
  rw [BitVec.toNat_add, BitVec.toNat_mul, BitVec.toNat_ofNat, BitVec.toNat_ofNat, BitVec.toNat_ofNat]
  have e1 : i0.val % 2 ^ 32 = i0.val := Nat.mod_eq_of_lt (by omega)
  have e2 : k % 2 ^ 32 = k := Nat.mod_eq_of_lt (by omega)
  have e3 : 128 % 2 ^ 32 = 128 := by decide
  rw [e1, e2, e3, Nat.mod_eq_of_lt (a := i0.val * 128) (by omega), Nat.mod_eq_of_lt (by omega)]
  omega

/-- One word of an index table read at the offset the program computes for row `k`: entry `128·i₀ + k`. -/
theorem word_idx (i : grid0.Coords) (k : ℕ) (hk : k < 128) (off : Fin 1 → ℕ)
    (hoff : off = ![(Scalar.indexCast (Scalar.addi (Scalar.muli (BitVec.ofNat 32 (i 0).val) 128#32) (BitVec.ofNat 32 k)) : Index).toNat])
    (hn : 128 * (i 0).val + k < 16384) (h : ∀ a, off a + S1.size a ≤ S16384.size a)
    (h0 : 0 < (Rect.unit (s := S16384) off S1.size h).toLoadRect.shape.numel) :
    (Rect.unit (s := S16384) off S1.size h).toLoadRect.idx (Shape.Idx.first h0) = ValueIdx.ix1 ⟨128 * (i 0).val + k, hn⟩ := by
  subst hoff
  funext a; apply Fin.ext
  match a with
  | ⟨0, _⟩ => exact off_word (i 0) k hk

/-- The table row a word names is the gathered row, when the word is the index table's entry for that row. -/
theorem gathered_row (i : grid0.Coords) (fi : IVec S16384 32) (f3 : FVec F S150000x100 .f32)
    (k : ℕ) (hk : k < 128) (w : BitVec 32) (hw : w.toNat < 150000)
    (hn : 128 * (i 0).val + k < 16384) (hwn : w = fi (ValueIdx.ix1 ⟨128 * (i 0).val + k, hn⟩)) :
    (fun x : S100.Idx => f3 (ValueIdx.ix2 (⟨w.toNat, hw⟩ : Fin 150000) (x 0)))
      = fun x => gathered i fi f3 (ValueIdx.ix2 (⟨k, hk⟩ : Fin 128) (x 0)) := by
  funext x
  unfold gathered
  show f3 (ValueIdx.ix2 (⟨w.toNat, hw⟩ : Fin 150000) (x 0))
    = f3 (ValueIdx.ix2 (⟨(fi (ValueIdx.ix1 ⟨(128 * (i 0).val + k) % 16384, Nat.mod_lt _ (by decide)⟩)).toNat % 150000,
        Nat.mod_lt _ (by decide)⟩ : Fin 150000) (x 0))
  have e2 : (⟨(128 * (i 0).val + k) % 16384, Nat.mod_lt _ (by decide)⟩ : Fin 16384) = ⟨128 * (i 0).val + k, hn⟩ :=
    Fin.ext (Nat.mod_eq_of_lt hn)
  rw [e2, ← hwn]
  congr 2
  exact Fin.ext (Nat.mod_eq_of_lt hw).symm

/-- Row `k` of the table window the program opens at the word it read from the first index table is the gathered row. -/
theorem row_fact₁ (i : grid0.Coords) (fi : IVec S16384 32) (f3 : FVec F S150000x100 .f32)
    (hfi : ∀ k, BitVec.toNat (fi k) < 150000) (k : ℕ) (hk : k < 128)
    (offw : Fin 1 → ℕ)
    (hoffw : offw = ![(Scalar.indexCast (Scalar.addi (Scalar.muli (BitVec.ofNat 32 (i 0).val) 128#32) (BitVec.ofNat 32 k)) : Index).toNat])
    (hinb : ∀ a, offw a + S1.size a ≤ S16384.size a)
    (h0 : 0 < (Rect.unit (s := S16384) offw S1.size hinb).toLoadRect.shape.numel)
    (offr : Fin 2 → ℕ)
    (hoffr : offr = ![BitVec.toNat (w := 32) (View.readAt (Elt F) A1.view (Rect.unit (s := S16384) offw S1.size hinb).toLoadRect fi (Shape.Idx.first h0)), 0])
    (hr : ∀ a, offr a + S1x100.size a ≤ S150000x100.size a) (hq : S1x100.Squeezes S100) :
    View.read (Elt F) ((A3.slice (Rect.unit (s := S150000x100) offr S1x100.size hr) (fun _ => rfl)).squeeze S100 hq).view f3
      = fun x => gathered i fi f3 (ValueIdx.ix2 (⟨k, hk⟩ : Fin 128) (x 0)) := by
  have hn : 128 * (i 0).val + k < 16384 := by have : (i 0).val < 128 := (i 0).isLt; omega
  have hword : View.readAt (Elt F) A1.view (Rect.unit (s := S16384) offw S1.size hinb).toLoadRect fi (Shape.Idx.first h0)
      = fi (ValueIdx.ix1 ⟨128 * (i 0).val + k, hn⟩) := congrArg fi (word_idx i k hk offw hoffw hn hinb h0)
  have hw := hfi (ValueIdx.ix1 ⟨128 * (i 0).val + k, hn⟩)
  rw [← hword] at hw
  exact (src_row_read _ offr hoffr hr hw hq f3).trans (gathered_row i fi f3 k hk _ hw hn hword)

/-- The same through the second index table. -/
theorem row_fact₂ (i : grid0.Coords) (fi : IVec S16384 32) (f3 : FVec F S150000x100 .f32)
    (hfi : ∀ k, BitVec.toNat (fi k) < 150000) (k : ℕ) (hk : k < 128)
    (offw : Fin 1 → ℕ)
    (hoffw : offw = ![(Scalar.indexCast (Scalar.addi (Scalar.muli (BitVec.ofNat 32 (i 0).val) 128#32) (BitVec.ofNat 32 k)) : Index).toNat])
    (hinb : ∀ a, offw a + S1.size a ≤ S16384.size a)
    (h0 : 0 < (Rect.unit (s := S16384) offw S1.size hinb).toLoadRect.shape.numel)
    (offr : Fin 2 → ℕ)
    (hoffr : offr = ![BitVec.toNat (w := 32) (View.readAt (Elt F) A2.view (Rect.unit (s := S16384) offw S1.size hinb).toLoadRect fi (Shape.Idx.first h0)), 0])
    (hr : ∀ a, offr a + S1x100.size a ≤ S150000x100.size a) (hq : S1x100.Squeezes S100) :
    View.read (Elt F) ((A3.slice (Rect.unit (s := S150000x100) offr S1x100.size hr) (fun _ => rfl)).squeeze S100 hq).view f3
      = fun x => gathered i fi f3 (ValueIdx.ix2 (⟨k, hk⟩ : Fin 128) (x 0)) := by
  have hn : 128 * (i 0).val + k < 16384 := by have : (i 0).val < 128 := (i 0).isLt; omega
  have hword : View.readAt (Elt F) A2.view (Rect.unit (s := S16384) offw S1.size hinb).toLoadRect fi (Shape.Idx.first h0)
      = fi (ValueIdx.ix1 ⟨128 * (i 0).val + k, hn⟩) := congrArg fi (word_idx i k hk offw hoffw hn hinb h0)
  have hw := hfi (ValueIdx.ix1 ⟨128 * (i 0).val + k, hn⟩)
  rw [← hword] at hw
  exact (src_row_read _ offr hoffr hr hw hq f3).trans (gathered_row i fi f3 k hk _ hw hn hword)

/-- A landed copy of the table row the first index table names for row `k` joins the rows above it. -/
theorem joined_row₁ (c : Dev nD) (M : Memref sig .tc .vmem S128x100 .f32) (i : grid0.Coords) (fi : IVec S16384 32)
    (f3 : FVec F S150000x100 .f32) (hfi : ∀ k, BitVec.toNat (fi k) < 150000) (k : ℕ) (hk : k < 128) (f : Bf (F := F) c M)
    (offw : Fin 1 → ℕ)
    (hoffw : offw = ![(Scalar.indexCast (Scalar.addi (Scalar.muli (BitVec.ofNat 32 (i 0).val) 128#32) (BitVec.ofNat 32 k)) : Index).toNat])
    (hinb : ∀ a, offw a + S1.size a ≤ S16384.size a)
    (h0 : 0 < (Rect.unit (s := S16384) offw S1.size hinb).toLoadRect.shape.numel)
    (offr : Fin 2 → ℕ)
    (hoffr : offr = ![BitVec.toNat (w := 32) (View.readAt (Elt F) A1.view (Rect.unit (s := S16384) offw S1.size hinb).toLoadRect fi (Shape.Idx.first h0)), 0])
    (hr : ∀ a, offr a + S1x100.size a ≤ S150000x100.size a) (hq : S1x100.Squeezes S100) :
    JoinedFrom c M (gathered i fi f3) (k + 1) ⊢ iprop(heldRow c M k hk ((rowM M k hk).view.writes (Elt F) f [⟨Rect.whole S100, ReadAs.same.apply
      (View.read (Elt F) ((A3.slice (Rect.unit (s := S150000x100) offr S1x100.size hr) (fun _ => rfl)).squeeze S100 hq).view f3)⟩])
        -∗ JoinedFrom c M (gathered i fi f3) k) :=
  BI.wand_intro (joined_push c M _ k hk f _ (row_fact₁ i fi f3 hfi k hk offw hoffw hinb h0 offr hoffr hr hq))

/-- The same through the second index table. -/
theorem joined_row₂ (c : Dev nD) (M : Memref sig .tc .vmem S128x100 .f32) (i : grid0.Coords) (fi : IVec S16384 32)
    (f3 : FVec F S150000x100 .f32) (hfi : ∀ k, BitVec.toNat (fi k) < 150000) (k : ℕ) (hk : k < 128) (f : Bf (F := F) c M)
    (offw : Fin 1 → ℕ)
    (hoffw : offw = ![(Scalar.indexCast (Scalar.addi (Scalar.muli (BitVec.ofNat 32 (i 0).val) 128#32) (BitVec.ofNat 32 k)) : Index).toNat])
    (hinb : ∀ a, offw a + S1.size a ≤ S16384.size a)
    (h0 : 0 < (Rect.unit (s := S16384) offw S1.size hinb).toLoadRect.shape.numel)
    (offr : Fin 2 → ℕ)
    (hoffr : offr = ![BitVec.toNat (w := 32) (View.readAt (Elt F) A2.view (Rect.unit (s := S16384) offw S1.size hinb).toLoadRect fi (Shape.Idx.first h0)), 0])
    (hr : ∀ a, offr a + S1x100.size a ≤ S150000x100.size a) (hq : S1x100.Squeezes S100) :
    JoinedFrom c M (gathered i fi f3) (k + 1) ⊢ iprop(heldRow c M k hk ((rowM M k hk).view.writes (Elt F) f [⟨Rect.whole S100, ReadAs.same.apply
      (View.read (Elt F) ((A3.slice (Rect.unit (s := S150000x100) offr S1x100.size hr) (fun _ => rfl)).squeeze S100 hq).view f3)⟩])
        -∗ JoinedFrom c M (gathered i fi f3) k) :=
  BI.wand_intro (joined_push c M _ k hk f _ (row_fact₂ i fi f3 hfi k hk offw hoffw hinb h0 offr hoffr hr hq))

end Cert.Proof.KernelBody

end
-- ==== Proof.KernelBody.lean ====
import proofs.«421944_j3513283248500_1_alg».proof.Proof.KernelRows
import Idealize.ShloMosaic.Lib.Pipeline.Value

noncomputable section

namespace Cert.Proof.KernelBody

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

abbrev sems0 (c : Dev nD) : sProp 𝕄 :=
  iprop(semVal ((c : Thread nD τ), SemLoc.dma 8) 0 ∗ semVal ((c : Thread nD τ), SemLoc.dma 9) 0)

set_option maxHeartbeats 4000000000 in
set_option sl_exec.stepHeartbeats 4000000 in
set_option maxRecDepth 65536 in
/-- One grid point: each of the 256 row copies reads the table through a share of its own and lands in a row held by itself, and all are waited for before a row is read, so the two buffers hold the gathered rows when the dense layers read them. -/
theorem kernelRun [∀ e, Nonempty (Elt F e)] (c : Dev nD) (i : grid0.Coords) (arg4 : Memref sig .tc .vmem S200x64 .f32) (harg4 : arg4.IsWhole) (arg5 : Memref sig .tc .vmem S64 .f32) (harg5 : arg5.IsWhole) (arg6 : Memref sig .tc .vmem S64x32 .f32) (harg6 : arg6.IsWhole) (arg7 : Memref sig .tc .vmem S32 .f32) (harg7 : arg7.IsWhole) (arg8 : Memref sig .tc .vmem S32x1 .f32) (harg8 : arg8.IsWhole) (arg9 : Memref sig .tc .vmem S1 .f32) (harg9 : arg9.IsWhole) (arg10 : Memref sig .tc .vmem S128x1 .f32) (harg10 : arg10.IsWhole) (arg11 : Memref sig .tc .vmem S128x100 .f32) (harg11 : arg11.IsWhole) (arg12 : Memref sig .tc .vmem S128x100 .f32) (harg12 : arg12.IsWhole)
    (f1 : main_arg5.ty.Contents (Elt F)) (f2 : main_v32.ty.Contents (Elt F)) (f3 : main_v30.ty.Contents (Elt F))
    (f4 : Bf (F := F) c arg4) (f5 : Bf (F := F) c arg5) (f6 : Bf (F := F) c arg6) (f7 : Bf (F := F) c arg7) (f8 : Bf (F := F) c arg8) (f9 : Bf (F := F) c arg9)
    (hU : ∀ k, BitVec.toNat (w := 32) (f1 k) < 150000) (hI : ∀ k, BitVec.toNat (w := 32) (f2 k) < 150000) (n : ℕ)
    (f10 : Bf (F := F) c arg10) (f11 : Bf (F := F) c arg11) (f12 : Bf (F := F) c arg12) (W : Waits sig Unit) (Q : PUnit → sProp 𝕄) :
    iprop(pt c A1 f1 ∗ pt c A2 f2 ∗ pt c arg4 f4 ∗ pt c arg5 f5 ∗ pt c arg6 f6 ∗ pt c arg7 f7 ∗ pt c arg8 f8 ∗ pt c arg9 f9 ∗ Pool c f3 n ∗ pt c arg10 f10 ∗ pt c arg11 f11 ∗ pt c arg12 f12 ∗ sems0 c ∗ owes (c : Thread nD τ) 0 W
      ∗ (iprop(pt c A1 f1 ∗ pt c A2 f2 ∗ pt c arg4 f4 ∗ pt c arg5 f5 ∗ pt c arg6 f6 ∗ pt c arg7 f7 ∗ pt c arg8 f8 ∗ pt c arg9 f9 ∗ Pool c f3 (n + 256)
            ∗ (∃ Wt : Bf (F := F) c arg10, ⌜arg10.view.read (Elt F) Wt = outBlock i f1 f2 f3 (arg4.view.read (Elt F) f4) (arg5.view.read (Elt F) f5) (arg6.view.read (Elt F) f6) (arg7.view.read (Elt F) f7) (arg8.view.read (Elt F) f8) (arg9.view.read (Elt F) f9)⌝ ∗ pt c arg10 Wt)
            ∗ (∃ f, pt c arg11 f) ∗ (∃ f, pt c arg12 f) ∗ sems0 c
            ∗ ∃ W, owes (c : Thread nD τ) 0 W) -∗ Q ⟨⟩))
    ⊢ wp frame (wpE (defs₀ (F := F)) Variants.none c none) Set.univ
        (cc0__gather_mlp_kernel i (Memref.whole main_arg5) (Memref.isWhole_whole _) (Memref.whole main_v32) (Memref.isWhole_whole _) (Memref.whole main_v30) (Memref.isWhole_whole _) arg4 harg4 arg5 harg5 arg6 harg6 arg7 harg7 arg8 harg8 arg9 harg9 arg10 harg10 arg11 harg11 arg12 harg12 cc0_scratch2) Q := by
  iintro ⟨H1, H2, H4, H5, H6, H7, H8, H9, HP, H10, H11, H12, ⟨Hd0, Hd1⟩, HO, Hk⟩
  have hB0 := Transfers.BatchOf.intro (c := (c : Thread nD τ)) (SemLoc.dma (sig := sig) 8) 128 (windows := true)
  have hB1 := Transfers.BatchOf.intro (c := (c : Thread nD τ)) (SemLoc.dma (sig := sig) 9) 128 (windows := true)
  ihave HR11 := rows_split c arg11 harg11 f11 $$ H11
  ihave HR12 := rows_split c arg12 harg12 f12 $$ H12
  sl_exec (disch := first | exact chkOf _ (rdU f1 hU _ _) | exact chkOf _ (rdI f2 hI _ _))
  iterate 128
    try iclear Ta Ta_kept Tb Tb_kept
    ihave HP' := pool_pop c f3 _ $$ HP
    icases HP' with ⟨HP, Ta⟩
    ihave HP' := pool_pop c f3 _ $$ HP
    icases HP' with ⟨HP, Tb⟩
    ihave HR' := rows_pop c arg11 f11 _ (by decide) $$ HR11
    icases HR' with ⟨Ra, HR11⟩
    ihave HR' := rows_pop c arg12 f12 _ (by decide) $$ HR12
    icases HR' with ⟨Rb, HR12⟩
    sl_exec (disch := first | exact chkOf _ (rdU f1 hU _ _) | exact chkOf _ (rdI f2 hI _ _))
  sl_unfold_run_names
  ihave HJa := joined_none c arg11 (gathered i f1 f3) f11 _ $$ HR11
  ihave HJb := joined_none c arg12 (gathered i f2 f3) f12 _ $$ HR12
  iterate 128
    ihave HJa := joined_row₁ c arg11 i f1 f3 hU _ _ f11 _ (by rfl) _ _ _ (by rfl) _ _ $$ HJa Ra
    ihave HJb := joined_row₂ c arg12 i f2 f3 hI _ _ f12 _ (by rfl) _ _ _ (by rfl) _ _ $$ HJb Rb
  ihave HG11 := joined_all c arg11 harg11 (gathered i f1 f3) $$ HJa
  icases HG11 with ⟨%g11, %hg11, H11⟩
  ihave HG12 := joined_all c arg12 harg12 (gathered i f2 f3) $$ HJb
  icases HG12 with ⟨%g12, %hg12, H12⟩
  sl_exec
  sl_step
  iapply Hk
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [HP]; · iexact HP
  isplitl [H10]
  · iexists _
    isplitr; swap
    · iexact H10
    · ipureintro
      have hz2 : (![0, 0] : Fin 2 → ℕ) = fun _ => 0 := by funext a; fin_cases a <;> rfl
      have hz1 : (![0] : Fin 1 → ℕ) = fun _ => 0 := by funext a; fin_cases a; rfl
      rw [View.read_writes_eq_canon _ _ _ (fun y => ⟨_, List.mem_singleton.mpr rfl, View.mem_set_unit_zero hz2 inb_S128x1_S128x1_0_0 y⟩), View.canon_unit_zero hz2]
      sl_unfold_run_names
      unfold outBlock
      rw [show View.readAt (Elt F) arg11.view (Rect.unit (s := S128x100) ![0, 0] S128x100.size inb_S128x100_S128x100_0_0).toLoadRect g11 = gathered i f1 f3 from (View.ld_unit_zero (S := S128x100) hz2 _ _).trans hg11,
        show View.readAt (Elt F) arg12.view (Rect.unit (s := S128x100) ![0, 0] S128x100.size inb_S128x100_S128x100_0_0).toLoadRect g12 = gathered i f2 f3 from (View.ld_unit_zero (S := S128x100) hz2 _ _).trans hg12]
      simp only [View.readAt_eq_ld, View.ld_unit_zero (S := S200x64) hz2, View.ld_unit_zero (S := S64x32) hz2, View.ld_unit_zero (S := S32x1) hz2, View.ld_unit_zero (S := S64) hz1, View.ld_unit_zero (S := S32) hz1, View.ld_unit_zero (S := S1) hz1]
      try rfl
  isplitl [H11]; · iexists _; iexact H11
  isplitl [H12]; · iexists _; iexact H12
  isplitl [Hd0 Hd1]
  · isplitl [Hd0]; · iexact Hd0
    iexact Hd1
  iexists _; iexact HO

end Cert.Proof.KernelBody

end
-- ==== Proof.KernelHost.lean ====
import proofs.«421944_j3513283248500_1_alg».proof.Proof.Gen.Kernel.Launch
import Idealize.ShloMosaic.Lib.StableHlo.Run

noncomputable section

namespace Cert.Proof.KernelHost

open Cert.Kernel Cert.Kernel.Gen
open Idealize.ShloMosaic Idealize.ShloMosaic.TcCoe Idealize.SL.Sem

variable {F : FTy → Type} [FloatOps F]

abbrev written : List (Ref sig .tc) :=
  [main_v0, main_v1, main_c, main_v2, main_v3, main_c_0, main_v4, main_v5, main_v6, main_v7, main_v8, main_v9, main_v10, main_cst, main_v11, main_v12, main_v13, main_v14, main_v15, main_c_1, main_v16, main_v17, main_c_2, main_v18, main_v19, main_v20, main_v21, main_v22, main_v23, main_v24, main_cst_3, main_v25, main_v26, main_v27, main_v28, main_cst_4, main_v29, main_v30, main_c_5, main_v31, main_v32]

/-- Each host operation before the launch writes its own result and nothing else. -/
theorem written_sub : (hostOps0 : List (HloOp τ sig (Elt F))).Forall fun op =>
    op.writes ⊆ (written.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
       Finset.singleton_subset_iff, List.mem_toFinset]
     exact List.mem_map_of_mem (by decide))

theorem after_kept (M : Valuation τ sig (Elt F)) {r : Ref sig .tc} (h : r ∉ written) :
    StableHlo.after (hostOps0 (F := F)) M (Proc.devRef .tc r) = M (Proc.devRef .tc r) :=
  StableHlo.after_of_writes_sub hostOps0 M written_sub h

/-- The second index table holds the item indices plus 100000, the sum wrapping at 2³². -/
theorem after_v32 (M : Valuation τ sig (Elt F)) :
    (StableHlo.after (hostOps0 (F := F)) M (Proc.devRef .tc main_v32) : IVec S16384 32)
      = addi (M (Proc.devRef .tc main_arg6) : IVec S16384 32) (broadcastInDim S16384 ![] bcast_S_S16384 (constantI S_ 32 100000#32)) := by
  after_results

end Cert.Proof.KernelHost
-- ==== Proof.KernelRun.lean ====
import proofs.«421944_j3513283248500_1_alg».proof.Proof.KernelBody
import proofs.«421944_j3513283248500_1_alg».proof.Proof.KernelHost
import proofs.«421944_j3513283248500_1_alg».proof.Proof.Gen.Kernel.Launch
import Idealize.ShloMosaic.Lib.Pipeline.Regions
import Idealize.ShloMosaic.Lib.Pipeline.FrameSuffix
import Idealize.ShloMosaic.Lib.Pipeline.FrameBody

noncomputable section

namespace Cert.Proof.KernelRun

open Cert.Kernel Cert.Kernel.Gen
open Cert.Proof.KernelBody Cert.Proof.KernelHost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ) (ρ : Dev nD → PrngReg)

abbrev V₀ (c : Dev nD) : Valuation τ sig (Elt F) := fun b => (s₀ m ρ).mem ((c : Dev nD), b)

abbrev V (c : Dev nD) (b : Ref sig .tc) : Buf (Elt F) ((c : Thread nD τ).loc b) := StableHlo.after hostOps0 (V₀ m ρ c) b

omit [FloatOps F] [∀ e, Nonempty (Elt F e)] in
theorem sub_written {y : Ref sig .tc} {W : List (Ref sig .tc)} (h : y ∈ W) :
    ({Proc.devRef .tc y} : Finset (DevRef τ sig)) ⊆ (W.map (Proc.devRef (τ := τ) .tc)).toFinset := by
  intro b hb
  rw [Finset.mem_singleton] at hb
  subst hb
  exact List.mem_toFinset.mpr (List.mem_map_of_mem h)

theorem writes1 : (hostOps1 (F := F)).Forall fun op => op.writes ⊆ (([main_v34] : List (Ref sig .tc)).map (Proc.devRef (τ := τ) .tc)).toFinset :=
  sub_written (by decide)

theorem V_keep (c : Dev nD) (b : Ref sig .tc) (hb : b ∉ written) : V m ρ c b = m ((c : Thread nD τ).loc b) :=
  StableHlo.after_of_writes_sub hostOps0 (V₀ m ρ c) written_sub hb

abbrev c₀ : Dev nD := 0

abbrev tabs : pre0.Contents (Elt F) := fun k => V m ρ c₀ (pre0.ref k)

abbrev adm : (p : Fin 1) → (pcfgs (F := F) p).Adm := fun _ => ⟨tabs m ρ, trivial⟩

abbrev cfgA : Pipeline.Cfg sig Λ₀ := cfg0 (adm m ρ 0)

abbrev inBlk (c : Dev nD) (w : Fin 7) (t : Fin (cfgA m ρ).N) :
    (((cfgA m ρ).win w).xblock ((cfgA m ρ).grid.coords t)).Idx → Elt F ((cfgA m ρ).win w).elt :=
  (((cfgA m ρ).win w).blk t).view.read (Elt F) (V m ρ c (Pipeline.arrRef spec0 w))

abbrev sl (t : Fin (cfgA m ρ).N) : (w : Fin 7) → Fin (spec0 w).nbuf := (cfgA m ρ).slots t

abbrev outAt (c : Dev nD) (t : Fin (cfgA m ρ).N) : FVec F S128x1 .f32 :=
  outBlock (grid0.coords t) (V m ρ c main_arg5) (V m ρ c main_v32) (V m ρ c main_v30)
    (inBlk m ρ c 0 t) (inBlk m ρ c 1 t) (inBlk m ρ c 2 t) (inBlk m ρ c 3 t) (inBlk m ρ c 4 t) (inBlk m ρ c 5 t)

theorem owns_pt (c : Dev nD) {sp : Space} {sh : Shape} {e : EltTy} (M : Memref sig .tc sp sh e) (h : M.IsWhole) (X : sh.Idx → Elt F e) :
    (owns (c : Thread nD τ) M fullShare X : sProp 𝕄) ⊢ pt c M (h.unread X) := by
  unfold owns
  iintro ⟨%f, %hf, H⟩
  obtain rfl := h.eq_unread hf
  rw [h.set_eq_univ]
  iexact H

theorem pt_owns (c : Dev nD) {sp : Space} {sh : Shape} {e : EltTy} (M : Memref sig .tc sp sh e) (h : M.IsWhole) (f : Bf (F := F) c M) :
    (pt c M f : sProp 𝕄) ⊢ owns (c : Thread nD τ) M fullShare (M.view.read (Elt F) f) := by
  have h1 := owns_intro (Ix := Unit) (Name := ℕ) (U := UU nD τ) (Lvl := ℕ) (c : Thread nD τ) M fullShare f
  rw [h.set_eq_univ] at h1
  exact h1

theorem pt_owns_unread (c : Dev nD) {sp : Space} {sh : Shape} {e : EltTy} (M : Memref sig .tc sp sh e) (h : M.IsWhole) (X : sh.Idx → Elt F e) :
    (pt c M (h.unread X) : sProp 𝕄) ⊢ owns (c : Thread nD τ) M fullShare X := by
  have h1 := pt_owns (F := F) c M h (h.unread X)
  rw [h.read_unread] at h1
  exact h1

def Φc (c : Dev nD) (k : ℕ) : sProp 𝕄 :=
  iprop(pt c A1 (V m ρ c main_arg5) ∗ pt c A2 (V m ρ c main_v32) ∗ Pool c (V m ρ c main_v30) k ∗ sems0 c
    ∗ Pipeline.scopedRest (Ix := Unit) (Name := ℕ) (U := UU nD τ) (Lvl := ℕ) (Val := Elt F) spec0 c)

def dats (_ : Fin 1) (c : Dev nD) : Dat τ (Elt F) Unit ℕ (UU nD τ) ℕ (cfgA m ρ) c where
  A w := V m ρ c (Pipeline.arrRef spec0 w)
  after w t := match w with
    | ⟨0, _⟩ => inBlk m ρ c 0 t
    | ⟨1, _⟩ => inBlk m ρ c 1 t
    | ⟨2, _⟩ => inBlk m ρ c 2 t
    | ⟨3, _⟩ => inBlk m ρ c 3 t
    | ⟨4, _⟩ => inBlk m ρ c 4 t
    | ⟨5, _⟩ => inBlk m ρ c 5 t
    | ⟨6, _⟩ => outAt m ρ c t
  Φ t := Φc m ρ c (256 * t.val)
  q _ := fullShare
  owed _ := 0

abbrev 𝒱₀ : Variants := Variants.none

theorem after_out (c : Dev nD) (t : Fin (cfgA m ρ).N) : (dats m ρ 0 c).after 6 t = outAt m ρ c t := by
  dsimp only [dats]
  rfl

theorem before_in (c : Dev nD) (w : Fin 7) (hw : w ≠ 6) (t : Fin (cfgA m ρ).N) (d) :
    (dats m ρ 0 c).before w t d = (dats m ρ 0 c).fetched w t d := by
  refine Pipeline.Dat.before_in_eq_fetched (dats m ρ 0 c) w ?_ (fun _ => rfl) (fun _ _ _ => rfl) (fun t => ?_) t d
  · fin_cases w <;> first | rfl | exact absurd rfl hw
  · fin_cases w <;> first | rfl | exact absurd rfl hw

theorem before0 (c : Dev nD) (t : Fin (cfgA m ρ).N) (d) : (dats m ρ 0 c).before 0 t d = inBlk m ρ c 0 t := before_in m ρ c 0 (by decide) t d
theorem before1 (c : Dev nD) (t : Fin (cfgA m ρ).N) (d) : (dats m ρ 0 c).before 1 t d = inBlk m ρ c 1 t := before_in m ρ c 1 (by decide) t d
theorem before2 (c : Dev nD) (t : Fin (cfgA m ρ).N) (d) : (dats m ρ 0 c).before 2 t d = inBlk m ρ c 2 t := before_in m ρ c 2 (by decide) t d
theorem before3 (c : Dev nD) (t : Fin (cfgA m ρ).N) (d) : (dats m ρ 0 c).before 3 t d = inBlk m ρ c 3 t := before_in m ρ c 3 (by decide) t d
theorem before4 (c : Dev nD) (t : Fin (cfgA m ρ).N) (d) : (dats m ρ 0 c).before 4 t d = inBlk m ρ c 4 t := before_in m ρ c 4 (by decide) t d
theorem before5 (c : Dev nD) (t : Fin (cfgA m ρ).N) (d) : (dats m ρ 0 c).before 5 t d = inBlk m ρ c 5 t := before_in m ρ c 5 (by decide) t d

variable (hU : ∀ c k, BitVec.toNat (w := 32) ((V m ρ c main_arg5 : main_arg5.ty.Contents (Elt F)) k) < 150000)
  (hI : ∀ c k, BitVec.toNat (w := 32) ((V m ρ c main_v32 : main_v32.ty.Contents (Elt F)) k) < 150000)

include hU hI in
set_option maxHeartbeats 2000000 in
theorem body_obligation (c : Dev nD) : BodyObligation (dats m ρ 0 c) (defs₀ (F := F)) 𝒱₀ () Set.univ := fun t => by
  rw [bigSep_W0, bigSep_W0]
  rw [show (dats m ρ 0 c).Φ t.castSucc = Φc m ρ c (256 * t.val) from rfl, show (dats m ρ 0 c).Φ t.succ = Φc m ρ c (256 * t.val + 256) from rfl]
  unfold Φc Dat.owesAt Pipeline.owesWithin; rw [scopedRest0_eq]
  rw [show (dats m ρ 0 c).owed t.castSucc = 0 from rfl, show (dats m ρ 0 c).owed t.succ = 0 from rfl]
  have h0 := hstage0_0 ((sl m ρ t 0).cast nbuf0_0)
  have h1 := hstage0_1 ((sl m ρ t 1).cast nbuf0_1)
  have h2 := hstage0_2 ((sl m ρ t 2).cast nbuf0_2)
  have h3 := hstage0_3 ((sl m ρ t 3).cast nbuf0_3)
  have h4 := hstage0_4 ((sl m ρ t 4).cast nbuf0_4)
  have h5 := hstage0_5 ((sl m ρ t 5).cast nbuf0_5)
  have h6 := hstage0_6 ((sl m ρ t 6).cast nbuf0_6)
  have e0 := owns_pt (F := F) c (((cfgA m ρ).win 0).stage ((cfgA m ρ).slots t 0)) h0 (inBlk m ρ c 0 t)
  have e1 := owns_pt (F := F) c (((cfgA m ρ).win 1).stage ((cfgA m ρ).slots t 1)) h1 (inBlk m ρ c 1 t)
  have e2 := owns_pt (F := F) c (((cfgA m ρ).win 2).stage ((cfgA m ρ).slots t 2)) h2 (inBlk m ρ c 2 t)
  have e3 := owns_pt (F := F) c (((cfgA m ρ).win 3).stage ((cfgA m ρ).slots t 3)) h3 (inBlk m ρ c 3 t)
  have e4 := owns_pt (F := F) c (((cfgA m ρ).win 4).stage ((cfgA m ρ).slots t 4)) h4 (inBlk m ρ c 4 t)
  have e5 := owns_pt (F := F) c (((cfgA m ρ).win 5).stage ((cfgA m ρ).slots t 5)) h5 (inBlk m ρ c 5 t)
  have r0 := pt_owns_unread (F := F) c (((cfgA m ρ).win 0).stage ((cfgA m ρ).slots t 0)) h0 (inBlk m ρ c 0 t)
  have r1 := pt_owns_unread (F := F) c (((cfgA m ρ).win 1).stage ((cfgA m ρ).slots t 1)) h1 (inBlk m ρ c 1 t)
  have r2 := pt_owns_unread (F := F) c (((cfgA m ρ).win 2).stage ((cfgA m ρ).slots t 2)) h2 (inBlk m ρ c 2 t)
  have r3 := pt_owns_unread (F := F) c (((cfgA m ρ).win 3).stage ((cfgA m ρ).slots t 3)) h3 (inBlk m ρ c 3 t)
  have r4 := pt_owns_unread (F := F) c (((cfgA m ρ).win 4).stage ((cfgA m ρ).slots t 4)) h4 (inBlk m ρ c 4 t)
  have r5 := pt_owns_unread (F := F) c (((cfgA m ρ).win 5).stage ((cfgA m ρ).slots t 5)) h5 (inBlk m ρ c 5 t)
  iintro ⟨⟨H1, H2, H3, Hsems, ⟨%f11, H11⟩, ⟨%f12, H12⟩⟩, ⟨%W, %hW, HO⟩, ⟨%d0, G0⟩, ⟨%d1, G1⟩, ⟨%d2, G2⟩, ⟨%d3, G3⟩, ⟨%d4, G4⟩, ⟨%d5, G5⟩, ⟨%d6, G6⟩⟩
  rw [before0 m ρ c t d0, before1 m ρ c t d1, before2 m ρ c t d2, before3 m ρ c t d3, before4 m ρ c t d4, before5 m ρ c t d5]
  have e6 := owns_pt (F := F) c (((cfgA m ρ).win 6).stage ((cfgA m ρ).slots t 6)) h6 ((dats m ρ 0 c).before 6 t d6)
  iapply (kernelRun (F := F) c (grid0.coords t)
    (spec0_0.stage (sl m ρ t 0)) h0 (spec0_1.stage (sl m ρ t 1)) h1 (spec0_2.stage (sl m ρ t 2)) h2 (spec0_3.stage (sl m ρ t 3)) h3
    (spec0_4.stage (sl m ρ t 4)) h4 (spec0_5.stage (sl m ρ t 5)) h5 (spec0_6.stage (sl m ρ t 6)) h6
    (Memref.whole cc0_scratch0) (Memref.isWhole_whole _) (Memref.whole cc0_scratch1) (Memref.isWhole_whole _)
    (V m ρ c main_arg5) (V m ρ c main_v32) (V m ρ c main_v30)
    (h0.unread (inBlk m ρ c 0 t)) (h1.unread (inBlk m ρ c 1 t)) (h2.unread (inBlk m ρ c 2 t))
    (h3.unread (inBlk m ρ c 3 t)) (h4.unread (inBlk m ρ c 4 t)) (h5.unread (inBlk m ρ c 5 t))
    (hU c) (hI c) (256 * t.val) (h6.unread ((dats m ρ 0 c).before 6 t d6)) f11 f12 W _)
  isplitl [H1]; · iexact H1
  isplitl [H2]; · iexact H2
  isplitl [G0]; · iapply e0; iexact G0
  isplitl [G1]; · iapply e1; iexact G1
  isplitl [G2]; · iapply e2; iexact G2
  isplitl [G3]; · iapply e3; iexact G3
  isplitl [G4]; · iapply e4; iexact G4
  isplitl [G5]; · iapply e5; iexact G5
  isplitl [H3]; · iexact H3
  isplitl [G6]; · iapply e6; iexact G6
  isplitl [H11]; · iexact H11
  isplitl [H12]; · iexact H12
  isplitl [Hsems]; · iexact Hsems
  isplitl [HO]; · iexact HO
  iintro ⟨H1, H2, G0, G1, G2, G3, G4, G5, H3, ⟨%Wt, %hWt, G6⟩, H11, H12, Hsems, ⟨%W', HO⟩⟩
  have q0 : (spec0_0.stage (sl m ρ t 0)).view.read (Elt F) (h0.unread (inBlk m ρ c 0 t)) = inBlk m ρ c 0 t := h0.read_unread _
  have q1 : (spec0_1.stage (sl m ρ t 1)).view.read (Elt F) (h1.unread (inBlk m ρ c 1 t)) = inBlk m ρ c 1 t := h1.read_unread _
  have q2 : (spec0_2.stage (sl m ρ t 2)).view.read (Elt F) (h2.unread (inBlk m ρ c 2 t)) = inBlk m ρ c 2 t := h2.read_unread _
  have q3 : (spec0_3.stage (sl m ρ t 3)).view.read (Elt F) (h3.unread (inBlk m ρ c 3 t)) = inBlk m ρ c 3 t := h3.read_unread _
  have q4 : (spec0_4.stage (sl m ρ t 4)).view.read (Elt F) (h4.unread (inBlk m ρ c 4 t)) = inBlk m ρ c 4 t := h4.read_unread _
  have q5 : (spec0_5.stage (sl m ρ t 5)).view.read (Elt F) (h5.unread (inBlk m ρ c 5 t)) = inBlk m ρ c 5 t := h5.read_unread _
  rw [q0, q1, q2, q3, q4, q5] at hWt
  have r6 := pt_owns (F := F) c (((cfgA m ρ).win 6).stage ((cfgA m ρ).slots t 6)) h6 Wt
  rw [show (((cfgA m ρ).win 6).stage ((cfgA m ρ).slots t 6)).view.read (Elt F) Wt = (dats m ρ 0 c).after 6 t from hWt.trans (after_out m ρ c t).symm] at r6
  isplitl [H1 H2 H3 Hsems H11 H12]
  · isplitl [H1]; · iexact H1
    isplitl [H2]; · iexact H2
    isplitl [H3]; · iexact H3
    isplitl [Hsems]; · iexact Hsems
    isplitl [H11]; · iexact H11
    iexact H12
  isplitl [HO]
  · iexists W'; isplitr; · ipureintro; exact fun _ _ => Or.inl trivial
    iexact HO
  isplitl [G0]; · iapply r0; iexact G0
  isplitl [G1]; · iapply r1; iexact G1
  isplitl [G2]; · iapply r2; iexact G2
  isplitl [G3]; · iapply r3; iexact G3
  isplitl [G4]; · iapply r4; iexact G4
  isplitl [G5]; · iapply r5; iexact G5
  iapply r6; iexact G6

abbrev osem : Fin 2 → SemLoc sig := fun | 0 => .dma 8 | 1 => .dma 9

omit [FloatOps F] [∀ e, Nonempty (Elt F e)] in
theorem ownSemFacts : Pipeline.OwnSemFacts spec0 osem := by decide

omit [FloatOps F] [∀ e, Nonempty (Elt F e)] in
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1] (by decide) (by decide)

def u₀ : UU nD τ :=
  (initOf (Pipeline.cells (Pipeline.pin (pcfgs (F := F)) (adm m ρ)) (cellOf_inj (adm m ρ)))
    (Pipeline.launchToks (Pipeline.pin (pcfgs (F := F)) (adm m ρ)) (cellOf_inj (adm m ρ))), 1)

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

abbrev H30 : Finset (Ref sig .tc) := {main_v30}

omit [FloatOps F] [∀ e, Nonempty (Elt F e)] in
theorem H30_sub : H30 ⊆ Pipeline.restRefsP sig pre0 spec0 := by decide

def Zc (c : Dev nD) : sProp 𝕄 :=
  bigSep (Pipeline.restRefsP sig pre0 spec0 \ H30) fun b => (((c : Thread nD τ).loc b) ↦{fullShare} V m ρ c b : sProp 𝕄)

theorem prefHeld_eq (c : Dev nD) :
    (Pipeline.prefHeld (Ix := Unit) (Name := ℕ) (U := UU nD τ) (Lvl := ℕ) pre0 c (fun _ => fullShare) (fun k => V m ρ c (pre0.ref k)) : sProp 𝕄)
      = iprop(pt c A1 (V m ρ c main_arg5) ∗ pt c A2 (V m ρ c main_v32)) := by
  unfold Pipeline.prefHeld
  rw [show (Finset.univ : Finset (Fin pre0.K)) = {0, 1} from rfl, bigSep_insert (by decide), bigSep_singleton]
  rfl

theorem rest_eq (c : Dev nD) :
    (Pipeline.unscopedRest (Ix := Unit) (Name := ℕ) (U := UU nD τ) (Lvl := ℕ) spec0 c (V m ρ c) : sProp 𝕄)
      = iprop((pt c A1 (V m ρ c main_arg5) ∗ pt c A2 (V m ρ c main_v32)) ∗ pt c A3 (V m ρ c main_v30) ∗ Zc m ρ c) := by
  rw [Pipeline.unscopedRest_split (launch0 (F := F)).pre c (V m ρ c), Pipeline.unscopedRestP_sdiff pre0 spec0 H30 H30_sub c (V m ρ c), prefHeld_eq]
  unfold Zc H30; rw [bigSep_singleton]

abbrev V₁ (c : Dev nD) : Valuation τ sig (Elt F) :=
  Pipeline.withArrays (cfgA m ρ).spec c (StableHlo.after hostOps0 (V₀ m ρ c)) fun w => (dats m ρ 0 c).arrAt w (cfgA m ρ).N

abbrev S1 : Finset (DevRef τ sig) := Pipeline.tailRefsBut sig pre0 spec0 H30

theorem held_S1 (c : Dev nD) :
    (StableHlo.held (c : Thread nD τ) S1 (V₁ m ρ c) : sProp 𝕄)
      = iprop((dats m ρ 0 c).arrays ((dats m ρ 0 c).arrAt · (cfgA m ρ).N) ∗ Zc m ρ c) := by
  rw [Pipeline.held_tailRefsBut pre0 spec0 (launch0 (F := F)).win.arr_inj H30 c (V₁ m ρ c),
    Pipeline.arrays_eq (Pipeline.pin (pcfgs (F := F)) (adm m ρ)) (dats m ρ) 0 c (launch0 (F := F)).arr_whole ((dats m ρ 0 c).share_full fun _ => rfl)]
  unfold Pipeline.arrPts Zc
  refine congrArg₂ _ ?_ ?_
  · exact bigSep_congr fun w _ => congrArg _ (Pipeline.withArrays_arr (cfgA m ρ).spec (launch0 (F := F)).win.arr_inj c _ _ w)
  · exact bigSep_congr fun b hb => congrArg _ (Pipeline.withArrays_of_ne (cfgA m ρ).spec c _ _ b fun w e =>
      (Finset.mem_sdiff.mp (Finset.mem_sdiff.mp (Finset.mem_sdiff.mp hb).1).1).2 (Finset.mem_image.mpr ⟨w, Finset.mem_univ w, e⟩))

abbrev Yc (c : Dev nD) : sProp 𝕄 :=
  iprop(pt c A1 (V m ρ c main_arg5) ∗ pt c A2 (V m ρ c main_v32) ∗ Pool c (V m ρ c main_v30) (256 * (cfgA m ρ).N))

abbrev R1 (c : Dev nD) : sProp 𝕄 := iprop(Yc m ρ c ∗ R c)

def seg0 : Pipeline.HostSeg (Name := ℕ) (U := UU nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

theorem hostOps1_S1 : ∀ op ∈ (hostOps1 (F := F)), op.bufs ⊆ S1 := by
  intro op h
  refine Pipeline.sub_tailRefsBut pre0 spec0 H30 op ((List.forall_iff_forall_mem.mp hostOps1_sub) op h) ?_ ?_
  · cases h with
    | head =>
      intro k
      simp only [StableHlo.reshape_bufs, Finset.mem_insert, Finset.mem_singleton, not_or]
      fin_cases k <;> exact ⟨StableHlo.devRef_ne_of_ne (by decide), StableHlo.devRef_ne_of_ne (by decide)⟩
    | tail _ h => exact nomatch h
  · cases h with
    | head =>
      intro b hb
      obtain rfl := Finset.mem_singleton.mp hb
      simp only [StableHlo.reshape_bufs, Finset.mem_insert, Finset.mem_singleton, not_or]
      exact ⟨StableHlo.devRef_ne_of_ne (by decide), StableHlo.devRef_ne_of_ne (by decide)⟩
    | tail _ h => exact nomatch h

def seg1 : Pipeline.HostSeg (Name := ℕ) (U := UU nD τ) (pcfgs (F := F)) defs₀ 𝒱₀ L lv :=
  Pipeline.HostSeg.ofOps _ _ _ _ _ S1 hostOps1 hostOps1_S1
    (by intro _ h; (repeat (cases h with | head => rfl | tail _ h => ?_)); exact nomatch h) (V₁ m ρ) (R1 m ρ)

set_option backward.isDefEq.respectTransparency.types false in
def reg0 : Pipeline.RegionSeg (pcfgs (F := F)) (adm m ρ) (dats m ρ) () defs₀ 𝒱₀ L lv 0 where
  win := (launch0 (F := F)).win.to₀
  block_pos := (launch0 (F := F)).block_pos
  stage_whole := (launch0 (F := F)).stage_whole
  K := Fin 2
  osem := osem
  ho := ownSemFacts
  hbody c := (body_obligation m ρ hU hI c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) S1 (V₁ m ρ c) ∗ R1 m ρ c)
  X c := iprop(pt c A3 (V m ρ c main_v30) ∗ sems0 c)
  Y c := Yc m ρ c
  Z c := Zc m ρ c
  hentry c := by
    obtain rfl : c = c₀ := Subsingleton.elim _ _
    rw [show StableHlo.held (c₀ : Thread nD τ) (Pipeline.ucRefs τ sig) (StableHlo.after hostOps0 (V₀ m ρ c₀)) = unscopedBufs c₀ (V m ρ c₀)
        from (Pipeline.unscopedBufs_held c₀ _).symm, ownSems0_eq]
    have hsplit := (Pipeline.arrays_of_unscopedBufs (pcfgs (F := F)) (adm m ρ) (dats m ρ) (launch0 (F := F)).win (launch0 (F := F)).arr_whole c₀
      ((dats m ρ 0 c₀).share_full fun _ => rfl) (V m ρ c₀) fun _ => rfl).trans (sep_mono .rfl (Entails.of_eq (rest_eq m ρ c₀)))
    iintro ⟨⟨Hub, HO⟩, Hos, -⟩
    ihave H := hsplit $$ Hub
    icases H with ⟨Ha, ⟨H1, H2⟩, H3, HZ⟩
    imodintro
    isplitl [Ha]; · iexact Ha
    isplitl [H1 H2]
    · rw [show (adm m ρ 0).1 = (fun k => V m ρ c₀ (pre0.ref k)) from rfl, prefHeld_eq]
      isplitl [H1] <;> iassumption
    isplitl [HO]
    · unfold Pipeline.Dat.owesAt Pipeline.owesWithin
      icases HO with ⟨%W, HO⟩; iexists W; isplitr; · ipureintro; exact fun _ _ => Or.inl trivial
      iexact HO
    isplitl [H3 Hos]
    · isplitl [H3]; · iexact H3
      iexact Hos
    iexact HZ
  hin c := by
    obtain rfl : c = c₀ := Subsingleton.elim _ _
    rw [show (dats m ρ 0 c₀).Φ 0 = Φc m ρ c₀ 0 from rfl, show (adm m ρ 0).1 = (fun k => V m ρ c₀ (pre0.ref k)) from rfl, prefHeld_eq]; unfold Φc
    iintro ⟨⟨H3, Hos⟩, ⟨H1, H2⟩, Hr⟩
    isplitl [H1]; · iexact H1
    isplitl [H2]; · iexact H2
    isplitl [H3]; · iapply (pool_of_whole c₀ (V m ρ c₀ main_v30)); iexact H3
    isplitl [Hos]; · iexact Hos
    iexact Hr
  hout c := by
    rw [ownSems0_eq, show (dats m ρ 0 c).Φ (Fin.last (cfgA m ρ).N) = Φc m ρ c (256 * (cfgA m ρ).N) from rfl]; unfold Φc
    iintro ⟨H1, H2, H3, Hos, Hr⟩
    isplitl [H1 H2 H3]
    · isplitl [H1]; · iexact H1
      isplitl [H2]; · iexact H2
      iexact H3
    isplitl [Hos]; · iexact Hos
    iexact Hr
  hexit c := by
    rw [held_S1]
    iintro ⟨Ha, HO, HY, HZ⟩
    imodintro
    isplitl [Ha HZ]
    · isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) (adm m ρ) (dats m ρ) () defs₀ 𝒱₀ L lv) :=
  [.host (seg0 m ρ), .region (reg0 m ρ hU hI), .host (seg1 m ρ)]

def finalA (c : Dev nD) (w : Fin 7) : Buf (Elt F) (((cfgA m ρ).win w).arr.view.loc (c : Thread nD τ)) :=
  (dats m ρ 0 c).arrAt w (cfgA m ρ).N

abbrev out34 (c : Dev nD) : Buf (Elt F) ((c : Thread nD τ).loc main_v34) := StableHlo.after hostOps1 (V₁ m ρ c) main_v34

abbrev argRefs : List (Ref sig .tc) :=
  [main_arg0, main_arg1, main_arg2, main_arg3, main_arg4, main_arg5, main_arg6, main_arg7, main_arg8, main_arg9, main_arg10, main_arg11, main_arg12]

/-- The thirteen arguments of @main hold, in the memory `s`, what they held at launch. -/
abbrev ArgsKept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8)
    ∧ s.mem ((c : Thread nD τ).loc main_arg9) = m ((c : Thread nD τ).loc main_arg9)
    ∧ s.mem ((c : Thread nD τ).loc main_arg10) = m ((c : Thread nD τ).loc main_arg10)
    ∧ s.mem ((c : Thread nD τ).loc main_arg11) = m ((c : Thread nD τ).loc main_arg11)
    ∧ s.mem ((c : Thread nD τ).loc main_arg12) = m ((c : Thread nD τ).loc main_arg12)

/-- What is claimed of a final state: the result buffer at the reshape of the output array, each argument as launched. -/
def QC : PUnit × MemSt nD τ sig (Elt F) → Prop := fun r =>
  ∀ c : Dev nD, r.2.mem ((c : Thread nD τ).loc main_v34) = out34 m ρ c ∧ ArgsKept m c r.2

omit [FloatOps F] [∀ e, Nonempty (Elt F e)] in
theorem args_facts : ∀ b ∈ argRefs, b = main_arg5 ∨
    (b ∈ Finset.univ.image (Pipeline.arrRef spec0) ∪ (Pipeline.restRefsP sig pre0 spec0 \ H30)
      ∧ b ∉ ([main_v34] : List (Ref sig .tc)) ∧ b ∉ written ∧ b ≠ main_v33) := by decide

theorem V₁_keep (c : Dev nD) (b : Ref sig .tc) (hb : b ∉ written) (h33 : b ≠ main_v33) :
    V₁ m ρ c (Proc.devRef .tc b) = m ((c : Thread nD τ).loc b) := by
  by_cases h : ∃ w, Pipeline.arrRef (cfgA m ρ).spec w = b
  · obtain ⟨w, rfl⟩ := h
    refine (Pipeline.withArrays_arr (cfgA m ρ).spec (launch0 (F := F)).win.arr_inj c _ _ w).trans ?_
    have hin : ((cfgA m ρ).win w).isOut = false := by
      fin_cases w <;> first | rfl | exact absurd rfl h33
    rw [Pipeline.Dat.arrAt_in _ w hin]
    exact V_keep m ρ c _ hb
  · refine (Pipeline.withArrays_of_ne (cfgA m ρ).spec c _ _ b fun w e => h ⟨w, e⟩).trans ?_
    exact V_keep m ρ c b hb

abbrev QY (c : Dev nD) (s : MemSt nD τ sig (Elt F)) : Prop :=
  (∀ b ∈ (S1 : Finset (DevRef τ sig)), s.mem ((c : Dev nD), b) = StableHlo.after hostOps1 (V₁ m ρ c) b)
    ∧ s.mem ((c : Thread nD τ).loc main_arg5) = V m ρ c main_arg5

theorem arg_final (c : Dev nD) (s : MemSt nD τ sig (Elt F)) (h : QY m ρ c s) (b : Ref sig .tc) (hb : b ∈ argRefs) :
    s.mem ((c : Thread nD τ).loc b) = m ((c : Thread nD τ).loc b) := by
  rcases args_facts b hb with rfl | ⟨hS, h34, hw, h33⟩
  · exact h.2.trans (V_keep m ρ c main_arg5 (by decide))
  · refine (h.1 _ (Finset.mem_map_of_mem _ hS)).trans ?_
    exact (StableHlo.after_of_writes_sub hostOps1 (V₁ m ρ c) writes1 h34).trans (V₁_keep m ρ c b hw h33)

theorem launch_u₀ : (ownU (u₀ m ρ) : sProp 𝕄)
    ⊢ |={Set.univ}=> iprop(BI.own (EP (initOf (Pipeline.cells (Pipeline.pin (pcfgs (F := F)) (adm m ρ)) (cellOf_inj (adm m ρ)))
        (Pipeline.launchToks (Pipeline.pin (pcfgs (F := F)) (adm m ρ)) (cellOf_inj (adm m ρ))))) ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  rw [BI.bigSep_emp_const]
  iempintro

include hU hI in
set_option backward.isDefEq.respectTransparency.types false in
theorem run_main : θ_run defs (onTc (τ := τ) (main (F := F))) (s₀ m ρ) (QC m ρ) :=
  Pipeline.θ_run_regions_kit (pcfgs (F := F)) (adm m ρ) (dats m ρ) () (cellOf_inj (adm m ρ)) EP defs₀ 𝒱₀ L lv m ρ main (segs m ρ hU hI)
    (fun c Q => by rw [main_segs (adm m ρ) (dats m ρ) () 𝒱₀ L lv (seg0 m ρ) (seg1 m ρ) (reg0 m ρ hU hI) rfl rfl c])
    (by simp only [Pipeline.Seg.pipes_host, Pipeline.Seg.pipes_region, Pipeline.Seg.pipes_nil]; decide) (O₀ := 0) (hL := fun _ _ => rfl)
    (G := fun _ => iprop(emp)) (u₀ := u₀ m ρ) (hu₀ := launch_u₀ m ρ)
    (T₀ := fun c => iprop(StableHlo.held (c : Thread nD τ) (Pipeline.ucRefs τ sig) (V₀ m ρ c) ∗ R c))
    (Tₙ := fun c => iprop(StableHlo.held (c : Thread nD τ) S1 (StableHlo.after hostOps1 (V₁ m ρ c)) ∗ Yc m ρ c))
    (hch := ⟨fun _ => .rfl, fun _ => .rfl, fun _ => .rfl, fun c =>
      show iprop(StableHlo.held (c : Thread nD τ) S1 (StableHlo.after hostOps1 (V₁ m ρ c)) ∗ R1 m ρ c)
          ⊢ iprop((StableHlo.held (c : Thread nD τ) S1 (StableHlo.after hostOps1 (V₁ m ρ c)) ∗ Yc m ρ c) ∗ R c) from by
        iintro ⟨Hh, HY, HR⟩
        isplitr [HR]
        · isplitl [Hh] <;> iassumption
        · iexact HR⟩)
    (hinit := by
      refine Pipeline.initEach L lv fun c => ?_
      rw [show unscopedBufs c (fun b => m ((c : Thread nD τ).loc b)) = StableHlo.held (c : Thread nD τ) (Pipeline.ucRefs τ sig) (V₀ m ρ c)
        from Pipeline.unscopedBufs_held c (V₀ m ρ c)]
      iintro ⟨⟨Hh, -, HO, -, -, -⟩, -⟩
      imodintro
      isplitl [Hh]; · iexact Hh
      iexists ∅; iexact HO)
    (QY := QY m ρ)
    (hfin := fun c s' => by
      iintro ⟨⟨Hh, H1, -, -⟩, HSI⟩
      icombine HSI H1 gives %h1
      unfold StableHlo.held
      ihave Hr := (pointsTo_read_all S1 (fun b => (((c : Thread nD τ).1, b) : Loc nD τ sig)) (StableHlo.after hostOps1 (V₁ m ρ c)) s') $$ [Hh HSI]
      · isplitl [Hh] <;> iassumption
      icases Hr with ⟨%ha, HSI⟩
      imodintro
      isplitr; · ipureintro; exact ⟨ha, Buf.eq_of_forall_mem_univ h1⟩
      iexact HSI)
    (hQ := fun s h c =>
      ⟨(h c).1 _ (Finset.mem_map_of_mem _ (by decide)),
        arg_final m ρ c s (h c) main_arg0 (by decide),
        arg_final m ρ c s (h c) main_arg1 (by decide),
        arg_final m ρ c s (h c) main_arg2 (by decide),
        arg_final m ρ c s (h c) main_arg3 (by decide),
        arg_final m ρ c s (h c) main_arg4 (by decide),
        arg_final m ρ c s (h c) main_arg5 (by decide),
        arg_final m ρ c s (h c) main_arg6 (by decide),
        arg_final m ρ c s (h c) main_arg7 (by decide),
        arg_final m ρ c s (h c) main_arg8 (by decide),
        arg_final m ρ c s (h c) main_arg9 (by decide),
        arg_final m ρ c s (h c) main_arg10 (by decide),
        arg_final m ρ c s (h c) main_arg11 (by decide),
        arg_final m ρ c s (h c) main_arg12 (by decide)⟩)

theorem out34_eq (c : Dev nD) :
    out34 m ρ c = fun i => shapeCast S16384 (finalA m ρ c 6) shapeCasts_S16384x1_S16384 i := by
  show StableHlo.after hostOps1 _ (Proc.devRef .tc main_v34) = _
  after_results
  rw [show V₁ m ρ c (Proc.devRef .tc main_v33) = finalA m ρ c 6
    from Pipeline.withArrays_arr (cfgA m ρ).spec (launch0 (F := F)).win.arr_inj c _ _ 6]
  rfl

end Cert.Proof.KernelRun

end
-- ==== Proof.PreIdx.lean ====
import Idealize.ShloMosaic.Lib.ReduceAll
import Idealize.ShloMosaic.Lib.Affine
import proofs.«421944_j3513283248500_1_alg».proof.Pre_finite_inputs

namespace Cert.PreIdx

open Idealize.ShloMosaic Cert.Pre_finite_inputs

variable {F : FTy → Type} [FloatOps F] [Cert.Pre_finite_inputs.Facts]

local instance : Subsingleton S_.Idx := ⟨fun a b => funext fun d => d.elim0⟩

theorem part3_one {a6 : IVec S16384 32} {v47 : IVec S_ 1} {v49 : IVec S16384 1} {c19 : IVec S_ 1} (j : S_.Idx)
    (h : fn_part3 (F := F) a6 v47 v49 c19 j = 1#1) :
    v47 j = 1#1 ∧ (∀ k, v49 k = 1#1) ∧ (∀ k, (-100000 : Int) ≤ (a6 k).toInt) ∧ (∀ k, (a6 k).toInt < 50000) := by
  dsimp only [fn_part3, andi] at h
  obtain ⟨h1, h58⟩ := IntOp.andi_eq_one.1 h
  obtain ⟨h2, h54⟩ := IntOp.andi_eq_one.1 h1
  obtain ⟨h47, h50⟩ := IntOp.andi_eq_one.1 h2
  refine ⟨h47, fun k => Host.reduce_andi_all _ _ _ _ j h50 k, fun k => ?_, fun k => ?_⟩
  · have e := IntOp.cmpi_sge.1 (Host.reduce_andi_all _ _ _ _ j h54 k)
    have c : (4294867296#32 : BitVec 32).toInt = -100000 := by decide
    change (4294867296#32 : BitVec 32).toInt ≤ (a6 k).toInt at e
    omega
  · have e := IntOp.cmpi_slt.1 (Host.reduce_andi_all _ _ _ _ j h58 k)
    have c : (50000#32 : BitVec 32).toInt = 50000 := by decide
    change (a6 k).toInt < (50000#32 : BitVec 32).toInt at e
    omega

theorem part2_one {a5 a6 : IVec S16384 32} {a11 : FVec F S32x1 .f32} {a12 : FVec F S1 .f32} {v33 : IVec S_ 1} (j : S_.Idx)
    (h : fn_part2 (F := F) a5 a6 a11 a12 v33 j = 1#1) :
    (∀ k, (0 : Int) ≤ (a5 k).toInt) ∧ (∀ k, (a5 k).toInt < 150000) ∧
      (∀ k, (-100000 : Int) ≤ (a6 k).toInt) ∧ (∀ k, (a6 k).toInt < 50000) := by
  dsimp only [fn_part2] at h
  obtain ⟨h47, h49, hge, hlt⟩ := part3_one (F := F) j h
  dsimp only [andi] at h47
  obtain ⟨-, h46⟩ := IntOp.andi_eq_one.1 h47
  refine ⟨fun k => ?_, fun k => ?_, hge, hlt⟩
  · have e := IntOp.cmpi_sge.1 (Host.reduce_andi_all _ _ _ _ j h46 k)
    have c : (0#32 : BitVec 32).toInt = 0 := by decide
    change (0#32 : BitVec 32).toInt ≤ (a5 k).toInt at e
    omega
  · have e := IntOp.cmpi_slt.1 (h49 k)
    have c : (150000#32 : BitVec 32).toInt = 150000 := by decide
    change (a5 k).toInt < (150000#32 : BitVec 32).toInt at e
    omega

variable {a0 : FVec F S100000x100 .f32} {a1 : FVec F S50000x100 .f32} {a2 : IVec S2000000 32} {a3 : IVec S2000000 32}
  {a4 : FVec F S2000000 .f32} {a5 : IVec S16384 32} {a6 : IVec S16384 32} {a7 : FVec F S200x64 .f32} {a8 : FVec F S64 .f32}
  {a9 : FVec F S64x32 .f32} {a10 : FVec F S32 .f32} {a11 : FVec F S32x1 .f32} {a12 : FVec F S1 .f32}

theorem signed_bounds
    (h : fn (F := F) a0 a1 a2 a3 a4 a5 a6 a7 a8 a9 a10 a11 a12 = (fun _ => 1#1)) :
    (∀ k, (0 : Int) ≤ (a5 k).toInt) ∧ (∀ k, (a5 k).toInt < 150000) ∧
      (∀ k, (-100000 : Int) ≤ (a6 k).toInt) ∧ (∀ k, (a6 k).toInt < 50000) := by
  have h0 := congrFun h (fun d => d.elim0)
  dsimp only [fn, fn_part1] at h0
  exact part2_one (F := F) _ h0

theorem user_lt
    (h : fn (F := F) a0 a1 a2 a3 a4 a5 a6 a7 a8 a9 a10 a11 a12 = (fun _ => 1#1)) :
    ∀ k : S16384.Idx, (a5 k).toNat < 150000 := by
  intro k
  obtain ⟨h0, h1, -, -⟩ := signed_bounds h
  have h0 := h0 k
  have h1 := h1 k
  have := (a5 k).isLt
  rw [BitVec.toInt_eq_toNat_cond] at h0 h1
  split at h0 <;> omega

theorem item_lt
    (h : fn (F := F) a0 a1 a2 a3 a4 a5 a6 a7 a8 a9 a10 a11 a12 = (fun _ => 1#1)) :
    ∀ k : S16384.Idx, (a6 k + 100000#32).toNat < 150000 := by
  intro k
  obtain ⟨-, -, h0, h1⟩ := signed_bounds h
  have h0 := h0 k
  have h1 := h1 k
  have := (a6 k).isLt
  have c : (100000#32 : BitVec 32).toNat = 100000 := by decide
  rw [BitVec.toInt_eq_toNat_cond] at h0 h1
  rw [BitVec.toNat_add, c]
  split at h0 <;> omega

theorem item_lt_vec
    (hb : S_.BroadcastsInDim S16384 (![] : Fin 0 → Fin S16384.rank))
    (h : fn (F := F) a0 a1 a2 a3 a4 a5 a6 a7 a8 a9 a10 a11 a12 = (fun _ => 1#1)) :
    ∀ k : S16384.Idx, (addi a6 (broadcastInDim S16384 ![] hb (constantI S_ 32 100000#32)) k).toNat < 150000 :=
  item_lt h

end Cert.PreIdx
-- ==== Proof.KernelFrame.lean ====
import proofs.«421944_j3513283248500_1_alg».proof.Proof.KernelRun
import proofs.«421944_j3513283248500_1_alg».proof.Proof.KernelHost
import proofs.«421944_j3513283248500_1_alg».proof.Proof.PreIdx

noncomputable section

namespace Cert.Proof.KernelFrame

open Cert.Kernel Cert.Kernel.Gen Cert.Proof.KernelRun Cert.Proof.KernelHost
open Idealize.ShloMosaic Idealize.ShloMosaic.TcCoe Idealize.SL.Sem

variable {F : FTy → Type} [FloatOps F] [∀ e, Nonempty (Elt F e)] [Cert.Pre_finite_inputs.Facts]
variable (m : (ℓ : Loc nD τ sig) → Buf (Elt F) ℓ) (ρ : Dev nD → PrngReg)

abbrev Pre : Prop := ∀ c : Dev nD,
  Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = (fun _ => 1#1)

/-- Under the precondition both index tables the region finds hold words below 150000: the user indices as given, the item indices shifted up by 100000. -/
theorem hU (hpre : Pre m) : ∀ c k, BitVec.toNat (w := 32) ((V m ρ c main_arg5 : main_arg5.ty.Contents (Elt F)) k) < 150000 := fun c k => by
  have e : (V m ρ c main_arg5 : main_arg5.ty.Contents (Elt F)) = m ((c.tc : Thread nD τ).loc main_arg5) := after_kept (F := F) (V₀ m ρ c) (by decide)
  rw [e]
  exact Cert.PreIdx.user_lt (hpre c) k

theorem hI (hpre : Pre m) : ∀ c k, BitVec.toNat (w := 32) ((V m ρ c main_v32 : main_v32.ty.Contents (Elt F)) k) < 150000 := fun c k => by
  have e := after_v32 (F := F) (V₀ m ρ c)
  show BitVec.toNat ((StableHlo.after (hostOps0 (F := F)) (V₀ m ρ c) (Proc.devRef .tc main_v32) : IVec S16384 32) k) < 150000
  rw [e]
  exact Cert.PreIdx.item_lt_vec _ (hpre c) k

theorem run_pre (hpre : Pre m) :
    θ_run (defs (F := F)) (onTc (τ := τ) (main (F := F))) ⟨m, fun _ => 0, ρ⟩ (QC m ρ) :=
  run_main m ρ (hU m ρ hpre) (hI m ρ hpre)

/-- The program runs and leaves its thirteen arguments as it found them: no host operation writes an argument and the region writes only its output array. -/
theorem frame (hpre : Pre m) :
    θ_run (defs (F := F)) (onTc (τ := τ) (main (F := F))) ⟨m, fun _ => 0, ρ⟩ (fun r => ∀ c : Dev nD, ArgsKept m c r.2) :=
  (θ_run (defs (F := F)) _ _).mono (fun r h c => (h c).2) (run_pre m ρ hpre)

end Cert.Proof.KernelFrame

end
-- ==== Proof.KernelIdealToks.lean ====
import proofs.«421944_j3513283248500_1_alg».proof.Proof.Gen.KernelIdeal
import proofs.«421944_j3513283248500_1_alg».proof.Proof.Gen.KernelIdeal.Skeleton
import Idealize.ShloMosaic.Lib.Tactic
import Idealize.ShloMosaic.Lib.Batch
import Idealize.ShloMosaic.Lib.Pipeline.Kit
import Idealize.ShloMosaic.Lib.ValueIdx

noncomputable section

namespace Cert.Proof.KernelIdealBody

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
abbrev ptq (c : Dev nD) (q : PosShare TreeShare) {sp : Space} {S : Shape} {e : EltTy} (M : Memref sig .tc sp S e) (f : Bf (F := F) c M) : sProp 𝕄 :=
  M.view.loc (c : Thread nD τ) ↦{q} f

abbrev A1 : Memref sig .tc .smem S16384 .i32 := Memref.whole main_arg5
abbrev A2 : Memref sig .tc .smem S16384 .i32 := Memref.whole main_v32
abbrev A3 : Memref sig .tc .hbm S150000x100 .f32 := Memref.whole main_v30

/-- A word below 150000 names a row of the table: the row's rectangle lies inside it. -/
theorem chkOf (v : BitVec 32) (h : v.toNat < 150000) :
    ∀ a, (![v.toNat, 0] : Fin 2 → Nat) a + S1x100.size a ≤ S150000x100.size a := by
  intro a; fin_cases a
  · show v.toNat + 1 ≤ 150000; omega
  · show 0 + 100 ≤ 100; omega

theorem rdU (f1 : main_arg5.ty.Contents (Elt F)) (hU : ∀ k, BitVec.toNat (w := 32) (f1 k) < 150000) (R : LoadRect S16384) (j : R.shape.Idx) :
    BitVec.toNat (w := 32) (View.readAt (Elt F) (Memref.whole main_arg5 : Memref sig .tc .smem S16384 .i32).view R f1 j) < 150000 := hU _

theorem rdI (f2 : main_v32.ty.Contents (Elt F)) (hI : ∀ k, BitVec.toNat (w := 32) (f2 k) < 150000) (R : LoadRect S16384) (j : R.shape.Idx) :
    BitVec.toNat (w := 32) (View.readAt (Elt F) (Memref.whole main_v32 : Memref sig .tc .smem S16384 .i32).view R f2 j) < 150000 := hI _

/-- The table at what remains of the full share after `k` read shares were split off. -/
def Pool (c : Dev nD) (f3 : main_v30.ty.Contents (Elt F)) (k : ℕ) : sProp 𝕄 := ptq c (Transfers.shareDrop fullShare k) A3 f3

theorem pool_of_whole (c : Dev nD) (f3 : main_v30.ty.Contents (Elt F)) : (pt c A3 f3 : sProp 𝕄) ⊢ Pool c f3 0 := Entails.of_eq rfl

theorem pool_pop (c : Dev nD) (f3 : main_v30.ty.Contents (Elt F)) (k : ℕ) :
    Pool c f3 k ⊢ iprop(Pool c f3 (k + 1) ∗ ptq c (Transfers.shareTokN fullShare k) A3 f3) :=
  (pointsTo_share (PosShare.mem_left_op_right _)).1

/-- The 128 table rows a grid point gathers through an index table `fi`: row `j` is row `fi (128·i₀ + j)` of `f3`. -/
def gathered (i : grid0.Coords) (fi : IVec S16384 32) (f3 : FVec F S150000x100 .f32) : FVec F S128x100 .f32 :=
  fun x => f3 (ValueIdx.ix2 (⟨(fi (ValueIdx.ix1 ⟨(128 * (i 0).val + (x 0).val) % 16384, Nat.mod_lt _ (by decide)⟩)).toNat % 150000,
    Nat.mod_lt _ (by decide)⟩ : Fin 150000) (x 1))

/-- What a grid point leaves in its output block: the three dense layers of the gathered user and item rows. -/
def outBlock (i : grid0.Coords) (f1 f2 : IVec S16384 32) (f3 : FVec F S150000x100 .f32)
    (w1 : FVec F S200x64 .f32) (b1 : FVec F S64 .f32) (w2 : FVec F S64x32 .f32) (b2 : FVec F S32 .f32) (w3 : FVec F S32x1 .f32) (b3 : FVec F S1 .f32) :
    FVec F S128x1 .f32 :=
  k0_pay3 (k0_pay1 (gathered i f1 f3) (gathered i f2 f3) w1 b1 w2 b2 w3) (k0_pay2 b3)

end Cert.Proof.KernelIdealBody

end
-- ==== Proof.KernelIdealRows.lean ====
import proofs.«421944_j3513283248500_1_alg».proof.Proof.KernelIdealToks
import Idealize.ShloMosaic.Lib.Ring
import Idealize.ShloMosaic.Lib.ValueIdx

noncomputable section

namespace Cert.Proof.KernelIdealBody

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem row_inb (k : ℕ) (hk : k < 128) :
    ∀ a, (![k, 0] : Fin 2 → Nat) a + S1x100.size a ≤ S128x100.size a := by
  intro a; fin_cases a
  · show k + 1 ≤ 128; omega
  · show 0 + 100 ≤ 100; omega

abbrev rowR (k : ℕ) (hk : k < 128) : Rect S128x100 := Rect.unit (s := S128x100) ![k, 0] S1x100.size (row_inb k hk)

abbrev rowM (M : Memref sig .tc .vmem S128x100 .f32) (k : ℕ) (hk : k < 128) : Memref sig .tc .vmem S100 .f32 :=
  (M.slice (Rect.unit (s := S128x100) ![k, 0] S1x100.size (row_inb k hk)) (fun _ => rfl)).squeeze S100 squeezes_S1x100_S100

/-- Row `k` of a [128,100] buffer held by exactly its own elements, at contents `f` of the whole buffer. -/
abbrev heldRow (c : Dev nD) (M : Memref sig .tc .vmem S128x100 .f32) (k : ℕ) (hk : k < 128) (f : Bf (F := F) c M) : sProp 𝕄 :=
  (rowM M k hk).view.loc (c : Thread nD τ) ↦[(rowM M k hk).view.set]{fullShare} f

theorem mem_rowR {k : ℕ} {hk : k < 128} {i : S128x100.Idx} : i ∈ (rowR k hk).set ↔ (i 0).val = k := by
  rw [Rect.mem_set_unit]
  constructor
  · intro h; have := h 0; simp at this; omega
  · intro h a; fin_cases a
    · show k ≤ (i 0).val ∧ (i 0).val < k + 1; omega
    · have h1 : (i 1).val < 100 := (i 1).isLt
      show 0 ≤ (i 1).val ∧ (i 1).val < 0 + 100; omega

abbrev rowSet (M : Memref sig .tc .vmem S128x100 .f32) (j : Fin 128) : Finset M.view.ty.Idx :=
  (rowM M j.val j.isLt).view.set

theorem rowSet_eq (M : Memref sig .tc .vmem S128x100 .f32) (j : Fin 128) :
    rowSet M j = (rowR j.val j.isLt).set.map M.view.emb := by
  show ((M.view.slice (rowR j.val j.isLt)).reshape S100 _).set = _
  rw [View.set_reshape, View.set_slice]

theorem rows_disjoint (M : Memref sig .tc .vmem S128x100 .f32) (j j' : Fin 128) (h : j ≠ j') :
    Disjoint (rowSet M j) (rowSet M j') := by
  rw [rowSet_eq, rowSet_eq, Finset.disjoint_map, Finset.disjoint_left]
  intro i hi hi'
  exact h (Fin.ext ((mem_rowR.mp hi).symm.trans (mem_rowR.mp hi')))

theorem rows_cover (M : Memref sig .tc .vmem S128x100 .f32) (hM : M.IsWhole) :
    (Finset.univ : Finset (Fin 128)).biUnion (rowSet M) = Finset.univ := by
  rw [← hM.set_eq_univ]
  ext x
  simp only [Finset.mem_biUnion, Finset.mem_univ, true_and, rowSet_eq, Finset.mem_map]
  constructor
  · rintro ⟨j, i, _, rfl⟩; exact View.emb_mem_set _ i
  · intro hx
    obtain ⟨i, _, rfl⟩ := Finset.mem_map.mp hx
    exact ⟨⟨(i 0).val, (i 0).isLt⟩, i, mem_rowR.mpr rfl, rfl⟩

/-- The rows `k ≤ j`, row `j` held by its own elements at the contents `fs j`. -/
def RowsFrom (c : Dev nD) (M : Memref sig .tc .vmem S128x100 .f32) (fs : Fin 128 → Bf (F := F) c M) (k : ℕ) : sProp 𝕄 :=
  bigSep ((Finset.univ : Finset (Fin 128)).filter fun j => k ≤ j.val) fun j => heldRow c M j.val j.isLt (fs j)

theorem rowsFrom_succ (c : Dev nD) (M : Memref sig .tc .vmem S128x100 .f32) (fs : Fin 128 → Bf (F := F) c M) (k : ℕ) (hk : k < 128) :
    RowsFrom c M fs k = iprop(heldRow c M k hk (fs ⟨k, hk⟩) ∗ RowsFrom c M fs (k + 1)) := by
  unfold RowsFrom
  have hs : ((Finset.univ : Finset (Fin 128)).filter fun j => k ≤ j.val)
      = insert (⟨k, hk⟩ : Fin 128) ((Finset.univ : Finset (Fin 128)).filter fun j => k + 1 ≤ j.val) := by
    ext j
    simp only [Finset.mem_filter, Finset.mem_univ, true_and, Finset.mem_insert, Fin.ext_iff]
    omega
  rw [hs, bigSep_insert (by simp only [Finset.mem_filter, Finset.mem_univ, true_and]; omega)]
  rfl

/-- A whole buffer held is all its rows held. -/
theorem rows_split (c : Dev nD) (M : Memref sig .tc .vmem S128x100 .f32) (hM : M.IsWhole) (f : Bf (F := F) c M) :
    (pt c M f : sProp 𝕄) ⊢ RowsFrom c M (fun _ => f) 0 := by
  unfold RowsFrom
  rw [Finset.filter_true_of_mem (fun j _ => Nat.zero_le j.val)]
  exact Entails.of_eq (Ring.pointsTo_blocks (nD := nD) (τ := τ) (sig := sig) (Ix := Unit) (Val := Elt F) (Name := ℕ) (U := UU nD τ) (Lvl := ℕ)
    (ℓ := M.view.loc (c : Thread nD τ)) (I := rowSet M) (rows_disjoint M) (rows_cover M hM) (q := fullShare) f)

theorem rows_pop (c : Dev nD) (M : Memref sig .tc .vmem S128x100 .f32) (f : Bf (F := F) c M) (k : ℕ) (hk : k < 128) :
    RowsFrom c M (fun _ => f) k ⊢ iprop(heldRow c M k hk f ∗ RowsFrom c M (fun _ => f) (k + 1)) :=
  Entails.of_eq (rowsFrom_succ c M (fun _ => f) k hk)

/-- All 128 rows written join to the buffer held whole, at contents that read on each row as that row's own. -/
theorem rows_join (c : Dev nD) (M : Memref sig .tc .vmem S128x100 .f32) (hM : M.IsWhole) (fs : Fin 128 → Bf (F := F) c M) :
    RowsFrom c M fs 0 ⊢ iprop(∃ g : Bf (F := F) c M,
      ⌜∀ (j : Fin 128) (i : Fin 100), M.view.read (Elt F) g (ValueIdx.ix2 j i) = M.view.read (Elt F) (fs j) (ValueIdx.ix2 j i)⌝ ∗ pt c M g) := by
  unfold RowsFrom
  rw [Finset.filter_true_of_mem (fun j _ => Nat.zero_le j.val)]
  have h := pointsTo_biUnion_join (nD := nD) (τ := τ) (sig := sig) (Ix := Unit) (Val := Elt F) (Name := ℕ) (U := UU nD τ) (Lvl := ℕ)
    (ℓ := M.view.loc (c : Thread nD τ)) (q := fullShare) (Finset.univ : Finset (Fin 128)) (rowSet M) fs (fs 0)
    (fun j _ j' _ hj => rows_disjoint M j j' hj)
  rw [rows_cover M hM] at h
  refine h.trans ?_
  iintro ⟨%g, %hg, H⟩
  iexists g
  isplitr
  · ipureintro
    intro j i
    show _root_.cast _ (g (M.view.emb (ValueIdx.ix2 j i))) = _root_.cast _ (fs j (M.view.emb (ValueIdx.ix2 j i)))
    rw [hg j (Finset.mem_univ _) _ (by rw [rowSet_eq]; exact Finset.mem_map_of_mem _ (mem_rowR.mpr rfl))]
  · iexact H

/-- Element `x` of row `k` of a two-axis view is its element `(k, x)`. -/
theorem read_row {κ : Kind} {sp : Space} {N : ℕ} {e : EltTy} {Val : EltTy → Type}
    (M : Memref sig κ sp ⟨2, ![N, 100]⟩ e) (off : Fin 2 → ℕ) (k : ℕ) (hk : k < N) (hoff : off = ![k, 0])
    (inb : ∀ a, off a + S1x100.size a ≤ (⟨2, ![N, 100]⟩ : Shape).size a)
    (hq : S1x100.Squeezes S100) (f : M.view.ty.Contents Val) (x : S100.Idx) :
    ((M.slice (Rect.unit (s := ⟨2, ![N, 100]⟩) off S1x100.size inb) (fun _ => rfl)).squeeze S100 hq).view.read Val f x
      = M.view.read Val f (ValueIdx.ix2 ⟨k, hk⟩ (x 0)) := by
  subst hoff
  have h1 : Shape.reshapeEquiv hq.numel_eq x = (ValueIdx.ix2 (0 : Fin 1) (x 0) : S1x100.Idx) :=
    Shape.reshapeEquiv_eq_of_rowMajor _ (by
      rw [Shape.rowMajor_val_two, Shape.rowMajor_val_one]; show 0 * 100 + (x 0).val = (x 0).val; omega)
  have h2 : (Rect.unit (s := ⟨2, ![N, 100]⟩) ![k, 0] S1x100.size inb).emb (ValueIdx.ix2 (0 : Fin 1) (x 0) : S1x100.Idx)
      = ValueIdx.ix2 ⟨k, hk⟩ (x 0) := by
    funext a; apply Fin.ext
    rw [Rect.emb_apply]
    match a with
    | ⟨0, _⟩ => show k + 1 * 0 = k; omega
    | ⟨1, _⟩ => show 0 + 1 * (x 0).val = (x 0).val; omega
  show _root_.cast _ (f (M.view.emb ((Rect.unit (s := ⟨2, ![N, 100]⟩) ![k, 0] S1x100.size inb).emb (Shape.reshapeEquiv hq.numel_eq x))))
    = _root_.cast _ (f (M.view.emb (ValueIdx.ix2 ⟨k, hk⟩ (x 0))))
  rw [h1, h2]
  rfl

/-- The rows `k ≤ j` held at contents that read, each on its row, as the target `G` does. -/
def JoinedFrom (c : Dev nD) (M : Memref sig .tc .vmem S128x100 .f32) (G : FVec F S128x100 .f32) (k : ℕ) : sProp 𝕄 :=
  iprop(∃ fs : Fin 128 → Bf (F := F) c M,
    ⌜∀ j : Fin 128, k ≤ j.val → (rowM M j.val j.isLt).view.read (Elt F) (fs j) = fun x => G (ValueIdx.ix2 j (x 0))⌝
      ∗ RowsFrom c M fs k)

/-- No row yet (any contents `f₀` names the family). -/
theorem joined_none (c : Dev nD) (M : Memref sig .tc .vmem S128x100 .f32) (G : FVec F S128x100 .f32) (f₀ : Bf (F := F) c M) (P : sProp 𝕄) :
    P ⊢ JoinedFrom c M G 128 := by
  refine (Laws.affine : P ⊢ emp).trans ?_
  unfold JoinedFrom RowsFrom
  iintro H
  iexists (fun _ => f₀)
  isplitr
  · ipureintro; intro j hj; exact absurd j.isLt (Nat.not_lt.mpr hj)
  · rw [Finset.filter_false_of_mem (fun j _ => Nat.not_le.mpr j.isLt), bigSep_empty]; iexact H

/-- A landed row that carries the target's row joins the rows above it. -/
theorem joined_push (c : Dev nD) (M : Memref sig .tc .vmem S128x100 .f32) (G : FVec F S128x100 .f32) (k : ℕ) (hk : k < 128)
    (f : Bf (F := F) c M) (p : S100.Idx → Elt F .f32) (hp : p = fun x => G (ValueIdx.ix2 (⟨k, hk⟩ : Fin 128) (x 0))) :
    iprop(JoinedFrom c M G (k + 1) ∗ heldRow c M k hk ((rowM M k hk).view.writes (Elt F) f [⟨Rect.whole S100, ReadAs.same.apply p⟩]))
      ⊢ JoinedFrom c M G k := by
  unfold JoinedFrom
  iintro ⟨⟨%fs, %hfs, H⟩, Hk⟩
  iexists Function.update fs ⟨k, hk⟩ ((rowM M k hk).view.writes (Elt F) f [⟨Rect.whole S100, ReadAs.same.apply p⟩])
  isplitr
  · ipureintro
    intro j hj
    by_cases hjk : j = ⟨k, hk⟩
    · subst hjk; rw [Function.update_self]; exact (View.read_writes_whole (rowM M k hk).view f p).trans hp
    · rw [Function.update_of_ne hjk]
      exact hfs j (by have : j.val ≠ k := fun e => hjk (Fin.ext e); omega)
  · rw [rowsFrom_succ c M _ k hk, Function.update_self]
    isplitl [Hk]
    · iexact Hk
    · rw [show RowsFrom c M (Function.update fs ⟨k, hk⟩ _) (k + 1) = RowsFrom c M fs (k + 1) from
        bigSep_congr fun j hj => by rw [Function.update_of_ne (fun e => by rw [e] at hj; simp at hj)]]
      iexact H

/-- All 128 rows written join to the buffer held whole, at contents that read as the target. -/
theorem joined_all (c : Dev nD) (M : Memref sig .tc .vmem S128x100 .f32) (hM : M.IsWhole) (G : FVec F S128x100 .f32) :
    JoinedFrom c M G 0 ⊢ iprop(∃ g : Bf (F := F) c M, ⌜M.view.read (Elt F) g = G⌝ ∗ pt c M g) := by
  unfold JoinedFrom
  iintro ⟨%fs, %hfs, H⟩
  ihave H2 := (rows_join c M hM fs) $$ H
  icases H2 with ⟨%g, %hg, H2⟩
  iexists g
  isplitr
  · ipureintro
    funext y
    obtain ⟨j, i, rfl⟩ : ∃ (j : Fin 128) (i : Fin 100), y = ValueIdx.ix2 j i := ⟨y 0, y 1, ValueIdx.eq_ix2 y⟩
    rw [hg j i]
    have h := congrFun (hfs j (Nat.zero_le _)) (ValueIdx.ix1 i)
    rwa [read_row (Val := Elt F) M ![j.val, 0] j.val j.isLt rfl (row_inb j.val j.isLt) squeezes_S1x100_S100 (fs j)] at h
  · iexact H2

/-- A row of the table read through its window: the table's entries on that row. -/
theorem src_row_read (w : BitVec 32) (off : Fin 2 → ℕ) (hoff : off = ![w.toNat, 0])
    (h : ∀ a, off a + S1x100.size a ≤ S150000x100.size a) (hw : w.toNat < 150000)
    (hq : S1x100.Squeezes S100) (f3 : main_v30.ty.Contents (Elt F)) :
    View.read (Elt F) ((A3.slice (Rect.unit (s := S150000x100) off S1x100.size h) (fun _ => rfl)).squeeze S100 hq).view f3
      = fun x => f3 (ValueIdx.ix2 (⟨w.toNat, hw⟩ : Fin 150000) (x 0)) := by
  funext x
  exact read_row (Val := Elt F) A3 off w.toNat hw hoff h hq f3 x

/-- The word index of row `k` at grid point `i₀`: no 32-bit wrap below 2¹⁴. -/
theorem off_word (i0 : Fin 128) (k : ℕ) (hk : k < 128) :
    (Scalar.indexCast (Scalar.addi (Scalar.muli (BitVec.ofNat 32 i0.val) 128#32) (BitVec.ofNat 32 k)) : Index).toNat
      = 128 * i0.val + k := by
  have h0 := i0.isLt
  show ((BitVec.ofNat 32 i0.val * 128#32 + BitVec.ofNat 32 k : BitVec 32)).toNat = _
  rw [BitVec.toNat_add, BitVec.toNat_mul, BitVec.toNat_ofNat, BitVec.toNat_ofNat, BitVec.toNat_ofNat]
  have e1 : i0.val % 2 ^ 32 = i0.val := Nat.mod_eq_of_lt (by omega)
  have e2 : k % 2 ^ 32 = k := Nat.mod_eq_of_lt (by omega)
  have e3 : 128 % 2 ^ 32 = 128 := by decide
  rw [e1, e2, e3, Nat.mod_eq_of_lt (a := i0.val * 128) (by omega), Nat.mod_eq_of_lt (by omega)]
  omega

/-- One word of an index table read at the offset the program computes for row `k`: entry `128·i₀ + k`. -/
theorem word_idx (i : grid0.Coords) (k : ℕ) (hk : k < 128) (off : Fin 1 → ℕ)
    (hoff : off = ![(Scalar.indexCast (Scalar.addi (Scalar.muli (BitVec.ofNat 32 (i 0).val) 128#32) (BitVec.ofNat 32 k)) : Index).toNat])
    (hn : 128 * (i 0).val + k < 16384) (h : ∀ a, off a + S1.size a ≤ S16384.size a)
    (h0 : 0 < (Rect.unit (s := S16384) off S1.size h).toLoadRect.shape.numel) :
    (Rect.unit (s := S16384) off S1.size h).toLoadRect.idx (Shape.Idx.first h0) = ValueIdx.ix1 ⟨128 * (i 0).val + k, hn⟩ := by
  subst hoff
  funext a; apply Fin.ext
  match a with
  | ⟨0, _⟩ => exact off_word (i 0) k hk

/-- The table row a word names is the gathered row, when the word is the index table's entry for that row. -/
theorem gathered_row (i : grid0.Coords) (fi : IVec S16384 32) (f3 : FVec F S150000x100 .f32)
    (k : ℕ) (hk : k < 128) (w : BitVec 32) (hw : w.toNat < 150000)
    (hn : 128 * (i 0).val + k < 16384) (hwn : w = fi (ValueIdx.ix1 ⟨128 * (i 0).val + k, hn⟩)) :
    (fun x : S100.Idx => f3 (ValueIdx.ix2 (⟨w.toNat, hw⟩ : Fin 150000) (x 0)))
      = fun x => gathered i fi f3 (ValueIdx.ix2 (⟨k, hk⟩ : Fin 128) (x 0)) := by
  funext x
  unfold gathered
  show f3 (ValueIdx.ix2 (⟨w.toNat, hw⟩ : Fin 150000) (x 0))
    = f3 (ValueIdx.ix2 (⟨(fi (ValueIdx.ix1 ⟨(128 * (i 0).val + k) % 16384, Nat.mod_lt _ (by decide)⟩)).toNat % 150000,
        Nat.mod_lt _ (by decide)⟩ : Fin 150000) (x 0))
  have e2 : (⟨(128 * (i 0).val + k) % 16384, Nat.mod_lt _ (by decide)⟩ : Fin 16384) = ⟨128 * (i 0).val + k, hn⟩ :=
    Fin.ext (Nat.mod_eq_of_lt hn)
  rw [e2, ← hwn]
  congr 2
  exact Fin.ext (Nat.mod_eq_of_lt hw).symm

/-- Row `k` of the table window the program opens at the word it read from the first index table is the gathered row. -/
theorem row_fact₁ (i : grid0.Coords) (fi : IVec S16384 32) (f3 : FVec F S150000x100 .f32)
    (hfi : ∀ k, BitVec.toNat (fi k) < 150000) (k : ℕ) (hk : k < 128)
    (offw : Fin 1 → ℕ)
    (hoffw : offw = ![(Scalar.indexCast (Scalar.addi (Scalar.muli (BitVec.ofNat 32 (i 0).val) 128#32) (BitVec.ofNat 32 k)) : Index).toNat])
    (hinb : ∀ a, offw a + S1.size a ≤ S16384.size a)
    (h0 : 0 < (Rect.unit (s := S16384) offw S1.size hinb).toLoadRect.shape.numel)
    (offr : Fin 2 → ℕ)
    (hoffr : offr = ![BitVec.toNat (w := 32) (View.readAt (Elt F) A1.view (Rect.unit (s := S16384) offw S1.size hinb).toLoadRect fi (Shape.Idx.first h0)), 0])
    (hr : ∀ a, offr a + S1x100.size a ≤ S150000x100.size a) (hq : S1x100.Squeezes S100) :
    View.read (Elt F) ((A3.slice (Rect.unit (s := S150000x100) offr S1x100.size hr) (fun _ => rfl)).squeeze S100 hq).view f3
      = fun x => gathered i fi f3 (ValueIdx.ix2 (⟨k, hk⟩ : Fin 128) (x 0)) := by
  have hn : 128 * (i 0).val + k < 16384 := by have : (i 0).val < 128 := (i 0).isLt; omega
  have hword : View.readAt (Elt F) A1.view (Rect.unit (s := S16384) offw S1.size hinb).toLoadRect fi (Shape.Idx.first h0)
      = fi (ValueIdx.ix1 ⟨128 * (i 0).val + k, hn⟩) := congrArg fi (word_idx i k hk offw hoffw hn hinb h0)
  have hw := hfi (ValueIdx.ix1 ⟨128 * (i 0).val + k, hn⟩)
  rw [← hword] at hw
  exact (src_row_read _ offr hoffr hr hw hq f3).trans (gathered_row i fi f3 k hk _ hw hn hword)

/-- The same through the second index table. -/
theorem row_fact₂ (i : grid0.Coords) (fi : IVec S16384 32) (f3 : FVec F S150000x100 .f32)
    (hfi : ∀ k, BitVec.toNat (fi k) < 150000) (k : ℕ) (hk : k < 128)
    (offw : Fin 1 → ℕ)
    (hoffw : offw = ![(Scalar.indexCast (Scalar.addi (Scalar.muli (BitVec.ofNat 32 (i 0).val) 128#32) (BitVec.ofNat 32 k)) : Index).toNat])
    (hinb : ∀ a, offw a + S1.size a ≤ S16384.size a)
    (h0 : 0 < (Rect.unit (s := S16384) offw S1.size hinb).toLoadRect.shape.numel)
    (offr : Fin 2 → ℕ)
    (hoffr : offr = ![BitVec.toNat (w := 32) (View.readAt (Elt F) A2.view (Rect.unit (s := S16384) offw S1.size hinb).toLoadRect fi (Shape.Idx.first h0)), 0])
    (hr : ∀ a, offr a + S1x100.size a ≤ S150000x100.size a) (hq : S1x100.Squeezes S100) :
    View.read (Elt F) ((A3.slice (Rect.unit (s := S150000x100) offr S1x100.size hr) (fun _ => rfl)).squeeze S100 hq).view f3
      = fun x => gathered i fi f3 (ValueIdx.ix2 (⟨k, hk⟩ : Fin 128) (x 0)) := by
  have hn : 128 * (i 0).val + k < 16384 := by have : (i 0).val < 128 := (i 0).isLt; omega
  have hword : View.readAt (Elt F) A2.view (Rect.unit (s := S16384) offw S1.size hinb).toLoadRect fi (Shape.Idx.first h0)
      = fi (ValueIdx.ix1 ⟨128 * (i 0).val + k, hn⟩) := congrArg fi (word_idx i k hk offw hoffw hn hinb h0)
  have hw := hfi (ValueIdx.ix1 ⟨128 * (i 0).val + k, hn⟩)
  rw [← hword] at hw
  exact (src_row_read _ offr hoffr hr hw hq f3).trans (gathered_row i fi f3 k hk _ hw hn hword)

/-- A landed copy of the table row the first index table names for row `k` joins the rows above it. -/
theorem joined_row₁ (c : Dev nD) (M : Memref sig .tc .vmem S128x100 .f32) (i : grid0.Coords) (fi : IVec S16384 32)
    (f3 : FVec F S150000x100 .f32) (hfi : ∀ k, BitVec.toNat (fi k) < 150000) (k : ℕ) (hk : k < 128) (f : Bf (F := F) c M)
    (offw : Fin 1 → ℕ)
    (hoffw : offw = ![(Scalar.indexCast (Scalar.addi (Scalar.muli (BitVec.ofNat 32 (i 0).val) 128#32) (BitVec.ofNat 32 k)) : Index).toNat])
    (hinb : ∀ a, offw a + S1.size a ≤ S16384.size a)
    (h0 : 0 < (Rect.unit (s := S16384) offw S1.size hinb).toLoadRect.shape.numel)
    (offr : Fin 2 → ℕ)
    (hoffr : offr = ![BitVec.toNat (w := 32) (View.readAt (Elt F) A1.view (Rect.unit (s := S16384) offw S1.size hinb).toLoadRect fi (Shape.Idx.first h0)), 0])
    (hr : ∀ a, offr a + S1x100.size a ≤ S150000x100.size a) (hq : S1x100.Squeezes S100) :
    JoinedFrom c M (gathered i fi f3) (k + 1) ⊢ iprop(heldRow c M k hk ((rowM M k hk).view.writes (Elt F) f [⟨Rect.whole S100, ReadAs.same.apply
      (View.read (Elt F) ((A3.slice (Rect.unit (s := S150000x100) offr S1x100.size hr) (fun _ => rfl)).squeeze S100 hq).view f3)⟩])
        -∗ JoinedFrom c M (gathered i fi f3) k) :=
  BI.wand_intro (joined_push c M _ k hk f _ (row_fact₁ i fi f3 hfi k hk offw hoffw hinb h0 offr hoffr hr hq))

/-- The same through the second index table. -/
theorem joined_row₂ (c : Dev nD) (M : Memref sig .tc .vmem S128x100 .f32) (i : grid0.Coords) (fi : IVec S16384 32)
    (f3 : FVec F S150000x100 .f32) (hfi : ∀ k, BitVec.toNat (fi k) < 150000) (k : ℕ) (hk : k < 128) (f : Bf (F := F) c M)
    (offw : Fin 1 → ℕ)
    (hoffw : offw = ![(Scalar.indexCast (Scalar.addi (Scalar.muli (BitVec.ofNat 32 (i 0).val) 128#32) (BitVec.ofNat 32 k)) : Index).toNat])
    (hinb : ∀ a, offw a + S1.size a ≤ S16384.size a)
    (h0 : 0 < (Rect.unit (s := S16384) offw S1.size hinb).toLoadRect.shape.numel)
    (offr : Fin 2 → ℕ)
    (hoffr : offr = ![BitVec.toNat (w := 32) (View.readAt (Elt F) A2.view (Rect.unit (s := S16384) offw S1.size hinb).toLoadRect fi (Shape.Idx.first h0)), 0])
    (hr : ∀ a, offr a + S1x100.size a ≤ S150000x100.size a) (hq : S1x100.Squeezes S100) :
    JoinedFrom c M (gathered i fi f3) (k + 1) ⊢ iprop(heldRow c M k hk ((rowM M k hk).view.writes (Elt F) f [⟨Rect.whole S100, ReadAs.same.apply
      (View.read (Elt F) ((A3.slice (Rect.unit (s := S150000x100) offr S1x100.size hr) (fun _ => rfl)).squeeze S100 hq).view f3)⟩])
        -∗ JoinedFrom c M (gathered i fi f3) k) :=
  BI.wand_intro (joined_push c M _ k hk f _ (row_fact₂ i fi f3 hfi k hk offw hoffw hinb h0 offr hoffr hr hq))

end Cert.Proof.KernelIdealBody

end
-- ==== Proof.KernelIdealBody.lean ====
import proofs.«421944_j3513283248500_1_alg».proof.Proof.KernelIdealRows
import Idealize.ShloMosaic.Lib.Pipeline.Value

noncomputable section

namespace Cert.Proof.KernelIdealBody

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

abbrev sems0 (c : Dev nD) : sProp 𝕄 :=
  iprop(semVal ((c : Thread nD τ), SemLoc.dma 8) 0 ∗ semVal ((c : Thread nD τ), SemLoc.dma 9) 0)

set_option maxHeartbeats 4000000000 in
set_option sl_exec.stepHeartbeats 4000000 in
set_option maxRecDepth 65536 in
/-- One grid point: each of the 256 row copies reads the table through a share of its own and lands in a row held by itself, and all are waited for before a row is read, so the two buffers hold the gathered rows when the dense layers read them. -/
theorem kernelRun [∀ e, Nonempty (Elt F e)] (c : Dev nD) (i : grid0.Coords) (arg4 : Memref sig .tc .vmem S200x64 .f32) (harg4 : arg4.IsWhole) (arg5 : Memref sig .tc .vmem S64 .f32) (harg5 : arg5.IsWhole) (arg6 : Memref sig .tc .vmem S64x32 .f32) (harg6 : arg6.IsWhole) (arg7 : Memref sig .tc .vmem S32 .f32) (harg7 : arg7.IsWhole) (arg8 : Memref sig .tc .vmem S32x1 .f32) (harg8 : arg8.IsWhole) (arg9 : Memref sig .tc .vmem S1 .f32) (harg9 : arg9.IsWhole) (arg10 : Memref sig .tc .vmem S128x1 .f32) (harg10 : arg10.IsWhole) (arg11 : Memref sig .tc .vmem S128x100 .f32) (harg11 : arg11.IsWhole) (arg12 : Memref sig .tc .vmem S128x100 .f32) (harg12 : arg12.IsWhole)
    (f1 : main_arg5.ty.Contents (Elt F)) (f2 : main_v32.ty.Contents (Elt F)) (f3 : main_v30.ty.Contents (Elt F))
    (f4 : Bf (F := F) c arg4) (f5 : Bf (F := F) c arg5) (f6 : Bf (F := F) c arg6) (f7 : Bf (F := F) c arg7) (f8 : Bf (F := F) c arg8) (f9 : Bf (F := F) c arg9)
    (hU : ∀ k, BitVec.toNat (w := 32) (f1 k) < 150000) (hI : ∀ k, BitVec.toNat (w := 32) (f2 k) < 150000) (n : ℕ)
    (f10 : Bf (F := F) c arg10) (f11 : Bf (F := F) c arg11) (f12 : Bf (F := F) c arg12) (W : Waits sig Unit) (Q : PUnit → sProp 𝕄) :
    iprop(pt c A1 f1 ∗ pt c A2 f2 ∗ pt c arg4 f4 ∗ pt c arg5 f5 ∗ pt c arg6 f6 ∗ pt c arg7 f7 ∗ pt c arg8 f8 ∗ pt c arg9 f9 ∗ Pool c f3 n ∗ pt c arg10 f10 ∗ pt c arg11 f11 ∗ pt c arg12 f12 ∗ sems0 c ∗ owes (c : Thread nD τ) 0 W
      ∗ (iprop(pt c A1 f1 ∗ pt c A2 f2 ∗ pt c arg4 f4 ∗ pt c arg5 f5 ∗ pt c arg6 f6 ∗ pt c arg7 f7 ∗ pt c arg8 f8 ∗ pt c arg9 f9 ∗ Pool c f3 (n + 256)
            ∗ (∃ Wt : Bf (F := F) c arg10, ⌜arg10.view.read (Elt F) Wt = outBlock i f1 f2 f3 (arg4.view.read (Elt F) f4) (arg5.view.read (Elt F) f5) (arg6.view.read (Elt F) f6) (arg7.view.read (Elt F) f7) (arg8.view.read (Elt F) f8) (arg9.view.read (Elt F) f9)⌝ ∗ pt c arg10 Wt)
            ∗ (∃ f, pt c arg11 f) ∗ (∃ f, pt c arg12 f) ∗ sems0 c
            ∗ ∃ W, owes (c : Thread nD τ) 0 W) -∗ Q ⟨⟩))
    ⊢ wp frame (wpE (defs₀ (F := F)) Variants.none c none) Set.univ
        (cc0__gather_mlp_kernel i (Memref.whole main_arg5) (Memref.isWhole_whole _) (Memref.whole main_v32) (Memref.isWhole_whole _) (Memref.whole main_v30) (Memref.isWhole_whole _) arg4 harg4 arg5 harg5 arg6 harg6 arg7 harg7 arg8 harg8 arg9 harg9 arg10 harg10 arg11 harg11 arg12 harg12 cc0_scratch2) Q := by
  iintro ⟨H1, H2, H4, H5, H6, H7, H8, H9, HP, H10, H11, H12, ⟨Hd0, Hd1⟩, HO, Hk⟩
  have hB0 := Transfers.BatchOf.intro (c := (c : Thread nD τ)) (SemLoc.dma (sig := sig) 8) 128 (windows := true)
  have hB1 := Transfers.BatchOf.intro (c := (c : Thread nD τ)) (SemLoc.dma (sig := sig) 9) 128 (windows := true)
  ihave HR11 := rows_split c arg11 harg11 f11 $$ H11
  ihave HR12 := rows_split c arg12 harg12 f12 $$ H12
  sl_exec (disch := first | exact chkOf _ (rdU f1 hU _ _) | exact chkOf _ (rdI f2 hI _ _))
  iterate 128
    try iclear Ta Ta_kept Tb Tb_kept
    ihave HP' := pool_pop c f3 _ $$ HP
    icases HP' with ⟨HP, Ta⟩
    ihave HP' := pool_pop c f3 _ $$ HP
    icases HP' with ⟨HP, Tb⟩
    ihave HR' := rows_pop c arg11 f11 _ (by decide) $$ HR11
    icases HR' with ⟨Ra, HR11⟩
    ihave HR' := rows_pop c arg12 f12 _ (by decide) $$ HR12
    icases HR' with ⟨Rb, HR12⟩
    sl_exec (disch := first | exact chkOf _ (rdU f1 hU _ _) | exact chkOf _ (rdI f2 hI _ _))
  sl_unfold_run_names
  ihave HJa := joined_none c arg11 (gathered i f1 f3) f11 _ $$ HR11
  ihave HJb := joined_none c arg12 (gathered i f2 f3) f12 _ $$ HR12
  iterate 128
    ihave HJa := joined_row₁ c arg11 i f1 f3 hU _ _ f11 _ (by rfl) _ _ _ (by rfl) _ _ $$ HJa Ra
    ihave HJb := joined_row₂ c arg12 i f2 f3 hI _ _ f12 _ (by rfl) _ _ _ (by rfl) _ _ $$ HJb Rb
  ihave HG11 := joined_all c arg11 harg11 (gathered i f1 f3) $$ HJa
  icases HG11 with ⟨%g11, %hg11, H11⟩
  ihave HG12 := joined_all c arg12 harg12 (gathered i f2 f3) $$ HJb
  icases HG12 with ⟨%g12, %hg12, H12⟩
  sl_exec
  sl_step
  iapply Hk
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [HP]; · iexact HP
  isplitl [H10]
  · iexists _
    isplitr; swap
    · iexact H10
    · ipureintro
      have hz2 : (![0, 0] : Fin 2 → ℕ) = fun _ => 0 := by funext a; fin_cases a <;> rfl
      have hz1 : (![0] : Fin 1 → ℕ) = fun _ => 0 := by funext a; fin_cases a; rfl
      rw [View.read_writes_eq_canon _ _ _ (fun y => ⟨_, List.mem_singleton.mpr rfl, View.mem_set_unit_zero hz2 inb_S128x1_S128x1_0_0 y⟩), View.canon_unit_zero hz2]
      sl_unfold_run_names
      unfold outBlock
      rw [show View.readAt (Elt F) arg11.view (Rect.unit (s := S128x100) ![0, 0] S128x100.size inb_S128x100_S128x100_0_0).toLoadRect g11 = gathered i f1 f3 from (View.ld_unit_zero (S := S128x100) hz2 _ _).trans hg11,
        show View.readAt (Elt F) arg12.view (Rect.unit (s := S128x100) ![0, 0] S128x100.size inb_S128x100_S128x100_0_0).toLoadRect g12 = gathered i f2 f3 from (View.ld_unit_zero (S := S128x100) hz2 _ _).trans hg12]
      simp only [View.readAt_eq_ld, View.ld_unit_zero (S := S200x64) hz2, View.ld_unit_zero (S := S64x32) hz2, View.ld_unit_zero (S := S32x1) hz2, View.ld_unit_zero (S := S64) hz1, View.ld_unit_zero (S := S32) hz1, View.ld_unit_zero (S := S1) hz1]
      try rfl
  isplitl [H11]; · iexists _; iexact H11
  isplitl [H12]; · iexists _; iexact H12
  isplitl [Hd0 Hd1]
  · isplitl [Hd0]; · iexact Hd0
    iexact Hd1
  iexists _; iexact HO

end Cert.Proof.KernelIdealBody

end
-- ==== Proof.KernelIdealHost.lean ====
import proofs.«421944_j3513283248500_1_alg».proof.Proof.Gen.KernelIdeal.Launch
import Idealize.ShloMosaic.Lib.StableHlo.Run

noncomputable section

namespace Cert.Proof.KernelIdealHost

open Cert.KernelIdeal Cert.KernelIdeal.Gen
open Idealize.ShloMosaic Idealize.ShloMosaic.TcCoe Idealize.SL.Sem

variable {F : FTy → Type} [FloatOps F]

abbrev written : List (Ref sig .tc) :=
  [main_v0, main_v1, main_c, main_v2, main_v3, main_c_0, main_v4, main_v5, main_v6, main_v7, main_v8, main_v9, main_v10, main_cst, main_v11, main_v12, main_v13, main_v14, main_v15, main_c_1, main_v16, main_v17, main_c_2, main_v18, main_v19, main_v20, main_v21, main_v22, main_v23, main_v24, main_cst_3, main_v25, main_v26, main_v27, main_v28, main_cst_4, main_v29, main_v30, main_c_5, main_v31, main_v32]

/-- Each host operation before the launch writes its own result and nothing else. -/
theorem written_sub : (hostOps0 : List (HloOp τ sig (Elt F))).Forall fun op =>
    op.writes ⊆ (written.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
       Finset.singleton_subset_iff, List.mem_toFinset]
     exact List.mem_map_of_mem (by decide))

theorem after_kept (M : Valuation τ sig (Elt F)) {r : Ref sig .tc} (h : r ∉ written) :
    StableHlo.after (hostOps0 (F := F)) M (Proc.devRef .tc r) = M (Proc.devRef .tc r) :=
  StableHlo.after_of_writes_sub hostOps0 M written_sub h

/-- The second index table holds the item indices plus 100000, the sum wrapping at 2³². -/
theorem after_v32 (M : Valuation τ sig (Elt F)) :
    (StableHlo.after (hostOps0 (F := F)) M (Proc.devRef .tc main_v32) : IVec S16384 32)
      = addi (M (Proc.devRef .tc main_arg6) : IVec S16384 32) (broadcastInDim S16384 ![] bcast_S_S16384 (constantI S_ 32 100000#32)) := by
  after_results

end Cert.Proof.KernelIdealHost
-- ==== Proof.KernelIdealRun.lean ====
import proofs.«421944_j3513283248500_1_alg».proof.Proof.KernelIdealBody
import proofs.«421944_j3513283248500_1_alg».proof.Proof.KernelIdealHost
import proofs.«421944_j3513283248500_1_alg».proof.Proof.Gen.KernelIdeal.Launch
import Idealize.ShloMosaic.Lib.Pipeline.Regions
import Idealize.ShloMosaic.Lib.Pipeline.FrameSuffix
import Idealize.ShloMosaic.Lib.Pipeline.FrameBody

noncomputable section

namespace Cert.Proof.KernelIdealRun

open Cert.KernelIdeal Cert.KernelIdeal.Gen
open Cert.Proof.KernelIdealBody Cert.Proof.KernelIdealHost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ) (ρ : Dev nD → PrngReg)

abbrev V₀ (c : Dev nD) : Valuation τ sig (Elt F) := fun b => (s₀ m ρ).mem ((c : Dev nD), b)

abbrev V (c : Dev nD) (b : Ref sig .tc) : Buf (Elt F) ((c : Thread nD τ).loc b) := StableHlo.after hostOps0 (V₀ m ρ c) b

omit [FloatOps F] [∀ e, Nonempty (Elt F e)] in
theorem sub_written {y : Ref sig .tc} {W : List (Ref sig .tc)} (h : y ∈ W) :
    ({Proc.devRef .tc y} : Finset (DevRef τ sig)) ⊆ (W.map (Proc.devRef (τ := τ) .tc)).toFinset := by
  intro b hb
  rw [Finset.mem_singleton] at hb
  subst hb
  exact List.mem_toFinset.mpr (List.mem_map_of_mem h)

theorem writes1 : (hostOps1 (F := F)).Forall fun op => op.writes ⊆ (([main_v34] : List (Ref sig .tc)).map (Proc.devRef (τ := τ) .tc)).toFinset :=
  sub_written (by decide)

theorem V_keep (c : Dev nD) (b : Ref sig .tc) (hb : b ∉ written) : V m ρ c b = m ((c : Thread nD τ).loc b) :=
  StableHlo.after_of_writes_sub hostOps0 (V₀ m ρ c) written_sub hb

abbrev c₀ : Dev nD := 0

abbrev tabs : pre0.Contents (Elt F) := fun k => V m ρ c₀ (pre0.ref k)

abbrev adm : (p : Fin 1) → (pcfgs (F := F) p).Adm := fun _ => ⟨tabs m ρ, trivial⟩

abbrev cfgA : Pipeline.Cfg sig Λ₀ := cfg0 (adm m ρ 0)

abbrev inBlk (c : Dev nD) (w : Fin 7) (t : Fin (cfgA m ρ).N) :
    (((cfgA m ρ).win w).xblock ((cfgA m ρ).grid.coords t)).Idx → Elt F ((cfgA m ρ).win w).elt :=
  (((cfgA m ρ).win w).blk t).view.read (Elt F) (V m ρ c (Pipeline.arrRef spec0 w))

abbrev sl (t : Fin (cfgA m ρ).N) : (w : Fin 7) → Fin (spec0 w).nbuf := (cfgA m ρ).slots t

abbrev outAt (c : Dev nD) (t : Fin (cfgA m ρ).N) : FVec F S128x1 .f32 :=
  outBlock (grid0.coords t) (V m ρ c main_arg5) (V m ρ c main_v32) (V m ρ c main_v30)
    (inBlk m ρ c 0 t) (inBlk m ρ c 1 t) (inBlk m ρ c 2 t) (inBlk m ρ c 3 t) (inBlk m ρ c 4 t) (inBlk m ρ c 5 t)

theorem owns_pt (c : Dev nD) {sp : Space} {sh : Shape} {e : EltTy} (M : Memref sig .tc sp sh e) (h : M.IsWhole) (X : sh.Idx → Elt F e) :
    (owns (c : Thread nD τ) M fullShare X : sProp 𝕄) ⊢ pt c M (h.unread X) := by
  unfold owns
  iintro ⟨%f, %hf, H⟩
  obtain rfl := h.eq_unread hf
  rw [h.set_eq_univ]
  iexact H

theorem pt_owns (c : Dev nD) {sp : Space} {sh : Shape} {e : EltTy} (M : Memref sig .tc sp sh e) (h : M.IsWhole) (f : Bf (F := F) c M) :
    (pt c M f : sProp 𝕄) ⊢ owns (c : Thread nD τ) M fullShare (M.view.read (Elt F) f) := by
  have h1 := owns_intro (Ix := Unit) (Name := ℕ) (U := UU nD τ) (Lvl := ℕ) (c : Thread nD τ) M fullShare f
  rw [h.set_eq_univ] at h1
  exact h1

theorem pt_owns_unread (c : Dev nD) {sp : Space} {sh : Shape} {e : EltTy} (M : Memref sig .tc sp sh e) (h : M.IsWhole) (X : sh.Idx → Elt F e) :
    (pt c M (h.unread X) : sProp 𝕄) ⊢ owns (c : Thread nD τ) M fullShare X := by
  have h1 := pt_owns (F := F) c M h (h.unread X)
  rw [h.read_unread] at h1
  exact h1

def Φc (c : Dev nD) (k : ℕ) : sProp 𝕄 :=
  iprop(pt c A1 (V m ρ c main_arg5) ∗ pt c A2 (V m ρ c main_v32) ∗ Pool c (V m ρ c main_v30) k ∗ sems0 c
    ∗ Pipeline.scopedRest (Ix := Unit) (Name := ℕ) (U := UU nD τ) (Lvl := ℕ) (Val := Elt F) spec0 c)

def dats (_ : Fin 1) (c : Dev nD) : Dat τ (Elt F) Unit ℕ (UU nD τ) ℕ (cfgA m ρ) c where
  A w := V m ρ c (Pipeline.arrRef spec0 w)
  after w t := match w with
    | ⟨0, _⟩ => inBlk m ρ c 0 t
    | ⟨1, _⟩ => inBlk m ρ c 1 t
    | ⟨2, _⟩ => inBlk m ρ c 2 t
    | ⟨3, _⟩ => inBlk m ρ c 3 t
    | ⟨4, _⟩ => inBlk m ρ c 4 t
    | ⟨5, _⟩ => inBlk m ρ c 5 t
    | ⟨6, _⟩ => outAt m ρ c t
  Φ t := Φc m ρ c (256 * t.val)
  q _ := fullShare
  owed _ := 0

abbrev 𝒱₀ : Variants := Variants.none

theorem after_out (c : Dev nD) (t : Fin (cfgA m ρ).N) : (dats m ρ 0 c).after 6 t = outAt m ρ c t := by
  dsimp only [dats]
  rfl

theorem before_in (c : Dev nD) (w : Fin 7) (hw : w ≠ 6) (t : Fin (cfgA m ρ).N) (d) :
    (dats m ρ 0 c).before w t d = (dats m ρ 0 c).fetched w t d := by
  refine Pipeline.Dat.before_in_eq_fetched (dats m ρ 0 c) w ?_ (fun _ => rfl) (fun _ _ _ => rfl) (fun t => ?_) t d
  · fin_cases w <;> first | rfl | exact absurd rfl hw
  · fin_cases w <;> first | rfl | exact absurd rfl hw

theorem before0 (c : Dev nD) (t : Fin (cfgA m ρ).N) (d) : (dats m ρ 0 c).before 0 t d = inBlk m ρ c 0 t := before_in m ρ c 0 (by decide) t d
theorem before1 (c : Dev nD) (t : Fin (cfgA m ρ).N) (d) : (dats m ρ 0 c).before 1 t d = inBlk m ρ c 1 t := before_in m ρ c 1 (by decide) t d
theorem before2 (c : Dev nD) (t : Fin (cfgA m ρ).N) (d) : (dats m ρ 0 c).before 2 t d = inBlk m ρ c 2 t := before_in m ρ c 2 (by decide) t d
theorem before3 (c : Dev nD) (t : Fin (cfgA m ρ).N) (d) : (dats m ρ 0 c).before 3 t d = inBlk m ρ c 3 t := before_in m ρ c 3 (by decide) t d
theorem before4 (c : Dev nD) (t : Fin (cfgA m ρ).N) (d) : (dats m ρ 0 c).before 4 t d = inBlk m ρ c 4 t := before_in m ρ c 4 (by decide) t d
theorem before5 (c : Dev nD) (t : Fin (cfgA m ρ).N) (d) : (dats m ρ 0 c).before 5 t d = inBlk m ρ c 5 t := before_in m ρ c 5 (by decide) t d

variable (hU : ∀ c k, BitVec.toNat (w := 32) ((V m ρ c main_arg5 : main_arg5.ty.Contents (Elt F)) k) < 150000)
  (hI : ∀ c k, BitVec.toNat (w := 32) ((V m ρ c main_v32 : main_v32.ty.Contents (Elt F)) k) < 150000)

include hU hI in
set_option maxHeartbeats 2000000 in
theorem body_obligation (c : Dev nD) : BodyObligation (dats m ρ 0 c) (defs₀ (F := F)) 𝒱₀ () Set.univ := fun t => by
  rw [bigSep_W0, bigSep_W0]
  rw [show (dats m ρ 0 c).Φ t.castSucc = Φc m ρ c (256 * t.val) from rfl, show (dats m ρ 0 c).Φ t.succ = Φc m ρ c (256 * t.val + 256) from rfl]
  unfold Φc Dat.owesAt Pipeline.owesWithin; rw [scopedRest0_eq]
  rw [show (dats m ρ 0 c).owed t.castSucc = 0 from rfl, show (dats m ρ 0 c).owed t.succ = 0 from rfl]
  have h0 := hstage0_0 ((sl m ρ t 0).cast nbuf0_0)
  have h1 := hstage0_1 ((sl m ρ t 1).cast nbuf0_1)
  have h2 := hstage0_2 ((sl m ρ t 2).cast nbuf0_2)
  have h3 := hstage0_3 ((sl m ρ t 3).cast nbuf0_3)
  have h4 := hstage0_4 ((sl m ρ t 4).cast nbuf0_4)
  have h5 := hstage0_5 ((sl m ρ t 5).cast nbuf0_5)
  have h6 := hstage0_6 ((sl m ρ t 6).cast nbuf0_6)
  have e0 := owns_pt (F := F) c (((cfgA m ρ).win 0).stage ((cfgA m ρ).slots t 0)) h0 (inBlk m ρ c 0 t)
  have e1 := owns_pt (F := F) c (((cfgA m ρ).win 1).stage ((cfgA m ρ).slots t 1)) h1 (inBlk m ρ c 1 t)
  have e2 := owns_pt (F := F) c (((cfgA m ρ).win 2).stage ((cfgA m ρ).slots t 2)) h2 (inBlk m ρ c 2 t)
  have e3 := owns_pt (F := F) c (((cfgA m ρ).win 3).stage ((cfgA m ρ).slots t 3)) h3 (inBlk m ρ c 3 t)
  have e4 := owns_pt (F := F) c (((cfgA m ρ).win 4).stage ((cfgA m ρ).slots t 4)) h4 (inBlk m ρ c 4 t)
  have e5 := owns_pt (F := F) c (((cfgA m ρ).win 5).stage ((cfgA m ρ).slots t 5)) h5 (inBlk m ρ c 5 t)
  have r0 := pt_owns_unread (F := F) c (((cfgA m ρ).win 0).stage ((cfgA m ρ).slots t 0)) h0 (inBlk m ρ c 0 t)
  have r1 := pt_owns_unread (F := F) c (((cfgA m ρ).win 1).stage ((cfgA m ρ).slots t 1)) h1 (inBlk m ρ c 1 t)
  have r2 := pt_owns_unread (F := F) c (((cfgA m ρ).win 2).stage ((cfgA m ρ).slots t 2)) h2 (inBlk m ρ c 2 t)
  have r3 := pt_owns_unread (F := F) c (((cfgA m ρ).win 3).stage ((cfgA m ρ).slots t 3)) h3 (inBlk m ρ c 3 t)
  have r4 := pt_owns_unread (F := F) c (((cfgA m ρ).win 4).stage ((cfgA m ρ).slots t 4)) h4 (inBlk m ρ c 4 t)
  have r5 := pt_owns_unread (F := F) c (((cfgA m ρ).win 5).stage ((cfgA m ρ).slots t 5)) h5 (inBlk m ρ c 5 t)
  iintro ⟨⟨H1, H2, H3, Hsems, ⟨%f11, H11⟩, ⟨%f12, H12⟩⟩, ⟨%W, %hW, HO⟩, ⟨%d0, G0⟩, ⟨%d1, G1⟩, ⟨%d2, G2⟩, ⟨%d3, G3⟩, ⟨%d4, G4⟩, ⟨%d5, G5⟩, ⟨%d6, G6⟩⟩
  rw [before0 m ρ c t d0, before1 m ρ c t d1, before2 m ρ c t d2, before3 m ρ c t d3, before4 m ρ c t d4, before5 m ρ c t d5]
  have e6 := owns_pt (F := F) c (((cfgA m ρ).win 6).stage ((cfgA m ρ).slots t 6)) h6 ((dats m ρ 0 c).before 6 t d6)
  iapply (kernelRun (F := F) c (grid0.coords t)
    (spec0_0.stage (sl m ρ t 0)) h0 (spec0_1.stage (sl m ρ t 1)) h1 (spec0_2.stage (sl m ρ t 2)) h2 (spec0_3.stage (sl m ρ t 3)) h3
    (spec0_4.stage (sl m ρ t 4)) h4 (spec0_5.stage (sl m ρ t 5)) h5 (spec0_6.stage (sl m ρ t 6)) h6
    (Memref.whole cc0_scratch0) (Memref.isWhole_whole _) (Memref.whole cc0_scratch1) (Memref.isWhole_whole _)
    (V m ρ c main_arg5) (V m ρ c main_v32) (V m ρ c main_v30)
    (h0.unread (inBlk m ρ c 0 t)) (h1.unread (inBlk m ρ c 1 t)) (h2.unread (inBlk m ρ c 2 t))
    (h3.unread (inBlk m ρ c 3 t)) (h4.unread (inBlk m ρ c 4 t)) (h5.unread (inBlk m ρ c 5 t))
    (hU c) (hI c) (256 * t.val) (h6.unread ((dats m ρ 0 c).before 6 t d6)) f11 f12 W _)
  isplitl [H1]; · iexact H1
  isplitl [H2]; · iexact H2
  isplitl [G0]; · iapply e0; iexact G0
  isplitl [G1]; · iapply e1; iexact G1
  isplitl [G2]; · iapply e2; iexact G2
  isplitl [G3]; · iapply e3; iexact G3
  isplitl [G4]; · iapply e4; iexact G4
  isplitl [G5]; · iapply e5; iexact G5
  isplitl [H3]; · iexact H3
  isplitl [G6]; · iapply e6; iexact G6
  isplitl [H11]; · iexact H11
  isplitl [H12]; · iexact H12
  isplitl [Hsems]; · iexact Hsems
  isplitl [HO]; · iexact HO
  iintro ⟨H1, H2, G0, G1, G2, G3, G4, G5, H3, ⟨%Wt, %hWt, G6⟩, H11, H12, Hsems, ⟨%W', HO⟩⟩
  have q0 : (spec0_0.stage (sl m ρ t 0)).view.read (Elt F) (h0.unread (inBlk m ρ c 0 t)) = inBlk m ρ c 0 t := h0.read_unread _
  have q1 : (spec0_1.stage (sl m ρ t 1)).view.read (Elt F) (h1.unread (inBlk m ρ c 1 t)) = inBlk m ρ c 1 t := h1.read_unread _
  have q2 : (spec0_2.stage (sl m ρ t 2)).view.read (Elt F) (h2.unread (inBlk m ρ c 2 t)) = inBlk m ρ c 2 t := h2.read_unread _
  have q3 : (spec0_3.stage (sl m ρ t 3)).view.read (Elt F) (h3.unread (inBlk m ρ c 3 t)) = inBlk m ρ c 3 t := h3.read_unread _
  have q4 : (spec0_4.stage (sl m ρ t 4)).view.read (Elt F) (h4.unread (inBlk m ρ c 4 t)) = inBlk m ρ c 4 t := h4.read_unread _
  have q5 : (spec0_5.stage (sl m ρ t 5)).view.read (Elt F) (h5.unread (inBlk m ρ c 5 t)) = inBlk m ρ c 5 t := h5.read_unread _
  rw [q0, q1, q2, q3, q4, q5] at hWt
  have r6 := pt_owns (F := F) c (((cfgA m ρ).win 6).stage ((cfgA m ρ).slots t 6)) h6 Wt
  rw [show (((cfgA m ρ).win 6).stage ((cfgA m ρ).slots t 6)).view.read (Elt F) Wt = (dats m ρ 0 c).after 6 t from hWt.trans (after_out m ρ c t).symm] at r6
  isplitl [H1 H2 H3 Hsems H11 H12]
  · isplitl [H1]; · iexact H1
    isplitl [H2]; · iexact H2
    isplitl [H3]; · iexact H3
    isplitl [Hsems]; · iexact Hsems
    isplitl [H11]; · iexact H11
    iexact H12
  isplitl [HO]
  · iexists W'; isplitr; · ipureintro; exact fun _ _ => Or.inl trivial
    iexact HO
  isplitl [G0]; · iapply r0; iexact G0
  isplitl [G1]; · iapply r1; iexact G1
  isplitl [G2]; · iapply r2; iexact G2
  isplitl [G3]; · iapply r3; iexact G3
  isplitl [G4]; · iapply r4; iexact G4
  isplitl [G5]; · iapply r5; iexact G5
  iapply r6; iexact G6

abbrev osem : Fin 2 → SemLoc sig := fun | 0 => .dma 8 | 1 => .dma 9

omit [FloatOps F] [∀ e, Nonempty (Elt F e)] in
theorem ownSemFacts : Pipeline.OwnSemFacts spec0 osem := by decide

omit [FloatOps F] [∀ e, Nonempty (Elt F e)] in
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1] (by decide) (by decide)

def u₀ : UU nD τ :=
  (initOf (Pipeline.cells (Pipeline.pin (pcfgs (F := F)) (adm m ρ)) (cellOf_inj (adm m ρ)))
    (Pipeline.launchToks (Pipeline.pin (pcfgs (F := F)) (adm m ρ)) (cellOf_inj (adm m ρ))), 1)

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

abbrev H30 : Finset (Ref sig .tc) := {main_v30}

omit [FloatOps F] [∀ e, Nonempty (Elt F e)] in
theorem H30_sub : H30 ⊆ Pipeline.restRefsP sig pre0 spec0 := by decide

def Zc (c : Dev nD) : sProp 𝕄 :=
  bigSep (Pipeline.restRefsP sig pre0 spec0 \ H30) fun b => (((c : Thread nD τ).loc b) ↦{fullShare} V m ρ c b : sProp 𝕄)

theorem prefHeld_eq (c : Dev nD) :
    (Pipeline.prefHeld (Ix := Unit) (Name := ℕ) (U := UU nD τ) (Lvl := ℕ) pre0 c (fun _ => fullShare) (fun k => V m ρ c (pre0.ref k)) : sProp 𝕄)
      = iprop(pt c A1 (V m ρ c main_arg5) ∗ pt c A2 (V m ρ c main_v32)) := by
  unfold Pipeline.prefHeld
  rw [show (Finset.univ : Finset (Fin pre0.K)) = {0, 1} from rfl, bigSep_insert (by decide), bigSep_singleton]
  rfl

theorem rest_eq (c : Dev nD) :
    (Pipeline.unscopedRest (Ix := Unit) (Name := ℕ) (U := UU nD τ) (Lvl := ℕ) spec0 c (V m ρ c) : sProp 𝕄)
      = iprop((pt c A1 (V m ρ c main_arg5) ∗ pt c A2 (V m ρ c main_v32)) ∗ pt c A3 (V m ρ c main_v30) ∗ Zc m ρ c) := by
  rw [Pipeline.unscopedRest_split (launch0 (F := F)).pre c (V m ρ c), Pipeline.unscopedRestP_sdiff pre0 spec0 H30 H30_sub c (V m ρ c), prefHeld_eq]
  unfold Zc H30; rw [bigSep_singleton]

abbrev V₁ (c : Dev nD) : Valuation τ sig (Elt F) :=
  Pipeline.withArrays (cfgA m ρ).spec c (StableHlo.after hostOps0 (V₀ m ρ c)) fun w => (dats m ρ 0 c).arrAt w (cfgA m ρ).N

abbrev S1 : Finset (DevRef τ sig) := Pipeline.tailRefsBut sig pre0 spec0 H30

theorem held_S1 (c : Dev nD) :
    (StableHlo.held (c : Thread nD τ) S1 (V₁ m ρ c) : sProp 𝕄)
      = iprop((dats m ρ 0 c).arrays ((dats m ρ 0 c).arrAt · (cfgA m ρ).N) ∗ Zc m ρ c) := by
  rw [Pipeline.held_tailRefsBut pre0 spec0 (launch0 (F := F)).win.arr_inj H30 c (V₁ m ρ c),
    Pipeline.arrays_eq (Pipeline.pin (pcfgs (F := F)) (adm m ρ)) (dats m ρ) 0 c (launch0 (F := F)).arr_whole ((dats m ρ 0 c).share_full fun _ => rfl)]
  unfold Pipeline.arrPts Zc
  refine congrArg₂ _ ?_ ?_
  · exact bigSep_congr fun w _ => congrArg _ (Pipeline.withArrays_arr (cfgA m ρ).spec (launch0 (F := F)).win.arr_inj c _ _ w)
  · exact bigSep_congr fun b hb => congrArg _ (Pipeline.withArrays_of_ne (cfgA m ρ).spec c _ _ b fun w e =>
      (Finset.mem_sdiff.mp (Finset.mem_sdiff.mp (Finset.mem_sdiff.mp hb).1).1).2 (Finset.mem_image.mpr ⟨w, Finset.mem_univ w, e⟩))

abbrev Yc (c : Dev nD) : sProp 𝕄 :=
  iprop(pt c A1 (V m ρ c main_arg5) ∗ pt c A2 (V m ρ c main_v32) ∗ Pool c (V m ρ c main_v30) (256 * (cfgA m ρ).N))

abbrev R1 (c : Dev nD) : sProp 𝕄 := iprop(Yc m ρ c ∗ R c)

def seg0 : Pipeline.HostSeg (Name := ℕ) (U := UU nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m ρ) R

theorem hostOps1_S1 : ∀ op ∈ (hostOps1 (F := F)), op.bufs ⊆ S1 := by
  intro op h
  refine Pipeline.sub_tailRefsBut pre0 spec0 H30 op ((List.forall_iff_forall_mem.mp hostOps1_sub) op h) ?_ ?_
  · cases h with
    | head =>
      intro k
      simp only [StableHlo.reshape_bufs, Finset.mem_insert, Finset.mem_singleton, not_or]
      fin_cases k <;> exact ⟨StableHlo.devRef_ne_of_ne (by decide), StableHlo.devRef_ne_of_ne (by decide)⟩
    | tail _ h => exact nomatch h
  · cases h with
    | head =>
      intro b hb
      obtain rfl := Finset.mem_singleton.mp hb
      simp only [StableHlo.reshape_bufs, Finset.mem_insert, Finset.mem_singleton, not_or]
      exact ⟨StableHlo.devRef_ne_of_ne (by decide), StableHlo.devRef_ne_of_ne (by decide)⟩
    | tail _ h => exact nomatch h

def seg1 : Pipeline.HostSeg (Name := ℕ) (U := UU nD τ) (pcfgs (F := F)) defs₀ 𝒱₀ L lv :=
  Pipeline.HostSeg.ofOps _ _ _ _ _ S1 hostOps1 hostOps1_S1
    (by intro _ h; (repeat (cases h with | head => rfl | tail _ h => ?_)); exact nomatch h) (V₁ m ρ) (R1 m ρ)

set_option backward.isDefEq.respectTransparency.types false in
def reg0 : Pipeline.RegionSeg (pcfgs (F := F)) (adm m ρ) (dats m ρ) () defs₀ 𝒱₀ L lv 0 where
  win := (launch0 (F := F)).win.to₀
  block_pos := (launch0 (F := F)).block_pos
  stage_whole := (launch0 (F := F)).stage_whole
  K := Fin 2
  osem := osem
  ho := ownSemFacts
  hbody c := (body_obligation m ρ hU hI c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) S1 (V₁ m ρ c) ∗ R1 m ρ c)
  X c := iprop(pt c A3 (V m ρ c main_v30) ∗ sems0 c)
  Y c := Yc m ρ c
  Z c := Zc m ρ c
  hentry c := by
    obtain rfl : c = c₀ := Subsingleton.elim _ _
    rw [show StableHlo.held (c₀ : Thread nD τ) (Pipeline.ucRefs τ sig) (StableHlo.after hostOps0 (V₀ m ρ c₀)) = unscopedBufs c₀ (V m ρ c₀)
        from (Pipeline.unscopedBufs_held c₀ _).symm, ownSems0_eq]
    have hsplit := (Pipeline.arrays_of_unscopedBufs (pcfgs (F := F)) (adm m ρ) (dats m ρ) (launch0 (F := F)).win (launch0 (F := F)).arr_whole c₀
      ((dats m ρ 0 c₀).share_full fun _ => rfl) (V m ρ c₀) fun _ => rfl).trans (sep_mono .rfl (Entails.of_eq (rest_eq m ρ c₀)))
    iintro ⟨⟨Hub, HO⟩, Hos, -⟩
    ihave H := hsplit $$ Hub
    icases H with ⟨Ha, ⟨H1, H2⟩, H3, HZ⟩
    imodintro
    isplitl [Ha]; · iexact Ha
    isplitl [H1 H2]
    · rw [show (adm m ρ 0).1 = (fun k => V m ρ c₀ (pre0.ref k)) from rfl, prefHeld_eq]
      isplitl [H1] <;> iassumption
    isplitl [HO]
    · unfold Pipeline.Dat.owesAt Pipeline.owesWithin
      icases HO with ⟨%W, HO⟩; iexists W; isplitr; · ipureintro; exact fun _ _ => Or.inl trivial
      iexact HO
    isplitl [H3 Hos]
    · isplitl [H3]; · iexact H3
      iexact Hos
    iexact HZ
  hin c := by
    obtain rfl : c = c₀ := Subsingleton.elim _ _
    rw [show (dats m ρ 0 c₀).Φ 0 = Φc m ρ c₀ 0 from rfl, show (adm m ρ 0).1 = (fun k => V m ρ c₀ (pre0.ref k)) from rfl, prefHeld_eq]; unfold Φc
    iintro ⟨⟨H3, Hos⟩, ⟨H1, H2⟩, Hr⟩
    isplitl [H1]; · iexact H1
    isplitl [H2]; · iexact H2
    isplitl [H3]; · iapply (pool_of_whole c₀ (V m ρ c₀ main_v30)); iexact H3
    isplitl [Hos]; · iexact Hos
    iexact Hr
  hout c := by
    rw [ownSems0_eq, show (dats m ρ 0 c).Φ (Fin.last (cfgA m ρ).N) = Φc m ρ c (256 * (cfgA m ρ).N) from rfl]; unfold Φc
    iintro ⟨H1, H2, H3, Hos, Hr⟩
    isplitl [H1 H2 H3]
    · isplitl [H1]; · iexact H1
      isplitl [H2]; · iexact H2
      iexact H3
    isplitl [Hos]; · iexact Hos
    iexact Hr
  hexit c := by
    rw [held_S1]
    iintro ⟨Ha, HO, HY, HZ⟩
    imodintro
    isplitl [Ha HZ]
    · isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) (adm m ρ) (dats m ρ) () defs₀ 𝒱₀ L lv) :=
  [.host (seg0 m ρ), .region (reg0 m ρ hU hI), .host (seg1 m ρ)]

def finalA (c : Dev nD) (w : Fin 7) : Buf (Elt F) (((cfgA m ρ).win w).arr.view.loc (c : Thread nD τ)) :=
  (dats m ρ 0 c).arrAt w (cfgA m ρ).N

abbrev out34 (c : Dev nD) : Buf (Elt F) ((c : Thread nD τ).loc main_v34) := StableHlo.after hostOps1 (V₁ m ρ c) main_v34

abbrev argRefs : List (Ref sig .tc) :=
  [main_arg0, main_arg1, main_arg2, main_arg3, main_arg4, main_arg5, main_arg6, main_arg7, main_arg8, main_arg9, main_arg10, main_arg11, main_arg12]

/-- The thirteen arguments of @main hold, in the memory `s`, what they held at launch. -/
abbrev ArgsKept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8)
    ∧ s.mem ((c : Thread nD τ).loc main_arg9) = m ((c : Thread nD τ).loc main_arg9)
    ∧ s.mem ((c : Thread nD τ).loc main_arg10) = m ((c : Thread nD τ).loc main_arg10)
    ∧ s.mem ((c : Thread nD τ).loc main_arg11) = m ((c : Thread nD τ).loc main_arg11)
    ∧ s.mem ((c : Thread nD τ).loc main_arg12) = m ((c : Thread nD τ).loc main_arg12)

/-- What is claimed of a final state: the result buffer at the reshape of the output array, each argument as launched. -/
def QC : PUnit × MemSt nD τ sig (Elt F) → Prop := fun r =>
  ∀ c : Dev nD, r.2.mem ((c : Thread nD τ).loc main_v34) = out34 m ρ c ∧ ArgsKept m c r.2

omit [FloatOps F] [∀ e, Nonempty (Elt F e)] in
theorem args_facts : ∀ b ∈ argRefs, b = main_arg5 ∨
    (b ∈ Finset.univ.image (Pipeline.arrRef spec0) ∪ (Pipeline.restRefsP sig pre0 spec0 \ H30)
      ∧ b ∉ ([main_v34] : List (Ref sig .tc)) ∧ b ∉ written ∧ b ≠ main_v33) := by decide

theorem V₁_keep (c : Dev nD) (b : Ref sig .tc) (hb : b ∉ written) (h33 : b ≠ main_v33) :
    V₁ m ρ c (Proc.devRef .tc b) = m ((c : Thread nD τ).loc b) := by
  by_cases h : ∃ w, Pipeline.arrRef (cfgA m ρ).spec w = b
  · obtain ⟨w, rfl⟩ := h
    refine (Pipeline.withArrays_arr (cfgA m ρ).spec (launch0 (F := F)).win.arr_inj c _ _ w).trans ?_
    have hin : ((cfgA m ρ).win w).isOut = false := by
      fin_cases w <;> first | rfl | exact absurd rfl h33
    rw [Pipeline.Dat.arrAt_in _ w hin]
    exact V_keep m ρ c _ hb
  · refine (Pipeline.withArrays_of_ne (cfgA m ρ).spec c _ _ b fun w e => h ⟨w, e⟩).trans ?_
    exact V_keep m ρ c b hb

abbrev QY (c : Dev nD) (s : MemSt nD τ sig (Elt F)) : Prop :=
  (∀ b ∈ (S1 : Finset (DevRef τ sig)), s.mem ((c : Dev nD), b) = StableHlo.after hostOps1 (V₁ m ρ c) b)
    ∧ s.mem ((c : Thread nD τ).loc main_arg5) = V m ρ c main_arg5

theorem arg_final (c : Dev nD) (s : MemSt nD τ sig (Elt F)) (h : QY m ρ c s) (b : Ref sig .tc) (hb : b ∈ argRefs) :
    s.mem ((c : Thread nD τ).loc b) = m ((c : Thread nD τ).loc b) := by
  rcases args_facts b hb with rfl | ⟨hS, h34, hw, h33⟩
  · exact h.2.trans (V_keep m ρ c main_arg5 (by decide))
  · refine (h.1 _ (Finset.mem_map_of_mem _ hS)).trans ?_
    exact (StableHlo.after_of_writes_sub hostOps1 (V₁ m ρ c) writes1 h34).trans (V₁_keep m ρ c b hw h33)

theorem launch_u₀ : (ownU (u₀ m ρ) : sProp 𝕄)
    ⊢ |={Set.univ}=> iprop(BI.own (EP (initOf (Pipeline.cells (Pipeline.pin (pcfgs (F := F)) (adm m ρ)) (cellOf_inj (adm m ρ)))
        (Pipeline.launchToks (Pipeline.pin (pcfgs (F := F)) (adm m ρ)) (cellOf_inj (adm m ρ))))) ∗ bigSep Finset.univ fun _ : Dev nD => (BI.emp : sProp 𝕄)) := by
  unfold u₀
  iintro Hu
  ihave H := (ownU_pair _ _) $$ Hu
  icases H with ⟨HP, -⟩
  imodintro
  isplitl [HP]; · iexact HP
  rw [BI.bigSep_emp_const]
  iempintro

include hU hI in
set_option backward.isDefEq.respectTransparency.types false in
theorem run_main : θ_run defs (onTc (τ := τ) (main (F := F))) (s₀ m ρ) (QC m ρ) :=
  Pipeline.θ_run_regions_kit (pcfgs (F := F)) (adm m ρ) (dats m ρ) () (cellOf_inj (adm m ρ)) EP defs₀ 𝒱₀ L lv m ρ main (segs m ρ hU hI)
    (fun c Q => by rw [main_segs (adm m ρ) (dats m ρ) () 𝒱₀ L lv (seg0 m ρ) (seg1 m ρ) (reg0 m ρ hU hI) rfl rfl c])
    (by simp only [Pipeline.Seg.pipes_host, Pipeline.Seg.pipes_region, Pipeline.Seg.pipes_nil]; decide) (O₀ := 0) (hL := fun _ _ => rfl)
    (G := fun _ => iprop(emp)) (u₀ := u₀ m ρ) (hu₀ := launch_u₀ m ρ)
    (T₀ := fun c => iprop(StableHlo.held (c : Thread nD τ) (Pipeline.ucRefs τ sig) (V₀ m ρ c) ∗ R c))
    (Tₙ := fun c => iprop(StableHlo.held (c : Thread nD τ) S1 (StableHlo.after hostOps1 (V₁ m ρ c)) ∗ Yc m ρ c))
    (hch := ⟨fun _ => .rfl, fun _ => .rfl, fun _ => .rfl, fun c =>
      show iprop(StableHlo.held (c : Thread nD τ) S1 (StableHlo.after hostOps1 (V₁ m ρ c)) ∗ R1 m ρ c)
          ⊢ iprop((StableHlo.held (c : Thread nD τ) S1 (StableHlo.after hostOps1 (V₁ m ρ c)) ∗ Yc m ρ c) ∗ R c) from by
        iintro ⟨Hh, HY, HR⟩
        isplitr [HR]
        · isplitl [Hh] <;> iassumption
        · iexact HR⟩)
    (hinit := by
      refine Pipeline.initEach L lv fun c => ?_
      rw [show unscopedBufs c (fun b => m ((c : Thread nD τ).loc b)) = StableHlo.held (c : Thread nD τ) (Pipeline.ucRefs τ sig) (V₀ m ρ c)
        from Pipeline.unscopedBufs_held c (V₀ m ρ c)]
      iintro ⟨⟨Hh, -, HO, -, -, -⟩, -⟩
      imodintro
      isplitl [Hh]; · iexact Hh
      iexists ∅; iexact HO)
    (QY := QY m ρ)
    (hfin := fun c s' => by
      iintro ⟨⟨Hh, H1, -, -⟩, HSI⟩
      icombine HSI H1 gives %h1
      unfold StableHlo.held
      ihave Hr := (pointsTo_read_all S1 (fun b => (((c : Thread nD τ).1, b) : Loc nD τ sig)) (StableHlo.after hostOps1 (V₁ m ρ c)) s') $$ [Hh HSI]
      · isplitl [Hh] <;> iassumption
      icases Hr with ⟨%ha, HSI⟩
      imodintro
      isplitr; · ipureintro; exact ⟨ha, Buf.eq_of_forall_mem_univ h1⟩
      iexact HSI)
    (hQ := fun s h c =>
      ⟨(h c).1 _ (Finset.mem_map_of_mem _ (by decide)),
        arg_final m ρ c s (h c) main_arg0 (by decide),
        arg_final m ρ c s (h c) main_arg1 (by decide),
        arg_final m ρ c s (h c) main_arg2 (by decide),
        arg_final m ρ c s (h c) main_arg3 (by decide),
        arg_final m ρ c s (h c) main_arg4 (by decide),
        arg_final m ρ c s (h c) main_arg5 (by decide),
        arg_final m ρ c s (h c) main_arg6 (by decide),
        arg_final m ρ c s (h c) main_arg7 (by decide),
        arg_final m ρ c s (h c) main_arg8 (by decide),
        arg_final m ρ c s (h c) main_arg9 (by decide),
        arg_final m ρ c s (h c) main_arg10 (by decide),
        arg_final m ρ c s (h c) main_arg11 (by decide),
        arg_final m ρ c s (h c) main_arg12 (by decide)⟩)

theorem out34_eq (c : Dev nD) :
    out34 m ρ c = fun i => shapeCast S16384 (finalA m ρ c 6) shapeCasts_S16384x1_S16384 i := by
  show StableHlo.after hostOps1 _ (Proc.devRef .tc main_v34) = _
  after_results
  rw [show V₁ m ρ c (Proc.devRef .tc main_v33) = finalA m ρ c 6
    from Pipeline.withArrays_arr (cfgA m ρ).spec (launch0 (F := F)).win.arr_inj c _ _ 6]
  rfl

end Cert.Proof.KernelIdealRun

end
-- ==== Proof.KernelIdealFrame.lean ====
import proofs.«421944_j3513283248500_1_alg».proof.Proof.KernelIdealRun
import proofs.«421944_j3513283248500_1_alg».proof.Proof.KernelIdealHost
import proofs.«421944_j3513283248500_1_alg».proof.Proof.PreIdx

noncomputable section

namespace Cert.Proof.KernelIdealFrame

open Cert.KernelIdeal Cert.KernelIdeal.Gen Cert.Proof.KernelIdealRun Cert.Proof.KernelIdealHost
open Idealize.ShloMosaic Idealize.ShloMosaic.TcCoe Idealize.SL.Sem

variable {F : FTy → Type} [FloatOps F] [∀ e, Nonempty (Elt F e)] [Cert.Pre_finite_inputs.Facts]
variable (m : (ℓ : Loc nD τ sig) → Buf (Elt F) ℓ) (ρ : Dev nD → PrngReg)

abbrev Pre : Prop := ∀ c : Dev nD,
  Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = (fun _ => 1#1)

/-- Under the precondition both index tables the region finds hold words below 150000: the user indices as given, the item indices shifted up by 100000. -/
theorem hU (hpre : Pre m) : ∀ c k, BitVec.toNat (w := 32) ((V m ρ c main_arg5 : main_arg5.ty.Contents (Elt F)) k) < 150000 := fun c k => by
  have e : (V m ρ c main_arg5 : main_arg5.ty.Contents (Elt F)) = m ((c.tc : Thread nD τ).loc main_arg5) := after_kept (F := F) (V₀ m ρ c) (by decide)
  rw [e]
  exact Cert.PreIdx.user_lt (hpre c) k

theorem hI (hpre : Pre m) : ∀ c k, BitVec.toNat (w := 32) ((V m ρ c main_v32 : main_v32.ty.Contents (Elt F)) k) < 150000 := fun c k => by
  have e := after_v32 (F := F) (V₀ m ρ c)
  show BitVec.toNat ((StableHlo.after (hostOps0 (F := F)) (V₀ m ρ c) (Proc.devRef .tc main_v32) : IVec S16384 32) k) < 150000
  rw [e]
  exact Cert.PreIdx.item_lt_vec _ (hpre c) k

theorem run_pre (hpre : Pre m) :
    θ_run (defs (F := F)) (onTc (τ := τ) (main (F := F))) ⟨m, fun _ => 0, ρ⟩ (QC m ρ) :=
  run_main m ρ (hU m ρ hpre) (hI m ρ hpre)

/-- The program runs and leaves its thirteen arguments as it found them: no host operation writes an argument and the region writes only its output array. -/
theorem frame (hpre : Pre m) :
    θ_run (defs (F := F)) (onTc (τ := τ) (main (F := F))) ⟨m, fun _ => 0, ρ⟩ (fun r => ∀ c : Dev nD, ArgsKept m c r.2) :=
  (θ_run (defs (F := F)) _ _).mono (fun r h c => (h c).2) (run_pre m ρ hpre)

end Cert.Proof.KernelIdealFrame

end
-- ==== Proof.Spec.lean ====
import Mathlib.Data.EReal.Inv
import Mathlib.Algebra.BigOperators.Group.Finset.Basic

noncomputable section

namespace Cert.Spec

open scoped BigOperators

def rowOf (w : BitVec 32) : Fin 150000 := ⟨w.toNat % 150000, Nat.mod_lt _ (by norm_num)⟩

theorem rowOf_val_of_lt (w : BitVec 32) (h : w.toNat < 150000) : (rowOf w).val = w.toNat := Nat.mod_eq_of_lt h

def layer1Row (x : Fin 200 → EReal) (W1 : Fin 200 → Fin 64 → EReal) (b1 : Fin 64 → EReal) (j : Fin 64) : EReal :=
  max ((∑ i : Fin 200, x i * W1 i j) + b1 j) 0

def layer2Row (x : Fin 200 → EReal) (W1 : Fin 200 → Fin 64 → EReal) (b1 : Fin 64 → EReal)
    (W2 : Fin 64 → Fin 32 → EReal) (b2 : Fin 32 → EReal) (k : Fin 32) : EReal :=
  (∑ j : Fin 64, layer1Row x W1 b1 j * W2 j k) + b2 k

def scoreRow (x : Fin 200 → EReal) (W1 : Fin 200 → Fin 64 → EReal) (b1 : Fin 64 → EReal)
    (W2 : Fin 64 → Fin 32 → EReal) (b2 : Fin 32 → EReal) (W3 : Fin 32 → EReal) (b3 : EReal) : EReal :=
  (∑ k : Fin 32, layer2Row x W1 b1 W2 b2 k * W3 k) + b3

def sideBySide (u v : Fin 100 → EReal) (i : Fin 200) : EReal :=
  if h : i.val < 100 then u ⟨i.val, h⟩ else v ⟨i.val - 100, by omega⟩

def feat (final : Fin 150000 → Fin 100 → EReal) (ru ri : Fin 16384 → Fin 150000) (b : Fin 16384) : Fin 200 → EReal :=
  sideBySide (final (ru b)) (final (ri b))

def score (final : Fin 150000 → Fin 100 → EReal) (ru ri : Fin 16384 → Fin 150000)
    (W1 : Fin 200 → Fin 64 → EReal) (b1 : Fin 64 → EReal) (W2 : Fin 64 → Fin 32 → EReal) (b2 : Fin 32 → EReal)
    (W3 : Fin 32 → EReal) (b3 : EReal) (b : Fin 16384) : EReal :=
  scoreRow (feat final ru ri b) W1 b1 W2 b2 W3 b3

end Cert.Spec

end
-- ==== Proof.PayValue.lean ====
import proofs.«421944_j3513283248500_1_alg».proof.Proof.Gen.KernelIdeal.Skeleton
import proofs.«421944_j3513283248500_1_alg».proof.Proof.Spec
import Idealize.ShloMosaic.Lib.Pipeline.Value
import Idealize.ShloMosaic.Lib.ValueLayout
import Idealize.ShloMosaic.Lib.ValueIdx
import Idealize.ShloMosaic.Lib.ValueIdxCoords
import Idealize.ShloMosaic.PureOps.Ideal.Laws

noncomputable section

open Idealize.ShloMosaic Idealize.ShloMosaic.ValueIdx Idealize.SL.Sem
open Cert.KernelIdeal Cert.KernelIdeal.Gen
open scoped BigOperators

namespace Cert.PayValue

theorem concat_apply (U I : FVec Ideal S128x100 .f32) (p : Fin 128) (i : Fin 200) :
    concatenate S128x200 1 [⟨S128x100, U⟩, ⟨S128x100, I⟩] concatenates_S128x100_S128x100_S128x200_d1 (ix2 p i)
      = Cert.Spec.sideBySide (fun i => U (ix2 p i)) (fun i => I (ix2 p i)) i := by
  unfold Cert.Spec.sideBySide
  by_cases h : i.val < 100
  · rw [dif_pos h]
    exact concatenate_pair_apply_left 1 U I _ (ix2 p i) rfl (ix2 p ⟨i.val, h⟩) (fun b => by
      match b with
      | ⟨0, _⟩ => rfl
      | ⟨1, _⟩ => rfl)
  · rw [dif_neg h]
    exact concatenate_pair_apply_right 1 U I _ (ix2 p i) rfl rfl (ix2 p ⟨i.val - 100, by omega⟩) (fun b hb => by
      match b, hb with
      | ⟨0, _⟩, _ => rfl
      | ⟨1, _⟩, hb => exact absurd rfl hb) (by
      show (i.val - 100) + 100 = i.val
      omega)

/-- A contraction over one axis into a zero accumulator, read at an output index, is the sum over that axis of the products of the two operands at the indices the output index and the axis coordinate name. -/
theorem matmul_single {sl sr so : Shape} {φ₁ φ₂ : FTy} (d : DotDims sl sr so) (K : ℕ) (hr : d.contr.rank = 1)
    (hs : d.contr.size ⟨0, by omega⟩ = K) (x : FVec Ideal sl φ₁) (w : FVec Ideal sr φ₂) (j : so.Idx)
    (l : Fin K → sl.Idx) (r : Fin K → sr.Idx)
    (hl : ∀ q, d.lhsIdx j q = l (ValueIdx.contrEquiv1 d K hr hs q)) (hr' : ∀ q, d.rhsIdx j q = r (ValueIdx.contrEquiv1 d K hr hs q)) :
    matmul (F := Ideal) d none x w (constant (F := Ideal) so .f32 0x00000000#32) j = ∑ k : Fin K, x (l k) * w (r k) := by
  simp only [matmul]
  rw [Ideal.matmul_constant_zero_apply, ← Equiv.sum_comp (ValueIdx.contrEquiv1 d K hr hs).symm]
  exact Finset.sum_congr rfl fun k _ => by rw [hl, hr', Equiv.apply_symm_apply]

theorem lhsA_0 (i : S128x64.Idx) (q : dot_S128x200_S200x64_S128x64_1_0_0_1_n_n.contr.Idx) :
    (dot_S128x200_S200x64_S128x64_1_0_0_1_n_n.lhsIdx i q 0).val = (i 0).val := by
  unfold DotDims.lhsIdx
  rw [dif_neg (show ¬(0 : Fin S128x200.rank) ∈ dot_S128x200_S200x64_S128x64_1_0_0_1_n_n.lhsBatch by decide), dif_pos (show (0 : Fin S128x200.rank) ∈ dot_S128x200_S200x64_S128x64_1_0_0_1_n_n.lhsNonContracting by decide)]
  rfl
theorem lhsA_1 (i : S128x64.Idx) (q : dot_S128x200_S200x64_S128x64_1_0_0_1_n_n.contr.Idx) :
    (dot_S128x200_S200x64_S128x64_1_0_0_1_n_n.lhsIdx i q 1).val = (q ⟨0, by decide⟩).val :=
  dot_S128x200_S200x64_S128x64_1_0_0_1_n_n.lhsIdx_val_of_single rfl i q
theorem rhsA_0 (i : S128x64.Idx) (q : dot_S128x200_S200x64_S128x64_1_0_0_1_n_n.contr.Idx) :
    (dot_S128x200_S200x64_S128x64_1_0_0_1_n_n.rhsIdx i q 0).val = (q ⟨0, by decide⟩).val :=
  dot_S128x200_S200x64_S128x64_1_0_0_1_n_n.rhsIdx_val_of_single rfl i q
theorem rhsA_1 (i : S128x64.Idx) (q : dot_S128x200_S200x64_S128x64_1_0_0_1_n_n.contr.Idx) :
    (dot_S128x200_S200x64_S128x64_1_0_0_1_n_n.rhsIdx i q 1).val = (i 1).val := by
  unfold DotDims.rhsIdx
  rw [dif_neg (show ¬(1 : Fin S200x64.rank) ∈ dot_S128x200_S200x64_S128x64_1_0_0_1_n_n.rhsBatch by decide), dif_pos (show (1 : Fin S200x64.rank) ∈ dot_S128x200_S200x64_S128x64_1_0_0_1_n_n.rhsNonContracting by decide)]
  rfl

theorem matmulA_apply {φ₁ φ₂ : FTy} (x : FVec Ideal S128x200 φ₁) (w : FVec Ideal S200x64 φ₂) (p : Fin 128) (q : Fin 64) :
    matmul (F := Ideal) dot_S128x200_S200x64_S128x64_1_0_0_1_n_n none x w (constant (F := Ideal) S128x64 .f32 0x00000000#32) (ix2 p q)
      = ∑ k : Fin 200, x (ix2 p k) * w (ix2 k q) :=
  matmul_single dot_S128x200_S200x64_S128x64_1_0_0_1_n_n 200 rfl rfl x w _ (fun k => ix2 p k) (fun k => ix2 k q)
    (fun _ => funext fun a => Fin.ext (by
      match a with
      | ⟨0, _⟩ => exact lhsA_0 _ _
      | ⟨1, _⟩ => exact lhsA_1 _ _))
    (fun _ => funext fun a => Fin.ext (by
      match a with
      | ⟨0, _⟩ => exact rhsA_0 _ _
      | ⟨1, _⟩ => exact rhsA_1 _ _))

theorem lhsB_0 (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch by decide), dif_pos (show (0 : Fin S128x64.rank) ∈ dot_S128x64_S64x32_S128x32_1_0_0_1_n_n.lhsNonContracting by decide)]
  rfl
theorem lhsB_1 (i : S128x32.Idx) (q : dot_S128x64_S64x32_S128x32_1_0_0_1_n_n.contr.Idx) :
    (dot_S128x64_S64x32_S128x32_1_0_0_1_n_n.lhsIdx i q 1).val = (q ⟨0, by decide⟩).val :=
  dot_S128x64_S64x32_S128x32_1_0_0_1_n_n.lhsIdx_val_of_single rfl i q
theorem rhsB_0 (i : S128x32.Idx) (q : dot_S128x64_S64x32_S128x32_1_0_0_1_n_n.contr.Idx) :
    (dot_S128x64_S64x32_S128x32_1_0_0_1_n_n.rhsIdx i q 0).val = (q ⟨0, by decide⟩).val :=
  dot_S128x64_S64x32_S128x32_1_0_0_1_n_n.rhsIdx_val_of_single rfl i q
theorem rhsB_1 (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch by decide), dif_pos (show (1 : Fin S64x32.rank) ∈ dot_S128x64_S64x32_S128x32_1_0_0_1_n_n.rhsNonContracting by decide)]
  rfl

theorem matmulB_apply {φ₁ φ₂ : FTy} (x : FVec Ideal S128x64 φ₁) (w : FVec Ideal S64x32 φ₂) (p : Fin 128) (q : Fin 32) :
    matmul (F := Ideal) dot_S128x64_S64x32_S128x32_1_0_0_1_n_n none x w (constant (F := Ideal) S128x32 .f32 0x00000000#32) (ix2 p q)
      = ∑ k : Fin 64, x (ix2 p k) * w (ix2 k q) :=
  matmul_single dot_S128x64_S64x32_S128x32_1_0_0_1_n_n 64 rfl rfl x w _ (fun k => ix2 p k) (fun k => ix2 k q)
    (fun _ => funext fun a => Fin.ext (by
      match a with
      | ⟨0, _⟩ => exact lhsB_0 _ _
      | ⟨1, _⟩ => exact lhsB_1 _ _))
    (fun _ => funext fun a => Fin.ext (by
      match a with
      | ⟨0, _⟩ => exact rhsB_0 _ _
      | ⟨1, _⟩ => exact rhsB_1 _ _))

theorem lhsC_0 (i : S128x1.Idx) (q : dot_S128x32_S32x1_S128x1_1_0_0_1_n_n.contr.Idx) :
    (dot_S128x32_S32x1_S128x1_1_0_0_1_n_n.lhsIdx i q 0).val = (i 0).val := by
  unfold DotDims.lhsIdx
  rw [dif_neg (show ¬(0 : Fin S128x32.rank) ∈ dot_S128x32_S32x1_S128x1_1_0_0_1_n_n.lhsBatch by decide), dif_pos (show (0 : Fin S128x32.rank) ∈ dot_S128x32_S32x1_S128x1_1_0_0_1_n_n.lhsNonContracting by decide)]
  rfl
theorem lhsC_1 (i : S128x1.Idx) (q : dot_S128x32_S32x1_S128x1_1_0_0_1_n_n.contr.Idx) :
    (dot_S128x32_S32x1_S128x1_1_0_0_1_n_n.lhsIdx i q 1).val = (q ⟨0, by decide⟩).val :=
  dot_S128x32_S32x1_S128x1_1_0_0_1_n_n.lhsIdx_val_of_single rfl i q
theorem rhsC_0 (i : S128x1.Idx) (q : dot_S128x32_S32x1_S128x1_1_0_0_1_n_n.contr.Idx) :
    (dot_S128x32_S32x1_S128x1_1_0_0_1_n_n.rhsIdx i q 0).val = (q ⟨0, by decide⟩).val :=
  dot_S128x32_S32x1_S128x1_1_0_0_1_n_n.rhsIdx_val_of_single rfl i q
theorem rhsC_1 (i : S128x1.Idx) (q : dot_S128x32_S32x1_S128x1_1_0_0_1_n_n.contr.Idx) :
    (dot_S128x32_S32x1_S128x1_1_0_0_1_n_n.rhsIdx i q 1).val = (i 1).val := by
  unfold DotDims.rhsIdx
  rw [dif_neg (show ¬(1 : Fin S32x1.rank) ∈ dot_S128x32_S32x1_S128x1_1_0_0_1_n_n.rhsBatch by decide), dif_pos (show (1 : Fin S32x1.rank) ∈ dot_S128x32_S32x1_S128x1_1_0_0_1_n_n.rhsNonContracting by decide)]
  rfl

theorem matmulC_apply {φ₁ φ₂ : FTy} (x : FVec Ideal S128x32 φ₁) (w : FVec Ideal S32x1 φ₂) (p : Fin 128) (q : Fin 1) :
    matmul (F := Ideal) dot_S128x32_S32x1_S128x1_1_0_0_1_n_n none x w (constant (F := Ideal) S128x1 .f32 0x00000000#32) (ix2 p q)
      = ∑ k : Fin 32, x (ix2 p k) * w (ix2 k q) :=
  matmul_single dot_S128x32_S32x1_S128x1_1_0_0_1_n_n 32 rfl rfl x w _ (fun k => ix2 p k) (fun k => ix2 k q)
    (fun _ => funext fun a => Fin.ext (by
      match a with
      | ⟨0, _⟩ => exact lhsC_0 _ _
      | ⟨1, _⟩ => exact lhsC_1 _ _))
    (fun _ => funext fun a => Fin.ext (by
      match a with
      | ⟨0, _⟩ => exact rhsC_0 _ _
      | ⟨1, _⟩ => exact rhsC_1 _ _))

theorem biasA_apply (b : FVec Ideal S64 .f32) (p : Fin 128) (k : Fin 64) :
    broadcastTo S128x64 (shapeCast S1x64 b shapeCasts_S64_S1x64) broadcasts_S1x64_S128x64 (ix2 p k) = b (ix1 k) := by
  rw [broadcastTo_apply _ _ (ix2 p k) (ix2 (0 : Fin 1) k) (fun a => by
    match a with
    | ⟨0, _⟩ => rfl
    | ⟨1, _⟩ => rfl)]
  exact shapeCast_a_1a_apply b _ 0 k

theorem biasB_apply (b : FVec Ideal S32 .f32) (p : Fin 128) (k : Fin 32) :
    broadcastTo S128x32 (shapeCast S1x32 b shapeCasts_S32_S1x32) broadcasts_S1x32_S128x32 (ix2 p k) = b (ix1 k) := by
  rw [broadcastTo_apply _ _ (ix2 p k) (ix2 (0 : Fin 1) k) (fun a => by
    match a with
    | ⟨0, _⟩ => rfl
    | ⟨1, _⟩ => rfl)]
  exact shapeCast_a_1a_apply b _ 0 k

theorem biasC_apply (b : FVec Ideal S1 .f32) (p : Fin 128) :
    broadcastTo S128x1 (shapeCast S1x1 b shapeCasts_S1_S1x1) broadcasts_S1x1_S128x1 (ix2 p 0) = b (ix1 0) := by
  rw [broadcastTo_apply _ _ (ix2 p (0 : Fin 1)) (ix2 (0 : Fin 1) (0 : Fin 1)) (fun a => by
    match a with
    | ⟨0, _⟩ => rfl
    | ⟨1, _⟩ => rfl)]
  exact shapeCast_a_1a_apply b _ 0 0

theorem zero_word : (FloatOps.ofBits (F := Ideal) .f32 0x00000000#32 : EReal) = 0 := Ideal.ofBits_zero_f32

theorem pay_score (U I : Vec Ideal S128x100 .f32) (W1 : Vec Ideal S200x64 .f32) (b1 : Vec Ideal S64 .f32)
    (W2 : Vec Ideal S64x32 .f32) (b2 : Vec Ideal S32 .f32) (W3 : Vec Ideal S32x1 .f32) (b3 : Vec Ideal S1 .f32) (j : Fin 128) :
    Cert.KernelIdeal.Gen.k0_pay3 (F := Ideal) (Cert.KernelIdeal.Gen.k0_pay1 U I W1 b1 W2 b2 W3) (Cert.KernelIdeal.Gen.k0_pay2 b3) (ValueIdx.ix2 j 0)
      = Cert.Spec.scoreRow (Cert.Spec.sideBySide (fun i => U (ValueIdx.ix2 j i)) (fun i => I (ValueIdx.ix2 j i)))
          (fun i k => W1 (ValueIdx.ix2 i k)) (fun k => b1 (ValueIdx.ix1 k)) (fun k l => W2 (ValueIdx.ix2 k l)) (fun l => b2 (ValueIdx.ix1 l)) (fun l => W3 (ValueIdx.ix2 l 0)) (b3 (ValueIdx.ix1 0)) := by
  unfold Cert.KernelIdeal.Gen.k0_pay3 Cert.KernelIdeal.Gen.k0_pay1 Cert.KernelIdeal.Gen.k0_pay2
  simp only [addf_apply, matmulC_apply, truncf_apply, matmulB_apply, maximumf_apply, matmulA_apply, concat_apply,
    biasA_apply, biasB_apply, biasC_apply, broadcast_apply, zero_word]
  unfold Cert.Spec.scoreRow Cert.Spec.layer2Row Cert.Spec.layer1Row
  rfl

end Cert.PayValue

end
-- ==== Proof.KernelIdealCover.lean ====
import proofs.«421944_j3513283248500_1_alg».proof.Proof.Gen.KernelIdeal.Launch
import Idealize.ShloMosaic.Lib.Pipeline.Value
import Idealize.ShloMosaic.Lib.ValueIdx

noncomputable section

namespace Cert.Proof.KernelIdealCover

open Cert.KernelIdeal Cert.KernelIdeal.Gen Idealize.ShloMosaic Idealize.ShloMosaic.TcCoe Idealize.SL.Sem
open Idealize.ShloMosaic.Pipeline (Dat)

variable {F : FTy → Type} [FloatOps F]

theorem N_eq (a : (pcfg0 (F := F)).Adm) : (cfg0 a).N = 128 := N_0

theorem out_index (a : (pcfg0 (F := F)).Adm) :
    ∀ t : Fin (cfg0 a).N, (win0 a 6).index t (0 : Fin 2) = t.val ∧ (win0 a 6).index t (1 : Fin 2) = 0 :=
  (by decide +kernel : ∀ t : Fin grid0.N, cc0_transform_7 (grid0.coords t) (0 : Fin 2) = t.val ∧ cc0_transform_7 (grid0.coords t) (1 : Fin 2) = 0)

theorem out_flush (a : (pcfg0 (F := F)).Adm) (t : Fin (cfg0 a).N) : ((cfg0 a).win 6).flush t = true := by
  unfold Pipeline.Window.flush
  rw [Bool.and_eq_true]
  refine ⟨rfl, ?_⟩
  rw [Bool.or_eq_true, decide_eq_true_iff, decide_eq_true_iff]
  have ht : t.val < (cfg0 a).grid.N := t.isLt
  by_cases h : t.val + 1 < (cfg0 a).grid.N
  · right
    refine ⟨h, fun e => ?_⟩
    have e0 := congrFun e (0 : Fin 2)
    have h1 : (win0 a 6).index ⟨t.val + 1, h⟩ (0 : Fin 2) = t.val + 1 := (out_index a ⟨t.val + 1, h⟩).1
    have h2 : (win0 a 6).index t (0 : Fin 2) = t.val := (out_index a t).1
    have e0' : (win0 a 6).index ⟨t.val + 1, h⟩ (0 : Fin 2) = (win0 a 6).index t (0 : Fin 2) := e0
    omega
  · left
    omega

theorem out_emb_val (a : (pcfg0 (F := F)).Adm) (t : Fin (cfg0 a).N) (y : S128x1.Idx) :
    ((((cfg0 a).win 6).blk t).view.emb y (0 : Fin 2)).val = 128 * t.val + (y 0).val
      ∧ ((((cfg0 a).win 6).blk t).view.emb y (1 : Fin 2)).val = 0 := by
  obtain ⟨e0, e1⟩ := out_index a t
  have h1 : (y 1).val < 1 := (y 1).isLt
  constructor
  · show (win0 a 6).index t (0 : Fin 2) * 128 + 1 * (y 0).val = 128 * t.val + (y 0).val
    omega
  · show (win0 a 6).index t (1 : Fin 2) * 1 + 1 * (y 1).val = 0
    omega

theorem out_emb (a : (pcfg0 (F := F)).Adm) (t : Fin (cfg0 a).N) (y : S128x1.Idx) :
    (((cfg0 a).win 6).blk t).view.emb y
      = ValueIdx.ix2 (⟨128 * t.val + (y 0).val, by
          have ht : t.val < (cfg0 a).N := t.isLt
          have hN : (cfg0 a).N = 128 := N_eq a
          have hy : (y 0).val < 128 := (y 0).isLt
          omega⟩ : Fin 16384) (0 : Fin 1) := by
  obtain ⟨h0, h1⟩ := out_emb_val a t y
  funext ax
  apply Fin.ext
  match ax with
  | ⟨0, _⟩ => exact h0
  | ⟨1, _⟩ => exact h1

theorem mem_out_blk (a : (pcfg0 (F := F)).Adm) (t : Fin (cfg0 a).N) (i : S16384x1.Idx) :
    i ∈ (((cfg0 a).win 6).blk t).view.set
      ↔ ∀ ax : Fin 2, (win0 a 6).index t ax * S128x1.size ax ≤ (i ax).val
          ∧ (i ax).val < (win0 a 6).index t ax * S128x1.size ax + S128x1.size ax := by
  show i ∈ ((View.whole main_v33).slice ((win0 a 6).rect t)).set ↔ _
  rw [View.set_slice_whole, Rect.mem_set_unit]
  exact Iff.rfl

theorem out_cover (a : (pcfg0 (F := F)).Adm) (i : S16384x1.Idx) :
    ∃ t : Fin (cfg0 a).N, ((cfg0 a).win 6).flush t = true ∧ i ∈ (((cfg0 a).win 6).blk t).view.set := by
  have hi0 : (i 0).val < 16384 := (i 0).isLt
  have hi1 : (i 1).val < 1 := (i 1).isLt
  have hN : (cfg0 a).N = 128 := N_eq a
  refine ⟨⟨(i 0).val / 128, by omega⟩, out_flush a _, ?_⟩
  rw [mem_out_blk]
  obtain ⟨e0, e1⟩ := out_index a ⟨(i 0).val / 128, by omega⟩
  intro ax
  match ax with
  | ⟨0, _⟩ =>
    show (win0 a 6).index ⟨(i 0).val / 128, _⟩ (0 : Fin 2) * 128 ≤ (i 0).val
      ∧ (i 0).val < (win0 a 6).index ⟨(i 0).val / 128, _⟩ (0 : Fin 2) * 128 + 128
    rw [e0]
    show (i 0).val / 128 * 128 ≤ (i 0).val ∧ (i 0).val < (i 0).val / 128 * 128 + 128
    omega
  | ⟨1, _⟩ =>
    show (win0 a 6).index ⟨(i 0).val / 128, _⟩ (1 : Fin 2) * 1 ≤ (i 1).val
      ∧ (i 1).val < (win0 a 6).index ⟨(i 0).val / 128, _⟩ (1 : Fin 2) * 1 + 1
    rw [e1]
    omega

theorem arrAt_eq_of_blocks {Ix : Type} [DecidableEq Ix] {Name : Type} [DecidableEq Name] {U : Type} [Idealize.SL.RA.URA U] {Lvl : Type}
    (a : (pcfg0 (F := F)).Adm) (c : Dev nD) (D : Dat τ (Elt F) Ix Name U Lvl (cfg0 a) c)
    (G : S16384x1.Idx → Elt F .f32)
    (h : ∀ t : Fin (cfg0 a).N, D.flushed 6 t = (((cfg0 a).win 6).blk t).view.read (Elt F) G) :
    D.arrAt 6 (cfg0 a).N = G :=
  D.arrAt_eq_of_cover 6 G (fun t _ => h t) (out_cover a)

end Cert.Proof.KernelIdealCover

end
-- ==== Proof.KernelIdealBlocks.lean ====
import proofs.«421944_j3513283248500_1_alg».proof.Proof.Spec
import proofs.«421944_j3513283248500_1_alg».proof.Proof.PayValue
import proofs.«421944_j3513283248500_1_alg».proof.Proof.KernelIdealCover
import proofs.«421944_j3513283248500_1_alg».proof.Proof.KernelIdealToks
import Idealize.ShloMosaic.Lib.Pipeline.Value
import Idealize.ShloMosaic.Lib.ValueIdx
import Idealize.ShloMosaic.Lib.ValueLayout

noncomputable section

namespace Cert.Proof.KernelIdealBlocks

open Cert.KernelIdeal Cert.KernelIdeal.Gen Idealize.ShloMosaic Idealize.ShloMosaic.TcCoe Idealize.SL.Sem
open Idealize.ShloMosaic.ValueIdx
open Idealize.ShloMosaic.Pipeline (Dat)

section Blocks

variable (T : FVec Ideal S150000x100 .f32) (u v : IVec S16384 32)
  (W1 : FVec Ideal S200x64 .f32) (b1 : FVec Ideal S64 .f32) (W2 : FVec Ideal S64x32 .f32) (b2 : FVec Ideal S32 .f32)
  (W3 : FVec Ideal S32x1 .f32) (b3 : FVec Ideal S1 .f32)

def scores : S16384x1.Idx → Elt Ideal .f32 := fun i =>
  Cert.Spec.score (fun r k => T (ix2 r k)) (fun b => Cert.Spec.rowOf (u (ix1 b))) (fun b => Cert.Spec.rowOf (v (ix1 b)))
    (fun i k => W1 (ix2 i k)) (fun k => b1 (ix1 k)) (fun k l => W2 (ix2 k l)) (fun l => b2 (ix1 l))
    (fun l => W3 (ix2 l 0)) (b3 (ix1 0)) (i 0)

theorem block_eq (a : (pcfg0 (F := Ideal)).Adm) (t : Fin (cfg0 a).N) (U I : Vec Ideal S128x100 .f32)
    (hu : ∀ (j : Fin 128) (i : Fin 100) (b : Fin 16384), b.val = 128 * t.val + j.val →
      U (ix2 j i) = T (ix2 (Cert.Spec.rowOf (u (ix1 b))) i))
    (hi : ∀ (j : Fin 128) (i : Fin 100) (b : Fin 16384), b.val = 128 * t.val + j.val →
      I (ix2 j i) = T (ix2 (Cert.Spec.rowOf (v (ix1 b))) i)) :
    k0_pay3 (F := Ideal) (k0_pay1 U I W1 b1 W2 b2 W3) (k0_pay2 b3)
      = (((cfg0 a).win 6).blk t).view.read (Elt Ideal) (scores T u v W1 b1 W2 b2 W3 b3) := by
  funext y
  obtain ⟨j, rfl⟩ : ∃ j : Fin 128, y = ix2 j (0 : Fin 1) :=
    ⟨y 0, (eq_ix2 y).trans (congrArg (ix2 (y 0)) (Fin.ext (by
      have h : (y 1).val < 1 := (y 1).isLt
      show (y 1).val = 0
      omega) : y 1 = (0 : Fin 1)))⟩
  show _ = scores T u v W1 b1 W2 b2 W3 b3 ((((cfg0 a).win 6).blk t).view.emb (ix2 j (0 : Fin 1)))
  rw [Cert.Proof.KernelIdealCover.out_emb a t (ix2 j (0 : Fin 1)), Cert.PayValue.pay_score]
  unfold scores Cert.Spec.score Cert.Spec.feat
  have eu : (fun i => U (ix2 j i)) = (fun r k => T (ix2 r k)) (Cert.Spec.rowOf (u (ix1 (⟨128 * t.val + j.val, by
      have ht : t.val < (cfg0 a).N := t.isLt
      have hN : (cfg0 a).N = 128 := Cert.Proof.KernelIdealCover.N_eq a
      have hj : j.val < 128 := j.isLt
      omega⟩ : Fin 16384)))) := funext fun i => hu j i _ rfl
  have ei : (fun i => I (ix2 j i)) = (fun r k => T (ix2 r k)) (Cert.Spec.rowOf (v (ix1 (⟨128 * t.val + j.val, by
      have ht : t.val < (cfg0 a).N := t.isLt
      have hN : (cfg0 a).N = 128 := Cert.Proof.KernelIdealCover.N_eq a
      have hj : j.val < 128 := j.isLt
      omega⟩ : Fin 16384)))) := funext fun i => hi j i _ rfl
  rw [eu, ei]

theorem arrAt_eq_scores {Ix : Type} [DecidableEq Ix] {Name : Type} [DecidableEq Name] {Ur : Type} [Idealize.SL.RA.URA Ur] {Lvl : Type}
    (a : (pcfg0 (F := Ideal)).Adm) (c : Dev nD) (D : Dat τ (Elt Ideal) Ix Name Ur Lvl (cfg0 a) c)
    (hbody : ∀ t : Fin (cfg0 a).N, ∃ U I : Vec Ideal S128x100 .f32,
      D.after 6 t = k0_pay3 (F := Ideal) (k0_pay1 U I W1 b1 W2 b2 W3) (k0_pay2 b3)
      ∧ (∀ (j : Fin 128) (i : Fin 100) (b : Fin 16384), b.val = 128 * t.val + j.val →
          U (ix2 j i) = T (ix2 (Cert.Spec.rowOf (u (ix1 b))) i))
      ∧ (∀ (j : Fin 128) (i : Fin 100) (b : Fin 16384), b.val = 128 * t.val + j.val →
          I (ix2 j i) = T (ix2 (Cert.Spec.rowOf (v (ix1 b))) i))) :
    D.arrAt 6 (cfg0 a).N = scores T u v W1 b1 W2 b2 W3 b3 := by
  refine Cert.Proof.KernelIdealCover.arrAt_eq_of_blocks a c D _ fun t => ?_
  obtain ⟨U, I, hafter, hu, hi⟩ := hbody t
  show ((cfg0 a).win 6).cut ((cfg0 a).grid.coords t) (D.after 6 t) = _
  rw [hafter]
  exact block_eq T u v W1 b1 W2 b2 W3 b3 a t U I hu hi

end Blocks

section Reshape

variable (T : FVec Ideal S150000x100 .f32) (u v : IVec S16384 32)
  (W1 : FVec Ideal S200x64 .f32) (b1 : FVec Ideal S64 .f32) (W2 : FVec Ideal S64x32 .f32) (b2 : FVec Ideal S32 .f32)
  (W3 : FVec Ideal S32x1 .f32) (b3 : FVec Ideal S1 .f32)

theorem scores_cast (h : S16384x1.ShapeCasts S16384) :
    shapeCast S16384 (scores T u v W1 b1 W2 b2 W3 b3) h
      = fun j : S16384.Idx => Cert.Spec.score (fun r k => T (ix2 r k)) (fun b => Cert.Spec.rowOf (u (ix1 b)))
          (fun b => Cert.Spec.rowOf (v (ix1 b))) (fun i k => W1 (ix2 i k)) (fun k => b1 (ix1 k)) (fun k l => W2 (ix2 k l))
          (fun l => b2 (ix1 l)) (fun l => W3 (ix2 l 0)) (b3 (ix1 0)) (j 0) := by
  funext j
  rw [shapeCast_apply (scores T u v W1 b1 W2 b2 W3 b3) h j (ix2 (j 0 : Fin 16384) (0 : Fin 1)) (by
    rw [Shape.rowMajor_val_two, Shape.rowMajor_val_one]
    show (j 0).val * 1 + 0 = (j 0).val
    omega)]
  rfl

end Reshape

section OutBlock

open Cert.Proof.KernelIdealBody (gathered outBlock)

variable (T : FVec Ideal S150000x100 .f32) (u v : IVec S16384 32)
  (W1 : FVec Ideal S200x64 .f32) (b1 : FVec Ideal S64 .f32) (W2 : FVec Ideal S64x32 .f32) (b2 : FVec Ideal S32 .f32)
  (W3 : FVec Ideal S32x1 .f32) (b3 : FVec Ideal S1 .f32)

theorem coords_val (a : (pcfg0 (F := Ideal)).Adm) : ∀ t : Fin (cfg0 a).N, ((grid0.coords t) 0).val = t.val :=
  (by decide +kernel : ∀ t : Fin grid0.N, ((grid0.coords t) 0).val = t.val)

theorem gathered_rows (w : IVec S16384 32) (a : (pcfg0 (F := Ideal)).Adm) (t : Fin (cfg0 a).N) :
    ∀ (j : Fin 128) (i : Fin 100) (b : Fin 16384), b.val = 128 * t.val + j.val →
      gathered (F := Ideal) (grid0.coords t) w T (ix2 j i) = T (ix2 (Cert.Spec.rowOf (w (ix1 b))) i) := by
  intro j i b hb
  have hb' : b = ⟨(128 * ((grid0.coords t) 0).val + j.val) % 16384, Nat.mod_lt _ (by decide)⟩ := Fin.ext (by
    show b.val = (128 * ((grid0.coords t) 0).val + j.val) % 16384
    rw [coords_val a t, ← hb]
    exact (Nat.mod_eq_of_lt b.isLt).symm)
  subst hb'
  rfl

theorem arrAt_eq_scores_of_outBlock {Ix : Type} [DecidableEq Ix] {Name : Type} [DecidableEq Name] {Ur : Type} [Idealize.SL.RA.URA Ur] {Lvl : Type}
    (a : (pcfg0 (F := Ideal)).Adm) (c : Dev nD) (D : Dat τ (Elt Ideal) Ix Name Ur Lvl (cfg0 a) c)
    (hbody : ∀ t : Fin (cfg0 a).N, D.after 6 t = outBlock (F := Ideal) (grid0.coords t) u v T W1 b1 W2 b2 W3 b3) :
    D.arrAt 6 (cfg0 a).N = scores T u v W1 b1 W2 b2 W3 b3 :=
  arrAt_eq_scores T u v W1 b1 W2 b2 W3 b3 a c D fun t =>
    ⟨gathered (F := Ideal) (grid0.coords t) u T, gathered (F := Ideal) (grid0.coords t) v T, hbody t,
      gathered_rows T u a t, gathered_rows T v a t⟩

end OutBlock

end Cert.Proof.KernelIdealBlocks

end
-- ==== Proof.RefValue.lean ====
import proofs.«421944_j3513283248500_1_alg».proof.Proof.RefRead
import proofs.«421944_j3513283248500_1_alg».proof.Proof.Spec
import Idealize.ShloMosaic.Lib.Pipeline.Value
import Idealize.ShloMosaic.Lib.ValueIdx
import Idealize.ShloMosaic.Lib.Affine
import Idealize.ShloMosaic.PureOps.Ideal.Laws

noncomputable section

namespace Cert.RefValue

open Cert.ReferenceIdeal Cert.ReferenceIdeal.Gen Cert.RefRead Idealize.ShloMosaic Idealize.ShloMosaic.ValueIdx
open scoped BigOperators

section Layout
variable {α : Type}

theorem gather_axis0 (idx : IVec S16384x1 32) (b : Fin 16384) (i : Fin 100) :
    (gather_S150000x100_S16384x1_S16384x100_1_0_n_n_0_1_1100.operandIdx (ix2 b i) idx 0).val
      = min (idx (ix2 b 0)).toInt.toNat 149999 := by
  show gather_S150000x100_S16384x1_S16384x100_1_0_n_n_0_1_1100.start (ix2 b i) idx 0
      + gather_S150000x100_S16384x1_S16384x100_1_0_n_n_0_1_1100.batchCoord (ix2 b i) 0
      + gather_S150000x100_S16384x1_S16384x100_1_0_n_n_0_1_1100.offCoord (ix2 b i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S150000x100.rank) ∈ gather_S150000x100_S16384x1_S16384x100_1_0_n_n_0_1_1100.startIndexMap from
    List.mem_singleton.mpr rfl)]
  have hsi : gather_S150000x100_S16384x1_S16384x100_1_0_n_n_0_1_1100.siIdx (ix2 b i)
      ⟨List.idxOf (0 : Fin S150000x100.rank) gather_S150000x100_S16384x1_S16384x100_1_0_n_n_0_1_1100.startIndexMap,
        List.idxOf_lt_length_iff.2 (List.mem_singleton.mpr rfl)⟩ = ix2 b 0 := by
    funext a; refine Fin.ext ?_
    match a with
    | ⟨0, _⟩ => rfl
    | ⟨1, _⟩ => rfl
  rw [hsi]
  rfl

theorem gather_axis1 (idx : IVec S16384x1 32) (b : Fin 16384) (i : Fin 100) :
    (gather_S150000x100_S16384x1_S16384x100_1_0_n_n_0_1_1100.operandIdx (ix2 b i) idx 1).val = i.val := by
  show gather_S150000x100_S16384x1_S16384x100_1_0_n_n_0_1_1100.start (ix2 b i) idx 1
      + gather_S150000x100_S16384x1_S16384x100_1_0_n_n_0_1_1100.batchCoord (ix2 b i) 1
      + gather_S150000x100_S16384x1_S16384x100_1_0_n_n_0_1_1100.offCoord (ix2 b i) 1 = _
  rw [GatherDims.batchCoord_eq_zero _ _ _ List.not_mem_nil]
  unfold GatherDims.start GatherDims.offCoord
  rw [dif_neg (show ¬(1 : Fin S150000x100.rank) ∈ gather_S150000x100_S16384x1_S16384x100_1_0_n_n_0_1_1100.startIndexMap by decide),
    dif_pos (show (1 : Fin S150000x100.rank) ∈ gather_S150000x100_S16384x1_S16384x100_1_0_n_n_0_1_1100.sKept by decide)]
  have key : ∀ k : Fin S16384x100.rank, k = 1 → ((ix2 b i : S16384x100.Idx) k).val = i.val := by
    intro k hk; subst hk; rfl
  rw [Nat.zero_add]
  exact key _ (by decide)

theorem gather_row (x : S150000x100.Idx → α) (idx : IVec S16384x1 32) (b : Fin 16384) (i : Fin 100) (r : Fin 150000)
    (hr : min (idx (ix2 b 0)).toInt.toNat 149999 = r.val) :
    Host.gather gather_S150000x100_S16384x1_S16384x100_1_0_n_n_0_1_1100 x idx (ix2 b i) = x (ix2 r i) := by
  unfold Host.gather
  congr 1
  funext a
  refine Fin.ext ?_
  match a with
  | ⟨0, _⟩ => exact (gather_axis0 idx b i).trans hr
  | ⟨1, _⟩ => exact gather_axis1 idx b i

theorem concat_cols (u v : S16384x100.Idx → α) (b : Fin 16384) (i : Fin 200) :
    concatenate S16384x200 1 [⟨S16384x100, u⟩, ⟨S16384x100, v⟩] concatenates_S16384x100_S16384x100_S16384x200_d1 (ix2 b i)
      = if h : i.val < 100 then u (ix2 b ⟨i.val, h⟩) else v (ix2 b ⟨i.val - 100, by omega⟩) := by
  split
  · next h =>
    exact concatenate_pair_apply_left 1 u v _ (ix2 b i) rfl (ix2 b ⟨i.val, h⟩) (fun a => match a with
      | ⟨0, _⟩ => rfl
      | ⟨1, _⟩ => rfl)
  · next h =>
    exact concatenate_pair_apply_right 1 u v _ (ix2 b i) rfl rfl (ix2 b ⟨i.val - 100, by omega⟩) (fun a ha => match a with
      | ⟨0, _⟩ => rfl
      | ⟨1, _⟩ => absurd rfl ha) (by show (i.val - 100) + 100 = i.val; omega)

end Layout

theorem clamp_id (w : BitVec 32) (h : w.toNat < 150000) :
    Scalar.select (IntOp.cmpi .slt w 0#32) (IntOp.addi w 150000#32) w = w ∧ min w.toInt.toNat 149999 = w.toNat := by
  have hi : w.toInt = (w.toNat : Int) := by
    rw [BitVec.toInt_eq_toNat_cond]; split <;> omega
  have hc : IntOp.cmpi .slt w 0#32 = 0#1 := eq_zero_of_ne_one (fun hh => by
    have e := IntOp.cmpi_slt.1 hh
    have c : (0#32 : BitVec 32).toInt = 0 := by decide
    omega)
  refine ⟨by rw [hc, select_zero], ?_⟩
  rw [hi, Int.toNat_natCast]; omega

section Stages
variable (a0 : FVec Ideal S100000x100 .f32) (a1 : FVec Ideal S50000x100 .f32) (a2 a3 : IVec S2000000 32)
  (a4 : FVec Ideal S2000000 .f32) (a5 a6 : IVec S16384 32) (a7 : FVec Ideal S200x64 .f32) (a8 : FVec Ideal S64 .f32)
  (a9 : FVec Ideal S64x32 .f32) (a10 : FVec Ideal S32 .f32) (a11 : FVec Ideal S32x1 .f32) (a12 : FVec Ideal S1 .f32)

def refFinal : Fin 150000 → Fin 100 → EReal :=
  fun r i => val_main_v30 (F := Ideal) a0 a1 a2 a3 a4 (ix2 r i)

theorem user_word (hU : ∀ k, (a5 k).toNat < 150000) (b : Fin 16384) :
    min (val_main_v36 (F := Ideal) a5 (ix2 b 0)).toInt.toNat 149999 = (Cert.Spec.rowOf (a5 (ix1 b))).val := by
  have e : idx_main_v36 (ix2 b 0) = ix1 b := funext fun a => Fin.ext (by match a with | ⟨0, _⟩ => rfl)
  rw [val_main_v36_apply, e, val_main_v35_apply, val_main_v32_apply, val_main_v34_apply, val_main_v31_apply,
    val_main_c_5_apply, val_main_v33_apply, val_main_c_6_apply, (clamp_id _ (hU (ix1 b))).1,
    (clamp_id _ (hU (ix1 b))).2, Cert.Spec.rowOf_val_of_lt _ (hU (ix1 b))]

theorem item_word (hI : ∀ k, (a6 k + 100000#32).toNat < 150000) (b : Fin 16384) :
    min (val_main_v45 (F := Ideal) a6 (ix2 b 0)).toInt.toNat 149999
      = (Cert.Spec.rowOf (a6 (ix1 b) + 100000#32)).val := by
  have e : idx_main_v45 (ix2 b 0) = ix1 b := funext fun a => Fin.ext (by match a with | ⟨0, _⟩ => rfl)
  have e39 : val_main_v39 (F := Ideal) a6 (ix1 b) = a6 (ix1 b) + 100000#32 := by
    rw [val_main_v39_apply, val_main_v38_apply, val_main_c_7_apply]; rfl
  rw [val_main_v45_apply, e, val_main_v44_apply, val_main_v41_apply, val_main_v43_apply, val_main_v40_apply,
    val_main_c_8_apply, val_main_v42_apply, val_main_c_9_apply, e39, (clamp_id _ (hI (ix1 b))).1,
    (clamp_id _ (hI (ix1 b))).2, Cert.Spec.rowOf_val_of_lt _ (hI (ix1 b))]

theorem ref_feat (hU : ∀ k, (a5 k).toNat < 150000) (hI : ∀ k, (a6 k + 100000#32).toNat < 150000) (b : Fin 16384)
    (i : Fin 200) :
    val_main_v47 (F := Ideal) a0 a1 a2 a3 a4 a5 a6 (ix2 b i)
      = Cert.Spec.feat (refFinal a0 a1 a2 a3 a4) (fun b => Cert.Spec.rowOf (a5 (ix1 b)))
          (fun b => Cert.Spec.rowOf (a6 (ix1 b) + 100000#32)) b i := by
  unfold val_main_v47
  rw [concat_cols]
  unfold Cert.Spec.feat Cert.Spec.sideBySide
  by_cases h : i.val < 100
  · rw [dif_pos h, dif_pos h]
    exact gather_row (val_main_v30 (F := Ideal) a0 a1 a2 a3 a4) (val_main_v36 (F := Ideal) a5) b ⟨i.val, h⟩
      (Cert.Spec.rowOf (a5 (ix1 b))) (user_word a5 hU b)
  · rw [dif_neg h, dif_neg h]
    exact gather_row (val_main_v30 (F := Ideal) a0 a1 a2 a3 a4) (val_main_v45 (F := Ideal) a6) b ⟨i.val - 100, by omega⟩
      (Cert.Spec.rowOf (a6 (ix1 b) + 100000#32)) (item_word a6 hI b)

theorem ref_layer1 (b : Fin 16384) (x : Fin 200 → EReal)
    (hx : ∀ i, val_main_v47 (F := Ideal) a0 a1 a2 a3 a4 a5 a6 (ix2 b i) = x i) (j : Fin 64) :
    val_main_v52 (F := Ideal) a0 a1 a2 a3 a4 a5 a6 a7 a8 (ix2 b j)
      = Cert.Spec.layer1Row x (fun i j => a7 (ix2 i j)) (fun j => a8 (ix1 j)) j := by
  have el : ∀ k, lidx_main_v48 (ix2 b j) k = ix2 b k := fun k => funext fun a => Fin.ext (by
    match a with | ⟨0, _⟩ => rfl | ⟨1, _⟩ => rfl)
  have er : ∀ k, ridx_main_v48 (ix2 b j) k = ix2 k j := fun k => funext fun a => Fin.ext (by
    match a with | ⟨0, _⟩ => rfl | ⟨1, _⟩ => rfl)
  have eb : idx_main_v49 (idx_main_v50 (ix2 b j)) = ix1 j := funext fun a => Fin.ext (by match a with | ⟨0, _⟩ => rfl)
  rw [val_main_v52_apply, val_main_v51_apply, val_main_v48_apply, val_main_v50_apply, val_main_v49_apply, eb,
    val_main_call0_v0_apply, val_main_call0_cst_apply]
  simp only [el, er, hx, Ideal.maximumf_def, Ideal.addf_def, Ideal.ofBits_def, Ideal.ofBits_zero_f32]
  rfl

theorem ref_layer2 (b : Fin 16384) (x : Fin 200 → EReal)
    (hx : ∀ i, val_main_v47 (F := Ideal) a0 a1 a2 a3 a4 a5 a6 (ix2 b i) = x i) (k : Fin 32) :
    val_main_v56 (F := Ideal) a0 a1 a2 a3 a4 a5 a6 a7 a8 a9 a10 (ix2 b k)
      = Cert.Spec.layer2Row x (fun i j => a7 (ix2 i j)) (fun j => a8 (ix1 j)) (fun j k => a9 (ix2 j k)) (fun k => a10 (ix1 k)) k := by
  have el : ∀ j, lidx_main_v53 (ix2 b k) j = ix2 b j := fun j => funext fun a => Fin.ext (by
    match a with | ⟨0, _⟩ => rfl | ⟨1, _⟩ => rfl)
  have er : ∀ j, ridx_main_v53 (ix2 b k) j = ix2 j k := fun j => funext fun a => Fin.ext (by
    match a with | ⟨0, _⟩ => rfl | ⟨1, _⟩ => rfl)
  have eb : idx_main_v54 (idx_main_v55 (ix2 b k)) = ix1 k := funext fun a => Fin.ext (by match a with | ⟨0, _⟩ => rfl)
  have h1 := ref_layer1 a0 a1 a2 a3 a4 a5 a6 a7 a8 b x hx
  rw [val_main_v56_apply, val_main_v53_apply, val_main_v55_apply, val_main_v54_apply, eb]
  simp only [el, er, h1, Ideal.addf_def]
  rfl

theorem ref_scoreRow (b : Fin 16384) (x : Fin 200 → EReal)
    (hx : ∀ i, val_main_v47 (F := Ideal) a0 a1 a2 a3 a4 a5 a6 (ix2 b i) = x i) :
    val_main_v61 (F := Ideal) a0 a1 a2 a3 a4 a5 a6 a7 a8 a9 a10 a11 a12 (ix1 b)
      = Cert.Spec.scoreRow x (fun i j => a7 (ix2 i j)) (fun j => a8 (ix1 j)) (fun j k => a9 (ix2 j k)) (fun k => a10 (ix1 k))
          (fun k => a11 (ix2 k 0)) (a12 (ix1 0)) := by
  have e61 : idx_main_v61 (ix1 b) = ix2 b 0 := funext fun a => Fin.ext (by
    match a with | ⟨0, _⟩ => exact Nat.div_one _ | ⟨1, _⟩ => rfl)
  have el : ∀ k, lidx_main_v57 (ix2 b 0) k = ix2 b k := fun k => funext fun a => Fin.ext (by
    match a with | ⟨0, _⟩ => rfl | ⟨1, _⟩ => rfl)
  have er : ∀ k, ridx_main_v57 (ix2 b 0) k = ix2 k 0 := fun k => funext fun a => Fin.ext (by
    match a with | ⟨0, _⟩ => rfl | ⟨1, _⟩ => rfl)
  have eb : idx_main_v58 (idx_main_v59 (ix2 b 0)) = ix1 0 := funext fun a => Fin.ext (by match a with | ⟨0, _⟩ => rfl)
  have h2 := ref_layer2 a0 a1 a2 a3 a4 a5 a6 a7 a8 a9 a10 b x hx
  rw [val_main_v61_apply, e61, val_main_v60_apply, val_main_v57_apply, val_main_v59_apply, val_main_v58_apply, eb]
  simp only [el, er, h2, Ideal.addf_def]
  rfl

theorem ref_score (hU : ∀ k, (a5 k).toNat < 150000) (hI : ∀ k, (a6 k + 100000#32).toNat < 150000) (b : Fin 16384) :
    val_main_v61 (F := Ideal) a0 a1 a2 a3 a4 a5 a6 a7 a8 a9 a10 a11 a12 (ix1 b)
      = Cert.Spec.score (refFinal a0 a1 a2 a3 a4) (fun b => Cert.Spec.rowOf (a5 (ix1 b)))
          (fun b => Cert.Spec.rowOf (a6 (ix1 b) + 100000#32))
          (fun i j => a7 (ix2 i j)) (fun j => a8 (ix1 j)) (fun j k => a9 (ix2 j k)) (fun k => a10 (ix1 k))
          (fun k => a11 (ix2 k 0)) (a12 (ix1 0)) b :=
  ref_scoreRow a0 a1 a2 a3 a4 a5 a6 a7 a8 a9 a10 a11 a12 b _ (ref_feat a0 a1 a2 a3 a4 a5 a6 hU hI b)

theorem ref_result (hU : ∀ k, (a5 k).toNat < 150000) (hI : ∀ k, (a6 k + 100000#32).toNat < 150000) :
    val_main_v61 (F := Ideal) a0 a1 a2 a3 a4 a5 a6 a7 a8 a9 a10 a11 a12
      = fun j : S16384.Idx => Cert.Spec.score (refFinal a0 a1 a2 a3 a4) (fun b => Cert.Spec.rowOf (a5 (ix1 b)))
          (fun b => Cert.Spec.rowOf (a6 (ix1 b) + 100000#32))
          (fun i j => a7 (ix2 i j)) (fun j => a8 (ix1 j)) (fun j k => a9 (ix2 j k)) (fun k => a10 (ix1 k))
          (fun k => a11 (ix2 k 0)) (a12 (ix1 0)) (j 0) := by
  funext j
  obtain ⟨b, rfl⟩ : ∃ b : Fin 16384, j = ix1 b := ⟨j 0, eq_ix1 j⟩
  exact ref_score a0 a1 a2 a3 a4 a5 a6 a7 a8 a9 a10 a11 a12 hU hI b

end Stages

end Cert.RefValue

end
-- ==== Proof.KernelIdealValue.lean ====
import proofs.«421944_j3513283248500_1_alg».proof.Proof.KernelIdealFrame
import proofs.«421944_j3513283248500_1_alg».proof.Proof.KernelIdealBlocks
import proofs.«421944_j3513283248500_1_alg».proof.Proof.RefValue

noncomputable section

namespace Cert.Proof.KernelIdealValue

open Cert.KernelIdeal Cert.KernelIdeal.Gen Cert.Proof.KernelIdealRun Cert.Proof.KernelIdealHost
open Cert.Proof.KernelIdealFrame Cert.Proof.KernelIdealBlocks
open Idealize.ShloMosaic Idealize.ShloMosaic.TcCoe Idealize.SL.Sem Idealize.ShloMosaic.ValueIdx

open Cert.RefRead in
/-- The table the region gathers from is the reference's mean table of the arguments: the same operations on the same operands. -/
theorem after_v30 {F : FTy → Type} [FloatOps F] (M : Valuation τ sig (Elt F)) :
    (StableHlo.after (hostOps0 (F := F)) M (Proc.devRef .tc main_v30) : FVec F S150000x100 .f32)
      = val_main_v30 (F := F) (M (Proc.devRef .tc main_arg0)) (M (Proc.devRef .tc main_arg1)) (M (Proc.devRef .tc main_arg2))
          (M (Proc.devRef .tc main_arg3)) (M (Proc.devRef .tc main_arg4)) := by
  after_results_simp
  unfold val_main_v30 val_main_v29 val_main_cst_4 val_main_v28 val_main_v27 val_main_v26 val_main_v25 val_main_cst_3 val_main_v24 val_main_v23 val_main_v22 val_main_v21 val_main_v20 val_main_v19 val_main_v18 val_main_c_2 val_main_v17 val_main_v16 val_main_c_1 val_main_v15 val_main_v14 val_main_v13 val_main_v12 val_main_v11 val_main_cst val_main_v10 val_main_v9 val_main_v8 val_main_v7 val_main_v6 val_main_v5 val_main_v4 val_main_c_0 val_main_v3 val_main_v2 val_main_c val_main_v1 val_main_v0
  rfl

def resultOf (a0 : FVec Ideal S100000x100 .f32) (a1 : FVec Ideal S50000x100 .f32) (a2 : IVec S2000000 32) (a3 : IVec S2000000 32) (a4 : FVec Ideal S2000000 .f32) (a5 : IVec S16384 32) (a6 : IVec S16384 32) (a7 : FVec Ideal S200x64 .f32) (a8 : FVec Ideal S64 .f32) (a9 : FVec Ideal S64x32 .f32) (a10 : FVec Ideal S32 .f32) (a11 : FVec Ideal S32x1 .f32) (a12 : FVec Ideal S1 .f32) : S16384.Idx → Elt Ideal .f32 := fun j =>
  Cert.Spec.score (Cert.RefValue.refFinal a0 a1 a2 a3 a4)
    (fun b => Cert.Spec.rowOf (a5 (ix1 b))) (fun b => Cert.Spec.rowOf (a6 (ix1 b) + 100000#32))
    (fun i k => a7 (ix2 i k)) (fun k => a8 (ix1 k)) (fun k l => a9 (ix2 k l)) (fun l => a10 (ix1 l))
    (fun l => a11 (ix2 l 0)) (a12 (ix1 0)) (j 0)

variable [Cert.Pre_finite_inputs.Facts]
variable (m : (ℓ : Loc nD τ sig) → Buf (Elt Ideal) ℓ) (ρ : Dev nD → PrngReg)

abbrev result (c : Dev nD) : S16384.Idx → Elt Ideal .f32 :=
  resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

theorem scores_eq_result (c : Dev nD) :
    (fun j : S16384.Idx => Cert.Spec.score (fun r k => (V m ρ c main_v30 : FVec Ideal S150000x100 .f32) (ix2 r k)) (fun b => Cert.Spec.rowOf ((V m ρ c main_arg5 : IVec S16384 32) (ix1 b)))
        (fun b => Cert.Spec.rowOf ((V m ρ c main_v32 : IVec S16384 32) (ix1 b))) (fun i k => (V m ρ c main_arg7 : FVec Ideal S200x64 .f32) (ix2 i k)) (fun k => (V m ρ c main_arg8 : FVec Ideal S64 .f32) (ix1 k))
        (fun k l => (V m ρ c main_arg9 : FVec Ideal S64x32 .f32) (ix2 k l)) (fun l => (V m ρ c main_arg10 : FVec Ideal S32 .f32) (ix1 l)) (fun l => (V m ρ c main_arg11 : FVec Ideal S32x1 .f32) (ix2 l 0)) ((V m ρ c main_arg12 : FVec Ideal S1 .f32) (ix1 0)) (j 0))
      = result m c := by
  have e30 : (V m ρ c main_v30 : FVec Ideal S150000x100 .f32) = Cert.RefRead.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := after_v30 (F := Ideal) (V₀ m ρ c)
  have e32 : (V m ρ c main_v32 : IVec S16384 32) = addi (m ((c.tc : Thread nD τ).loc main_arg6) : IVec S16384 32) (broadcastInDim S16384 ![] bcast_S_S16384 (constantI S_ 32 100000#32)) := after_v32 (F := Ideal) (V₀ m ρ c)
  have e5 : (V m ρ c main_arg5 : IVec S16384 32) = (m ((c.tc : Thread nD τ).loc main_arg5)) := after_kept (F := Ideal) (V₀ m ρ c) (by decide)
  have e7 : (V m ρ c main_arg7 : FVec Ideal S200x64 .f32) = (m ((c.tc : Thread nD τ).loc main_arg7)) := after_kept (F := Ideal) (V₀ m ρ c) (by decide)
  have e8 : (V m ρ c main_arg8 : FVec Ideal S64 .f32) = (m ((c.tc : Thread nD τ).loc main_arg8)) := after_kept (F := Ideal) (V₀ m ρ c) (by decide)
  have e9 : (V m ρ c main_arg9 : FVec Ideal S64x32 .f32) = (m ((c.tc : Thread nD τ).loc main_arg9)) := after_kept (F := Ideal) (V₀ m ρ c) (by decide)
  have e10 : (V m ρ c main_arg10 : FVec Ideal S32 .f32) = (m ((c.tc : Thread nD τ).loc main_arg10)) := after_kept (F := Ideal) (V₀ m ρ c) (by decide)
  have e11 : (V m ρ c main_arg11 : FVec Ideal S32x1 .f32) = (m ((c.tc : Thread nD τ).loc main_arg11)) := after_kept (F := Ideal) (V₀ m ρ c) (by decide)
  have e12 : (V m ρ c main_arg12 : FVec Ideal S1 .f32) = (m ((c.tc : Thread nD τ).loc main_arg12)) := after_kept (F := Ideal) (V₀ m ρ c) (by decide)
  rw [e30, e32, e5, e7, e8, e9, e10, e11, e12]
  rfl

theorem inBlk_whole0 (c : Dev nD) (t : Fin (cfgA m ρ).N) : inBlk m ρ c 0 t = V m ρ c main_arg7 :=
  Memref.read_access_unit_zero (Elt Ideal) main_arg7 (funext fun a => by fin_cases a <;> rfl) _ _

theorem inBlk_whole1 (c : Dev nD) (t : Fin (cfgA m ρ).N) : inBlk m ρ c 1 t = V m ρ c main_arg8 :=
  Memref.read_access_unit_zero (Elt Ideal) main_arg8 (funext fun a => by fin_cases a <;> rfl) _ _

theorem inBlk_whole2 (c : Dev nD) (t : Fin (cfgA m ρ).N) : inBlk m ρ c 2 t = V m ρ c main_arg9 :=
  Memref.read_access_unit_zero (Elt Ideal) main_arg9 (funext fun a => by fin_cases a <;> rfl) _ _

theorem inBlk_whole3 (c : Dev nD) (t : Fin (cfgA m ρ).N) : inBlk m ρ c 3 t = V m ρ c main_arg10 :=
  Memref.read_access_unit_zero (Elt Ideal) main_arg10 (funext fun a => by fin_cases a <;> rfl) _ _

theorem inBlk_whole4 (c : Dev nD) (t : Fin (cfgA m ρ).N) : inBlk m ρ c 4 t = V m ρ c main_arg11 :=
  Memref.read_access_unit_zero (Elt Ideal) main_arg11 (funext fun a => by fin_cases a <;> rfl) _ _

theorem inBlk_whole5 (c : Dev nD) (t : Fin (cfgA m ρ).N) : inBlk m ρ c 5 t = V m ρ c main_arg12 :=
  Memref.read_access_unit_zero (Elt Ideal) main_arg12 (funext fun a => by fin_cases a <;> rfl) _ _

theorem after_out_whole (c : Dev nD) (t : Fin (cfgA m ρ).N) :
    (dats m ρ 0 c).after 6 t
      = Cert.Proof.KernelIdealBody.outBlock (F := Ideal) (grid0.coords t) (V m ρ c main_arg5) (V m ρ c main_v32) (V m ρ c main_v30)
          (V m ρ c main_arg7) (V m ρ c main_arg8) (V m ρ c main_arg9) (V m ρ c main_arg10) (V m ρ c main_arg11) (V m ρ c main_arg12) := by
  rw [after_out]
  unfold outAt
  rw [inBlk_whole0, inBlk_whole1, inBlk_whole2, inBlk_whole3, inBlk_whole4, inBlk_whole5]

/-- The kernel program ends with the score of every batch element in its result buffer: the output blocks tile the output array and each holds the three layers of the rows gathered there. -/
theorem run (hpre : Pre m) :
    θ_run (defs (F := Ideal)) (onTc (τ := τ) (main (F := Ideal))) ⟨m, fun _ => 0, ρ⟩ (fun r => ∀ c : Dev nD,
      r.2.mem ((c.tc : Thread nD τ).loc main_v34) = result m c
      ∧ ArgsKept m c r.2) :=
  (θ_run (defs (F := Ideal)) _ _).mono (fun r h c => ⟨((h c).1.trans (out34_eq m ρ c)).trans
      ((congrArg (fun X : S16384x1.Idx → Elt Ideal .f32 => shapeCast S16384 X shapeCasts_S16384x1_S16384)
          (arrAt_eq_scores_of_outBlock (V m ρ c main_v30 : FVec Ideal S150000x100 .f32) (V m ρ c main_arg5 : IVec S16384 32) (V m ρ c main_v32 : IVec S16384 32) (V m ρ c main_arg7 : FVec Ideal S200x64 .f32) (V m ρ c main_arg8 : FVec Ideal S64 .f32) (V m ρ c main_arg9 : FVec Ideal S64x32 .f32) (V m ρ c main_arg10 : FVec Ideal S32 .f32) (V m ρ c main_arg11 : FVec Ideal S32x1 .f32) (V m ρ c main_arg12 : FVec Ideal S1 .f32) (adm m ρ 0) c (dats m ρ 0 c) (after_out_whole m ρ c))).trans
        ((scores_cast _ _ _ _ _ _ _ _ _ shapeCasts_S16384x1_S16384).trans (scores_eq_result m ρ c))),
      (h c).2⟩)
    (run_pre m ρ hpre)

end Cert.Proof.KernelIdealValue

end
-- ==== Proof.RefRunValue.lean ====
import proofs.«421944_j3513283248500_1_alg».proof.Proof.RefRun
import proofs.«421944_j3513283248500_1_alg».proof.Proof.RefValue

noncomputable section

namespace Cert.RefValue

open Cert.ReferenceIdeal Cert.ReferenceIdeal.Gen Cert.RefRead Idealize.ShloMosaic Idealize.ShloMosaic.TcCoe
  Idealize.SL.Sem Idealize.ShloMosaic.ValueIdx

section Run

def refScores (a0 : FVec Ideal S100000x100 .f32) (a1 : FVec Ideal S50000x100 .f32) (a2 a3 : IVec S2000000 32)
    (a4 : FVec Ideal S2000000 .f32) (a5 a6 : IVec S16384 32) (a7 : FVec Ideal S200x64 .f32) (a8 : FVec Ideal S64 .f32)
    (a9 : FVec Ideal S64x32 .f32) (a10 : FVec Ideal S32 .f32) (a11 : FVec Ideal S32x1 .f32) (a12 : FVec Ideal S1 .f32) :
    FVec Ideal S16384 .f32 :=
  fun j => Cert.Spec.score (refFinal a0 a1 a2 a3 a4) (fun b => Cert.Spec.rowOf (a5 (ix1 b)))
    (fun b => Cert.Spec.rowOf (a6 (ix1 b) + 100000#32))
    (fun i j => a7 (ix2 i j)) (fun j => a8 (ix1 j)) (fun j k => a9 (ix2 j k)) (fun k => a10 (ix1 k))
    (fun k => a11 (ix2 k 0)) (a12 (ix1 0)) (j 0)

def UserInRange (a5 : IVec S16384 32) : Prop := ∀ k, (a5 k).toNat < 150000

def ItemInRange (a6 : IVec S16384 32) : Prop := ∀ k, (a6 k + 100000#32).toNat < 150000

set_option maxRecDepth 8192 in
theorem ref_run (m' : (ℓ : Loc nD τ sig) → Buf (Elt Ideal) ℓ) (ρ' : Dev nD → PrngReg)
    (hU : ∀ c : Dev nD, UserInRange (m' ((c.tc : Thread nD τ).loc main_arg5)))
    (hI : ∀ c : Dev nD, ItemInRange (m' ((c.tc : Thread nD τ).loc main_arg6))) :
    θ_run defs (onTc (τ := τ) (main (F := Ideal))) ⟨m', fun _ => 0, ρ'⟩ fun r => ∀ c : Dev nD,
      r.2.mem ((c.tc : Thread nD τ).loc main_v61)
        = refScores (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (m' ((c.tc : Thread nD τ).loc main_arg5))
            (m' ((c.tc : Thread nD τ).loc main_arg6)) (m' ((c.tc : Thread nD τ).loc main_arg7))
            (m' ((c.tc : Thread nD τ).loc main_arg8)) (m' ((c.tc : Thread nD τ).loc main_arg9))
            (m' ((c.tc : Thread nD τ).loc main_arg10)) (m' ((c.tc : Thread nD τ).loc main_arg11))
            (m' ((c.tc : Thread nD τ).loc main_arg12))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12) :=
  (θ_run defs _ _).mono (fun _ h c =>
      ⟨(h c).1.trans (ref_result _ _ _ _ _ _ _ _ _ _ _ _ _ (hU c) (hI c)), (h c).2⟩)
    (Cert.RefRun.run (F := Ideal) m' ρ')

end Run

end Cert.RefValue

end
-- ==== Proof.lean ====
/- Both programs average three embedding tables into one mean table, read for each batch element the row its user
   index names and the row its item index names, and apply three dense layers to the two rows side by side; at exact
   arithmetic the order in which a contraction adds its products does not matter, so the two results are one function
   of the thirteen arguments. -/
import proofs.«421944_j3513283248500_1_alg».proof.Defs
import proofs.«421944_j3513283248500_1_alg».proof.Proof.Gen.Kernel
import proofs.«421944_j3513283248500_1_alg».proof.Proof.Gen.KernelIdeal
import proofs.«421944_j3513283248500_1_alg».proof.Proof.Gen.ReferenceIdeal
import proofs.«421944_j3513283248500_1_alg».proof.Proof.Gen.Pre_finite_inputs
import proofs.«421944_j3513283248500_1_alg».proof.Proof.KernelFrame
import proofs.«421944_j3513283248500_1_alg».proof.Proof.KernelIdealValue
import proofs.«421944_j3513283248500_1_alg».proof.Proof.RefRunValue
import proofs.«421944_j3513283248500_1_alg».proof.Proof.PreIdx

noncomputable section

namespace Cert.Proof

open Idealize.ShloMosaic Idealize.ShloMosaic.TcCoe Idealize.SL.Sem

theorem frame_k : Cert.frame_Kernel := fun m g hpre => Cert.Proof.KernelFrame.frame (F := Bits) m g hpre

theorem frame_ki : Cert.frame_KernelIdeal := fun m g hpre => Cert.Proof.KernelIdealFrame.frame (F := Ideal) m g hpre

theorem frame_ri : Cert.frame_ReferenceIdeal := fun m g _ =>
  (θ_run Cert.ReferenceIdeal.defs _ _).mono (fun _ h c => (h c).2) (Cert.RefRun.run (F := Ideal) m g)

theorem preserves : Cert.preserves_Kernel_KernelIdeal := trivial

/-- Both programs end with the score of every batch element, one function of the arguments: the mean tables are the same operations on the same operands, and both read the same two rows and apply the same layers. -/
theorem algebraic : Cert.algebraic_KernelIdeal_ReferenceIdeal := by
  intro m g m' g' hpre hagree
  refine ⟨fun c => Cert.Proof.KernelIdealValue.result m c, Cert.Proof.KernelIdealValue.run m g hpre, ?_⟩
  have hU' : ∀ c : Dev Cert.ReferenceIdeal.nD, Cert.RefValue.UserInRange
      (m' ((c.tc : Thread Cert.ReferenceIdeal.nD Cert.ReferenceIdeal.τ).loc Cert.ReferenceIdeal.main_arg5)) := fun c => by
    have e := (hagree c).2.2.2.2.2.1
    rw [e]
    exact Cert.PreIdx.user_lt (hpre c)
  have hI' : ∀ c : Dev Cert.ReferenceIdeal.nD, Cert.RefValue.ItemInRange
      (m' ((c.tc : Thread Cert.ReferenceIdeal.nD Cert.ReferenceIdeal.τ).loc Cert.ReferenceIdeal.main_arg6)) := fun c => by
    have e := (hagree c).2.2.2.2.2.2.1
    rw [e]
    exact Cert.PreIdx.item_lt (hpre c)
  refine (θ_run Cert.ReferenceIdeal.defs _ _).mono (fun _ h c => ⟨(h c).1.trans ?_, (h c).2⟩)
    (Cert.RefValue.ref_run m' g' hU' hI')
  obtain ⟨h0, h1, h2, h3, h4, h5, h6, h7, h8, h9, h10, h11, h12⟩ := hagree c
  rw [h0, h1, h2, h3, h4, h5, h6, h7, h8, h9, h10, h11, h12]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
